-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S262144 : Shape := ⟨1, ![262144]⟩
abbrev S256 : Shape := ⟨1, ![256]⟩
abbrev S40x256 : Shape := ⟨2, ![40, 256]⟩
abbrev S40 : Shape := ⟨1, ![40]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S262144 : S_.BroadcastsInDim S262144 (![] : Fin 0 → Fin S262144.rank)
  reducesTo_S262144_S_d0 : S262144.ReducesTo [0] S_
  bcast_S_S256 : S_.BroadcastsInDim S256 (![] : Fin 0 → Fin S256.rank)
  reducesTo_S256_S_d0 : S256.ReducesTo [0] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v45 : IVec S_ 1) (main_v50 : IVec S262144 1) : IVec S_ 1 :=
  let main_c_19 : IVec S_ 1 := constantI S_ 1 1#1
  let main_v51 : IVec S_ 1 := (fun x v => Host.reduce IntOp.andi x v reducesTo_S262144_S_d0 h_S_) main_v50 main_c_19
  let main_v52 : IVec S_ 1 := andi main_v45 main_v51
  main_v52

def fn_part2 {F : FTy → Type} [FloatOps F] (main_arg1 : IVec S262144 32) (main_arg2 : IVec S262144 32) (main_arg9 : FVec F S40 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  let main_c_14 : IVec S_ 32 := constantI S_ 32 0#32
  let main_v39 : IVec S262144 32 := broadcastInDim S262144 ![] bcast_S_S262144 main_c_14
  let main_v40 : IVec S262144 1 := cmpi .sge main_arg1 main_v39
  let main_c_15 : IVec S_ 32 := constantI S_ 32 8192#32
  let main_v41 : IVec S262144 32 := broadcastInDim S262144 ![] bcast_S_S262144 main_c_15
  let main_v42 : IVec S262144 1 := cmpi .slt main_arg1 main_v41
  let main_v43 : IVec S262144 1 := andi main_v40 main_v42
  let main_c_16 : IVec S_ 1 := constantI S_ 1 1#1
  let main_v44 : IVec S_ 1 := (fun x v => Host.reduce IntOp.andi x v reducesTo_S262144_S_d0 h_S_) main_v43 main_c_16
  let main_v45 : IVec S_ 1 := andi main_v38 main_v44
  let main_c_17 : IVec S_ 32 := constantI S_ 32 0#32
  let main_v46 : IVec S262144 32 := broadcastInDim S262144 ![] bcast_S_S262144 main_c_17
  let main_v47 : IVec S262144 1 := cmpi .sge main_arg2 main_v46
  let main_c_18 : IVec S_ 32 := constantI S_ 32 8192#32
  let main_v48 : IVec S262144 32 := broadcastInDim S262144 ![] bcast_S_S262144 main_c_18
  let main_v49 : IVec S262144 1 := cmpi .slt main_arg2 main_v48
  let main_v50 : IVec S262144 1 := andi main_v47 main_v49
  fn_part3 (F := F) main_v45 main_v50

def fn_part1 {F : FTy → Type} [FloatOps F] (main_arg1 : IVec S262144 32) (main_arg2 : IVec S262144 32) (main_arg6 : FVec F S256 .f32) (main_arg7 : FVec F S256 .f32) (main_arg8 : FVec F S40x256 .f32) (main_arg9 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S40x256 .f32 := Host.absf main_arg8
  let main_cst_10 : FVec F S_ .f32 := constant S_ .f32 0x7F800000#32
  let main_v30 : FVec F S40x256 .f32 := broadcastInDim S40x256 ![] bcast_S_S40x256 main_cst_10
  let main_v31 : IVec S40x256 1 := cmpf .olt main_v29 main_v30
  let main_c_11 : IVec S_ 1 := constantI S_ 1 1#1
  let main_v32 : IVec S_ 1 := (fun x v => Host.reduce IntOp.andi x v reducesTo_S40x256_S_d0_1 h_S_) main_v31 main_c_11
  let main_v33 : IVec S_ 1 := andi main_v28 main_v32
  fn_part2 (F := F) main_arg1 main_arg2 main_arg9 main_v33

def fn {F : FTy → Type} [FloatOps F] (main_arg0 : FVec F S8192x256 .f32) (main_arg1 : IVec S262144 32) (main_arg2 : IVec S262144 32) (main_arg3 : FVec F S262144 .f32) (main_arg4 : FVec F S256 .f32) (main_arg5 : FVec F S256 .f32) (main_arg6 : FVec F S256 .f32) (main_arg7 : FVec F S256 .f32) (main_arg8 : FVec F S40x256 .f32) (main_arg9 : FVec F S40 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg2 main_arg6 main_arg7 main_arg8 main_arg9 main_v13 main_v16
-- ==== Kernel.lean ====
abbrev S8192x256 : Shape := ⟨2, ![8192, 256]⟩
abbrev S262144 : Shape := ⟨1, ![262144]⟩
abbrev S256 : Shape := ⟨1, ![256]⟩
abbrev S40x256 : Shape := ⟨2, ![40, 256]⟩
abbrev S40 : Shape := ⟨1, ![40]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S2048x256 : Shape := ⟨2, ![2048, 256]⟩
abbrev S2048 : Shape := ⟨1, ![2048]⟩
abbrev S2048x1 : Shape := ⟨2, ![2048, 1]⟩
abbrev S1x256 : Shape := ⟨2, ![1, 256]⟩
abbrev S512x256 : Shape := ⟨2, ![512, 256]⟩
abbrev S512x1 : Shape := ⟨2, ![512, 1]⟩
abbrev S1024x256 : Shape := ⟨2, ![1024, 256]⟩
abbrev S256x1024 : Shape := ⟨2, ![256, 1024]⟩
abbrev S512x1024 : Shape := ⟨2, ![512, 1024]⟩
abbrev S512 : Shape := ⟨1, ![512]⟩
abbrev S1024x4096 : Shape := ⟨2, ![1024, 4096]⟩
abbrev S4096x256 : Shape := ⟨2, ![4096, 256]⟩
abbrev S256x40 : Shape := ⟨2, ![256, 40]⟩
abbrev S8192x40 : Shape := ⟨2, ![8192, 40]⟩
abbrev S1x40 : Shape := ⟨2, ![1, 40]⟩

abbrev nBuf : Space → Nat
  | .hbm => 56
  | .vmem => 62
  | .smem => 0
  | _ => 0

abbrev bufTy : (tb : Table) → Fin (tcTables nBuf tb) → BufTy
  | .hbm, ⟨0, _⟩ => ⟨S8192x256, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S40x256, .f32⟩
  | .hbm, ⟨9, _⟩ => ⟨S40, .f32⟩
  | .hbm, ⟨10, _⟩ => ⟨S_, .f32⟩
  | .hbm, ⟨11, _⟩ => ⟨S8192x8192, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x1, .i32⟩
  | .hbm, ⟨28, _⟩ => ⟨S262144x2, .i32⟩
  | .hbm, ⟨29, _⟩ => ⟨S8192x8192, .f32⟩
  | .hbm, ⟨30, _⟩ => ⟨S8192x8192, .bf16⟩
  | .hbm, ⟨31, _⟩ => ⟨S8192x256, .bf16⟩
  | .hbm, ⟨32, _⟩ => ⟨S8192x256, .bf16⟩
  | .hbm, ⟨33, _⟩ => ⟨S1x256, .f32⟩
  | .hbm, ⟨34, _⟩ => ⟨S1x256, .f32⟩
  | .hbm, ⟨35, _⟩ => ⟨S8192x256, .f32⟩
  | .hbm, ⟨36, _⟩ => ⟨S8192x256, .bf16⟩
  | .hbm, ⟨37, _⟩ => ⟨S8192x256, .f32⟩
  | .hbm, ⟨38, _⟩ => ⟨S8192x256, .bf16⟩
  | .hbm, ⟨39, _⟩ => ⟨S8192x256, .bf16⟩
  | .hbm, ⟨40, _⟩ => ⟨S1x256, .f32⟩
  | .hbm, ⟨41, _⟩ => ⟨S1x256, .f32⟩
  | .hbm, ⟨42, _⟩ => ⟨S8192x256, .f32⟩
  | .hbm, ⟨43, _⟩ => ⟨S8192x256, .bf16⟩
  | .hbm, ⟨44, _⟩ => ⟨S8192x256, .f32⟩
  | .hbm, ⟨45, _⟩ => ⟨S8192x256, .bf16⟩
  | .hbm, ⟨46, _⟩ => ⟨S8192x256, .bf16⟩
  | .hbm, ⟨47, _⟩ => ⟨S1x256, .f32⟩
  | .hbm, ⟨48, _⟩ => ⟨S1x256, .f32⟩
  | .hbm, ⟨49, _⟩ => ⟨S8192x256, .f32⟩
  | .hbm, ⟨50, _⟩ => ⟨S8192x256, .bf16⟩
  | .hbm, ⟨51, _⟩ => ⟨S256x40, .f32⟩
  | .hbm, ⟨52, _⟩ => ⟨S8192x40, .f32⟩
  | .hbm, ⟨53, _⟩ => ⟨S1x40, .f32⟩
  | .hbm, ⟨54, _⟩ => ⟨S8192x40, .f32⟩
  | .hbm, ⟨55, _⟩ => ⟨S8192x40, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S8192x256, .bf16⟩
  | .local _ .vmem, ⟨7, _⟩ => ⟨S8192x256, .bf16⟩
  | .local _ .vmem, ⟨8, _⟩ => ⟨S512x256, .f32⟩
  | .local _ .vmem, ⟨9, _⟩ => ⟨S512x256, .f32⟩
  | .local _ .vmem, ⟨10, _⟩ => ⟨S1x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | .local _ .vmem, ⟨14, _⟩ => ⟨S512x256, .bf16⟩
  | .local _ .vmem, ⟨15, _⟩ => ⟨S512x256, .bf16⟩
  | .local _ .vmem, ⟨16, _⟩ => ⟨S1024x4096, .bf16⟩
  | .local _ .vmem, ⟨17, _⟩ => ⟨S1024x4096, .bf16⟩
  | .local _ .vmem, ⟨18, _⟩ => ⟨S4096x256, .bf16⟩
  | .local _ .vmem, ⟨19, _⟩ => ⟨S4096x256, .bf16⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S2048x256, .f32⟩
  | .local _ .vmem, ⟨24, _⟩ => ⟨S2048x256, .f32⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S8192x256, .bf16⟩
  | .local _ .vmem, ⟨30, _⟩ => ⟨S8192x256, .bf16⟩
  | .local _ .vmem, ⟨31, _⟩ => ⟨S512x256, .f32⟩
  | .local _ .vmem, ⟨32, _⟩ => ⟨S512x256, .f32⟩
  | .local _ .vmem, ⟨33, _⟩ => ⟨S1x256, .f32⟩
  | .local _ .vmem, ⟨34, _⟩ => ⟨S1x256, .f32⟩
  | .local _ .vmem, ⟨35, _⟩ => ⟨S512x256, .f32⟩
  | .local _ .vmem, ⟨36, _⟩ => ⟨S512x256, .f32⟩
  | .local _ .vmem, ⟨37, _⟩ => ⟨S512x256, .bf16⟩
  | .local _ .vmem, ⟨38, _⟩ => ⟨S512x256, .bf16⟩
  | .local _ .vmem, ⟨39, _⟩ => ⟨S1024x4096, .bf16⟩
  | .local _ .vmem, ⟨40, _⟩ => ⟨S1024x4096, .bf16⟩
  | .local _ .vmem, ⟨41, _⟩ => ⟨S4096x256, .bf16⟩
  | .local _ .vmem, ⟨42, _⟩ => ⟨S4096x256, .bf16⟩
  | .local _ .vmem, ⟨43, _⟩ => ⟨S1024x256, .f32⟩
  | .local _ .vmem, ⟨44, _⟩ => ⟨S1024x256, .f32⟩
  | .local _ .vmem, ⟨45, _⟩ => ⟨S1024x256, .f32⟩
  | .local _ .vmem, ⟨46, _⟩ => ⟨S2048x256, .f32⟩
  | .local _ .vmem, ⟨47, _⟩ => ⟨S2048x256, .f32⟩
  | .local _ .vmem, ⟨48, _⟩ => ⟨S2048x256, .bf16⟩
  | .local _ .vmem, ⟨49, _⟩ => ⟨S2048x256, .bf16⟩
  | .local _ .vmem, ⟨50, _⟩ => ⟨S2048x256, .bf16⟩
  | .local _ .vmem, ⟨51, _⟩ => ⟨S2048x256, .bf16⟩
  | .local _ .vmem, ⟨52, _⟩ => ⟨S8192x256, .bf16⟩
  | .local _ .vmem, ⟨53, _⟩ => ⟨S8192x256, .bf16⟩
  | .local _ .vmem, ⟨54, _⟩ => ⟨S512x256, .f32⟩
  | .local _ .vmem, ⟨55, _⟩ => ⟨S512x256, .f32⟩
  | .local _ .vmem, ⟨56, _⟩ => ⟨S1x256, .f32⟩
  | .local _ .vmem, ⟨57, _⟩ => ⟨S1x256, .f32⟩
  | .local _ .vmem, ⟨58, _⟩ => ⟨S512x256, .f32⟩
  | .local _ .vmem, ⟨59, _⟩ => ⟨S512x256, .f32⟩
  | .local _ .vmem, ⟨60, _⟩ => ⟨S512x256, .bf16⟩
  | .local _ .vmem, ⟨61, _⟩ => ⟨S512x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_v27 : Ref sig .tc := ⟨.hbm, 47, rfl⟩
abbrev main_v28 : Ref sig .tc := ⟨.hbm, 48, rfl⟩
abbrev main_v29_0 : Ref sig .tc := ⟨.hbm, 49, rfl⟩
abbrev main_v29_1 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc4_stg6_0 : Ref sig .tc := ⟨.vmem, 37, rfl⟩
abbrev cc4_stg6_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_scratch0 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc7_stg0_0 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg5_1 : Ref sig .tc := ⟨.vmem, 59, rfl⟩
abbrev cc7_stg6_0 : Ref sig .tc := ⟨.vmem, 60, rfl⟩
abbrev cc7_stg6_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem1_0 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem5_0 : DmaSem sig := 34
abbrev cc4_sem5_1 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc7_sem0_0 : DmaSem sig := 50
abbrev cc7_sem1_0 : DmaSem sig := 51
abbrev cc7_sem2_0 : DmaSem sig := 52
abbrev cc7_sem2_1 : DmaSem sig := 53
abbrev cc7_sem3_0 : DmaSem sig := 54
abbrev cc7_sem4_0 : DmaSem sig := 55
abbrev cc7_sem5_0 : DmaSem sig := 56
abbrev cc7_sem5_1 : DmaSem sig := 57
abbrev cc7_sem6_0 : DmaSem sig := 58
abbrev cc7_sem6_1 : DmaSem sig := 59

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def k1_mult1 (i : grid1.Coords) : BitVec 32 :=
  let arg0 : BitVec 32 := BitVec.ofNat 32 (i 0).val
  let c512_i32 : BitVec 32 := 512#32
  let v0 : BitVec 32 := Scalar.muli arg0 c512_i32
  v0
def k1_off1 (i : grid1.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
@[reducible] def k1_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k1_mult2 (k1_t1 : Fin k1_t1_loop.trips) : BitVec 32 :=
  let c0_i32 : BitVec 32 := 0#32
  let c1_i32 : BitVec 32 := 1#32
  let arg8 : BitVec 32 := Scf.iv c0_i32 c1_i32 k1_t1
  let c1024_i32 : BitVec 32 := 1024#32
  let v46 : BitVec 32 := Scalar.muli arg8 c1024_i32
  v46
def k1_off2 (k1_t1 : Fin k1_t1_loop.trips) : Fin 2 → Nat :=
  let c0_i32 : BitVec 32 := 0#32
  let c1_i32 : BitVec 32 := 1#32
  let arg8 : BitVec 32 := Scf.iv c0_i32 c1_i32 k1_t1
  let c1024_i32 : BitVec 32 := 1024#32
  let v46 : BitVec 32 := Scalar.muli arg8 c1024_i32
  let v47 : BitVec 32 := v46
  let v48 : Index := Scalar.indexCast v47
  let c0_19 : Index := 0#32
  ![v48.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8192x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![8, 2], ![false, false]⟩

def k2_cond2 (i : grid2.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16], ![false]⟩

def k4_mult1 (i : grid4.Coords) : BitVec 32 :=
  let arg0 : BitVec 32 := BitVec.ofNat 32 (i 0).val
  let c512_i32 : BitVec 32 := 512#32
  let v0 : BitVec 32 := Scalar.muli arg0 c512_i32
  v0
def k4_off1 (i : grid4.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
@[reducible] def k4_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k4_mult2 (k4_t1 : Fin k4_t1_loop.trips) : BitVec 32 :=
  let c0_i32 : BitVec 32 := 0#32
  let c1_i32 : BitVec 32 := 1#32
  let arg8 : BitVec 32 := Scf.iv c0_i32 c1_i32 k4_t1
  let c1024_i32 : BitVec 32 := 1024#32
  let v47 : BitVec 32 := Scalar.muli arg8 c1024_i32
  v47
def k4_off2 (k4_t1 : Fin k4_t1_loop.trips) : Fin 2 → Nat :=
  let c0_i32 : BitVec 32 := 0#32
  let c1_i32 : BitVec 32 := 1#32
  let arg8 : BitVec 32 := Scf.iv c0_i32 c1_i32 k4_t1
  let c1024_i32 : BitVec 32 := 1024#32
  let v47 : BitVec 32 := Scalar.muli arg8 c1024_i32
  let v48 : BitVec 32 := v47
  let v49 : Index := Scalar.indexCast v48
  let c0_19 : Index := 0#32
  ![v49.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S8192x256 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S8192x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨2, ![8, 2], ![false, false]⟩

def k5_cond2 (i : grid5.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S4096x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2048x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![16], ![false]⟩

def k7_mult1 (i : grid7.Coords) : BitVec 32 :=
  let arg0 : BitVec 32 := BitVec.ofNat 32 (i 0).val
  let c512_i32 : BitVec 32 := 512#32
  let v0 : BitVec 32 := Scalar.muli arg0 c512_i32
  v0
def k7_off1 (i : grid7.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
@[reducible] def k7_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k7_mult2 (k7_t1 : Fin k7_t1_loop.trips) : BitVec 32 :=
  let c0_i32 : BitVec 32 := 0#32
  let c1_i32 : BitVec 32 := 1#32
  let arg8 : BitVec 32 := Scf.iv c0_i32 c1_i32 k7_t1
  let c1024_i32 : BitVec 32 := 1024#32
  let v47 : BitVec 32 := Scalar.muli arg8 c1024_i32
  v47
def k7_off2 (k7_t1 : Fin k7_t1_loop.trips) : Fin 2 → Nat :=
  let c0_i32 : BitVec 32 := 0#32
  let c1_i32 : BitVec 32 := 1#32
  let arg8 : BitVec 32 := Scf.iv c0_i32 c1_i32 k7_t1
  let c1024_i32 : BitVec 32 := 1024#32
  let v47 : BitVec 32 := Scalar.muli arg8 c1024_i32
  let v48 : BitVec 32 := v47
  let v49 : Index := Scalar.indexCast v48
  let c0_19 : Index := 0#32
  ![v49.toNat, 0]
def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S8192x256 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S8192x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S512x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S512x256 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  packedbf16_S2048x256_S2048x256_0_0 : (Rect.unit (s := S2048x256) ![0, 0] S2048x256.size inb_S2048x256_S2048x256_0_0).PackedRows (EltTy.packing .bf16)
  shapeCasts_S256_S1x256 : S256.ShapeCasts S1x256
  h_S512x256 : 0 < S512x256.numel
  shapeCasts_S512x256_S512x256 : S512x256.ShapeCasts S512x256
  inb_S512x256_S512x256_0_0 : ∀ a, (![0, 0] : Fin 2 → Nat) a + S512x256.size a ≤ S512x256.size a
  h_S1024x256 : 0 < S1024x256.numel
  shapeCasts_S1024x256_S1024x256 : S1024x256.ShapeCasts S1024x256
  transposes_S1024x256_p1_0_S256x1024 : S1024x256.Transposes [1, 0] S256x1024
  reduces_S512x1024_S512 : S512x1024.Reduces [1] S512
  shapeCasts_S512_S512x1 : S512.ShapeCasts S512x1
  broadcasts_S512x1_S512x256 : S512x1.Broadcasts S512x256
  reduces_S512x256_S512 : S512x256.Reduces [1] S512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  packedbf16_S512x256_S512x256_0_0 : (Rect.unit (s := S512x256) ![0, 0] S512x256.size inb_S512x256_S512x256_0_0).PackedRows (EltTy.packing .bf16)
  inb_S1024x256_S1024x256_0_0 : ∀ a, (![0, 0] : Fin 2 → Nat) a + S1024x256.size a ≤ S1024x256.size a
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S2048x256_S2048x256 : S2048x256.ShapeCasts S2048x256
  transposes_S40x256_S256x40_1_0 : S40x256.Transposes [1, 0] S256x40
  bcast_S40_S1x40_1 : S40.BroadcastsInDim S1x40 (![1] : Fin 1 → Fin S1x40.rank)
  bcast_S1x40_S8192x40_0_1 : S1x40.BroadcastsInDim S8192x40 (![0, 1] : Fin 2 → Fin S8192x40.rank)
  scatter_S8192x8192_S262144x2_S262144_n_01_01_1_wf : ScatterDims.WF S8192x8192 S262144x2 S262144 [] [0, 1] [0, 1] 1
  dot_S512x256_S256x1024_S512x1024_1_0_0_1_n_n_wf : DotDims.WF S512x256 S256x1024 S512x1024 [1] [0] [0] [1] [] []
  dot_S512x1024_S1024x256_S512x256_1_0_0_1_n_n_wf : DotDims.WF S512x1024 S1024x256 S512x256 [1] [0] [0] [1] [] []
  dot_S1024x4096_S4096x256_S1024x256_1_0_0_1_n_n_wf : DotDims.WF S1024x4096 S4096x256 S1024x256 [1] [0] [0] [1] [] []
  dot_S8192x256_S256x40_S8192x40_1_0_0_1_n_n_wf : DotDims.WF S8192x256 S256x40 S8192x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x256.size a ≤ S8192x256.size a
  k1_t1_ok : k1_t1_loop.OK
  k1_mult2_dvd : ∀ k1_t1 : Fin k1_t1_loop.trips, 1024 ∣ (k1_mult2 k1_t1).toNat
  k1_off2_inb : ∀ k1_t1 : Fin k1_t1_loop.trips, ∀ a, (k1_off2 k1_t1) a + S1024x256.size a ≤ S8192x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .bf16 = 32 ∨ (Rect.block (s := S8192x256) S8192x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x256.size a
  hwx1_2 : ∀ i : grid1.Coords, EltTy.bits .f32 = 32 ∨ (Rect.block (s := S8192x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S8192x256.size a
  hwx1_5 : ∀ i : grid1.Coords, EltTy.bits .f32 = 32 ∨ (Rect.block (s := S8192x256) S512x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S8192x256.size a
  hwx1_6 : ∀ i : grid1.Coords, EltTy.bits .bf16 = 32 ∨ (Rect.block (s := S8192x256) S512x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x8192.size a
  hwx2_0 : ∀ i : grid2.Coords, EltTy.bits .bf16 = 32 ∨ (Rect.block (s := S8192x8192) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S8192x256.size a
  hwx2_1 : ∀ i : grid2.Coords, EltTy.bits .bf16 = 32 ∨ (Rect.block (s := S8192x256) S4096x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S8192x256.size a
  hwx3_0 : ∀ i : grid3.Coords, EltTy.bits .f32 = 32 ∨ (Rect.block (s := S8192x256) S2048x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S8192x256.size a
  hwx3_1 : ∀ i : grid3.Coords, EltTy.bits .bf16 = 32 ∨ (Rect.block (s := S8192x256) S2048x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S8192x256.size a
  hwx3_2 : ∀ i : grid3.Coords, EltTy.bits .bf16 = 32 ∨ (Rect.block (s := S8192x256) S2048x256.size (cc3_transform_2 i) (hinb3_2 i)).WholeWords (EltTy.packing .bf16)
  hrank4 : 0 < grid4.rank
  k4_mult1_dvd : ∀ i : grid4.Coords, 512 ∣ (k4_mult1 i).toNat
  k4_off1_inb : ∀ i : grid4.Coords, ∀ a, (k4_off1 i) a + S512x256.size a ≤ S8192x256.size a
  k4_t1_ok : k4_t1_loop.OK
  k4_mult2_dvd : ∀ k4_t1 : Fin k4_t1_loop.trips, 1024 ∣ (k4_mult2 k4_t1).toNat
  k4_off2_inb : ∀ k4_t1 : Fin k4_t1_loop.trips, ∀ a, (k4_off2 k4_t1) a + S1024x256.size a ≤ S8192x256.size a
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S8192x256.size a ≤ S8192x256.size a
  hwx4_0 : ∀ i : grid4.Coords, EltTy.bits .bf16 = 32 ∨ (Rect.block (s := S8192x256) S8192x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x256.size a ≤ S8192x256.size a
  hwx4_1 : ∀ i : grid4.Coords, EltTy.bits .bf16 = 32 ∨ (Rect.block (s := S8192x256) S8192x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x256.size a ≤ S8192x256.size a
  hwx4_2 : ∀ i : grid4.Coords, EltTy.bits .f32 = 32 ∨ (Rect.block (s := S8192x256) S512x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x256.size a ≤ S8192x256.size a
  hwx4_5 : ∀ i : grid4.Coords, EltTy.bits .f32 = 32 ∨ (Rect.block (s := S8192x256) S512x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S512x256.size a ≤ S8192x256.size a
  hwx4_6 : ∀ i : grid4.Coords, EltTy.bits .bf16 = 32 ∨ (Rect.block (s := S8192x256) S512x256.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x4096.size a ≤ S8192x8192.size a
  hwx5_0 : ∀ i : grid5.Coords, EltTy.bits .bf16 = 32 ∨ (Rect.block (s := S8192x8192) S1024x4096.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x256.size a ≤ S8192x256.size a
  hwx5_1 : ∀ i : grid5.Coords, EltTy.bits .bf16 = 32 ∨ (Rect.block (s := S8192x256) S4096x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x256.size a ≤ S8192x256.size a
  hwx5_2 : ∀ i : grid5.Coords, EltTy.bits .f32 = 32 ∨ (Rect.block (s := S8192x256) S1024x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S8192x256.size a
  hwx6_0 : ∀ i : grid6.Coords, EltTy.bits .f32 = 32 ∨ (Rect.block (s := S8192x256) S2048x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x256.size a ≤ S8192x256.size a
  hwx6_1 : ∀ i : grid6.Coords, EltTy.bits .bf16 = 32 ∨ (Rect.block (s := S8192x256) S2048x256.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x256.size a ≤ S8192x256.size a
  hwx6_2 : ∀ i : grid6.Coords, EltTy.bits .bf16 = 32 ∨ (Rect.block (s := S8192x256) S2048x256.size (cc6_transform_2 i) (hinb6_2 i)).WholeWords (EltTy.packing .bf16)
  hrank7 : 0 < grid7.rank
  k7_mult1_dvd : ∀ i : grid7.Coords, 512 ∣ (k7_mult1 i).toNat
  k7_off1_inb : ∀ i : grid7.Coords, ∀ a, (k7_off1 i) a + S512x256.size a ≤ S8192x256.size a
  k7_t1_ok : k7_t1_loop.OK
  k7_mult2_dvd : ∀ k7_t1 : Fin k7_t1_loop.trips, 1024 ∣ (k7_mult2 k7_t1).toNat
  k7_off2_inb : ∀ k7_t1 : Fin k7_t1_loop.trips, ∀ a, (k7_off2 k7_t1) a + S1024x256.size a ≤ S8192x256.size a
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S8192x256.size a ≤ S8192x256.size a
  hwx7_0 : ∀ i : grid7.Coords, EltTy.bits .bf16 = 32 ∨ (Rect.block (s := S8192x256) S8192x256.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S8192x256.size a ≤ S8192x256.size a
  hwx7_1 : ∀ i : grid7.Coords, EltTy.bits .bf16 = 32 ∨ (Rect.block (s := S8192x256) S8192x256.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x256.size a ≤ S8192x256.size a
  hwx7_2 : ∀ i : grid7.Coords, EltTy.bits .f32 = 32 ∨ (Rect.block (s := S8192x256) S512x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S512x256.size a ≤ S8192x256.size a
  hwx7_5 : ∀ i : grid7.Coords, EltTy.bits .f32 = 32 ∨ (Rect.block (s := S8192x256) S512x256.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S512x256.size a ≤ S8192x256.size a
  hwx7_6 : ∀ i : grid7.Coords, EltTy.bits .bf16 = 32 ∨ (Rect.block (s := S8192x256) S512x256.size (cc7_transform_6 i) (hinb7_6 i)).WholeWords (EltTy.packing .bf16)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S8192x256_S256x40_S8192x40_1_0_0_1_n_n : DotDims S8192x256 S256x40 S8192x40 where
  lhsContracting := [1]
  rhsContracting := [0]
  lhsNonContracting := [0]
  rhsNonContracting := [1]
  lhsBatch := []
  rhsBatch := []
  wf := dot_S8192x256_S256x40_S8192x40_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16_0) S2048x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16_1) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16_0) S8192x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v16_1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19_0) S512x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19_1) S512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19_1) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v20) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21_0) S2048x256.size cc3_transform_1 reads3_1 true false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21_1) S2048x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v21_0) S8192x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v21_1) S8192x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v20) S512x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v22) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v23) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v24_0) S512x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v24_1) S512x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v15) S1024x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24_1) S4096x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v25) S1024x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v25) S2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v26_0) S2048x256.size cc6_transform_1 reads6_1 true false 2 stage6_1 sem6_1
    hrank6 hreads6_1 hinb6_1 nbuf6_1 (Memref.isWhole_whole _) hwx6_1 hstage6_1

abbrev win6_2 : Pipeline.Window sig grid6 :=
  Pipeline.Window.ofSpec (Memref.whole main_v26_1) S2048x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v26_0) S8192x256.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v26_1) S8192x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v25) S512x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v27) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v28) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v29_0) S512x256.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v29_1) S512x256.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S8192x256 : Shape := ⟨2, ![8192, 256]⟩
abbrev S262144 : Shape := ⟨1, ![262144]⟩
abbrev S256 : Shape := ⟨1, ![256]⟩
abbrev S40x256 : Shape := ⟨2, ![40, 256]⟩
abbrev S40 : Shape := ⟨1, ![40]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S1x256 : Shape := ⟨2, ![1, 256]⟩
abbrev S262144x1 : Shape := ⟨2, ![262144, 1]⟩
abbrev S262144x256 : Shape := ⟨2, ![262144, 256]⟩
abbrev S256x40 : Shape := ⟨2, ![256, 40]⟩
abbrev S8192x40 : Shape := ⟨2, ![8192, 40]⟩
abbrev S1x40 : Shape := ⟨2, ![1, 40]⟩

abbrev nBuf : Space → Nat
  | .hbm => 245
  | .vmem => 0
  | .smem => 0
  | _ => 0

abbrev hbmTy0_0 (i : Nat) : BufTy := match i % 128 with
  | 0 => ⟨S8192x256, .f32⟩
  | 1 => ⟨S262144, .i32⟩
  | 2 => ⟨S262144, .i32⟩
  | 3 => ⟨S262144, .f32⟩
  | 4 => ⟨S256, .f32⟩
  | 5 => ⟨S256, .f32⟩
  | 6 => ⟨S256, .f32⟩
  | 7 => ⟨S256, .f32⟩
  | 8 => ⟨S40x256, .f32⟩
  | 9 => ⟨S40, .f32⟩
  | 10 => ⟨S8192x256, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x256, .f32⟩
  | 19 => ⟨S8192x256, .f32⟩
  | 20 => ⟨S256x8192, .f32⟩
  | 21 => ⟨S8192x8192, .f32⟩
  | 22 => ⟨S_, .f32⟩
  | 23 => ⟨S8192x8192, .f32⟩
  | 24 => ⟨S8192x8192, .f32⟩
  | 25 => ⟨S_, .f32⟩
  | 26 => ⟨S8192, .f32⟩
  | 27 => ⟨S_, .f32⟩
  | 28 => ⟨S8192, .f32⟩
  | 29 => ⟨S8192, .f32⟩
  | 30 => ⟨S8192x1, .f32⟩
  | 31 => ⟨S8192x8192, .f32⟩
  | 32 => ⟨S8192x8192, .f32⟩
  | 33 => ⟨S8192x8192, .f32⟩
  | 34 => ⟨S_, .f32⟩
  | 35 => ⟨S8192, .f32⟩
  | 36 => ⟨S8192x1, .f32⟩
  | 37 => ⟨S8192x8192, .f32⟩
  | 38 => ⟨S8192x8192, .f32⟩
  | 39 => ⟨S_, .f32⟩
  | 40 => ⟨S8192x256, .f32⟩
  | 41 => ⟨S8192x256, .f32⟩
  | 42 => ⟨S8192x256, .f32⟩
  | 43 => ⟨S_, .f32⟩
  | 44 => ⟨S8192x256, .f32⟩
  | 45 => ⟨S8192x256, .f32⟩
  | 46 => ⟨S8192x256, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x256, .f32⟩
  | 54 => ⟨S8192x256, .f32⟩
  | 55 => ⟨S8192x256, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S8192x256, .f32⟩
  | 63 => ⟨S8192x256, .f32⟩
  | 64 => ⟨S_, .f32⟩
  | 65 => ⟨S8192x1, .f32⟩
  | 66 => ⟨S8192x1, .f32⟩
  | 67 => ⟨S8192x1, .f32⟩
  | 68 => ⟨S8192x256, .f32⟩
  | 69 => ⟨S8192x256, .f32⟩
  | 70 => ⟨S1x256, .f32⟩
  | 71 => ⟨S8192x256, .f32⟩
  | 72 => ⟨S8192x256, .f32⟩
  | 73 => ⟨S1x256, .f32⟩
  | 74 => ⟨S8192x256, .f32⟩
  | 75 => ⟨S8192x256, .f32⟩
  | 76 => ⟨S262144x1, .f32⟩
  | 77 => ⟨S_, .i32⟩
  | 78 => ⟨S262144, .i32⟩
  | 79 => ⟨S262144, .i1⟩
  | 80 => ⟨S_, .i32⟩
  | 81 => ⟨S262144, .i32⟩
  | 82 => ⟨S262144, .i32⟩
  | 83 => ⟨S262144, .i32⟩
  | 84 => ⟨S262144x1, .i32⟩
  | 85 => ⟨S262144x256, .f32⟩
  | 86 => ⟨S262144x256, .f32⟩
  | 87 => ⟨S262144x256, .f32⟩
  | 88 => ⟨S_, .f32⟩
  | 89 => ⟨S8192x256, .f32⟩
  | 90 => ⟨S262144x1, .i32⟩
  | 91 => ⟨S8192x256, .f32⟩
  | 92 => ⟨S8192x256, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S8192x1, .f32⟩
  | 100 => ⟨S8192x256, .f32⟩
  | 101 => ⟨S8192x256, .f32⟩
  | 102 => ⟨S256x8192, .f32⟩
  | 103 => ⟨S8192x8192, .f32⟩
  | 104 => ⟨S_, .f32⟩
  | 105 => ⟨S8192x8192, .f32⟩
  | 106 => ⟨S8192x8192, .f32⟩
  | 107 => ⟨S_, .f32⟩
  | 108 => ⟨S8192, .f32⟩
  | 109 => ⟨S_, .f32⟩
  | 110 => ⟨S8192, .f32⟩
  | 111 => ⟨S8192, .f32⟩
  | 112 => ⟨S8192x1, .f32⟩
  | 113 => ⟨S8192x8192, .f32⟩
  | 114 => ⟨S8192x8192, .f32⟩
  | 115 => ⟨S8192x8192, .f32⟩
  | 116 => ⟨S_, .f32⟩
  | 117 => ⟨S8192, .f32⟩
  | 118 => ⟨S8192x1, .f32⟩
  | 119 => ⟨S8192x8192, .f32⟩
  | 120 => ⟨S8192x8192, .f32⟩
  | 121 => ⟨S_, .f32⟩
  | 122 => ⟨S8192x256, .f32⟩
  | 123 => ⟨S8192x256, .f32⟩
  | 124 => ⟨S8192x256, .f32⟩
  | 125 => ⟨S_, .f32⟩
  | 126 => ⟨S8192x256, .f32⟩
  | 127 => ⟨S8192x256, .f32⟩
  | _ => ⟨S8192x256, .f32⟩

abbrev hbmTy0_1 (i : Nat) : BufTy := match i % 128 with
  | 0 => ⟨S8192x256, .f32⟩
  | 1 => ⟨S_, .f32⟩
  | 2 => ⟨S8192, .f32⟩
  | 3 => ⟨S8192x1, .f32⟩
  | 4 => ⟨S_, .f32⟩
  | 5 => ⟨S8192x1, .f32⟩
  | 6 => ⟨S8192x1, .f32⟩
  | 7 => ⟨S8192x256, .f32⟩
  | 8 => ⟨S8192x256, .f32⟩
  | 9 => ⟨S8192x256, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S8192x256, .f32⟩
  | 17 => ⟨S8192x256, .f32⟩
  | 18 => ⟨S_, .f32⟩
  | 19 => ⟨S8192x1, .f32⟩
  | 20 => ⟨S8192x1, .f32⟩
  | 21 => ⟨S8192x1, .f32⟩
  | 22 => ⟨S8192x256, .f32⟩
  | 23 => ⟨S8192x256, .f32⟩
  | 24 => ⟨S1x256, .f32⟩
  | 25 => ⟨S8192x256, .f32⟩
  | 26 => ⟨S8192x256, .f32⟩
  | 27 => ⟨S1x256, .f32⟩
  | 28 => ⟨S8192x256, .f32⟩
  | 29 => ⟨S8192x256, .f32⟩
  | 30 => ⟨S262144x1, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x256, .f32⟩
  | 40 => ⟨S262144x256, .f32⟩
  | 41 => ⟨S262144x256, .f32⟩
  | 42 => ⟨S_, .f32⟩
  | 43 => ⟨S8192x256, .f32⟩
  | 44 => ⟨S262144x1, .i32⟩
  | 45 => ⟨S8192x256, .f32⟩
  | 46 => ⟨S8192x256, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x256, .f32⟩
  | 55 => ⟨S8192x256, .f32⟩
  | 56 => ⟨S256x8192, .f32⟩
  | 57 => ⟨S8192x8192, .f32⟩
  | 58 => ⟨S_, .f32⟩
  | 59 => ⟨S8192x8192, .f32⟩
  | 60 => ⟨S8192x8192, .f32⟩
  | 61 => ⟨S_, .f32⟩
  | 62 => ⟨S8192, .f32⟩
  | 63 => ⟨S_, .f32⟩
  | 64 => ⟨S8192, .f32⟩
  | 65 => ⟨S8192, .f32⟩
  | 66 => ⟨S8192x1, .f32⟩
  | 67 => ⟨S8192x8192, .f32⟩
  | 68 => ⟨S8192x8192, .f32⟩
  | 69 => ⟨S8192x8192, .f32⟩
  | 70 => ⟨S_, .f32⟩
  | 71 => ⟨S8192, .f32⟩
  | 72 => ⟨S8192x1, .f32⟩
  | 73 => ⟨S8192x8192, .f32⟩
  | 74 => ⟨S8192x8192, .f32⟩
  | 75 => ⟨S_, .f32⟩
  | 76 => ⟨S8192x256, .f32⟩
  | 77 => ⟨S8192x256, .f32⟩
  | 78 => ⟨S8192x256, .f32⟩
  | 79 => ⟨S_, .f32⟩
  | 80 => ⟨S8192x256, .f32⟩
  | 81 => ⟨S8192x256, .f32⟩
  | 82 => ⟨S8192x256, .f32⟩
  | 83 => ⟨S_, .f32⟩
  | 84 => ⟨S8192, .f32⟩
  | 85 => ⟨S8192x1, .f32⟩
  | 86 => ⟨S_, .f32⟩
  | 87 => ⟨S8192x1, .f32⟩
  | 88 => ⟨S8192x1, .f32⟩
  | 89 => ⟨S8192x256, .f32⟩
  | 90 => ⟨S8192x256, .f32⟩
  | 91 => ⟨S8192x256, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S8192x256, .f32⟩
  | 99 => ⟨S8192x256, .f32⟩
  | 100 => ⟨S_, .f32⟩
  | 101 => ⟨S8192x1, .f32⟩
  | 102 => ⟨S8192x1, .f32⟩
  | 103 => ⟨S8192x1, .f32⟩
  | 104 => ⟨S8192x256, .f32⟩
  | 105 => ⟨S8192x256, .f32⟩
  | 106 => ⟨S1x256, .f32⟩
  | 107 => ⟨S8192x256, .f32⟩
  | 108 => ⟨S8192x256, .f32⟩
  | 109 => ⟨S1x256, .f32⟩
  | 110 => ⟨S8192x256, .f32⟩
  | 111 => ⟨S8192x256, .f32⟩
  | 112 => ⟨S256x40, .f32⟩
  | 113 => ⟨S8192x40, .f32⟩
  | 114 => ⟨S1x40, .f32⟩
  | 115 => ⟨S8192x40, .f32⟩
  | 116 => ⟨S8192x40, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_cst_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_22 : Ref sig .tc := ⟨.hbm, 129, rfl⟩
abbrev main_v95 : Ref sig .tc := ⟨.hbm, 130, rfl⟩
abbrev main_v96 : Ref sig .tc := ⟨.hbm, 131, rfl⟩
abbrev main_cst_23 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_24 : Ref sig .tc := ⟨.hbm, 138, rfl⟩
abbrev main_v102 : Ref sig .tc := ⟨.hbm, 139, rfl⟩
abbrev main_v103 : Ref sig .tc := ⟨.hbm, 140, rfl⟩
abbrev main_cst_25 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_26 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_27 : Ref sig .tc := ⟨.hbm, 159, rfl⟩
abbrev main_v120 : Ref sig .tc := ⟨.hbm, 160, rfl⟩
abbrev main_v121 : Ref sig .tc := ⟨.hbm, 161, rfl⟩
abbrev main_c_28 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_29 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_30 : Ref sig .tc := ⟨.hbm, 175, rfl⟩
abbrev main_v133 : Ref sig .tc := ⟨.hbm, 176, rfl⟩
abbrev main_v134 : Ref sig .tc := ⟨.hbm, 177, rfl⟩
abbrev main_cst_31 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_32 : Ref sig .tc := ⟨.hbm, 186, rfl⟩
abbrev main_v142 : Ref sig .tc := ⟨.hbm, 187, rfl⟩
abbrev main_v143 : Ref sig .tc := ⟨.hbm, 188, rfl⟩
abbrev main_cst_33 : Ref sig .tc := ⟨.hbm, 189, rfl⟩
abbrev main_v144 : Ref sig .tc := ⟨.hbm, 190, rfl⟩
abbrev main_cst_34 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_35 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_36 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_cst_37 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_38 : Ref sig .tc := ⟨.hbm, 211, rfl⟩
abbrev main_v161 : Ref sig .tc := ⟨.hbm, 212, rfl⟩
abbrev main_v162 : Ref sig .tc := ⟨.hbm, 213, rfl⟩
abbrev main_cst_39 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_cst_40 : Ref sig .tc := ⟨.hbm, 220, rfl⟩
abbrev main_v168 : Ref sig .tc := ⟨.hbm, 221, rfl⟩
abbrev main_v169 : Ref sig .tc := ⟨.hbm, 222, rfl⟩
abbrev main_cst_41 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_42 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  transposes_S40x256_S256x40_1_0 : S40x256.Transposes [1, 0] S256x40
  bcast_S40_S1x40_1 : S40.BroadcastsInDim S1x40 (![1] : Fin 1 → Fin S1x40.rank)
  bcast_S1x40_S8192x40_0_1 : S1x40.BroadcastsInDim S8192x40 (![0, 1] : Fin 2 → Fin S8192x40.rank)
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x40_S8192x40_1_0_0_1_n_n_wf : DotDims.WF S8192x256 S256x40 S8192x40 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x40_S8192x40_1_0_0_1_n_n : DotDims S8192x256 S256x40 S8192x40 where
  lhsContracting := [1]
  rhsContracting := [0]
  lhsNonContracting := [0]
  rhsNonContracting := [1]
  lhsBatch := []
  rhsBatch := []
  wf := dot_S8192x256_S256x40_S8192x40_1_0_0_1_n_n_wf

class Facts : Prop extends Facts₀ where

variable [Facts]
-- ==== Proof.KB.R0.lean ====
import proofs.«405398_j45397804319028_3_alg».proof.Proof.Gen.Kernel.Launch
import proofs.«405398_j45397804319028_3_alg».proof.Proof.Gen.Kernel.Points
import proofs.«405398_j45397804319028_3_alg».proof.Proof.Gen.Kernel.Skeleton
import Idealize.ShloMosaic.Lib.Pipeline.Frame
import Idealize.ShloMosaic.Lib.Pipeline.FrameBody
import Idealize.ShloMosaic.Lib.Pipeline.Regions
import Idealize.ShloMosaic.Lib.Pipeline.Value
import Idealize.ShloMosaic.Lib.ValueIdx
import Idealize.ShloMosaic.PureOps.Ideal.Laws
import Idealize.ShloMosaic.Lib.ValueLayout
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

local notation "payXn" => k0_pay1
local notation "payXb" => k0_pay2

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => payXn (iblk0 V c 0 t)
    | ⟨2, _⟩ => payXb (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = payXn (iblk0 V c 0 t) := by dsimp only [dat0]
theorem after0_2 (c : Dev nD) (t : Fin cfg0.N) : (dat0 V c).after 2 t = payXb (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

private theorem hz0 : (![0, 0] : Fin 2 → Nat) = fun _ => 0 := funext fun a => by fin_cases a <;> rfl

set_option maxHeartbeats 1000000 in

theorem sound_kernel0 (c : Dev nD) (E : Set ℕ) (i : grid0.Coords) (arg1 : Memref sig .tc .vmem S2048x256 .f32) (harg1 : arg1.IsWhole)
    (arg2 : Memref sig .tc .vmem S2048x256 .bf16) (harg2 : arg2.IsWhole) (arg3 : Memref sig .tc .vmem S2048x256 .bf16) (harg3 : arg3.IsWhole)
    (x0 : Vec F S2048x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (payXn x0)
            ∗ owns (c : Thread nD τ) arg3 fullShare (payXb x0)) -∗ K ⟨⟩))
      ⊢ wp frame (wpE (defs₀ (F := F)) Variants.none c none) E (cc0__prep_kernel i arg1 harg1 arg2 harg2 arg3 harg3) K := by
  simp only [cc0__prep_kernel_eq_skeleton]; unfold cc0__prep_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.mem_singleton_self _, View.mem_set_unit_zero hz0 inb_S2048x256_S2048x256_0_0 y⟩),
      View.canon_unit_zero hz0, View.readAt_eq_ld, View.ld_unit_zero (S := S2048x256) hz0]
  iexists _; isplitr
  swap; · iexact H2
  ipureintro
  rw [View.read_writes_eq_canon _ _ _ (fun y => ⟨_, List.mem_singleton_self _, View.mem_set_unit_zero hz0 inb_S2048x256_S2048x256_0_0 y⟩),
    View.canon_unit_zero hz0, View.readAt_eq_ld, View.ld_unit_zero (S := S2048x256) hz0]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.R1.lean ====
import proofs.«405398_j45397804319028_3_alg».proof.Proof.Gen.Kernel.Launch
import proofs.«405398_j45397804319028_3_alg».proof.Proof.Gen.Kernel.Skeleton
import proofs.«405398_j45397804319028_3_alg».proof.Proof.Gen.Kernel.Points
import proofs.«405398_j45397804319028_3_alg».proof.Proof.Gen.Kernel.Loops
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def keyTile1 (X : Vec F S8192x256 .bf16) (k : Fin k1_t1_loop.trips) : Vec F S1024x256 .bf16 :=
  View.ld X (Rect.unit (s := S8192x256) (k1_off2 k) S1024x256.size (k1_off2_inb k))

def qTile1 (X : Vec F S8192x256 .bf16) (i : grid1.Coords) : Vec F S512x256 .bf16 :=
  View.ld X (Rect.unit (s := S8192x256) (k1_off1 i) S512x256.size (k1_off1_inb i))

def loopAcc1 (v3 : Vec F S512x256 .bf16) (xn xb : Vec F S8192x256 .bf16) : Nat → FVec F S512x1 .f32 × FVec F S512x256 .f32
  | 0 => (k1_pay3, k1_pay4)
  | k + 1 =>
    if h : k < k1_t1_loop.trips then
      (k1_pay6 v3 (loopAcc1 v3 xn xb k).1 (keyTile1 xn ⟨k, h⟩),
       k1_pay7 v3 (loopAcc1 v3 xn xb k).2 (keyTile1 xn ⟨k, h⟩) (keyTile1 xb ⟨k, h⟩))
    else loopAcc1 v3 xn xb k

theorem loopAcc1_zero (v3 : Vec F S512x256 .bf16) (xn xb : Vec F S8192x256 .bf16) :
    loopAcc1 v3 xn xb 0 = (k1_pay3, k1_pay4) := rfl

theorem loopAcc1_succ (v3 : Vec F S512x256 .bf16) (xn xb : Vec F S8192x256 .bf16) (k : Fin k1_t1_loop.trips) :
    loopAcc1 v3 xn xb (k.val + 1)
      = (k1_pay6 v3 (loopAcc1 v3 xn xb k.val).1 (keyTile1 xn k),
         k1_pay7 v3 (loopAcc1 v3 xn xb k.val).2 (keyTile1 xn k) (keyTile1 xb k)) := by
  rw [loopAcc1.eq_2]; exact dif_pos k.isLt

def res1_5 (i : grid1.Coords) (xn xb : Vec F S8192x256 .bf16) (xq : Vec F S512x256 .f32) (g b : Vec F S1x256 .f32) :
    FVec F S512x256 .f32 :=
  k1_pay1 (k1_pay8 xq (loopAcc1 (qTile1 xn i) xn xb k1_t1_loop.trips).1 (loopAcc1 (qTile1 xn i) xn xb k1_t1_loop.trips).2 g) b

def res1_6 (i : grid1.Coords) (xn xb : Vec F S8192x256 .bf16) (xq : Vec F S512x256 .f32) (g b : Vec F S1x256 .f32) :
    FVec F S512x256 .bf16 :=
  k1_pay2 (k1_pay8 xq (loopAcc1 (qTile1 xn i) xn xb k1_t1_loop.trips).1 (loopAcc1 (qTile1 xn i) xn xb k1_t1_loop.trips).2 g) b

abbrev inv1 (c : Dev nD) (arg1 : Memref sig .tc .vmem S8192x256 .bf16) (harg1 : arg1.IsWhole) (arg2 : Memref sig .tc .vmem S8192x256 .bf16) (harg2 : arg2.IsWhole) (v3 : Vec F S512x256 .bf16)
    (X_arg1 : BufTy.Contents (Elt F) arg1.view.ty) (X_arg2 : BufTy.Contents (Elt F) arg2.view.ty)
    (k : ℕ) (acc : FVec F S512x1 .f32 × FVec F S512x256 .f32) : sProp 𝕄 :=
  iprop((arg1.view.loc (c : Thread nD τ) ↦[arg1.view.set]{fullShare} X_arg1) ∗ (arg2.view.loc (c : Thread nD τ) ↦[arg2.view.set]{fullShare} X_arg2)
    ∗ ⌜acc = loopAcc1 v3 (arg1.view.read (Elt F) X_arg1) (arg2.view.read (Elt F) X_arg2) k⌝)

macro_rules | `(tactic| sl_pure) => `(tactic| with_reducible exact (Cert.Kernel.Hand.loopAcc1_zero ..).symm)

set_option warn.classDefReducibility false in
set_option maxHeartbeats 4000000 in

@[sl_loop] def loopInv1 (𝒱 : Variants) (c : Dev nD) (bd : Option 𝒱.V) (E : Set ℕ) (i : grid1.Coords) (arg1 : Memref sig .tc .vmem S8192x256 .bf16) (harg1 : arg1.IsWhole) (arg2 : Memref sig .tc .vmem S8192x256 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x256 .bf16) (harg7 : arg7.IsWhole) (v3 : Vec F S512x256 .bf16)
    (X_arg1 : BufTy.Contents (Elt F) arg1.view.ty) (X_arg2 : BufTy.Contents (Elt F) arg2.view.ty) (init : FVec F S512x1 .f32 × FVec F S512x256 .f32) :
    LoopInvTy_k1_t1 (F := F) Unit ℕ (Pipeline.UD sig nD τ) ℕ 𝒱 c bd E i arg1 harg1 arg2 harg2 arg3 harg3 arg4 harg4 arg5 harg5 arg6 harg6 arg7 harg7 v3 init where
  inv := inv1 (F := F) c arg1 harg1 arg2 harg2 v3 X_arg1 X_arg2
  step k acc := by
    unfold k1_t1_body
    iintro ⟨HR_arg1, HR_arg2, %h_acc⟩
    subst h_acc
    sl_exec
    sl_step
    isplitl [HR_arg1]; · iexact HR_arg1
    isplitl [HR_arg2]; · iexact HR_arg2
    ipureintro
    rw [loopAcc1_succ]; rfl

theorem hz1 : (![0, 0] : Fin 2 → Nat) = fun _ => 0 := funext fun a => by fin_cases a <;> rfl

set_option maxHeartbeats 4000000 in

theorem sound_kernel1 (c : Dev nD) (E : Set ℕ) (i : grid1.Coords) (arg1 : Memref sig .tc .vmem S8192x256 .bf16) (harg1 : arg1.IsWhole) (arg2 : Memref sig .tc .vmem S8192x256 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x256 .bf16) (harg7 : arg7.IsWhole)
    (x0 x1 : Vec F S8192x256 .bf16) (x2 : Vec F S512x256 .f32) (x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (res1_5 i x0 x1 x2 x3 x4)
            ∗ owns (c : Thread nD τ) arg7 fullShare (res1_6 i x0 x1 x2 x3 x4)) -∗ K ⟨⟩))
      ⊢ wp frame (wpE (defs₀ (F := F)) Variants.none c none) E (cc1__contra_ln_kernel i arg1 harg1 arg2 harg2 arg3 harg3 arg4 harg4 arg5 harg5 arg6 harg6 arg7 harg7) K := by
  simp only [cc1__contra_ln_kernel_eq_skeleton]; unfold cc1__contra_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz1 inb_S512x256_S512x256_0_0 y⟩),
      View.canon_unit_zero hz1]
    sl_unfold_words
    unfold res1_5
    simp only [View.readAt_eq_ld, View.ld_unit_zero (S := S512x256) hz1, View.ld_unit_zero (S := S1x256) hz1]
    rfl
  iexists _; isplitr
  swap; · iexact H6
  ipureintro
  rw [View.read_writes_eq_canon _ _ _ (fun y => ⟨_, List.mem_singleton_self _, View.mem_set_unit_zero hz1 inb_S512x256_S512x256_0_0 y⟩),
    View.canon_unit_zero hz1]
  sl_unfold_words
  unfold res1_6
  simp only [View.readAt_eq_ld, View.ld_unit_zero (S := S512x256) hz1, View.ld_unit_zero (S := S1x256) hz1]
  rfl

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (c : Dev nD) (t : Fin cfg1.N) : FVec F S512x256 .f32 :=
  res1_5 (grid1.coords t) (iblk1 V c 0 t) (iblk1 V c 1 t) (iblk1 V c 2 t) (iblk1 V c 3 t) (iblk1 V c 4 t)

def out1_6 (c : Dev nD) (t : Fin cfg1.N) : FVec F S512x256 .bf16 :=
  res1_6 (grid1.coords t) (iblk1 V c 0 t) (iblk1 V c 1 t) (iblk1 V c 2 t) (iblk1 V c 3 t) (iblk1 V c 4 t)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
    | ⟨6, _⟩ => out1_6 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]
theorem after1_6 (c : Dev nD) (t : Fin cfg1.N) : (dat1 V c).after 6 t = out1_6 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KB.R2.lean ====
import proofs.«405398_j45397804319028_3_alg».proof.Proof.Gen.Kernel.Launch
import proofs.«405398_j45397804319028_3_alg».proof.Proof.Gen.Kernel.Skeleton
import proofs.«405398_j45397804319028_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ablk2 (c : Dev nD) (t : Fin cfg2.N) : Vec F S1024x4096 .bf16 := iblk2 V c 0 t

abbrev hblk2 (c : Dev nD) (t : Fin cfg2.N) : Vec F S4096x256 .bf16 := iblk2 V c 1 t

def scAt2 (c : Dev nD) : Nat → Vec F S1024x256 .f32
  | 0 => k2_pay1 (F := F)
  | n + 1 =>
    if h : n < cfg2.N then
      if n % 2 = 0 then k2_pay2 (k2_pay1 (F := F)) (ablk2 V c ⟨n, h⟩) (hblk2 V c ⟨n, h⟩)
      else k2_pay2 (scAt2 c n) (ablk2 V c ⟨n, h⟩) (hblk2 V c ⟨n, h⟩)
    else scAt2 c n

abbrev scM2 : Memref sig .tc .vmem S1024x256 .f32 := Memref.whole cc2_scratch0

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem idleAt2_2 : ∀ t : Fin cfg2.N, t.val % 2 = 0 → cfg2.idle 2 (grid2.coords t) = true :=
  (by decide +kernel : ∀ t : Fin grid2.N, t.val % 2 = 0 → idle2 2 (grid2.coords t) = true)
theorem liveAt2_2 : ∀ t : Fin cfg2.N, t.val % 2 = 1 → cfg2.idle 2 (grid2.coords t) = false :=
  (by decide +kernel : ∀ t : Fin grid2.N, t.val % 2 = 1 → idle2 2 (grid2.coords t) = false)

theorem hz2 : (![0, 0] : Fin 2 → Nat) = fun _ => 0 := by funext a; match a with | ⟨0, _⟩ => rfl | ⟨1, _⟩ => rfl

set_option maxHeartbeats 1000000 in
theorem sound_kernel2_A (c : Dev nD) (E : Set ℕ) (i : grid2.Coords)
    (arg2 : Memref sig .tc .vmem S1024x4096 .bf16) (harg2 : arg2.IsWhole) (arg3 : Memref sig .tc .vmem S4096x256 .bf16) (harg3 : arg3.IsWhole)
    (arg4 : Memref sig .tc .vmem S1024x256 .f32) (harg4 : arg4.IsWhole) (arg5 : Memref sig .tc .vmem S1024x256 .f32) (harg5 : arg5.IsWhole)
    (hc0 : cond2_0 i) (hc1 : ¬cond2_1 i)
    (x0 : Vec F S1024x4096 .bf16) (x1 : Vec F S4096x256 .bf16) (xi : Vec F S1024x256 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 (k2_pay1 (F := F)) x0 x1)) -∗ K ⟨⟩))
      ⊢ wp frame (wpE (defs₀ (F := F)) Variants.none c none) E (cc2__spmm_kernel i arg2 harg2 arg3 harg3 arg4 harg4 arg5 harg5) K := by
  simp only [cc2__spmm_kernel_eq_skeleton]; unfold cc2__spmm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (fun y => ⟨_, List.mem_cons_self, View.mem_set_unit_zero hz2 inb_S1024x256_S1024x256_0_0 y⟩)]
  rw [View.canon_cons_unit_zero (S := S1024x256) hz2, View.readCov_unit_zero (S := S1024x256) _ hz2]
  simp only [View.readAt_eq_ld, View.ld_unit_zero (S := S1024x4096) hz2, View.ld_unit_zero (S := S4096x256) hz2]

set_option maxHeartbeats 1000000 in
theorem sound_kernel2_B (c : Dev nD) (E : Set ℕ) (i : grid2.Coords)
    (arg2 : Memref sig .tc .vmem S1024x4096 .bf16) (harg2 : arg2.IsWhole) (arg3 : Memref sig .tc .vmem S4096x256 .bf16) (harg3 : arg3.IsWhole)
    (arg4 : Memref sig .tc .vmem S1024x256 .f32) (harg4 : arg4.IsWhole) (arg5 : Memref sig .tc .vmem S1024x256 .f32) (harg5 : arg5.IsWhole)
    (hc0 : ¬cond2_0 i) (hc1 : cond2_1 i)
    (x0 : Vec F S1024x4096 .bf16) (x1 : Vec F S4096x256 .bf16) (xs : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k2_pay2 xs x0 x1)
            ∗ owns (c : Thread nD τ) arg5 fullShare (k2_pay2 xs x0 x1)) -∗ K ⟨⟩))
      ⊢ wp frame (wpE (defs₀ (F := F)) Variants.none c none) E (cc2__spmm_kernel i arg2 harg2 arg3 harg3 arg4 harg4 arg5 harg5) K := by
  simp only [cc2__spmm_kernel_eq_skeleton]; unfold cc2__spmm_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_singleton_self _, View.mem_set_unit_zero hz2 inb_S1024x256_S1024x256_0_0 y⟩)]
    rw [View.canon_unit_zero (S := S1024x256) hz2, View.readCov_unit_zero (S := S1024x256) _ hz2]
    simp only [View.readAt_eq_ld, View.ld_unit_zero (S := S1024x256) hz2, View.ld_unit_zero (S := S1024x4096) hz2, View.ld_unit_zero (S := S4096x256) hz2]
  iexists _; isplitr
  swap; · iexact H3
  ipureintro
  sl_unfold_words
  rw [View.read_writes_eq_canon _ _ _ (fun y => ⟨_, List.mem_singleton_self _, View.mem_set_unit_zero hz2 inb_S1024x256_S1024x256_0_0 y⟩)]
  rw [View.canon_unit_zero (S := S1024x256) hz2]
  simp only [View.readAt_eq_ld, View.ld_unit_zero (S := S1024x256) hz2, View.ld_unit_zero (S := S1024x4096) hz2, View.ld_unit_zero (S := S4096x256) hz2]

theorem scopedRest2_eq (c : Dev nD) :
    (Pipeline.scopedRest (Ix := Unit) (Name := ℕ) (U := Pipeline.UD sig nD τ) (Lvl := ℕ) (Val := Elt F) spec2 c : sProp 𝕄)
      = iprop(iprop((∃ d, owns (c : Thread nD τ) scM2 fullShare d)) ∗ Pipeline.scopedRestBut (Ix := Unit) (Name := ℕ) (U := Pipeline.UD sig nD τ) (Lvl := ℕ) (Val := Elt F) spec2 c [cc2_scratch0]) := by
  rw [scopedRest2_split]; simp only [scM2, owns_whole]; rfl

def Phi2 (c : Dev nD) : Nat → sProp 𝕄
  | 0 => iprop(Pipeline.scopedRest (Ix := Unit) (Name := ℕ) (U := Pipeline.UD sig nD τ) (Lvl := ℕ) (Val := Elt F) spec2 c ∗ ∃ r, prngReg c r)
  | n + 1 => iprop(owns (c : Thread nD τ) scM2 fullShare (scAt2 V c (n + 1)) ∗ Pipeline.scopedRestBut (Ix := Unit) (Name := ℕ) (U := Pipeline.UD sig nD τ) (Lvl := ℕ) (Val := Elt F) spec2 c [cc2_scratch0] ∗ ∃ r, prngReg c r)

theorem Phi2_succ (c : Dev nD) (n : ℕ) :
    Phi2 V c (n + 1) = iprop(owns (c : Thread nD τ) scM2 fullShare (scAt2 V c (n + 1)) ∗ Pipeline.scopedRestBut (Ix := Unit) (Name := ℕ) (U := Pipeline.UD sig nD τ) (Lvl := ℕ) (Val := Elt F) spec2 c [cc2_scratch0] ∗ ∃ r, prngReg c r) := rfl

theorem Phi2_pos (c : Dev nD) (n : ℕ) (hn : n ≠ 0) :
    Phi2 V c n = iprop(owns (c : Thread nD τ) scM2 fullShare (scAt2 V c n) ∗ Pipeline.scopedRestBut (Ix := Unit) (Name := ℕ) (U := Pipeline.UD sig nD τ) (Lvl := ℕ) (Val := Elt F) spec2 c [cc2_scratch0] ∗ ∃ r, prngReg c r) := by
  cases n with
  | zero => exact absurd rfl hn
  | succ n => rfl

theorem Phi2_some (c : Dev nD) (n : ℕ) :
    Phi2 V c n ⊢ iprop(iprop((∃ d, owns (c : Thread nD τ) scM2 fullShare d)) ∗ Pipeline.scopedRestBut (Ix := Unit) (Name := ℕ) (U := Pipeline.UD sig nD τ) (Lvl := ℕ) (Val := Elt F) spec2 c [cc2_scratch0] ∗ ∃ r, prngReg c r) := by
  cases n with
  | zero =>
    show iprop(Pipeline.scopedRest (Ix := Unit) (Name := ℕ) (U := Pipeline.UD sig nD τ) (Lvl := ℕ) (Val := Elt F) spec2 c ∗ ∃ r, prngReg c r) ⊢ _
    rw [scopedRest2_eq]
    iintro ⟨⟨HS, HR⟩, Hg⟩
    isplitl [HS]; · iexact HS
    isplitl [HR]; · iexact HR
    iexact Hg
  | succ n =>
    rw [Phi2_succ]
    iintro ⟨HS, HR, Hg⟩
    isplitl [HS]; · iexists _; iexact HS
    isplitl [HR]; · iexact HR
    iexact Hg

theorem scAt2_A (c : Dev nD) (t : Fin cfg2.N) (h : t.val % 2 = 0) :
    scAt2 V c (t.val + 1) = k2_pay2 (k2_pay1 (F := F)) (ablk2 V c t) (hblk2 V c t) := by
  rw [scAt2, dif_pos t.isLt, if_pos h]

theorem scAt2_B (c : Dev nD) (t : Fin cfg2.N) (h : ¬t.val % 2 = 0) :
    scAt2 V c (t.val + 1) = k2_pay2 (scAt2 V c t.val) (ablk2 V c t) (hblk2 V c t) := by
  rw [scAt2, dif_pos t.isLt, if_neg h]

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => scAt2 V c (t.val + 1)
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = scAt2 V c (t.val + 1) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 2000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) from rfl, show (dat2 V c).Φ t.castSucc = Phi2 V c t.val from rfl]
  rw [show (dat2 V c).leavesExact 0 t = owns (c : Thread nD τ) (st2_0 t) fullShare ((dat2 V c).after 0 t) from by
    unfold Dat.leavesExact; rw [show cfg2.idle 0 (cfg2.grid.coords t) = false from rfl], after2_0]
  rw [show (dat2 V c).leavesExact 1 t = owns (c : Thread nD τ) (st2_1 t) fullShare ((dat2 V c).after 1 t) from by
    unfold Dat.leavesExact; rw [show cfg2.idle 1 (cfg2.grid.coords t) = false from rfl], after2_1]
  have hN : t.val < 16 := lt_of_lt_of_eq t.isLt (show cfg2.N = 16 from N_2)
  by_cases h : t.val % 2 = 0
  · have hcA : cond2_0 (grid2.coords t) := (hcond2_0 t).mpr h
    have hcB : ¬cond2_1 (grid2.coords t) := fun h' => by have := (hcond2_1 t).mp h'; omega
    have hnf : (cfg2.win 2).flush t = false := Bool.eq_false_iff.mpr (fun hf => by have := (flush2_2 t).mp hf; omega)
    rw [Dat.leavesExact_idle (dat2 V c) 2 t (idleAt2_2 t h) hnf]
    rw [Phi2_succ, scAt2_A V c t h]
    iintro ⟨HΦ, Ho, ⟨%d0, H0⟩, ⟨%d1, H1⟩, ⟨%d2, H2⟩⟩
    ihave HΦ' := (Phi2_some V c t.val) $$ HΦ
    icases HΦ' with ⟨HS, HR, Hg⟩
    iapply (sound_kernel2_A c Set.univ (grid2.coords t) _ _ _ _ _ _ _ _ hcA hcB (ablk2 V c t) (hblk2 V c t) ((dat2 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hcA : ¬cond2_0 (grid2.coords t) := fun h' => h ((hcond2_0 t).mp h')
    have h1 : t.val % 2 = 1 := by omega
    have hcB : cond2_1 (grid2.coords t) := (hcond2_1 t).mpr h1
    rw [show (dat2 V c).leavesExact 2 t = owns (c : Thread nD τ) (st2_2 t) fullShare ((dat2 V c).after 2 t) from by
      unfold Dat.leavesExact; rw [liveAt2_2 t h1], after2_2]
    rw [Phi2_pos V c t.val (by omega), Phi2_succ, scAt2_B V c t h]
    iintro ⟨⟨HS, HR, Hg⟩, Ho, ⟨%d0, H0⟩, ⟨%d1, H1⟩, ⟨%d2, H2⟩⟩
    iapply (sound_kernel2_B c Set.univ (grid2.coords t) _ _ _ _ _ _ _ _ hcA hcB (ablk2 V c t) (hblk2 V c t) (scAt2 V c t.val) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

theorem body_obligation2 (c : Dev nD) : BodyObligation (dat2 (F := F) V c) (defs₀ (F := F)) Variants.none () Set.univ := fun t => by
  rw [bigSep_W2, bigSep_W2]
  exact sound_body2 V c t

theorem phi_in2 (c : Dev nD) :
    iprop(Pipeline.scopedRest (Ix := Unit) (Name := ℕ) (U := Pipeline.UD sig nD τ) (Lvl := ℕ) (Val := Elt F) spec2 c ∗ ∃ r, prngReg c r)
      ⊢ (dat2 V c).Φ 0 := by
  rw [show (dat2 V c).Φ 0 = Phi2 V c 0 from rfl]
  exact Idealize.SL.BI.Entails.refl _

theorem phi_out2 (c : Dev nD) :
    (dat2 V c).Φ (Fin.last cfg2.N)
      ⊢ iprop(Pipeline.scopedRest (Ix := Unit) (Name := ℕ) (U := Pipeline.UD sig nD τ) (Lvl := ℕ) (Val := Elt F) spec2 c ∗ ∃ r, prngReg c r) := by
  rw [show (dat2 V c).Φ (Fin.last cfg2.N) = Phi2 V c (15 + 1) from rfl, Phi2_succ, scopedRest2_eq]
  iintro ⟨HS, HR, Hg⟩
  isplitl [HS HR]
  · isplitl [HS]; · iexists _; iexact HS
    iexact HR
  iexact Hg

open Idealize.ShloMosaic.ValueIdx

end Cert.Kernel.Hand

end
-- ==== Proof.KB.R3.lean ====
import proofs.«405398_j45397804319028_3_alg».proof.Proof.Gen.Kernel.Launch
import proofs.«405398_j45397804319028_3_alg».proof.Proof.Gen.Kernel.Points
import proofs.«405398_j45397804319028_3_alg».proof.Proof.Gen.Kernel.Skeleton
import Idealize.ShloMosaic.Lib.Pipeline.Frame
import Idealize.ShloMosaic.Lib.Pipeline.FrameBody
import Idealize.ShloMosaic.Lib.Pipeline.Regions
import Idealize.ShloMosaic.Lib.Pipeline.Value
import Idealize.ShloMosaic.Lib.ValueIdx
import Idealize.ShloMosaic.PureOps.Ideal.Laws
import Idealize.ShloMosaic.Lib.ValueLayout
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

local notation "payXn" => k3_pay2
local notation "payXb" => k3_pay3

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => payXn (iblk3 V c 0 t)
    | ⟨2, _⟩ => payXb (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = payXn (iblk3 V c 0 t) := by dsimp only [dat3]
theorem after3_2 (c : Dev nD) (t : Fin cfg3.N) : (dat3 V c).after 2 t = payXb (iblk3 V c 0 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

private theorem hz3 : (![0, 0] : Fin 2 → Nat) = fun _ => 0 := funext fun a => by fin_cases a <;> rfl

set_option maxHeartbeats 1000000 in

theorem sound_kernel3 (c : Dev nD) (E : Set ℕ) (i : grid3.Coords) (arg1 : Memref sig .tc .vmem S2048x256 .f32) (harg1 : arg1.IsWhole)
    (arg2 : Memref sig .tc .vmem S2048x256 .bf16) (harg2 : arg2.IsWhole) (arg3 : Memref sig .tc .vmem S2048x256 .bf16) (harg3 : arg3.IsWhole)
    (x0 : Vec F S2048x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (payXn x0)
            ∗ owns (c : Thread nD τ) arg3 fullShare (payXb x0)) -∗ K ⟨⟩))
      ⊢ wp frame (wpE (defs₀ (F := F)) Variants.none c none) E (cc3__prep_kernel i arg1 harg1 arg2 harg2 arg3 harg3) K := by
  simp only [cc3__prep_kernel_eq_skeleton]; unfold cc3__prep_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.mem_singleton_self _, View.mem_set_unit_zero hz3 inb_S2048x256_S2048x256_0_0 y⟩),
      View.canon_unit_zero hz3, View.readAt_eq_ld, View.ld_unit_zero (S := S2048x256) hz3]
  iexists _; isplitr
  swap; · iexact H2
  ipureintro
  rw [View.read_writes_eq_canon _ _ _ (fun y => ⟨_, List.mem_singleton_self _, View.mem_set_unit_zero hz3 inb_S2048x256_S2048x256_0_0 y⟩),
    View.canon_unit_zero hz3, View.readAt_eq_ld, View.ld_unit_zero (S := S2048x256) hz3]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.KB.R4.lean ====
import proofs.«405398_j45397804319028_3_alg».proof.Proof.Gen.Kernel.Launch
import proofs.«405398_j45397804319028_3_alg».proof.Proof.Gen.Kernel.Skeleton
import proofs.«405398_j45397804319028_3_alg».proof.Proof.Gen.Kernel.Points
import proofs.«405398_j45397804319028_3_alg».proof.Proof.Gen.Kernel.Loops
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def keyTile4 (X : Vec F S8192x256 .bf16) (k : Fin k4_t1_loop.trips) : Vec F S1024x256 .bf16 :=
  View.ld X (Rect.unit (s := S8192x256) (k4_off2 k) S1024x256.size (k4_off2_inb k))

def qTile4 (X : Vec F S8192x256 .bf16) (i : grid4.Coords) : Vec F S512x256 .bf16 :=
  View.ld X (Rect.unit (s := S8192x256) (k4_off1 i) S512x256.size (k4_off1_inb i))

def loopAcc4 (v3 : Vec F S512x256 .bf16) (xn xb : Vec F S8192x256 .bf16) : Nat → FVec F S512x1 .f32 × FVec F S512x256 .f32
  | 0 => (k4_pay3, k4_pay4)
  | k + 1 =>
    if h : k < k4_t1_loop.trips then
      (k4_pay6 v3 (loopAcc4 v3 xn xb k).1 (keyTile4 xn ⟨k, h⟩),
       k4_pay7 v3 (loopAcc4 v3 xn xb k).2 (keyTile4 xn ⟨k, h⟩) (keyTile4 xb ⟨k, h⟩))
    else loopAcc4 v3 xn xb k

theorem loopAcc4_zero (v3 : Vec F S512x256 .bf16) (xn xb : Vec F S8192x256 .bf16) :
    loopAcc4 v3 xn xb 0 = (k4_pay3, k4_pay4) := rfl

theorem loopAcc4_succ (v3 : Vec F S512x256 .bf16) (xn xb : Vec F S8192x256 .bf16) (k : Fin k4_t1_loop.trips) :
    loopAcc4 v3 xn xb (k.val + 1)
      = (k4_pay6 v3 (loopAcc4 v3 xn xb k.val).1 (keyTile4 xn k),
         k4_pay7 v3 (loopAcc4 v3 xn xb k.val).2 (keyTile4 xn k) (keyTile4 xb k)) := by
  rw [loopAcc4.eq_2]; exact dif_pos k.isLt

def res4_5 (i : grid4.Coords) (xn xb : Vec F S8192x256 .bf16) (xq : Vec F S512x256 .f32) (g b : Vec F S1x256 .f32) :
    FVec F S512x256 .f32 :=
  k4_pay1 (k4_pay8 xq (loopAcc4 (qTile4 xn i) xn xb k4_t1_loop.trips).1 (loopAcc4 (qTile4 xn i) xn xb k4_t1_loop.trips).2 g) b

def res4_6 (i : grid4.Coords) (xn xb : Vec F S8192x256 .bf16) (xq : Vec F S512x256 .f32) (g b : Vec F S1x256 .f32) :
    FVec F S512x256 .bf16 :=
  k4_pay2 (k4_pay8 xq (loopAcc4 (qTile4 xn i) xn xb k4_t1_loop.trips).1 (loopAcc4 (qTile4 xn i) xn xb k4_t1_loop.trips).2 g) b

abbrev inv4 (c : Dev nD) (arg1 : Memref sig .tc .vmem S8192x256 .bf16) (harg1 : arg1.IsWhole) (arg2 : Memref sig .tc .vmem S8192x256 .bf16) (harg2 : arg2.IsWhole) (v3 : Vec F S512x256 .bf16)
    (X_arg1 : BufTy.Contents (Elt F) arg1.view.ty) (X_arg2 : BufTy.Contents (Elt F) arg2.view.ty)
    (k : ℕ) (acc : FVec F S512x1 .f32 × FVec F S512x256 .f32) : sProp 𝕄 :=
  iprop((arg1.view.loc (c : Thread nD τ) ↦[arg1.view.set]{fullShare} X_arg1) ∗ (arg2.view.loc (c : Thread nD τ) ↦[arg2.view.set]{fullShare} X_arg2)
    ∗ ⌜acc = loopAcc4 v3 (arg1.view.read (Elt F) X_arg1) (arg2.view.read (Elt F) X_arg2) k⌝)

macro_rules | `(tactic| sl_pure) => `(tactic| with_reducible exact (Cert.Kernel.Hand.loopAcc4_zero ..).symm)

set_option warn.classDefReducibility false in
set_option maxHeartbeats 4000000 in

@[sl_loop] def loopInv4 (𝒱 : Variants) (c : Dev nD) (bd : Option 𝒱.V) (E : Set ℕ) (i : grid4.Coords) (arg1 : Memref sig .tc .vmem S8192x256 .bf16) (harg1 : arg1.IsWhole) (arg2 : Memref sig .tc .vmem S8192x256 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x256 .bf16) (harg7 : arg7.IsWhole) (v3 : Vec F S512x256 .bf16)
    (X_arg1 : BufTy.Contents (Elt F) arg1.view.ty) (X_arg2 : BufTy.Contents (Elt F) arg2.view.ty) (init : FVec F S512x1 .f32 × FVec F S512x256 .f32) :
    LoopInvTy_k4_t1 (F := F) Unit ℕ (Pipeline.UD sig nD τ) ℕ 𝒱 c bd E i arg1 harg1 arg2 harg2 arg3 harg3 arg4 harg4 arg5 harg5 arg6 harg6 arg7 harg7 v3 init where
  inv := inv4 (F := F) c arg1 harg1 arg2 harg2 v3 X_arg1 X_arg2
  step k acc := by
    unfold k4_t1_body
    iintro ⟨HR_arg1, HR_arg2, %h_acc⟩
    subst h_acc
    sl_exec
    sl_step
    isplitl [HR_arg1]; · iexact HR_arg1
    isplitl [HR_arg2]; · iexact HR_arg2
    ipureintro
    rw [loopAcc4_succ]; rfl

theorem hz4 : (![0, 0] : Fin 2 → Nat) = fun _ => 0 := funext fun a => by fin_cases a <;> rfl

set_option maxHeartbeats 4000000 in

theorem sound_kernel4 (c : Dev nD) (E : Set ℕ) (i : grid4.Coords) (arg1 : Memref sig .tc .vmem S8192x256 .bf16) (harg1 : arg1.IsWhole) (arg2 : Memref sig .tc .vmem S8192x256 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x256 .bf16) (harg7 : arg7.IsWhole)
    (x0 x1 : Vec F S8192x256 .bf16) (x2 : Vec F S512x256 .f32) (x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (res4_5 i x0 x1 x2 x3 x4)
            ∗ owns (c : Thread nD τ) arg7 fullShare (res4_6 i x0 x1 x2 x3 x4)) -∗ K ⟨⟩))
      ⊢ wp frame (wpE (defs₀ (F := F)) Variants.none c none) E (cc4__contra_ln_kernel i arg1 harg1 arg2 harg2 arg3 harg3 arg4 harg4 arg5 harg5 arg6 harg6 arg7 harg7) K := by
  simp only [cc4__contra_ln_kernel_eq_skeleton]; unfold cc4__contra_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz4 inb_S512x256_S512x256_0_0 y⟩),
      View.canon_unit_zero hz4]
    sl_unfold_words
    unfold res4_5
    simp only [View.readAt_eq_ld, View.ld_unit_zero (S := S512x256) hz4, View.ld_unit_zero (S := S1x256) hz4]
    rfl
  iexists _; isplitr
  swap; · iexact H6
  ipureintro
  rw [View.read_writes_eq_canon _ _ _ (fun y => ⟨_, List.mem_singleton_self _, View.mem_set_unit_zero hz4 inb_S512x256_S512x256_0_0 y⟩),
    View.canon_unit_zero hz4]
  sl_unfold_words
  unfold res4_6
  simp only [View.readAt_eq_ld, View.ld_unit_zero (S := S512x256) hz4, View.ld_unit_zero (S := S1x256) hz4]
  rfl

section Regions

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_5 (c : Dev nD) (t : Fin cfg4.N) : FVec F S512x256 .f32 :=
  res4_5 (grid4.coords t) (iblk4 V c 0 t) (iblk4 V c 1 t) (iblk4 V c 2 t) (iblk4 V c 3 t) (iblk4 V c 4 t)

def out4_6 (c : Dev nD) (t : Fin cfg4.N) : FVec F S512x256 .bf16 :=
  res4_6 (grid4.coords t) (iblk4 V c 0 t) (iblk4 V c 1 t) (iblk4 V c 2 t) (iblk4 V c 3 t) (iblk4 V c 4 t)

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 V c t
    | ⟨6, _⟩ => out4_6 V c t
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 V c t := by dsimp only [dat4]
theorem after4_6 (c : Dev nD) (t : Fin cfg4.N) : (dat4 V c).after 6 t = out4_6 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)

theorem before4_4 (c : Dev nD) (t : Fin cfg4.N) (d) : (dat4 V c).before 4 t d = iblk4 V c 4 t :=
  ((dat4 V c).before_in_eq_fetched 4 rfl (fun _ => rfl) (fun _ _ _ => rfl)
      (fun t => by rw [after4_4]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Regions

end Cert.Kernel.Hand

end
-- ==== Proof.KB.R5.lean ====
import proofs.«405398_j45397804319028_3_alg».proof.Proof.Gen.Kernel.Launch
import proofs.«405398_j45397804319028_3_alg».proof.Proof.Gen.Kernel.Skeleton
import proofs.«405398_j45397804319028_3_alg».proof.Proof.Gen.Kernel.Points
import proofs.«405398_j45397804319028_3_alg».proof.Proof.KB.R2
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev ablk5 (c : Dev nD) (t : Fin cfg5.N) : Vec F S1024x4096 .bf16 := iblk5 V c 0 t

abbrev hblk5 (c : Dev nD) (t : Fin cfg5.N) : Vec F S4096x256 .bf16 := iblk5 V c 1 t

def scAt5 (c : Dev nD) : Nat → Vec F S1024x256 .f32
  | 0 => k5_pay1 (F := F)
  | n + 1 =>
    if h : n < cfg5.N then
      if n % 2 = 0 then k5_pay2 (k5_pay1 (F := F)) (ablk5 V c ⟨n, h⟩) (hblk5 V c ⟨n, h⟩)
      else k5_pay2 (scAt5 c n) (ablk5 V c ⟨n, h⟩) (hblk5 V c ⟨n, h⟩)
    else scAt5 c n

abbrev scM5 : Memref sig .tc .vmem S1024x256 .f32 := Memref.whole cc5_scratch0

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 2 = 0 :=
  (by decide +kernel : ∀ t : Fin grid5.N, cond5_0 (grid5.coords t) ↔ t.val % 2 = 0)

abbrev cond5_1 (i : grid5.Coords) : Prop := k5_cond2 i = 1#1
theorem hcond5_1 : ∀ t : Fin cfg5.N, cond5_1 (grid5.coords t) ↔ t.val % 2 = 1 :=
  (by decide +kernel : ∀ t : Fin grid5.N, cond5_1 (grid5.coords t) ↔ t.val % 2 = 1)

theorem idleAt5_2 : ∀ t : Fin cfg5.N, t.val % 2 = 0 → cfg5.idle 2 (grid5.coords t) = true :=
  (by decide +kernel : ∀ t : Fin grid5.N, t.val % 2 = 0 → idle5 2 (grid5.coords t) = true)
theorem liveAt5_2 : ∀ t : Fin cfg5.N, t.val % 2 = 1 → cfg5.idle 2 (grid5.coords t) = false :=
  (by decide +kernel : ∀ t : Fin grid5.N, t.val % 2 = 1 → idle5 2 (grid5.coords t) = false)

theorem sound_kernel5_A (c : Dev nD) (E : Set ℕ) (i : grid5.Coords)
    (arg2 : Memref sig .tc .vmem S1024x4096 .bf16) (harg2 : arg2.IsWhole) (arg3 : Memref sig .tc .vmem S4096x256 .bf16) (harg3 : arg3.IsWhole)
    (arg4 : Memref sig .tc .vmem S1024x256 .f32) (harg4 : arg4.IsWhole) (arg5 : Memref sig .tc .vmem S1024x256 .f32) (harg5 : arg5.IsWhole)
    (hc0 : cond5_0 i) (hc1 : ¬cond5_1 i)
    (x0 : Vec F S1024x4096 .bf16) (x1 : Vec F S4096x256 .bf16) (xi : Vec F S1024x256 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k5_pay2 (k5_pay1 (F := F)) x0 x1)) -∗ K ⟨⟩))
      ⊢ wp frame (wpE (defs₀ (F := F)) Variants.none c none) E (cc5__spmm_kernel i arg2 harg2 arg3 harg3 arg4 harg4 arg5 harg5) K :=
  sound_kernel2_A c E i arg2 harg2 arg3 harg3 arg4 harg4 arg5 harg5 hc0 hc1 x0 x1 xi K

theorem sound_kernel5_B (c : Dev nD) (E : Set ℕ) (i : grid5.Coords)
    (arg2 : Memref sig .tc .vmem S1024x4096 .bf16) (harg2 : arg2.IsWhole) (arg3 : Memref sig .tc .vmem S4096x256 .bf16) (harg3 : arg3.IsWhole)
    (arg4 : Memref sig .tc .vmem S1024x256 .f32) (harg4 : arg4.IsWhole) (arg5 : Memref sig .tc .vmem S1024x256 .f32) (harg5 : arg5.IsWhole)
    (hc0 : ¬cond5_0 i) (hc1 : cond5_1 i)
    (x0 : Vec F S1024x4096 .bf16) (x1 : Vec F S4096x256 .bf16) (xs : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k5_pay2 xs x0 x1)
            ∗ owns (c : Thread nD τ) arg5 fullShare (k5_pay2 xs x0 x1)) -∗ K ⟨⟩))
      ⊢ wp frame (wpE (defs₀ (F := F)) Variants.none c none) E (cc5__spmm_kernel i arg2 harg2 arg3 harg3 arg4 harg4 arg5 harg5) K :=
  sound_kernel2_B c E i arg2 harg2 arg3 harg3 arg4 harg4 arg5 harg5 hc0 hc1 x0 x1 xs K

theorem scopedRest5_eq (c : Dev nD) :
    (Pipeline.scopedRest (Ix := Unit) (Name := ℕ) (U := Pipeline.UD sig nD τ) (Lvl := ℕ) (Val := Elt F) spec5 c : sProp 𝕄)
      = iprop(iprop((∃ d, owns (c : Thread nD τ) scM5 fullShare d)) ∗ Pipeline.scopedRestBut (Ix := Unit) (Name := ℕ) (U := Pipeline.UD sig nD τ) (Lvl := ℕ) (Val := Elt F) spec5 c [cc5_scratch0]) := by
  rw [scopedRest5_split]; simp only [scM5, owns_whole]; rfl

def Phi5 (c : Dev nD) : Nat → sProp 𝕄
  | 0 => iprop(Pipeline.scopedRest (Ix := Unit) (Name := ℕ) (U := Pipeline.UD sig nD τ) (Lvl := ℕ) (Val := Elt F) spec5 c ∗ ∃ r, prngReg c r)
  | n + 1 => iprop(owns (c : Thread nD τ) scM5 fullShare (scAt5 V c (n + 1)) ∗ Pipeline.scopedRestBut (Ix := Unit) (Name := ℕ) (U := Pipeline.UD sig nD τ) (Lvl := ℕ) (Val := Elt F) spec5 c [cc5_scratch0] ∗ ∃ r, prngReg c r)

theorem Phi5_succ (c : Dev nD) (n : ℕ) :
    Phi5 V c (n + 1) = iprop(owns (c : Thread nD τ) scM5 fullShare (scAt5 V c (n + 1)) ∗ Pipeline.scopedRestBut (Ix := Unit) (Name := ℕ) (U := Pipeline.UD sig nD τ) (Lvl := ℕ) (Val := Elt F) spec5 c [cc5_scratch0] ∗ ∃ r, prngReg c r) := rfl

theorem Phi5_pos (c : Dev nD) (n : ℕ) (hn : n ≠ 0) :
    Phi5 V c n = iprop(owns (c : Thread nD τ) scM5 fullShare (scAt5 V c n) ∗ Pipeline.scopedRestBut (Ix := Unit) (Name := ℕ) (U := Pipeline.UD sig nD τ) (Lvl := ℕ) (Val := Elt F) spec5 c [cc5_scratch0] ∗ ∃ r, prngReg c r) := by
  cases n with
  | zero => exact absurd rfl hn
  | succ n => rfl

theorem Phi5_some (c : Dev nD) (n : ℕ) :
    Phi5 V c n ⊢ iprop(iprop((∃ d, owns (c : Thread nD τ) scM5 fullShare d)) ∗ Pipeline.scopedRestBut (Ix := Unit) (Name := ℕ) (U := Pipeline.UD sig nD τ) (Lvl := ℕ) (Val := Elt F) spec5 c [cc5_scratch0] ∗ ∃ r, prngReg c r) := by
  cases n with
  | zero =>
    show iprop(Pipeline.scopedRest (Ix := Unit) (Name := ℕ) (U := Pipeline.UD sig nD τ) (Lvl := ℕ) (Val := Elt F) spec5 c ∗ ∃ r, prngReg c r) ⊢ _
    rw [scopedRest5_eq]
    iintro ⟨⟨HS, HR⟩, Hg⟩
    isplitl [HS]; · iexact HS
    isplitl [HR]; · iexact HR
    iexact Hg
  | succ n =>
    rw [Phi5_succ]
    iintro ⟨HS, HR, Hg⟩
    isplitl [HS]; · iexists _; iexact HS
    isplitl [HR]; · iexact HR
    iexact Hg

theorem scAt5_A (c : Dev nD) (t : Fin cfg5.N) (h : t.val % 2 = 0) :
    scAt5 V c (t.val + 1) = k5_pay2 (k5_pay1 (F := F)) (ablk5 V c t) (hblk5 V c t) := by
  rw [scAt5, dif_pos t.isLt, if_pos h]

theorem scAt5_B (c : Dev nD) (t : Fin cfg5.N) (h : ¬t.val % 2 = 0) :
    scAt5 V c (t.val + 1) = k5_pay2 (scAt5 V c t.val) (ablk5 V c t) (hblk5 V c t) := by
  rw [scAt5, dif_pos t.isLt, if_neg h]

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => scAt5 V c (t.val + 1)
  Φ t := Phi5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = scAt5 V c (t.val + 1) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 2000000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = Phi5 V c (t.val + 1) from rfl, show (dat5 V c).Φ t.castSucc = Phi5 V c t.val from rfl]
  rw [show (dat5 V c).leavesExact 0 t = owns (c : Thread nD τ) (st5_0 t) fullShare ((dat5 V c).after 0 t) from by
    unfold Dat.leavesExact; rw [show cfg5.idle 0 (cfg5.grid.coords t) = false from rfl], after5_0]
  rw [show (dat5 V c).leavesExact 1 t = owns (c : Thread nD τ) (st5_1 t) fullShare ((dat5 V c).after 1 t) from by
    unfold Dat.leavesExact; rw [show cfg5.idle 1 (cfg5.grid.coords t) = false from rfl], after5_1]
  have hN : t.val < 16 := lt_of_lt_of_eq t.isLt (show cfg5.N = 16 from N_5)
  by_cases h : t.val % 2 = 0
  · have hcA : cond5_0 (grid5.coords t) := (hcond5_0 t).mpr h
    have hcB : ¬cond5_1 (grid5.coords t) := fun h' => by have := (hcond5_1 t).mp h'; omega
    have hnf : (cfg5.win 2).flush t = false := Bool.eq_false_iff.mpr (fun hf => by have := (flush5_2 t).mp hf; omega)
    rw [Dat.leavesExact_idle (dat5 V c) 2 t (idleAt5_2 t h) hnf]
    rw [Phi5_succ, scAt5_A V c t h]
    iintro ⟨HΦ, Ho, ⟨%d0, H0⟩, ⟨%d1, H1⟩, ⟨%d2, H2⟩⟩
    ihave HΦ' := (Phi5_some V c t.val) $$ HΦ
    icases HΦ' with ⟨HS, HR, Hg⟩
    iapply (sound_kernel5_A c Set.univ (grid5.coords t) _ _ _ _ _ _ _ _ hcA hcB (ablk5 V c t) (hblk5 V c t) ((dat5 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hcA : ¬cond5_0 (grid5.coords t) := fun h' => h ((hcond5_0 t).mp h')
    have h1 : t.val % 2 = 1 := by omega
    have hcB : cond5_1 (grid5.coords t) := (hcond5_1 t).mpr h1
    rw [show (dat5 V c).leavesExact 2 t = owns (c : Thread nD τ) (st5_2 t) fullShare ((dat5 V c).after 2 t) from by
      unfold Dat.leavesExact; rw [liveAt5_2 t h1], after5_2]
    rw [Phi5_pos V c t.val (by omega), Phi5_succ, scAt5_B V c t h]
    iintro ⟨⟨HS, HR, Hg⟩, Ho, ⟨%d0, H0⟩, ⟨%d1, H1⟩, ⟨%d2, H2⟩⟩
    iapply (sound_kernel5_B c Set.univ (grid5.coords t) _ _ _ _ _ _ _ _ hcA hcB (ablk5 V c t) (hblk5 V c t) (scAt5 V c t.val) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

theorem body_obligation5 (c : Dev nD) : BodyObligation (dat5 (F := F) V c) (defs₀ (F := F)) Variants.none () Set.univ := fun t => by
  rw [bigSep_W5, bigSep_W5]
  exact sound_body5 V c t

theorem phi_in5 (c : Dev nD) :
    iprop(Pipeline.scopedRest (Ix := Unit) (Name := ℕ) (U := Pipeline.UD sig nD τ) (Lvl := ℕ) (Val := Elt F) spec5 c ∗ ∃ r, prngReg c r)
      ⊢ (dat5 V c).Φ 0 := by
  rw [show (dat5 V c).Φ 0 = Phi5 V c 0 from rfl]
  exact Idealize.SL.BI.Entails.refl _

theorem phi_out5 (c : Dev nD) :
    (dat5 V c).Φ (Fin.last cfg5.N)
      ⊢ iprop(Pipeline.scopedRest (Ix := Unit) (Name := ℕ) (U := Pipeline.UD sig nD τ) (Lvl := ℕ) (Val := Elt F) spec5 c ∗ ∃ r, prngReg c r) := by
  rw [show (dat5 V c).Φ (Fin.last cfg5.N) = Phi5 V c (15 + 1) from rfl, Phi5_succ, scopedRest5_eq]
  iintro ⟨HS, HR, Hg⟩
  isplitl [HS HR]
  · isplitl [HS]; · iexists _; iexact HS
    iexact HR
  iexact Hg

open Idealize.ShloMosaic.ValueIdx

end Cert.Kernel.Hand

end
-- ==== Proof.KB.R6.lean ====
import proofs.«405398_j45397804319028_3_alg».proof.Proof.Gen.Kernel.Launch
import proofs.«405398_j45397804319028_3_alg».proof.Proof.Gen.Kernel.Points
import proofs.«405398_j45397804319028_3_alg».proof.Proof.Gen.Kernel.Skeleton
import proofs.«405398_j45397804319028_3_alg».proof.Proof.KB.R3
import Idealize.ShloMosaic.Lib.Pipeline.Frame
import Idealize.ShloMosaic.Lib.Pipeline.FrameBody
import Idealize.ShloMosaic.Lib.Pipeline.Regions
import Idealize.ShloMosaic.Lib.Pipeline.Value
import Idealize.ShloMosaic.Lib.ValueIdx
import Idealize.ShloMosaic.PureOps.Ideal.Laws
import Idealize.ShloMosaic.Lib.ValueLayout
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

local notation "payXn" => k6_pay2
local notation "payXb" => k6_pay3

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => payXn (iblk6 V c 0 t)
    | ⟨2, _⟩ => payXb (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = payXn (iblk6 V c 0 t) := by dsimp only [dat6]
theorem after6_2 (c : Dev nD) (t : Fin cfg6.N) : (dat6 V c).after 2 t = payXb (iblk6 V c 0 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

theorem sound_kernel6 (c : Dev nD) (E : Set ℕ) (i : grid6.Coords) (arg1 : Memref sig .tc .vmem S2048x256 .f32) (harg1 : arg1.IsWhole)
    (arg2 : Memref sig .tc .vmem S2048x256 .bf16) (harg2 : arg2.IsWhole) (arg3 : Memref sig .tc .vmem S2048x256 .bf16) (harg3 : arg3.IsWhole)
    (x0 : Vec F S2048x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (payXn x0)
            ∗ owns (c : Thread nD τ) arg3 fullShare (payXb x0)) -∗ K ⟨⟩))
      ⊢ wp frame (wpE (defs₀ (F := F)) Variants.none c none) E (cc6__prep_kernel i arg1 harg1 arg2 harg2 arg3 harg3) K :=
  sound_kernel3 c E i arg1 harg1 arg2 harg2 arg3 harg3 x0 K

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Region6

end Cert.Kernel.Hand

end
-- ==== Proof.KB.R7.lean ====
import proofs.«405398_j45397804319028_3_alg».proof.Proof.Gen.Kernel.Launch
import proofs.«405398_j45397804319028_3_alg».proof.Proof.Gen.Kernel.Skeleton
import proofs.«405398_j45397804319028_3_alg».proof.Proof.Gen.Kernel.Points
import proofs.«405398_j45397804319028_3_alg».proof.Proof.Gen.Kernel.Loops
import proofs.«405398_j45397804319028_3_alg».proof.Proof.KB.R4
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def keyTile7 (X : Vec F S8192x256 .bf16) (k : Fin k7_t1_loop.trips) : Vec F S1024x256 .bf16 :=
  View.ld X (Rect.unit (s := S8192x256) (k7_off2 k) S1024x256.size (k7_off2_inb k))

def qTile7 (X : Vec F S8192x256 .bf16) (i : grid7.Coords) : Vec F S512x256 .bf16 :=
  View.ld X (Rect.unit (s := S8192x256) (k7_off1 i) S512x256.size (k7_off1_inb i))

def loopAcc7 (v3 : Vec F S512x256 .bf16) (xn xb : Vec F S8192x256 .bf16) : Nat → FVec F S512x1 .f32 × FVec F S512x256 .f32
  | 0 => (k7_pay3, k7_pay4)
  | k + 1 =>
    if h : k < k7_t1_loop.trips then
      (k7_pay6 v3 (loopAcc7 v3 xn xb k).1 (keyTile7 xn ⟨k, h⟩),
       k7_pay7 v3 (loopAcc7 v3 xn xb k).2 (keyTile7 xn ⟨k, h⟩) (keyTile7 xb ⟨k, h⟩))
    else loopAcc7 v3 xn xb k

def res7_5 (i : grid7.Coords) (xn xb : Vec F S8192x256 .bf16) (xq : Vec F S512x256 .f32) (g b : Vec F S1x256 .f32) :
    FVec F S512x256 .f32 :=
  k7_pay1 (k7_pay8 xq (loopAcc7 (qTile7 xn i) xn xb k7_t1_loop.trips).1 (loopAcc7 (qTile7 xn i) xn xb k7_t1_loop.trips).2 g) b

def res7_6 (i : grid7.Coords) (xn xb : Vec F S8192x256 .bf16) (xq : Vec F S512x256 .f32) (g b : Vec F S1x256 .f32) :
    FVec F S512x256 .bf16 :=
  k7_pay2 (k7_pay8 xq (loopAcc7 (qTile7 xn i) xn xb k7_t1_loop.trips).1 (loopAcc7 (qTile7 xn i) xn xb k7_t1_loop.trips).2 g) b

theorem sound_kernel7 (c : Dev nD) (E : Set ℕ) (i : grid7.Coords) (arg1 : Memref sig .tc .vmem S8192x256 .bf16) (harg1 : arg1.IsWhole) (arg2 : Memref sig .tc .vmem S8192x256 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x256 .bf16) (harg7 : arg7.IsWhole)
    (x0 x1 : Vec F S8192x256 .bf16) (x2 : Vec F S512x256 .f32) (x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (res7_5 i x0 x1 x2 x3 x4)
            ∗ owns (c : Thread nD τ) arg7 fullShare (res7_6 i x0 x1 x2 x3 x4)) -∗ K ⟨⟩))
      ⊢ wp frame (wpE (defs₀ (F := F)) Variants.none c none) E (cc7__contra_ln_kernel i arg1 harg1 arg2 harg2 arg3 harg3 arg4 harg4 arg5 harg5 arg6 harg6 arg7 harg7) K :=
  sound_kernel4 c E i arg1 harg1 arg2 harg2 arg3 harg3 arg4 harg4 arg5 harg5 arg6 harg6 arg7 harg7 x0 x1 x2 x3 x4 K

section Regions

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_5 (c : Dev nD) (t : Fin cfg7.N) : FVec F S512x256 .f32 :=
  res7_5 (grid7.coords t) (iblk7 V c 0 t) (iblk7 V c 1 t) (iblk7 V c 2 t) (iblk7 V c 3 t) (iblk7 V c 4 t)

def out7_6 (c : Dev nD) (t : Fin cfg7.N) : FVec F S512x256 .bf16 :=
  res7_6 (grid7.coords t) (iblk7 V c 0 t) (iblk7 V c 1 t) (iblk7 V c 2 t) (iblk7 V c 3 t) (iblk7 V c 4 t)

def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 V c t
    | ⟨6, _⟩ => out7_6 V c t
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 V c t := by dsimp only [dat7]
theorem after7_6 (c : Dev nD) (t : Fin cfg7.N) : (dat7 V c).after 6 t = out7_6 V c t := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)

theorem before7_2 (c : Dev nD) (t : Fin cfg7.N) (d) : (dat7 V c).before 2 t d = iblk7 V c 2 t :=
  ((dat7 V c).before_in_eq_fetched 2 rfl (fun _ => rfl) (fun _ _ _ => rfl)
      (fun t => by rw [after7_2]; unfold Dat.blockOf iblk7; rw [A_eq7]; try rfl) t d).trans
    (by unfold Dat.fetched Dat.blockOf iblk7; rw [A_eq7]; try rfl)

theorem before7_3 (c : Dev nD) (t : Fin cfg7.N) (d) : (dat7 V c).before 3 t d = iblk7 V c 3 t :=
  ((dat7 V c).before_in_eq_fetched 3 rfl (fun _ => rfl) (fun _ _ _ => rfl)
      (fun t => by rw [after7_3]; unfold Dat.blockOf iblk7; rw [A_eq7]; try rfl) t d).trans
    (by unfold Dat.fetched Dat.blockOf iblk7; rw [A_eq7]; try rfl)

theorem before7_4 (c : Dev nD) (t : Fin cfg7.N) (d) : (dat7 V c).before 4 t d = iblk7 V c 4 t :=
  ((dat7 V c).before_in_eq_fetched 4 rfl (fun _ => rfl) (fun _ _ _ => rfl)
      (fun t => by rw [after7_4]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation7 (c : Dev nD) : BodyObligation (dat7 (F := F) V c) (defs₀ (F := F)) Variants.none () Set.univ := fun t => by
  rw [bigSep_W7, bigSep_W7]
  exact sound_body7 V c t

end Regions

end Cert.Kernel.Hand

end
-- ==== Proof.KB.Run.lean ====
import proofs.«405398_j45397804319028_3_alg».proof.Proof.Gen.Kernel.Regions
import proofs.«405398_j45397804319028_3_alg».proof.Proof.KB.R0
import proofs.«405398_j45397804319028_3_alg».proof.Proof.KB.R1
import proofs.«405398_j45397804319028_3_alg».proof.Proof.KB.R2
import proofs.«405398_j45397804319028_3_alg».proof.Proof.KB.R3
import proofs.«405398_j45397804319028_3_alg».proof.Proof.KB.R4
import proofs.«405398_j45397804319028_3_alg».proof.Proof.KB.R5
import proofs.«405398_j45397804319028_3_alg».proof.Proof.KB.R6
import proofs.«405398_j45397804319028_3_alg».proof.Proof.KB.R7
import Idealize.ShloMosaic.Lib.Pipeline.Frame
import Idealize.ShloMosaic.Lib.Pipeline.Kit
import Idealize.ShloMosaic.Lib.Pipeline.Regions
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev W0 (c : Dev nD) : Valuation τ sig (Elt F) := fun b => m (c, b)
abbrev V0' : (c : Dev nD) → (b : Ref sig .tc) → Buf (Elt F) ((c : Thread nD τ).loc b) := fun c b => W0 m c b

def W1 (c : Dev nD) : Valuation τ sig (Elt F) := StableHlo.after hostOps0 (W0 m c)
abbrev V1' : (c : Dev nD) → (b : Ref sig .tc) → Buf (Elt F) ((c : Thread nD τ).loc b) := fun c b => W1 m c b

def W2 (c : Dev nD) : Valuation τ sig (Elt F) :=
  Function.update (Function.update (W1 m c) main_v16_0 ((dat0 (V1' m) c).arrAt 1 cfg0.N)) main_v16_1 ((dat0 (V1' m) c).arrAt 2 cfg0.N)
abbrev V2' : (c : Dev nD) → (b : Ref sig .tc) → Buf (Elt F) ((c : Thread nD τ).loc b) := fun c b => W2 m c b

def W3 (c : Dev nD) : Valuation τ sig (Elt F) := StableHlo.after hostOps1 (W2 m c)
abbrev V3' : (c : Dev nD) → (b : Ref sig .tc) → Buf (Elt F) ((c : Thread nD τ).loc b) := fun c b => W3 m c b

def W4 (c : Dev nD) : Valuation τ sig (Elt F) :=
  Function.update (Function.update (W3 m c) main_v19_0 ((dat1 (V3' m) c).arrAt 5 cfg1.N)) main_v19_1 ((dat1 (V3' m) c).arrAt 6 cfg1.N)
abbrev V4' : (c : Dev nD) → (b : Ref sig .tc) → Buf (Elt F) ((c : Thread nD τ).loc b) := fun c b => W4 m c b

def W5 (c : Dev nD) : Valuation τ sig (Elt F) :=
  Function.update (W4 m c) main_v20 ((dat2 (V4' m) c).arrAt 2 cfg2.N)
abbrev V5' : (c : Dev nD) → (b : Ref sig .tc) → Buf (Elt F) ((c : Thread nD τ).loc b) := fun c b => W5 m c b

def W6 (c : Dev nD) : Valuation τ sig (Elt F) :=
  Function.update (Function.update (W5 m c) main_v21_0 ((dat3 (V5' m) c).arrAt 1 cfg3.N)) main_v21_1 ((dat3 (V5' m) c).arrAt 2 cfg3.N)
abbrev V6' : (c : Dev nD) → (b : Ref sig .tc) → Buf (Elt F) ((c : Thread nD τ).loc b) := fun c b => W6 m c b

def W7 (c : Dev nD) : Valuation τ sig (Elt F) := StableHlo.after hostOps4 (W6 m c)
abbrev V7' : (c : Dev nD) → (b : Ref sig .tc) → Buf (Elt F) ((c : Thread nD τ).loc b) := fun c b => W7 m c b

def W8 (c : Dev nD) : Valuation τ sig (Elt F) :=
  Function.update (Function.update (W7 m c) main_v24_0 ((dat4 (V7' m) c).arrAt 5 cfg4.N)) main_v24_1 ((dat4 (V7' m) c).arrAt 6 cfg4.N)
abbrev V8' : (c : Dev nD) → (b : Ref sig .tc) → Buf (Elt F) ((c : Thread nD τ).loc b) := fun c b => W8 m c b

def W9 (c : Dev nD) : Valuation τ sig (Elt F) :=
  Function.update (W8 m c) main_v25 ((dat5 (V8' m) c).arrAt 2 cfg5.N)
abbrev V9' : (c : Dev nD) → (b : Ref sig .tc) → Buf (Elt F) ((c : Thread nD τ).loc b) := fun c b => W9 m c b

def W10 (c : Dev nD) : Valuation τ sig (Elt F) :=
  Function.update (Function.update (W9 m c) main_v26_0 ((dat6 (V9' m) c).arrAt 1 cfg6.N)) main_v26_1 ((dat6 (V9' m) c).arrAt 2 cfg6.N)
abbrev V10' : (c : Dev nD) → (b : Ref sig .tc) → Buf (Elt F) ((c : Thread nD τ).loc b) := fun c b => W10 m c b

def W11 (c : Dev nD) : Valuation τ sig (Elt F) := StableHlo.after hostOps7 (W10 m c)
abbrev V11' : (c : Dev nD) → (b : Ref sig .tc) → Buf (Elt F) ((c : Thread nD τ).loc b) := fun c b => W11 m c b

def W12 (c : Dev nD) : Valuation τ sig (Elt F) :=
  Function.update (Function.update (W11 m c) main_v29_0 ((dat7 (V11' m) c).arrAt 5 cfg7.N)) main_v29_1 ((dat7 (V11' m) c).arrAt 6 cfg7.N)
abbrev V12' : (c : Dev nD) → (b : Ref sig .tc) → Buf (Elt F) ((c : Thread nD τ).loc b) := fun c b => W12 m c b

def W13 (c : Dev nD) : Valuation τ sig (Elt F) := StableHlo.after hostOps8 (W12 m c)
abbrev V13' : (c : Dev nD) → (b : Ref sig .tc) → Buf (Elt F) ((c : Thread nD τ).loc b) := fun c b => W13 m c b

section Upd

variable (W : Valuation τ sig (Elt F)) {r0 r1 : Ref sig .tc}
  (a : (Proc.devRef .tc r0 : DevRef τ sig).ty.Contents (Elt F)) (b : (Proc.devRef .tc r1 : DevRef τ sig).ty.Contents (Elt F))

-- Writing two distinct buffers leaves the first written value in the first, and every other buffer as it was.
theorem upd2_fst (h : r0 ≠ r1) : Function.update (Function.update W r0 a) r1 b r0 = a := by
  rw [Function.update_of_ne (StableHlo.devRef_ne_of_ne h), Function.update_self]

theorem upd2_of (r : Ref sig .tc) (h : r ∉ [r0, r1]) : Function.update (Function.update W r0 a) r1 b r = W r := by
  rw [Function.update_of_ne (StableHlo.devRef_ne_of_ne (List.ne_of_not_mem_cons (List.not_mem_of_not_mem_cons h))),
    Function.update_of_ne (StableHlo.devRef_ne_of_ne (List.ne_of_not_mem_cons h))]

theorem upd1_of (r : Ref sig .tc) (h : r ∉ [r0]) : Function.update W r0 a r = W r :=
  Function.update_of_ne (StableHlo.devRef_ne_of_ne (List.ne_of_not_mem_cons h)) _ _

end Upd

theorem W2_main_v16_0 (c : Dev nD) : W2 m c main_v16_0 = (dat0 (V1' m) c).arrAt 1 cfg0.N := upd2_fst _ _ _ (by decide)
theorem W2_main_v16_1 (c : Dev nD) : W2 m c main_v16_1 = (dat0 (V1' m) c).arrAt 2 cfg0.N := Function.update_self ..
theorem W2_of (c : Dev nD) (r : Ref sig .tc) (h : r ∉ ([main_v16_0, main_v16_1] : List (Ref sig .tc))) : W2 m c r = W1 m c r := upd2_of _ _ _ r h

theorem hF0 (c : Dev nD) : ∀ w : Fin cfg0.W, (dat0 (V1' m) c).arrAt w cfg0.N = V2' m c (Pipeline.arrRef spec0 w) := fun
  | 0 => ((dat0 (V1' m) c).arrAt_in 0 rfl _).trans ((A_eq0 (V1' m) c 0).trans (W2_of m c _ (by decide)).symm)
  | 1 => (W2_main_v16_0 m c).symm
  | 2 => (W2_main_v16_1 m c).symm
  | ⟨_ + 3, h⟩ => absurd h (Nat.not_lt.2 (Nat.le_add_left _ _))

theorem hrest0 (c : Dev nD) : ∀ b, b ∉ Finset.univ.image (Pipeline.arrRef spec0) → V2' m c b = V1' m c b :=
  fun b hb => W2_of m c b fun hmem => by
    rcases List.mem_cons.mp hmem with rfl | hmem
    · exact hb (Finset.mem_image.mpr ⟨1, Finset.mem_univ _, rfl⟩)
    rcases List.mem_cons.mp hmem with rfl | hmem
    · exact hb (Finset.mem_image.mpr ⟨2, Finset.mem_univ _, rfl⟩)
    exact absurd hmem (by simp)

theorem W4_main_v19_0 (c : Dev nD) : W4 m c main_v19_0 = (dat1 (V3' m) c).arrAt 5 cfg1.N := upd2_fst _ _ _ (by decide)
theorem W4_main_v19_1 (c : Dev nD) : W4 m c main_v19_1 = (dat1 (V3' m) c).arrAt 6 cfg1.N := Function.update_self ..
theorem W4_of (c : Dev nD) (r : Ref sig .tc) (h : r ∉ ([main_v19_0, main_v19_1] : List (Ref sig .tc))) : W4 m c r = W3 m c r := upd2_of _ _ _ r h

theorem hF1 (c : Dev nD) : ∀ w : Fin cfg1.W, (dat1 (V3' m) c).arrAt w cfg1.N = V4' m c (Pipeline.arrRef spec1 w) := fun
  | 0 => ((dat1 (V3' m) c).arrAt_in 0 rfl _).trans ((A_eq1 (V3' m) c 0).trans (W4_of m c _ (by decide)).symm)
  | 1 => ((dat1 (V3' m) c).arrAt_in 1 rfl _).trans ((A_eq1 (V3' m) c 1).trans (W4_of m c _ (by decide)).symm)
  | 2 => ((dat1 (V3' m) c).arrAt_in 2 rfl _).trans ((A_eq1 (V3' m) c 2).trans (W4_of m c _ (by decide)).symm)
  | 3 => ((dat1 (V3' m) c).arrAt_in 3 rfl _).trans ((A_eq1 (V3' m) c 3).trans (W4_of m c _ (by decide)).symm)
  | 4 => ((dat1 (V3' m) c).arrAt_in 4 rfl _).trans ((A_eq1 (V3' m) c 4).trans (W4_of m c _ (by decide)).symm)
  | 5 => (W4_main_v19_0 m c).symm
  | 6 => (W4_main_v19_1 m c).symm
  | ⟨_ + 7, h⟩ => absurd h (Nat.not_lt.2 (Nat.le_add_left _ _))

theorem hrest1 (c : Dev nD) : ∀ b, b ∉ Finset.univ.image (Pipeline.arrRef spec1) → V4' m c b = V3' m c b :=
  fun b hb => W4_of m c b fun hmem => by
    rcases List.mem_cons.mp hmem with rfl | hmem
    · exact hb (Finset.mem_image.mpr ⟨5, Finset.mem_univ _, rfl⟩)
    rcases List.mem_cons.mp hmem with rfl | hmem
    · exact hb (Finset.mem_image.mpr ⟨6, Finset.mem_univ _, rfl⟩)
    exact absurd hmem (by simp)

theorem W5_main_v20 (c : Dev nD) : W5 m c main_v20 = (dat2 (V4' m) c).arrAt 2 cfg2.N := Function.update_self ..
theorem W5_of (c : Dev nD) (r : Ref sig .tc) (h : r ∉ ([main_v20] : List (Ref sig .tc))) : W5 m c r = W4 m c r := upd1_of _ _ r h

theorem hF2 (c : Dev nD) : ∀ w : Fin cfg2.W, (dat2 (V4' m) c).arrAt w cfg2.N = V5' m c (Pipeline.arrRef spec2 w) := fun
  | 0 => ((dat2 (V4' m) c).arrAt_in 0 rfl _).trans ((A_eq2 (V4' m) c 0).trans (W5_of m c _ (by decide)).symm)
  | 1 => ((dat2 (V4' m) c).arrAt_in 1 rfl _).trans ((A_eq2 (V4' m) c 1).trans (W5_of m c _ (by decide)).symm)
  | 2 => (W5_main_v20 m c).symm
  | ⟨_ + 3, h⟩ => absurd h (Nat.not_lt.2 (Nat.le_add_left _ _))

theorem hrest2 (c : Dev nD) : ∀ b, b ∉ Finset.univ.image (Pipeline.arrRef spec2) → V5' m c b = V4' m c b :=
  fun b hb => W5_of m c b fun hmem => by
    rcases List.mem_cons.mp hmem with rfl | hmem
    · exact hb (Finset.mem_image.mpr ⟨2, Finset.mem_univ _, rfl⟩)
    exact absurd hmem (by simp)

theorem W6_main_v21_0 (c : Dev nD) : W6 m c main_v21_0 = (dat3 (V5' m) c).arrAt 1 cfg3.N := upd2_fst _ _ _ (by decide)
theorem W6_main_v21_1 (c : Dev nD) : W6 m c main_v21_1 = (dat3 (V5' m) c).arrAt 2 cfg3.N := Function.update_self ..
theorem W6_of (c : Dev nD) (r : Ref sig .tc) (h : r ∉ ([main_v21_0, main_v21_1] : List (Ref sig .tc))) : W6 m c r = W5 m c r := upd2_of _ _ _ r h

theorem hF3 (c : Dev nD) : ∀ w : Fin cfg3.W, (dat3 (V5' m) c).arrAt w cfg3.N = V6' m c (Pipeline.arrRef spec3 w) := fun
  | 0 => ((dat3 (V5' m) c).arrAt_in 0 rfl _).trans ((A_eq3 (V5' m) c 0).trans (W6_of m c _ (by decide)).symm)
  | 1 => (W6_main_v21_0 m c).symm
  | 2 => (W6_main_v21_1 m c).symm
  | ⟨_ + 3, h⟩ => absurd h (Nat.not_lt.2 (Nat.le_add_left _ _))

theorem hrest3 (c : Dev nD) : ∀ b, b ∉ Finset.univ.image (Pipeline.arrRef spec3) → V6' m c b = V5' m c b :=
  fun b hb => W6_of m c b fun hmem => by
    rcases List.mem_cons.mp hmem with rfl | hmem
    · exact hb (Finset.mem_image.mpr ⟨1, Finset.mem_univ _, rfl⟩)
    rcases List.mem_cons.mp hmem with rfl | hmem
    · exact hb (Finset.mem_image.mpr ⟨2, Finset.mem_univ _, rfl⟩)
    exact absurd hmem (by simp)

theorem W8_main_v24_0 (c : Dev nD) : W8 m c main_v24_0 = (dat4 (V7' m) c).arrAt 5 cfg4.N := upd2_fst _ _ _ (by decide)
theorem W8_main_v24_1 (c : Dev nD) : W8 m c main_v24_1 = (dat4 (V7' m) c).arrAt 6 cfg4.N := Function.update_self ..
theorem W8_of (c : Dev nD) (r : Ref sig .tc) (h : r ∉ ([main_v24_0, main_v24_1] : List (Ref sig .tc))) : W8 m c r = W7 m c r := upd2_of _ _ _ r h

theorem hF4 (c : Dev nD) : ∀ w : Fin cfg4.W, (dat4 (V7' m) c).arrAt w cfg4.N = V8' m c (Pipeline.arrRef spec4 w) := fun
  | 0 => ((dat4 (V7' m) c).arrAt_in 0 rfl _).trans ((A_eq4 (V7' m) c 0).trans (W8_of m c _ (by decide)).symm)
  | 1 => ((dat4 (V7' m) c).arrAt_in 1 rfl _).trans ((A_eq4 (V7' m) c 1).trans (W8_of m c _ (by decide)).symm)
  | 2 => ((dat4 (V7' m) c).arrAt_in 2 rfl _).trans ((A_eq4 (V7' m) c 2).trans (W8_of m c _ (by decide)).symm)
  | 3 => ((dat4 (V7' m) c).arrAt_in 3 rfl _).trans ((A_eq4 (V7' m) c 3).trans (W8_of m c _ (by decide)).symm)
  | 4 => ((dat4 (V7' m) c).arrAt_in 4 rfl _).trans ((A_eq4 (V7' m) c 4).trans (W8_of m c _ (by decide)).symm)
  | 5 => (W8_main_v24_0 m c).symm
  | 6 => (W8_main_v24_1 m c).symm
  | ⟨_ + 7, h⟩ => absurd h (Nat.not_lt.2 (Nat.le_add_left _ _))

theorem hrest4 (c : Dev nD) : ∀ b, b ∉ Finset.univ.image (Pipeline.arrRef spec4) → V8' m c b = V7' m c b :=
  fun b hb => W8_of m c b fun hmem => by
    rcases List.mem_cons.mp hmem with rfl | hmem
    · exact hb (Finset.mem_image.mpr ⟨5, Finset.mem_univ _, rfl⟩)
    rcases List.mem_cons.mp hmem with rfl | hmem
    · exact hb (Finset.mem_image.mpr ⟨6, Finset.mem_univ _, rfl⟩)
    exact absurd hmem (by simp)

theorem W9_main_v25 (c : Dev nD) : W9 m c main_v25 = (dat5 (V8' m) c).arrAt 2 cfg5.N := Function.update_self ..
theorem W9_of (c : Dev nD) (r : Ref sig .tc) (h : r ∉ ([main_v25] : List (Ref sig .tc))) : W9 m c r = W8 m c r := upd1_of _ _ r h

theorem hF5 (c : Dev nD) : ∀ w : Fin cfg5.W, (dat5 (V8' m) c).arrAt w cfg5.N = V9' m c (Pipeline.arrRef spec5 w) := fun
  | 0 => ((dat5 (V8' m) c).arrAt_in 0 rfl _).trans ((A_eq5 (V8' m) c 0).trans (W9_of m c _ (by decide)).symm)
  | 1 => ((dat5 (V8' m) c).arrAt_in 1 rfl _).trans ((A_eq5 (V8' m) c 1).trans (W9_of m c _ (by decide)).symm)
  | 2 => (W9_main_v25 m c).symm
  | ⟨_ + 3, h⟩ => absurd h (Nat.not_lt.2 (Nat.le_add_left _ _))

theorem hrest5 (c : Dev nD) : ∀ b, b ∉ Finset.univ.image (Pipeline.arrRef spec5) → V9' m c b = V8' m c b :=
  fun b hb => W9_of m c b fun hmem => by
    rcases List.mem_cons.mp hmem with rfl | hmem
    · exact hb (Finset.mem_image.mpr ⟨2, Finset.mem_univ _, rfl⟩)
    exact absurd hmem (by simp)

theorem W10_main_v26_0 (c : Dev nD) : W10 m c main_v26_0 = (dat6 (V9' m) c).arrAt 1 cfg6.N := upd2_fst _ _ _ (by decide)
theorem W10_main_v26_1 (c : Dev nD) : W10 m c main_v26_1 = (dat6 (V9' m) c).arrAt 2 cfg6.N := Function.update_self ..
theorem W10_of (c : Dev nD) (r : Ref sig .tc) (h : r ∉ ([main_v26_0, main_v26_1] : List (Ref sig .tc))) : W10 m c r = W9 m c r := upd2_of _ _ _ r h

theorem hF6 (c : Dev nD) : ∀ w : Fin cfg6.W, (dat6 (V9' m) c).arrAt w cfg6.N = V10' m c (Pipeline.arrRef spec6 w) := fun
  | 0 => ((dat6 (V9' m) c).arrAt_in 0 rfl _).trans ((A_eq6 (V9' m) c 0).trans (W10_of m c _ (by decide)).symm)
  | 1 => (W10_main_v26_0 m c).symm
  | 2 => (W10_main_v26_1 m c).symm
  | ⟨_ + 3, h⟩ => absurd h (Nat.not_lt.2 (Nat.le_add_left _ _))

theorem hrest6 (c : Dev nD) : ∀ b, b ∉ Finset.univ.image (Pipeline.arrRef spec6) → V10' m c b = V9' m c b :=
  fun b hb => W10_of m c b fun hmem => by
    rcases List.mem_cons.mp hmem with rfl | hmem
    · exact hb (Finset.mem_image.mpr ⟨1, Finset.mem_univ _, rfl⟩)
    rcases List.mem_cons.mp hmem with rfl | hmem
    · exact hb (Finset.mem_image.mpr ⟨2, Finset.mem_univ _, rfl⟩)
    exact absurd hmem (by simp)

theorem W12_main_v29_0 (c : Dev nD) : W12 m c main_v29_0 = (dat7 (V11' m) c).arrAt 5 cfg7.N := upd2_fst _ _ _ (by decide)
theorem W12_main_v29_1 (c : Dev nD) : W12 m c main_v29_1 = (dat7 (V11' m) c).arrAt 6 cfg7.N := Function.update_self ..
theorem W12_of (c : Dev nD) (r : Ref sig .tc) (h : r ∉ ([main_v29_0, main_v29_1] : List (Ref sig .tc))) : W12 m c r = W11 m c r := upd2_of _ _ _ r h

theorem hF7 (c : Dev nD) : ∀ w : Fin cfg7.W, (dat7 (V11' m) c).arrAt w cfg7.N = V12' m c (Pipeline.arrRef spec7 w) := fun
  | 0 => ((dat7 (V11' m) c).arrAt_in 0 rfl _).trans ((A_eq7 (V11' m) c 0).trans (W12_of m c _ (by decide)).symm)
  | 1 => ((dat7 (V11' m) c).arrAt_in 1 rfl _).trans ((A_eq7 (V11' m) c 1).trans (W12_of m c _ (by decide)).symm)
  | 2 => ((dat7 (V11' m) c).arrAt_in 2 rfl _).trans ((A_eq7 (V11' m) c 2).trans (W12_of m c _ (by decide)).symm)
  | 3 => ((dat7 (V11' m) c).arrAt_in 3 rfl _).trans ((A_eq7 (V11' m) c 3).trans (W12_of m c _ (by decide)).symm)
  | 4 => ((dat7 (V11' m) c).arrAt_in 4 rfl _).trans ((A_eq7 (V11' m) c 4).trans (W12_of m c _ (by decide)).symm)
  | 5 => (W12_main_v29_0 m c).symm
  | 6 => (W12_main_v29_1 m c).symm
  | ⟨_ + 7, h⟩ => absurd h (Nat.not_lt.2 (Nat.le_add_left _ _))

theorem hrest7 (c : Dev nD) : ∀ b, b ∉ Finset.univ.image (Pipeline.arrRef spec7) → V12' m c b = V11' m c b :=
  fun b hb => W12_of m c b fun hmem => by
    rcases List.mem_cons.mp hmem with rfl | hmem
    · exact hb (Finset.mem_image.mpr ⟨5, Finset.mem_univ _, rfl⟩)
    rcases List.mem_cons.mp hmem with rfl | hmem
    · exact hb (Finset.mem_image.mpr ⟨6, Finset.mem_univ _, rfl⟩)
    exact absurd hmem (by simp)

def Wn : ℕ → Dev nD → Valuation τ sig (Elt F)
  | 0 => W0 m | 1 => W1 m | 2 => W2 m | 3 => W3 m | 4 => W4 m | 5 => W5 m | 6 => W6 m | 7 => W7 m
  | 8 => W8 m | 9 => W9 m | 10 => W10 m | 11 => W11 m | 12 => W12 m | _ => W13 m

def outs : Gen.Outs (F := F) := fun J r c => Wn m J c (Proc.devRef .tc r)

theorem V_eq_0 (c : Dev nD) : Gen.V0 m c = W0 m c := rfl
theorem V_eq_1 (c : Dev nD) : Gen.V1 m c = W1 m c := by
  show StableHlo.after hostOps0 (Gen.V0 m c) = _
  rw [V_eq_0]; rfl
theorem V_eq_2 (c : Dev nD) : Gen.V2 m (outs m) c = W2 m c := by
  show Function.update (Function.update (Gen.V1 m c) main_v16_0 (W2 m c main_v16_0)) main_v16_1 (W2 m c main_v16_1) = _
  rw [V_eq_1, W2_main_v16_0, W2_main_v16_1]; rfl
theorem V_eq_3 (c : Dev nD) : Gen.V3 m (outs m) c = W3 m c := by
  show StableHlo.after hostOps1 (Gen.V2 m (outs m) c) = _
  rw [V_eq_2]; rfl
theorem V_eq_4 (c : Dev nD) : Gen.V4 m (outs m) c = W4 m c := by
  show Function.update (Function.update (Gen.V3 m (outs m) c) main_v19_0 (W4 m c main_v19_0)) main_v19_1 (W4 m c main_v19_1) = _
  rw [V_eq_3, W4_main_v19_0, W4_main_v19_1]; rfl
theorem V_eq_5 (c : Dev nD) : Gen.V5 m (outs m) c = W5 m c := by
  show Function.update (Gen.V4 m (outs m) c) main_v20 (W5 m c main_v20) = _
  rw [V_eq_4, W5_main_v20]; rfl
theorem V_eq_6 (c : Dev nD) : Gen.V6 m (outs m) c = W6 m c := by
  show Function.update (Function.update (Gen.V5 m (outs m) c) main_v21_0 (W6 m c main_v21_0)) main_v21_1 (W6 m c main_v21_1) = _
  rw [V_eq_5, W6_main_v21_0, W6_main_v21_1]; rfl
theorem V_eq_7 (c : Dev nD) : Gen.V7 m (outs m) c = W7 m c := by
  show StableHlo.after hostOps4 (Gen.V6 m (outs m) c) = _
  rw [V_eq_6]; rfl
theorem V_eq_8 (c : Dev nD) : Gen.V8 m (outs m) c = W8 m c := by
  show Function.update (Function.update (Gen.V7 m (outs m) c) main_v24_0 (W8 m c main_v24_0)) main_v24_1 (W8 m c main_v24_1) = _
  rw [V_eq_7, W8_main_v24_0, W8_main_v24_1]; rfl
theorem V_eq_9 (c : Dev nD) : Gen.V9 m (outs m) c = W9 m c := by
  show Function.update (Gen.V8 m (outs m) c) main_v25 (W9 m c main_v25) = _
  rw [V_eq_8, W9_main_v25]; rfl
theorem V_eq_10 (c : Dev nD) : Gen.V10 m (outs m) c = W10 m c := by
  show Function.update (Function.update (Gen.V9 m (outs m) c) main_v26_0 (W10 m c main_v26_0)) main_v26_1 (W10 m c main_v26_1) = _
  rw [V_eq_9, W10_main_v26_0, W10_main_v26_1]; rfl
theorem V_eq_11 (c : Dev nD) : Gen.V11 m (outs m) c = W11 m c := by
  show StableHlo.after hostOps7 (Gen.V10 m (outs m) c) = _
  rw [V_eq_10]; rfl
theorem V_eq_12 (c : Dev nD) : Gen.V12 m (outs m) c = W12 m c := by
  show Function.update (Function.update (Gen.V11 m (outs m) c) main_v29_0 (W12 m c main_v29_0)) main_v29_1 (W12 m c main_v29_1) = _
  rw [V_eq_11, W12_main_v29_0, W12_main_v29_1]; rfl
theorem V_eq_13 (c : Dev nD) : Gen.V13 m (outs m) c = W13 m c := by
  show StableHlo.after hostOps8 (Gen.V12 m (outs m) c) = _
  rw [V_eq_12]; rfl

def pdats : (p : Fin 8) → (c : Dev nD) → Dat τ (Elt F) Unit ℕ (Pipeline.UD sig nD τ) ℕ (Pipeline.pin (pcfgs (F := F)) adm p) c
  | ⟨0, _⟩ => fun c => dat0 (V1' m) c
  | ⟨1, _⟩ => fun c => dat1 (V3' m) c
  | ⟨2, _⟩ => fun c => dat2 (V4' m) c
  | ⟨3, _⟩ => fun c => dat3 (V5' m) c
  | ⟨4, _⟩ => fun c => dat4 (V7' m) c
  | ⟨5, _⟩ => fun c => dat5 (V8' m) c
  | ⟨6, _⟩ => fun c => dat6 (V9' m) c
  | ⟨7, _⟩ => fun c => dat7 (V11' m) c

abbrev runL : GSem nD τ sig → Finset Unit := fun _ => ∅
abbrev runLv : GSem nD τ sig → Unit → ℕ := fun _ _ => 0

abbrev Rest (c : Dev nD) : sProp 𝕄 := iprop((∃ r, prngReg c r) ∗ ∃ W, owes (c : Thread nD τ) (0 : CellTallies nD τ sig Unit) W)

abbrev St (Wv : Dev nD → Valuation τ sig (Elt F)) (c : Dev nD) : sProp 𝕄 :=
  iprop(StableHlo.held (c : Thread nD τ) (Pipeline.ucRefs τ sig) (Wv c) ∗ Rest c)

abbrev hseg (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := Pipeline.UD sig nD τ) (pcfgs (F := F)) defs₀ Variants.none runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv Rest

section Protocol

variable (pd : (p : Fin 8) → (c : Dev nD) → Dat τ (Elt F) Unit ℕ (Pipeline.UD sig nD τ) ℕ (Pipeline.pin (pcfgs (F := F)) adm p) c)

theorem owes_in {p : Fin 8} {c : Dev nD} (t : Fin ((Pipeline.pin (pcfgs (F := F)) adm p).N + 1))
    (ho : (pd p c).owed t = 0) (hr : (pd p c).recorded t = Set.univ) :
    (iprop(∃ W, owes (c : Thread nD τ) (0 : CellTallies nD τ sig Unit) W) : sProp 𝕄) ⊢ (pd p c).owesAt () t := by
  unfold Pipeline.Dat.owesAt Pipeline.owesWithin Pipeline.Dat.bound
  rw [ho, hr]
  iintro ⟨%W, HO⟩
  iexists W
  isplitr
  · ipureintro; exact fun _ _ => Or.inl trivial
  iexact HO

theorem owes_out {p : Fin 8} {c : Dev nD} (t : Fin ((Pipeline.pin (pcfgs (F := F)) adm p).N + 1))
    (ho : (pd p c).owed t = 0) :
    (pd p c).owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

theorem noTables (p : Fin 8) (c : Dev nD) :
    (BI.emp : sProp 𝕄) ⊢ Pipeline.prefHeld (pcfgs (F := F) p).pre c (fun _ => fullShare) (adm p).1 := by
  unfold Pipeline.prefHeld
  rw [show (Finset.univ : Finset (Fin 0)) = ∅ from rfl, BI.bigSep_empty]

set_option backward.isDefEq.respectTransparency.types false in

theorem enter (p : Fin 8) (hw : Pipeline.WinFacts (Pipeline.pin (pcfgs (F := F)) adm p).spec)
    (harr : ∀ w, ((Pipeline.pin (pcfgs (F := F)) adm p).spec w).arr.IsWhole) (c : Dev nD)
    (Vv : (b : Ref sig .tc) → Buf (Elt F) ((c : Thread nD τ).loc b))
    (hA : ∀ w, (pd p c).A w = Vv (Pipeline.arrRef (Pipeline.pin (pcfgs (F := F)) adm p).spec w))
    (hq : ∀ w, (pd p c).q w = fullShare) (ho : (pd p c).owed 0 = 0) (hr : (pd p c).recorded 0 = Set.univ) :
    (iprop(iprop(unscopedBufs (Ix := Unit) (Name := ℕ) (U := Pipeline.UD sig nD τ) (Lvl := ℕ) c Vv ∗ Rest c)
        ∗ Pipeline.ownSems0 (fun k : PEmpty => k.elim) c ∗ levAts runL runLv) : sProp 𝕄)
      ⊢ |={Set.univ}=> iprop((pd p c).arrays ((pd p c).arrAt · 0) ∗ Pipeline.prefHeld (pcfgs (F := F) p).pre c (fun _ => fullShare) (adm p).1
          ∗ (pd p c).owesAt () 0 ∗ (∃ r, prngReg c r)
          ∗ Pipeline.unscopedRest (Ix := Unit) (Name := ℕ) (U := Pipeline.UD sig nD τ) (Lvl := ℕ) (Pipeline.pin (pcfgs (F := F)) adm p).spec c Vv) := by
  have hsplit := Pipeline.arrays_of_unscopedBufs (p := p) (pcfgs (F := F)) adm pd hw harr c ((pd p c).share_full hq) Vv hA
  iintro ⟨⟨Hub, Hp, HO⟩, -, -⟩
  ihave H := hsplit $$ Hub
  icases H with ⟨Ha, Hrest⟩
  imodintro
  isplitl [Ha]; · iexact Ha
  isplitr
  · iapply (noTables p c); iempintro
  isplitl [HO]
  · iapply (owes_in pd 0 ho hr); iexact HO
  isplitl [Hp]; · iexact Hp
  iexact Hrest

set_option backward.isDefEq.respectTransparency.types false in

theorem leave (p : Fin 8) (hw : Pipeline.WinFacts (Pipeline.pin (pcfgs (F := F)) adm p).spec)
    (harr : ∀ w, ((Pipeline.pin (pcfgs (F := F)) adm p).spec w).arr.IsWhole) (c : Dev nD)
    (Vv Vv' : (b : Ref sig .tc) → Buf (Elt F) ((c : Thread nD τ).loc b))
    (hq : ∀ w, (pd p c).q w = fullShare) (ho : (pd p c).owed (Fin.last _) = 0)
    (hF : ∀ w, (pd p c).arrAt w (Pipeline.pin (pcfgs (F := F)) adm p).N = Vv' (Pipeline.arrRef (Pipeline.pin (pcfgs (F := F)) adm p).spec w))
    (hrest : ∀ b, b ∉ Finset.univ.image (Pipeline.arrRef (Pipeline.pin (pcfgs (F := F)) adm p).spec) → Vv' b = Vv b) :
    (iprop((pd p c).arrays ((pd p c).arrAt · (Pipeline.pin (pcfgs (F := F)) adm p).N) ∗ (pd p c).owesAt () (Fin.last (Pipeline.pin (pcfgs (F := F)) adm p).N)
        ∗ (∃ r, prngReg c r)
        ∗ Pipeline.unscopedRest (Ix := Unit) (Name := ℕ) (U := Pipeline.UD sig nD τ) (Lvl := ℕ) (Pipeline.pin (pcfgs (F := F)) adm p).spec c Vv) : sProp 𝕄)
      ⊢ |={Set.univ}=> iprop(unscopedBufs (Ix := Unit) (Name := ℕ) (U := Pipeline.UD sig nD τ) (Lvl := ℕ) c Vv' ∗ Rest c) := by
  have hjoin := Pipeline.unscopedBufs_of_arrays (p := p) (pcfgs (F := F)) adm (Ix := Unit) (Name := ℕ) (U := Pipeline.UD sig nD τ) (Lvl := ℕ)
    hw harr c pd ((pd p c).share_full hq) Vv Vv' ((pd p c).arrAt · (Pipeline.pin (pcfgs (F := F)) adm p).N) hF hrest
  iintro ⟨Ha, HO, Hp, Hrest⟩
  imodintro
  isplitl [Ha Hrest]
  · iapply hjoin; isplitl [Ha] <;> iassumption
  isplitl [Hp]; · iexact Hp
  iapply (owes_out pd _ ho); iexact HO

end Protocol

section Protocol2

variable (pd : (p : Fin 8) → (c : Dev nD) → Dat τ (Elt F) Unit ℕ (Pipeline.UD sig nD τ) ℕ (Pipeline.pin (pcfgs (F := F)) adm p) c)

theorem inv_in (p : Fin 8) (c : Dev nD)
    (h : (iprop(Pipeline.scopedRest (Ix := Unit) (Name := ℕ) (U := Pipeline.UD sig nD τ) (Lvl := ℕ) (Val := Elt F) (Pipeline.pin (pcfgs (F := F)) adm p).spec c ∗ ∃ r, prngReg c r) : sProp 𝕄)
      ⊢ (pd p c).Φ 0) :
    (iprop((∃ r, prngReg c r) ∗ Pipeline.prefHeld (pcfgs (F := F) p).pre c (fun _ => fullShare) (adm p).1
        ∗ Pipeline.scopedRest (Ix := Unit) (Name := ℕ) (U := Pipeline.UD sig nD τ) (Lvl := ℕ) (Val := Elt F) (Pipeline.pin (pcfgs (F := F)) adm p).spec c) : sProp 𝕄)
      ⊢ (pd p c).Φ 0 := by
  iintro ⟨Hp, -, Hr⟩
  iapply h
  isplitl [Hr]; · iexact Hr
  iexact Hp

theorem inv_out (p : Fin 8) (c : Dev nD)
    (h : (pd p c).Φ (Fin.last (Pipeline.pin (pcfgs (F := F)) adm p).N)
      ⊢ (iprop(Pipeline.scopedRest (Ix := Unit) (Name := ℕ) (U := Pipeline.UD sig nD τ) (Lvl := ℕ) (Val := Elt F) (Pipeline.pin (pcfgs (F := F)) adm p).spec c ∗ ∃ r, prngReg c r) : sProp 𝕄)) :
    (pd p c).Φ (Fin.last (Pipeline.pin (pcfgs (F := F)) adm p).N)
      ⊢ (iprop((∃ r, prngReg c r) ∗ Pipeline.ownSems0 (fun k : PEmpty => k.elim) c
        ∗ Pipeline.scopedRest (Ix := Unit) (Name := ℕ) (U := Pipeline.UD sig nD τ) (Lvl := ℕ) (Val := Elt F) (Pipeline.pin (pcfgs (F := F)) adm p).spec c) : sProp 𝕄) := by
  rw [Pipeline.ownSems0_none]
  iintro H
  ihave H' := h $$ H
  icases H' with ⟨Hr, Hp⟩
  isplitl [Hp]; · iexact Hp
  isplitr; · iempintro
  iexact Hr

end Protocol2

abbrev VofW (Wv : Dev nD → Valuation τ sig (Elt F)) : (c : Dev nD) → (b : Ref sig .tc) → Buf (Elt F) ((c : Thread nD τ).loc b) :=
  fun c b => Wv c b

set_option backward.isDefEq.respectTransparency.types false in
-- A kernel region as a segment of the run: its launch facts, its body's obligation, the buffers' contents before and after it, the invariant at its two ends.
def mkReg (p : Fin 8) (hw : Pipeline.WinFacts (Pipeline.pin (pcfgs (F := F)) adm p).spec)
    (harr : ∀ w, ((Pipeline.pin (pcfgs (F := F)) adm p).spec w).arr.IsWhole)
    (hpos : ∀ w : Fin (pcfgs (F := F) p).W, 0 < ((pcfgs (F := F) p).spec w).block.numel)
    (hst : ∀ (w : Fin (pcfgs (F := F) p).W) (s : Fin ((pcfgs (F := F) p).spec w).nbuf), (((pcfgs (F := F) p).spec w).stage s).IsWhole)
    (Wi Wo : Dev nD → Valuation τ sig (Elt F))
    (hb : ∀ c, BodyObligation (pdats m p c) (defs₀ (F := F)) Variants.none () Set.univ)
    (hA : ∀ c w, (pdats m p c).A w = VofW Wi c (Pipeline.arrRef (Pipeline.pin (pcfgs (F := F)) adm p).spec w))
    (hq : ∀ c w, (pdats m p c).q w = fullShare) (howed : ∀ c t, (pdats m p c).owed t = 0)
    (hrec : ∀ c, (pdats m p c).recorded 0 = Set.univ)
    (hΦi : ∀ c, (iprop(Pipeline.scopedRest (Ix := Unit) (Name := ℕ) (U := Pipeline.UD sig nD τ) (Lvl := ℕ) (Val := Elt F) (Pipeline.pin (pcfgs (F := F)) adm p).spec c ∗ ∃ r, prngReg c r) : sProp 𝕄)
      ⊢ (pdats m p c).Φ 0)
    (hΦo : ∀ c, (pdats m p c).Φ (Fin.last (Pipeline.pin (pcfgs (F := F)) adm p).N)
      ⊢ (iprop(Pipeline.scopedRest (Ix := Unit) (Name := ℕ) (U := Pipeline.UD sig nD τ) (Lvl := ℕ) (Val := Elt F) (Pipeline.pin (pcfgs (F := F)) adm p).spec c ∗ ∃ r, prngReg c r) : sProp 𝕄))
    (hF : ∀ c w, (pdats m p c).arrAt w (Pipeline.pin (pcfgs (F := F)) adm p).N = VofW Wo c (Pipeline.arrRef (Pipeline.pin (pcfgs (F := F)) adm p).spec w))
    (hrest : ∀ c b, b ∉ Finset.univ.image (Pipeline.arrRef (Pipeline.pin (pcfgs (F := F)) adm p).spec) → VofW Wo c b = VofW Wi c b) :
    Pipeline.RegionSeg (pcfgs (F := F)) adm (pdats m) () defs₀ Variants.none runL runLv p where
  win := hw.to₀
  block_pos := hpos
  stage_whole := hst
  K := PEmpty
  osem k := k.elim
  ho := Pipeline.OwnSemFacts.none _
  hbody c := (hb c).loose
  hwaits := Pipeline.hwaits_of_owed_zero _ _ _ _ runL runLv p howed
  pre := St Wi
  post := St Wo
  X c := iprop(∃ r, prngReg c r)
  Y c := iprop(∃ r, prngReg c r)
  Z c := Pipeline.unscopedRest (Ix := Unit) (Name := ℕ) (U := Pipeline.UD sig nD τ) (Lvl := ℕ) (Pipeline.pin (pcfgs (F := F)) adm p).spec c (VofW Wi c)
  hentry c := by
    have h := enter (pdats m) p hw harr c (VofW Wi c) (hA c) (hq c) (howed c 0) (hrec c)
    rw [Pipeline.unscopedBufs_held] at h
    exact h
  hin c := inv_in (pdats m) p c (hΦi c)
  hout c := inv_out (pdats m) p c (hΦo c)
  hexit c := by
    have h := leave (pdats m) p hw harr c (VofW Wi c) (VofW Wo c) (hq c) (howed c _) (hF c) (hrest c)
    rw [Pipeline.unscopedBufs_held] at h
    exact h

set_option backward.isDefEq.respectTransparency.types false in

def reg0 : Pipeline.RegionSeg (pcfgs (F := F)) adm (pdats m) () defs₀ Variants.none runL runLv 0 :=
  mkReg m 0 launch0.win launch0.arr_whole launch0.block_pos launch0.stage_whole (W1 m) (W2 m)
    (body_obligation0 (V1' m)) (A_eq0 (V1' m)) (fun _ _ => rfl) (fun _ _ => rfl) (fun _ => rfl)
    (fun c => by rw [show (pdats m 0 c).Φ 0 = Pipeline.ΦA spec0 c from rfl]; unfold Pipeline.ΦA; exact .rfl)
    (fun c => by rw [show (pdats m 0 c).Φ (Fin.last _) = Pipeline.ΦA spec0 c from rfl]; unfold Pipeline.ΦA; exact .rfl)
    (hF0 m) (hrest0 m)

set_option backward.isDefEq.respectTransparency.types false in

def reg1 : Pipeline.RegionSeg (pcfgs (F := F)) adm (pdats m) () defs₀ Variants.none runL runLv 1 :=
  mkReg m 1 launch1.win launch1.arr_whole launch1.block_pos launch1.stage_whole (W3 m) (W4 m)
    (body_obligation1 (V3' m)) (A_eq1 (V3' m)) (fun _ _ => rfl) (fun _ _ => rfl) (fun _ => rfl)
    (fun c => by rw [show (pdats m 1 c).Φ 0 = Pipeline.ΦA spec1 c from rfl]; unfold Pipeline.ΦA; exact .rfl)
    (fun c => by rw [show (pdats m 1 c).Φ (Fin.last _) = Pipeline.ΦA spec1 c from rfl]; unfold Pipeline.ΦA; exact .rfl)
    (hF1 m) (hrest1 m)

set_option backward.isDefEq.respectTransparency.types false in

def reg2 : Pipeline.RegionSeg (pcfgs (F := F)) adm (pdats m) () defs₀ Variants.none runL runLv 2 :=
  mkReg m 2 launch2.win launch2.arr_whole launch2.block_pos launch2.stage_whole (W4 m) (W5 m)
    (body_obligation2 (V4' m)) (A_eq2 (V4' m)) (fun _ _ => rfl) (fun _ _ => rfl) (fun _ => rfl)
    (fun c => phi_in2 (V4' m) c)
    (fun c => phi_out2 (V4' m) c)
    (hF2 m) (hrest2 m)

set_option backward.isDefEq.respectTransparency.types false in

def reg3 : Pipeline.RegionSeg (pcfgs (F := F)) adm (pdats m) () defs₀ Variants.none runL runLv 3 :=
  mkReg m 3 launch3.win launch3.arr_whole launch3.block_pos launch3.stage_whole (W5 m) (W6 m)
    (body_obligation3 (V5' m)) (A_eq3 (V5' m)) (fun _ _ => rfl) (fun _ _ => rfl) (fun _ => rfl)
    (fun c => by rw [show (pdats m 3 c).Φ 0 = Pipeline.ΦA spec3 c from rfl]; unfold Pipeline.ΦA; exact .rfl)
    (fun c => by rw [show (pdats m 3 c).Φ (Fin.last _) = Pipeline.ΦA spec3 c from rfl]; unfold Pipeline.ΦA; exact .rfl)
    (hF3 m) (hrest3 m)

set_option backward.isDefEq.respectTransparency.types false in

def reg4 : Pipeline.RegionSeg (pcfgs (F := F)) adm (pdats m) () defs₀ Variants.none runL runLv 4 :=
  mkReg m 4 launch4.win launch4.arr_whole launch4.block_pos launch4.stage_whole (W7 m) (W8 m)
    (body_obligation4 (V7' m)) (A_eq4 (V7' m)) (fun _ _ => rfl) (fun _ _ => rfl) (fun _ => rfl)
    (fun c => by rw [show (pdats m 4 c).Φ 0 = Pipeline.ΦA spec4 c from rfl]; unfold Pipeline.ΦA; exact .rfl)
    (fun c => by rw [show (pdats m 4 c).Φ (Fin.last _) = Pipeline.ΦA spec4 c from rfl]; unfold Pipeline.ΦA; exact .rfl)
    (hF4 m) (hrest4 m)

set_option backward.isDefEq.respectTransparency.types false in

def reg5 : Pipeline.RegionSeg (pcfgs (F := F)) adm (pdats m) () defs₀ Variants.none runL runLv 5 :=
  mkReg m 5 launch5.win launch5.arr_whole launch5.block_pos launch5.stage_whole (W8 m) (W9 m)
    (body_obligation5 (V8' m)) (A_eq5 (V8' m)) (fun _ _ => rfl) (fun _ _ => rfl) (fun _ => rfl)
    (fun c => phi_in5 (V8' m) c)
    (fun c => phi_out5 (V8' m) c)
    (hF5 m) (hrest5 m)

set_option backward.isDefEq.respectTransparency.types false in

def reg6 : Pipeline.RegionSeg (pcfgs (F := F)) adm (pdats m) () defs₀ Variants.none runL runLv 6 :=
  mkReg m 6 launch6.win launch6.arr_whole launch6.block_pos launch6.stage_whole (W9 m) (W10 m)
    (body_obligation6 (V9' m)) (A_eq6 (V9' m)) (fun _ _ => rfl) (fun _ _ => rfl) (fun _ => rfl)
    (fun c => by rw [show (pdats m 6 c).Φ 0 = Pipeline.ΦA spec6 c from rfl]; unfold Pipeline.ΦA; exact .rfl)
    (fun c => by rw [show (pdats m 6 c).Φ (Fin.last _) = Pipeline.ΦA spec6 c from rfl]; unfold Pipeline.ΦA; exact .rfl)
    (hF6 m) (hrest6 m)

set_option backward.isDefEq.respectTransparency.types false in

def reg7 : Pipeline.RegionSeg (pcfgs (F := F)) adm (pdats m) () defs₀ Variants.none runL runLv 7 :=
  mkReg m 7 launch7.win launch7.arr_whole launch7.block_pos launch7.stage_whole (W11 m) (W12 m)
    (body_obligation7 (V11' m)) (A_eq7 (V11' m)) (fun _ _ => rfl) (fun _ _ => rfl) (fun _ => rfl)
    (fun c => by rw [show (pdats m 7 c).Φ 0 = Pipeline.ΦA spec7 c from rfl]; unfold Pipeline.ΦA; exact .rfl)
    (fun c => by rw [show (pdats m 7 c).Φ (Fin.last _) = Pipeline.ΦA spec7 c from rfl]; unfold Pipeline.ΦA; exact .rfl)
    (hF7 m) (hrest7 m)

abbrev segs : List (Pipeline.Seg (pcfgs (F := F)) adm (pdats m) () defs₀ Variants.none runL runLv) :=
  [ .host (hseg hostOps0 hostOps0_sub hostOps0_fresh (W0 m)),
    .region (reg0 m),
    .host (hseg hostOps1 hostOps1_sub hostOps1_fresh (W2 m)),
    .region (reg1 m),
    .region (reg2 m),
    .region (reg3 m),
    .host (hseg hostOps4 hostOps4_sub hostOps4_fresh (W6 m)),
    .region (reg4 m),
    .region (reg5 m),
    .region (reg6 m),
    .host (hseg hostOps7 hostOps7_sub hostOps7_fresh (W10 m)),
    .region (reg7 m),
    .host (hseg hostOps8 hostOps8_sub hostOps8_fresh (W12 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W13_arg (c : Dev nD) (r : Ref sig .tc) (h : Gen.V13 m (outs m) c r = m ((c : Thread nD τ).loc r)) :
    W13 m c (Proc.devRef .tc r) = m ((c : Thread nD τ).loc r) :=
  (congrFun (V_eq_13 m c) (Proc.devRef .tc r)).symm.trans h

set_option backward.isDefEq.respectTransparency.types false in

theorem run_main (ρ : Dev nD → PrngReg) : θ_run defs (onTc (τ := τ) (main (F := F))) ⟨m, fun _ => 0, ρ⟩ (fun r => ∀ c : Dev nD,
      r.2.mem ((c.tc : Thread nD τ).loc main_v34) = W13 m c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj embL defs₀ Variants.none runL runLv m ρ main (segs m)
    (fun c Q => by
      rw [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := St (W0 m)) (Tₙ := fun c => StableHlo.held (c : Thread nD τ) (Pipeline.ucRefs τ sig) (W13 m c))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show (iprop(StableHlo.held (c : Thread nD τ) (Pipeline.ucRefs τ sig) (W13 m c) ∗ Rest c) : sProp 𝕄) ⊢ _
        iintro ⟨Hh, -, HO⟩
        isplitl [Hh]; · iexact Hh
        iexact HO⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      unfold StableHlo.held
      iintro ⟨Hh, HSI⟩
      imodintro
      iapply (pointsTo_read_all (Pipeline.ucRefs τ sig) (fun b => (((c : Thread nD τ)).1, b)) (W13 m c) s')
      isplitl [Hh] <;> iassumption)
    (hQ := fun s h c =>
      ⟨h c _ (mem_uc main_v34 (by decide)),
       (h c _ (mem_uc main_arg0 (by decide))).trans (W13_arg m c main_arg0 (Gen.V13_main_arg0 m (outs m) c)),
       (h c _ (mem_uc main_arg1 (by decide))).trans (W13_arg m c main_arg1 (Gen.V13_main_arg1 m (outs m) c)),
       (h c _ (mem_uc main_arg2 (by decide))).trans (W13_arg m c main_arg2 (Gen.V13_main_arg2 m (outs m) c)),
       (h c _ (mem_uc main_arg3 (by decide))).trans (W13_arg m c main_arg3 (Gen.V13_main_arg3 m (outs m) c)),
       (h c _ (mem_uc main_arg4 (by decide))).trans (W13_arg m c main_arg4 (Gen.V13_main_arg4 m (outs m) c)),
       (h c _ (mem_uc main_arg5 (by decide))).trans (W13_arg m c main_arg5 (Gen.V13_main_arg5 m (outs m) c)),
       (h c _ (mem_uc main_arg6 (by decide))).trans (W13_arg m c main_arg6 (Gen.V13_main_arg6 m (outs m) c)),
       (h c _ (mem_uc main_arg7 (by decide))).trans (W13_arg m c main_arg7 (Gen.V13_main_arg7 m (outs m) c)),
       (h c _ (mem_uc main_arg8 (by decide))).trans (W13_arg m c main_arg8 (Gen.V13_main_arg8 m (outs m) c)),
       (h c _ (mem_uc main_arg9 (by decide))).trans (W13_arg m c main_arg9 (Gen.V13_main_arg9 m (outs m) c))⟩)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m ρ)

end Cert.Kernel.Hand

end
-- ==== Proof.KI.R0.lean ====
import proofs.«405398_j45397804319028_3_alg».proof.Proof.Gen.KernelIdeal.Launch
import proofs.«405398_j45397804319028_3_alg».proof.Proof.Gen.KernelIdeal.Points
import proofs.«405398_j45397804319028_3_alg».proof.Proof.Gen.KernelIdeal.Skeleton
import Idealize.ShloMosaic.Lib.Pipeline.Frame
import Idealize.ShloMosaic.Lib.Pipeline.FrameBody
import Idealize.ShloMosaic.Lib.Pipeline.Regions
import Idealize.ShloMosaic.Lib.Pipeline.Value
import Idealize.ShloMosaic.Lib.ValueIdx
import Idealize.ShloMosaic.PureOps.Ideal.Laws
import Idealize.ShloMosaic.Lib.ValueLayout
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

local notation "payXn" => k0_pay1
local notation "payXb" => k0_pay2

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => payXn (iblk0 V c 0 t)
    | ⟨2, _⟩ => payXb (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = payXn (iblk0 V c 0 t) := by dsimp only [dat0]
theorem after0_2 (c : Dev nD) (t : Fin cfg0.N) : (dat0 V c).after 2 t = payXb (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

private theorem hz0 : (![0, 0] : Fin 2 → Nat) = fun _ => 0 := funext fun a => by fin_cases a <;> rfl

set_option maxHeartbeats 1000000 in

theorem sound_kernel0 (c : Dev nD) (E : Set ℕ) (i : grid0.Coords) (arg1 : Memref sig .tc .vmem S2048x256 .f32) (harg1 : arg1.IsWhole)
    (arg2 : Memref sig .tc .vmem S2048x256 .bf16) (harg2 : arg2.IsWhole) (arg3 : Memref sig .tc .vmem S2048x256 .bf16) (harg3 : arg3.IsWhole)
    (x0 : Vec F S2048x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (payXn x0)
            ∗ owns (c : Thread nD τ) arg3 fullShare (payXb x0)) -∗ K ⟨⟩))
      ⊢ wp frame (wpE (defs₀ (F := F)) Variants.none c none) E (cc0__prep_kernel i arg1 harg1 arg2 harg2 arg3 harg3) K := by
  simp only [cc0__prep_kernel_eq_skeleton]; unfold cc0__prep_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.mem_singleton_self _, View.mem_set_unit_zero hz0 inb_S2048x256_S2048x256_0_0 y⟩),
      View.canon_unit_zero hz0, View.readAt_eq_ld, View.ld_unit_zero (S := S2048x256) hz0]
  iexists _; isplitr
  swap; · iexact H2
  ipureintro
  rw [View.read_writes_eq_canon _ _ _ (fun y => ⟨_, List.mem_singleton_self _, View.mem_set_unit_zero hz0 inb_S2048x256_S2048x256_0_0 y⟩),
    View.canon_unit_zero hz0, View.readAt_eq_ld, View.ld_unit_zero (S := S2048x256) hz0]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

def G0_of (pay : Vec F S2048x256 .f32 → FVec F S2048x256 .bf16) (x : FVec F S8192x256 .f32) : FVec F S8192x256 .bf16 := fun i =>
  pay (fun y => x (ValueIdx.ix2 ⟨2048 * ((i 0).val / 2048) + (y 0).val, by
      have h0 : (i 0).val < 8192 := (i 0).isLt
      have h1 : (y 0).val < 2048 := (y 0).isLt
      omega⟩ (y 1)))
    (ValueIdx.ix2 ⟨(i 0).val % 2048, Nat.mod_lt _ (by decide)⟩ (i 1))

def G0_1 (x : FVec F S8192x256 .f32) : FVec F S8192x256 .bf16 := G0_of payXn x

def G0_2 (x : FVec F S8192x256 .f32) : FVec F S8192x256 .bf16 := G0_of payXb x

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem G0_of_block (pay : Vec F S2048x256 .f32 → FVec F S2048x256 .bf16) (x : FVec F S8192x256 .f32) (t : ℕ)
    (blk : Vec F S2048x256 .f32) (hblk : ∀ (y : S2048x256.Idx) (k : S8192x256.Idx), (k 0).val = 2048 * t + (y 0).val → (k 1).val = (y 1).val → blk y = x k)
    (j : S2048x256.Idx) (i : S8192x256.Idx) (h0 : (i 0).val = 2048 * t + (j 0).val) (h1 : (i 1).val = (j 1).val) :
    pay blk j = G0_of pay x i := by
  have hj0 : (j 0).val < 2048 := (j 0).isLt
  have hq : (i 0).val / 2048 = t := by omega
  have hr : (i 0).val % 2048 = (j 0).val := by omega
  unfold G0_of
  have e1 : blk = fun y => x (ValueIdx.ix2 ⟨2048 * ((i 0).val / 2048) + (y 0).val, by
      have h0 : (i 0).val < 8192 := (i 0).isLt
      have h1 : (y 0).val < 2048 := (y 0).isLt
      omega⟩ (y 1)) := funext fun y => hblk y _ (by show 2048 * ((i 0).val / 2048) + (y 0).val = _; rw [hq]) rfl
  have e2 : j = ValueIdx.ix2 ⟨(i 0).val % 2048, Nat.mod_lt _ (by decide)⟩ (i 1) := by
    rw [ValueIdx.eq_ix2 j]
    congr 1
    · exact Fin.ext hr.symm
    · exact Fin.ext h1.symm
  rw [← e1]
  exact congrArg (pay blk) e2

theorem iblk0_apply (c : Dev nD) (t : Fin cfg0.N) (y : S2048x256.Idx) (k : S8192x256.Idx)
    (hk0 : (k 0).val = 2048 * t.val + (y 0).val) (hk1 : (k 1).val = (y 1).val) :
    (iblk0 V c 0 t : Vec F S2048x256 .f32) y = (V c main_arg0 : S8192x256.Idx → Elt F .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2048 + 1 * (y 0).val = (k 0).val; rw [e0, hk0]; omega
  | ⟨1, _⟩ => show win0_0.index t (1 : Fin 2) * 256 + 1 * (y 1).val = (k 1).val; rw [e1, hk1]; omega

theorem flushed0_1 (c : Dev nD) (t : Fin cfg0.N) :
    (dat0 V c).flushed 1 t = ((cfg0.win 1).blk t).view.read (Elt F) (G0_1 (V c main_arg0)) := by
  show (cfg0.win 1).cut (grid0.coords t) ((dat0 V c).after 1 t) = _
  rw [after0_1]
  obtain ⟨-, -, e0, e1, -⟩ := idx_facts0 t
  funext j
  show payXn (iblk0 V c 0 t) j = G0_1 (V c main_arg0) (((cfg0.win 1).blk t).view.emb j)
  unfold G0_1
  refine G0_of_block payXn _ t.val _ (iblk0_apply V c t) j _ ?_ ?_
  · show win0_1.index t (0 : Fin 2) * 2048 + 1 * (j 0).val = _; rw [e0]; omega
  · show win0_1.index t (1 : Fin 2) * 256 + 1 * (j 1).val = _; rw [e1]; omega

theorem flushed0_2 (c : Dev nD) (t : Fin cfg0.N) :
    (dat0 V c).flushed 2 t = ((cfg0.win 2).blk t).view.read (Elt F) (G0_2 (V c main_arg0)) := by
  show (cfg0.win 2).cut (grid0.coords t) ((dat0 V c).after 2 t) = _
  rw [after0_2]
  obtain ⟨-, -, -, -, e0, e1⟩ := idx_facts0 t
  funext j
  show payXb (iblk0 V c 0 t) j = G0_2 (V c main_arg0) (((cfg0.win 2).blk t).view.emb j)
  unfold G0_2
  refine G0_of_block payXb _ t.val _ (iblk0_apply V c t) j _ ?_ ?_
  · show win0_2.index t (0 : Fin 2) * 2048 + 1 * (j 0).val = _; rw [e0]; omega
  · show win0_2.index t (1 : Fin 2) * 256 + 1 * (j 1).val = _; rw [e1]; omega

theorem mem_blk0_1 (t : Fin cfg0.N) (i : S8192x256.Idx) :
    i ∈ ((cfg0.win 1).blk t).view.set ↔ ∀ a : Fin 2, win0_1.index t a * S2048x256.size a ≤ (i a).val ∧ (i a).val < win0_1.index t a * S2048x256.size a + S2048x256.size a := by
  show i ∈ ((View.whole main_v16_0).slice (win0_1.rect t)).set ↔ _
  rw [View.set_slice_whole, Rect.mem_set_unit]
  exact Iff.rfl

theorem mem_blk0_2 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v16_1).slice (win0_2.rect t)).set ↔ _
  rw [View.set_slice_whole, Rect.mem_set_unit]
  exact Iff.rfl

theorem cover0_1 (i : S8192x256.Idx) : ∃ t : Fin cfg0.N, (cfg0.win 1).flush t = true ∧ i ∈ ((cfg0.win 1).blk t).view.set := by
  have hi0 : (i 0).val < 8192 := (i 0).isLt
  have hi1 : (i 1).val < 256 := (i 1).isLt
  have hN : cfg0.N = 4 := N_0
  let t : Fin cfg0.N := ⟨(i 0).val / 2048, by rw [hN]; omega⟩
  have ht : t.val = (i 0).val / 2048 := rfl
  obtain ⟨-, -, e0, e1, -⟩ := idx_facts0 t
  refine ⟨t, flush0_1 t, ?_⟩
  rw [mem_blk0_1]
  intro a
  match a with
  | ⟨0, _⟩ => show win0_1.index t (0 : Fin 2) * 2048 ≤ (i 0).val ∧ (i 0).val < win0_1.index t (0 : Fin 2) * 2048 + 2048; rw [e0, ht]; omega
  | ⟨1, _⟩ => show win0_1.index t (1 : Fin 2) * 256 ≤ (i 1).val ∧ (i 1).val < win0_1.index t (1 : Fin 2) * 256 + 256; rw [e1]; omega

theorem cover0_2 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 4 := N_0
  let t : Fin cfg0.N := ⟨(i 0).val / 2048, by rw [hN]; omega⟩
  have ht : t.val = (i 0).val / 2048 := rfl
  obtain ⟨-, -, -, -, e0, e1⟩ := idx_facts0 t
  refine ⟨t, flush0_2 t, ?_⟩
  rw [mem_blk0_2]
  intro a
  match a with
  | ⟨0, _⟩ => show win0_2.index t (0 : Fin 2) * 2048 ≤ (i 0).val ∧ (i 0).val < win0_2.index t (0 : Fin 2) * 2048 + 2048; rw [e0, ht]; omega
  | ⟨1, _⟩ => show win0_2.index t (1 : Fin 2) * 256 ≤ (i 1).val ∧ (i 1).val < win0_2.index t (1 : Fin 2) * 256 + 256; rw [e1]; omega

theorem arrAt0_1 (c : Dev nD) : (dat0 V c).arrAt 1 cfg0.N = G0_1 (V c main_arg0) :=
  (dat0 V c).arrAt_eq_of_cover 1 (G0_1 (V c main_arg0)) (fun t _ => flushed0_1 V c t) cover0_1

theorem arrAt0_2 (c : Dev nD) : (dat0 V c).arrAt 2 cfg0.N = G0_2 (V c main_arg0) :=
  (dat0 V c).arrAt_eq_of_cover 2 (G0_2 (V c main_arg0)) (fun t _ => flushed0_2 V c t) cover0_2

end Region0

section IdealOnly

open Idealize.ShloMosaic.ValueIdx

private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem lift_row {a b : ℕ} (h : (⟨2, ![a, b]⟩ : Shape).Reduces [1] (⟨1, ![a]⟩ : Shape)) (r : Fin a)
    (k : Fin ((⟨2, ![a, b]⟩ : Shape).size 1)) : Shape.Reduces.lift h (ix1 r) k = ix2 r (⟨k.val, k.isLt⟩ : Fin b) := by
  funext c; apply Fin.ext
  fin_cases c <;> rfl

private theorem rowSum_apply {a b : ℕ} (v : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

theorem payXn0_apply (v0 : FVec Ideal S2048x256 .f32) (r : Fin 2048) (j : Fin 256) :
    (payXn : Vec Ideal S2048x256 .f32 → FVec Ideal S2048x256 .bf16) v0 (ix2 r j)
      = v0 (ix2 r j) * Ideal.rsqrt ((∑ j' : Fin 256, v0 (ix2 r j') * v0 (ix2 r j')) + Ideal.ofBits .f32 0x2B8CBCCC#32) := by
  unfold k0_pay1
  try simp only [shapeCast_self]
  show v0 (ix2 r j) * (broadcastTo S2048x256 _ broadcasts_S2048x1_S2048x256) (ix2 r j) = _
  rw [broadcastTo_a1_ab_apply]
  show v0 (ix2 r j) * Ideal.rsqrt ((shapeCast S2048x1 _ shapeCasts_S2048_S2048x1) (ix2 r (0 : Fin 1)) + Ideal.ofBits .f32 0x2B8CBCCC#32) = _
  rw [shapeCast_a_a1_apply]
  refine congrArg (fun s => v0 (ix2 r j) * Ideal.rsqrt (s + Ideal.ofBits .f32 0x2B8CBCCC#32)) ?_
  exact rowSum_apply (mulf v0 v0) reduces_S2048x256_S2048 _ _ r

theorem payXb0_apply (v0 : FVec Ideal S2048x256 .f32) (y : S2048x256.Idx) : (payXb : Vec Ideal S2048x256 .f32 → FVec Ideal S2048x256 .bf16) v0 y = v0 y := by
  unfold k0_pay2
  try simp only [shapeCast_self]
  rfl

private theorem row_eq (i : Fin 8192) (h : 2048 * (i.val / 2048) + i.val % 2048 < 8192) :
    (⟨2048 * (i.val / 2048) + i.val % 2048, h⟩ : Fin 8192) = i := Fin.ext (Nat.div_add_mod i.val 2048)

theorem G0_1_apply (x : FVec Ideal S8192x256 .f32) (i : Fin 8192) (j : Fin 256) :
    G0_1 (F := Ideal) x (ix2 i j)
      = x (ix2 i j) * Ideal.rsqrt ((∑ j' : Fin 256, x (ix2 i j') * x (ix2 i j')) + Ideal.ofBits .f32 0x2B8CBCCC#32) := by
  unfold G0_1 G0_of
  refine (payXn0_apply _ _ _).trans ?_
  show x (ix2 ⟨2048 * (i.val / 2048) + i.val % 2048, _⟩ j) * Ideal.rsqrt ((∑ j' : Fin 256, x (ix2 ⟨2048 * (i.val / 2048) + i.val % 2048, _⟩ j') * x (ix2 ⟨2048 * (i.val / 2048) + i.val % 2048, _⟩ j')) + _) = _
  simp only [row_eq]

theorem G0_2_apply (x : FVec Ideal S8192x256 .f32) (i : Fin 8192) (j : Fin 256) :
    G0_2 (F := Ideal) x (ix2 i j) = x (ix2 i j) := by
  unfold G0_2 G0_of
  refine (payXb0_apply _ _).trans ?_
  show x (ix2 ⟨2048 * (i.val / 2048) + i.val % 2048, _⟩ j) = _
  rw [row_eq]

end IdealOnly

end Cert.KernelIdeal.Hand

end
-- ==== Proof.KI.R1.lean ====
import proofs.«405398_j45397804319028_3_alg».proof.Proof.Gen.KernelIdeal.Launch
import proofs.«405398_j45397804319028_3_alg».proof.Proof.Gen.KernelIdeal.Skeleton
import proofs.«405398_j45397804319028_3_alg».proof.Proof.Gen.KernelIdeal.Points
import proofs.«405398_j45397804319028_3_alg».proof.Proof.Gen.KernelIdeal.Loops
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def keyTile1 (X : Vec F S8192x256 .bf16) (k : Fin k1_t1_loop.trips) : Vec F S1024x256 .bf16 :=
  View.ld X (Rect.unit (s := S8192x256) (k1_off2 k) S1024x256.size (k1_off2_inb k))

def qTile1 (X : Vec F S8192x256 .bf16) (i : grid1.Coords) : Vec F S512x256 .bf16 :=
  View.ld X (Rect.unit (s := S8192x256) (k1_off1 i) S512x256.size (k1_off1_inb i))

def loopAcc1 (v3 : Vec F S512x256 .bf16) (xn xb : Vec F S8192x256 .bf16) : Nat → FVec F S512x1 .f32 × FVec F S512x256 .f32
  | 0 => (k1_pay3, k1_pay4)
  | k + 1 =>
    if h : k < k1_t1_loop.trips then
      (k1_pay6 v3 (loopAcc1 v3 xn xb k).1 (keyTile1 xn ⟨k, h⟩),
       k1_pay7 v3 (loopAcc1 v3 xn xb k).2 (keyTile1 xn ⟨k, h⟩) (keyTile1 xb ⟨k, h⟩))
    else loopAcc1 v3 xn xb k

theorem loopAcc1_zero (v3 : Vec F S512x256 .bf16) (xn xb : Vec F S8192x256 .bf16) :
    loopAcc1 v3 xn xb 0 = (k1_pay3, k1_pay4) := rfl

theorem loopAcc1_succ (v3 : Vec F S512x256 .bf16) (xn xb : Vec F S8192x256 .bf16) (k : Fin k1_t1_loop.trips) :
    loopAcc1 v3 xn xb (k.val + 1)
      = (k1_pay6 v3 (loopAcc1 v3 xn xb k.val).1 (keyTile1 xn k),
         k1_pay7 v3 (loopAcc1 v3 xn xb k.val).2 (keyTile1 xn k) (keyTile1 xb k)) := by
  rw [loopAcc1.eq_2]; exact dif_pos k.isLt

def res1_5 (i : grid1.Coords) (xn xb : Vec F S8192x256 .bf16) (xq : Vec F S512x256 .f32) (g b : Vec F S1x256 .f32) :
    FVec F S512x256 .f32 :=
  k1_pay1 (k1_pay8 xq (loopAcc1 (qTile1 xn i) xn xb k1_t1_loop.trips).1 (loopAcc1 (qTile1 xn i) xn xb k1_t1_loop.trips).2 g) b

def res1_6 (i : grid1.Coords) (xn xb : Vec F S8192x256 .bf16) (xq : Vec F S512x256 .f32) (g b : Vec F S1x256 .f32) :
    FVec F S512x256 .bf16 :=
  k1_pay2 (k1_pay8 xq (loopAcc1 (qTile1 xn i) xn xb k1_t1_loop.trips).1 (loopAcc1 (qTile1 xn i) xn xb k1_t1_loop.trips).2 g) b

def tile1 (y : S8192x256.Idx) : Fin grid1.N :=
  ⟨(y 0).val / 512, by have hN : grid1.N = 16 := N_1; have := ValueIdx.idx2_lt0 y; omega⟩

def row1 (y : S8192x256.Idx) : S512x256.Idx :=
  ValueIdx.ix2 ⟨(y 0).val % 512, Nat.mod_lt _ (by decide)⟩ (y 1)

def qRows1 (x : Vec F S8192x256 .f32) (t : Fin grid1.N) : Vec F S512x256 .f32 :=
  fun r => x (ValueIdx.ix2 ⟨512 * t.val + (r 0).val, by
    have h : t.val < grid1.N := t.isLt; have hN : grid1.N = 16 := N_1; have := ValueIdx.idx2_lt0 r; omega⟩ (r 1))

def G1_5 (xn xb : FVec F S8192x256 .bf16) (x : FVec F S8192x256 .f32) (g b : FVec F S1x256 .f32) : FVec F S8192x256 .f32 :=
  fun y => res1_5 (grid1.coords (tile1 y)) xn xb (qRows1 x (tile1 y)) g b (row1 y)

def G1_6 (xn xb : FVec F S8192x256 .bf16) (x : FVec F S8192x256 .f32) (g b : FVec F S1x256 .f32) : FVec F S8192x256 .bf16 :=
  fun y => res1_6 (grid1.coords (tile1 y)) xn xb (qRows1 x (tile1 y)) g b (row1 y)

abbrev inv1 (c : Dev nD) (arg1 : Memref sig .tc .vmem S8192x256 .bf16) (harg1 : arg1.IsWhole) (arg2 : Memref sig .tc .vmem S8192x256 .bf16) (harg2 : arg2.IsWhole) (v3 : Vec F S512x256 .bf16)
    (X_arg1 : BufTy.Contents (Elt F) arg1.view.ty) (X_arg2 : BufTy.Contents (Elt F) arg2.view.ty)
    (k : ℕ) (acc : FVec F S512x1 .f32 × FVec F S512x256 .f32) : sProp 𝕄 :=
  iprop((arg1.view.loc (c : Thread nD τ) ↦[arg1.view.set]{fullShare} X_arg1) ∗ (arg2.view.loc (c : Thread nD τ) ↦[arg2.view.set]{fullShare} X_arg2)
    ∗ ⌜acc = loopAcc1 v3 (arg1.view.read (Elt F) X_arg1) (arg2.view.read (Elt F) X_arg2) k⌝)

macro_rules | `(tactic| sl_pure) => `(tactic| with_reducible exact (Cert.KernelIdeal.Hand.loopAcc1_zero ..).symm)

set_option warn.classDefReducibility false in
set_option maxHeartbeats 4000000 in

@[sl_loop] def loopInv1 (𝒱 : Variants) (c : Dev nD) (bd : Option 𝒱.V) (E : Set ℕ) (i : grid1.Coords) (arg1 : Memref sig .tc .vmem S8192x256 .bf16) (harg1 : arg1.IsWhole) (arg2 : Memref sig .tc .vmem S8192x256 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x256 .bf16) (harg7 : arg7.IsWhole) (v3 : Vec F S512x256 .bf16)
    (X_arg1 : BufTy.Contents (Elt F) arg1.view.ty) (X_arg2 : BufTy.Contents (Elt F) arg2.view.ty) (init : FVec F S512x1 .f32 × FVec F S512x256 .f32) :
    LoopInvTy_k1_t1 (F := F) Unit ℕ (Pipeline.UD sig nD τ) ℕ 𝒱 c bd E i arg1 harg1 arg2 harg2 arg3 harg3 arg4 harg4 arg5 harg5 arg6 harg6 arg7 harg7 v3 init where
  inv := inv1 (F := F) c arg1 harg1 arg2 harg2 v3 X_arg1 X_arg2
  step k acc := by
    unfold k1_t1_body
    iintro ⟨HR_arg1, HR_arg2, %h_acc⟩
    subst h_acc
    sl_exec
    sl_step
    isplitl [HR_arg1]; · iexact HR_arg1
    isplitl [HR_arg2]; · iexact HR_arg2
    ipureintro
    rw [loopAcc1_succ]; rfl

theorem hz1 : (![0, 0] : Fin 2 → Nat) = fun _ => 0 := funext fun a => by fin_cases a <;> rfl

set_option maxHeartbeats 4000000 in

theorem sound_kernel1 (c : Dev nD) (E : Set ℕ) (i : grid1.Coords) (arg1 : Memref sig .tc .vmem S8192x256 .bf16) (harg1 : arg1.IsWhole) (arg2 : Memref sig .tc .vmem S8192x256 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x256 .bf16) (harg7 : arg7.IsWhole)
    (x0 x1 : Vec F S8192x256 .bf16) (x2 : Vec F S512x256 .f32) (x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (res1_5 i x0 x1 x2 x3 x4)
            ∗ owns (c : Thread nD τ) arg7 fullShare (res1_6 i x0 x1 x2 x3 x4)) -∗ K ⟨⟩))
      ⊢ wp frame (wpE (defs₀ (F := F)) Variants.none c none) E (cc1__contra_ln_kernel i arg1 harg1 arg2 harg2 arg3 harg3 arg4 harg4 arg5 harg5 arg6 harg6 arg7 harg7) K := by
  simp only [cc1__contra_ln_kernel_eq_skeleton]; unfold cc1__contra_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz1 inb_S512x256_S512x256_0_0 y⟩),
      View.canon_unit_zero hz1]
    sl_unfold_words
    unfold res1_5
    simp only [View.readAt_eq_ld, View.ld_unit_zero (S := S512x256) hz1, View.ld_unit_zero (S := S1x256) hz1]
    rfl
  iexists _; isplitr
  swap; · iexact H6
  ipureintro
  rw [View.read_writes_eq_canon _ _ _ (fun y => ⟨_, List.mem_singleton_self _, View.mem_set_unit_zero hz1 inb_S512x256_S512x256_0_0 y⟩),
    View.canon_unit_zero hz1]
  sl_unfold_words
  unfold res1_6
  simp only [View.readAt_eq_ld, View.ld_unit_zero (S := S512x256) hz1, View.ld_unit_zero (S := S1x256) hz1]
  rfl

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (c : Dev nD) (t : Fin cfg1.N) : FVec F S512x256 .f32 :=
  res1_5 (grid1.coords t) (iblk1 V c 0 t) (iblk1 V c 1 t) (iblk1 V c 2 t) (iblk1 V c 3 t) (iblk1 V c 4 t)

def out1_6 (c : Dev nD) (t : Fin cfg1.N) : FVec F S512x256 .bf16 :=
  res1_6 (grid1.coords t) (iblk1 V c 0 t) (iblk1 V c 1 t) (iblk1 V c 2 t) (iblk1 V c 3 t) (iblk1 V c 4 t)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
    | ⟨6, _⟩ => out1_6 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]
theorem after1_6 (c : Dev nD) (t : Fin cfg1.N) : (dat1 V c).after 6 t = out1_6 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

theorem idx1 : ∀ t : Fin cfg1.N,
    (win1_0.index t 0 = 0 ∧ win1_0.index t 1 = 0) ∧ (win1_1.index t 0 = 0 ∧ win1_1.index t 1 = 0)
    ∧ (win1_2.index t 0 = t.val ∧ win1_2.index t 1 = 0) ∧ (win1_3.index t 0 = 0 ∧ win1_3.index t 1 = 0)
    ∧ (win1_4.index t 0 = 0 ∧ win1_4.index t 1 = 0) ∧ (win1_5.index t 0 = t.val ∧ win1_5.index t 1 = 0)
    ∧ (win1_6.index t 0 = t.val ∧ win1_6.index t 1 = 0) :=
  (by decide +kernel : ∀ t : Fin grid1.N, _)

theorem iblk1_0_eq (c : Dev nD) (t : Fin cfg1.N) : (iblk1 V c 0 t : Vec F S8192x256 .bf16) = V c main_v16_0 := by
  funext j
  unfold iblk1
  rw [View.read_apply]
  show V c main_v16_0 _ = V c main_v16_0 j
  congr 1
  funext a
  apply Fin.ext
  match a with
  | ⟨0, _⟩ => show win1_0.index t 0 * 8192 + 1 * (j 0).val = (j 0).val; rw [(idx1 t).1.1]; omega
  | ⟨1, _⟩ => show win1_0.index t 1 * 256 + 1 * (j 1).val = (j 1).val; rw [(idx1 t).1.2]; omega

theorem iblk1_1_eq (c : Dev nD) (t : Fin cfg1.N) : (iblk1 V c 1 t : Vec F S8192x256 .bf16) = V c main_v16_1 := by
  funext j
  unfold iblk1
  rw [View.read_apply]
  show V c main_v16_1 _ = V c main_v16_1 j
  congr 1
  funext a
  apply Fin.ext
  match a with
  | ⟨0, _⟩ => show win1_1.index t 0 * 8192 + 1 * (j 0).val = (j 0).val; rw [(idx1 t).2.1.1]; omega
  | ⟨1, _⟩ => show win1_1.index t 1 * 256 + 1 * (j 1).val = (j 1).val; rw [(idx1 t).2.1.2]; omega

theorem iblk1_2_eq (c : Dev nD) (t : Fin cfg1.N) : (iblk1 V c 2 t : Vec F S512x256 .f32) = qRows1 (V c main_arg0) t := by
  funext j
  unfold iblk1 qRows1
  rw [View.read_apply]
  show V c main_arg0 _ = V c main_arg0 _
  congr 1
  funext a
  apply Fin.ext
  match a with
  | ⟨0, _⟩ => show win1_2.index t 0 * 512 + 1 * (j 0).val = 512 * t.val + (j 0).val; rw [(idx1 t).2.2.1.1]; omega
  | ⟨1, _⟩ => show win1_2.index t 1 * 256 + 1 * (j 1).val = (j 1).val; rw [(idx1 t).2.2.1.2]; omega

theorem iblk1_3_eq (c : Dev nD) (t : Fin cfg1.N) : (iblk1 V c 3 t : Vec F S1x256 .f32) = V c main_v17 := by
  funext j
  unfold iblk1
  rw [View.read_apply]
  show V c main_v17 _ = V c main_v17 j
  congr 1
  funext a
  apply Fin.ext
  match a with
  | ⟨0, _⟩ => show win1_3.index t 0 * 1 + 1 * (j 0).val = (j 0).val; rw [(idx1 t).2.2.2.1.1]; omega
  | ⟨1, _⟩ => show win1_3.index t 1 * 256 + 1 * (j 1).val = (j 1).val; rw [(idx1 t).2.2.2.1.2]; omega

theorem iblk1_4_eq (c : Dev nD) (t : Fin cfg1.N) : (iblk1 V c 4 t : Vec F S1x256 .f32) = V c main_v18 := by
  funext j
  unfold iblk1
  rw [View.read_apply]
  show V c main_v18 _ = V c main_v18 j
  congr 1
  funext a
  apply Fin.ext
  match a with
  | ⟨0, _⟩ => show win1_4.index t 0 * 1 + 1 * (j 0).val = (j 0).val; rw [(idx1 t).2.2.2.2.1.1]; omega
  | ⟨1, _⟩ => show win1_4.index t 1 * 256 + 1 * (j 1).val = (j 1).val; rw [(idx1 t).2.2.2.2.1.2]; omega

theorem tile1_of_row (y : S8192x256.Idx) (t : Fin cfg1.N) (j : S512x256.Idx)
    (h0 : (y 0).val = 512 * t.val + (j 0).val) (h1 : (y 1).val = (j 1).val) : tile1 y = t ∧ row1 y = j := by
  have hj := ValueIdx.idx2_lt0 j
  refine ⟨Fin.ext ?_, ?_⟩
  · show (y 0).val / 512 = t.val; omega
  · rw [ValueIdx.eq_ix2 j]; unfold row1
    congr 1
    · apply Fin.ext; show (y 0).val % 512 = (j 0).val; omega
    · apply Fin.ext; exact h1

theorem arrAt1_5 (c : Dev nD) :
    (dat1 V c).arrAt 5 cfg1.N = G1_5 (V c main_v16_0) (V c main_v16_1) (V c main_arg0) (V c main_v17) (V c main_v18) := by
  refine (dat1 V c).arrAt_eq_of_cover 5 _ (fun t _ => ?_) (fun i => ?_)
  · show out1_5 V c t = _
    funext j
    rw [View.read_apply]
    show out1_5 V c t j = G1_5 (V c main_v16_0) (V c main_v16_1) (V c main_arg0) (V c main_v17) (V c main_v18) (((cfg1.win 5).blk t).view.emb j)
    obtain ⟨ht, hr⟩ := tile1_of_row (((cfg1.win 5).blk t).view.emb j) t j
      (by show win1_5.index t 0 * 512 + 1 * (j 0).val = 512 * t.val + (j 0).val; rw [(idx1 t).2.2.2.2.2.1.1]; omega)
      (by show win1_5.index t 1 * 256 + 1 * (j 1).val = (j 1).val; rw [(idx1 t).2.2.2.2.2.1.2]; omega)
    unfold G1_5 out1_5
    rw [ht, hr, iblk1_0_eq, iblk1_1_eq, iblk1_2_eq, iblk1_3_eq, iblk1_4_eq]
  · refine ⟨tile1 i, flush1_5 _, ?_⟩
    have ht : (tile1 i).val = (i 0).val / 512 := rfl
    have hi1 := ValueIdx.idx2_lt1 i
    show i ∈ ((View.whole main_v19_0).slice (win1_5.rect (tile1 i))).set
    rw [View.set_slice_whole, Rect.mem_set_unit]
    intro a
    match a with
    | ⟨0, _⟩ =>
      show win1_5.index (tile1 i) 0 * 512 ≤ (i 0).val ∧ (i 0).val < win1_5.index (tile1 i) 0 * 512 + 512
      rw [(idx1 (tile1 i)).2.2.2.2.2.1.1, ht]; omega
    | ⟨1, _⟩ =>
      show win1_5.index (tile1 i) 1 * 256 ≤ (i 1).val ∧ (i 1).val < win1_5.index (tile1 i) 1 * 256 + 256
      rw [(idx1 (tile1 i)).2.2.2.2.2.1.2]; omega

theorem arrAt1_6 (c : Dev nD) :
    (dat1 V c).arrAt 6 cfg1.N = G1_6 (V c main_v16_0) (V c main_v16_1) (V c main_arg0) (V c main_v17) (V c main_v18) := by
  refine (dat1 V c).arrAt_eq_of_cover 6 _ (fun t _ => ?_) (fun i => ?_)
  · show out1_6 V c t = _
    funext j
    rw [View.read_apply]
    show out1_6 V c t j = G1_6 (V c main_v16_0) (V c main_v16_1) (V c main_arg0) (V c main_v17) (V c main_v18) (((cfg1.win 6).blk t).view.emb j)
    obtain ⟨ht, hr⟩ := tile1_of_row (((cfg1.win 6).blk t).view.emb j) t j
      (by show win1_6.index t 0 * 512 + 1 * (j 0).val = 512 * t.val + (j 0).val; rw [(idx1 t).2.2.2.2.2.2.1]; omega)
      (by show win1_6.index t 1 * 256 + 1 * (j 1).val = (j 1).val; rw [(idx1 t).2.2.2.2.2.2.2]; omega)
    unfold G1_6 out1_6
    rw [ht, hr, iblk1_0_eq, iblk1_1_eq, iblk1_2_eq, iblk1_3_eq, iblk1_4_eq]
  · refine ⟨tile1 i, flush1_6 _, ?_⟩
    have ht : (tile1 i).val = (i 0).val / 512 := rfl
    have hi1 := ValueIdx.idx2_lt1 i
    show i ∈ ((View.whole main_v19_1).slice (win1_6.rect (tile1 i))).set
    rw [View.set_slice_whole, Rect.mem_set_unit]
    intro a
    match a with
    | ⟨0, _⟩ =>
      show win1_6.index (tile1 i) 0 * 512 ≤ (i 0).val ∧ (i 0).val < win1_6.index (tile1 i) 0 * 512 + 512
      rw [(idx1 (tile1 i)).2.2.2.2.2.2.1, ht]; omega
    | ⟨1, _⟩ =>
      show win1_6.index (tile1 i) 1 * 256 ≤ (i 1).val ∧ (i 1).val < win1_6.index (tile1 i) 1 * 256 + 256
      rw [(idx1 (tile1 i)).2.2.2.2.2.2.2]; omega

end Regions

end Cert.KernelIdeal.Hand

end
-- ==== Proof.KI.R2.lean ====
import proofs.«405398_j45397804319028_3_alg».proof.Proof.Gen.KernelIdeal.Launch
import proofs.«405398_j45397804319028_3_alg».proof.Proof.Gen.KernelIdeal.Skeleton
import proofs.«405398_j45397804319028_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ablk2 (c : Dev nD) (t : Fin cfg2.N) : Vec F S1024x4096 .bf16 := iblk2 V c 0 t

abbrev hblk2 (c : Dev nD) (t : Fin cfg2.N) : Vec F S4096x256 .bf16 := iblk2 V c 1 t

def scAt2 (c : Dev nD) : Nat → Vec F S1024x256 .f32
  | 0 => k2_pay1 (F := F)
  | n + 1 =>
    if h : n < cfg2.N then
      if n % 2 = 0 then k2_pay2 (k2_pay1 (F := F)) (ablk2 V c ⟨n, h⟩) (hblk2 V c ⟨n, h⟩)
      else k2_pay2 (scAt2 c n) (ablk2 V c ⟨n, h⟩) (hblk2 V c ⟨n, h⟩)
    else scAt2 c n

abbrev scM2 : Memref sig .tc .vmem S1024x256 .f32 := Memref.whole cc2_scratch0

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem idleAt2_2 : ∀ t : Fin cfg2.N, t.val % 2 = 0 → cfg2.idle 2 (grid2.coords t) = true :=
  (by decide +kernel : ∀ t : Fin grid2.N, t.val % 2 = 0 → idle2 2 (grid2.coords t) = true)
theorem liveAt2_2 : ∀ t : Fin cfg2.N, t.val % 2 = 1 → cfg2.idle 2 (grid2.coords t) = false :=
  (by decide +kernel : ∀ t : Fin grid2.N, t.val % 2 = 1 → idle2 2 (grid2.coords t) = false)

theorem hz2 : (![0, 0] : Fin 2 → Nat) = fun _ => 0 := by funext a; match a with | ⟨0, _⟩ => rfl | ⟨1, _⟩ => rfl

set_option maxHeartbeats 1000000 in
theorem sound_kernel2_A (c : Dev nD) (E : Set ℕ) (i : grid2.Coords)
    (arg2 : Memref sig .tc .vmem S1024x4096 .bf16) (harg2 : arg2.IsWhole) (arg3 : Memref sig .tc .vmem S4096x256 .bf16) (harg3 : arg3.IsWhole)
    (arg4 : Memref sig .tc .vmem S1024x256 .f32) (harg4 : arg4.IsWhole) (arg5 : Memref sig .tc .vmem S1024x256 .f32) (harg5 : arg5.IsWhole)
    (hc0 : cond2_0 i) (hc1 : ¬cond2_1 i)
    (x0 : Vec F S1024x4096 .bf16) (x1 : Vec F S4096x256 .bf16) (xi : Vec F S1024x256 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 (k2_pay1 (F := F)) x0 x1)) -∗ K ⟨⟩))
      ⊢ wp frame (wpE (defs₀ (F := F)) Variants.none c none) E (cc2__spmm_kernel i arg2 harg2 arg3 harg3 arg4 harg4 arg5 harg5) K := by
  simp only [cc2__spmm_kernel_eq_skeleton]; unfold cc2__spmm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (fun y => ⟨_, List.mem_cons_self, View.mem_set_unit_zero hz2 inb_S1024x256_S1024x256_0_0 y⟩)]
  rw [View.canon_cons_unit_zero (S := S1024x256) hz2, View.readCov_unit_zero (S := S1024x256) _ hz2]
  simp only [View.readAt_eq_ld, View.ld_unit_zero (S := S1024x4096) hz2, View.ld_unit_zero (S := S4096x256) hz2]

set_option maxHeartbeats 1000000 in
theorem sound_kernel2_B (c : Dev nD) (E : Set ℕ) (i : grid2.Coords)
    (arg2 : Memref sig .tc .vmem S1024x4096 .bf16) (harg2 : arg2.IsWhole) (arg3 : Memref sig .tc .vmem S4096x256 .bf16) (harg3 : arg3.IsWhole)
    (arg4 : Memref sig .tc .vmem S1024x256 .f32) (harg4 : arg4.IsWhole) (arg5 : Memref sig .tc .vmem S1024x256 .f32) (harg5 : arg5.IsWhole)
    (hc0 : ¬cond2_0 i) (hc1 : cond2_1 i)
    (x0 : Vec F S1024x4096 .bf16) (x1 : Vec F S4096x256 .bf16) (xs : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k2_pay2 xs x0 x1)
            ∗ owns (c : Thread nD τ) arg5 fullShare (k2_pay2 xs x0 x1)) -∗ K ⟨⟩))
      ⊢ wp frame (wpE (defs₀ (F := F)) Variants.none c none) E (cc2__spmm_kernel i arg2 harg2 arg3 harg3 arg4 harg4 arg5 harg5) K := by
  simp only [cc2__spmm_kernel_eq_skeleton]; unfold cc2__spmm_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_singleton_self _, View.mem_set_unit_zero hz2 inb_S1024x256_S1024x256_0_0 y⟩)]
    rw [View.canon_unit_zero (S := S1024x256) hz2, View.readCov_unit_zero (S := S1024x256) _ hz2]
    simp only [View.readAt_eq_ld, View.ld_unit_zero (S := S1024x256) hz2, View.ld_unit_zero (S := S1024x4096) hz2, View.ld_unit_zero (S := S4096x256) hz2]
  iexists _; isplitr
  swap; · iexact H3
  ipureintro
  sl_unfold_words
  rw [View.read_writes_eq_canon _ _ _ (fun y => ⟨_, List.mem_singleton_self _, View.mem_set_unit_zero hz2 inb_S1024x256_S1024x256_0_0 y⟩)]
  rw [View.canon_unit_zero (S := S1024x256) hz2]
  simp only [View.readAt_eq_ld, View.ld_unit_zero (S := S1024x256) hz2, View.ld_unit_zero (S := S1024x4096) hz2, View.ld_unit_zero (S := S4096x256) hz2]

theorem scopedRest2_eq (c : Dev nD) :
    (Pipeline.scopedRest (Ix := Unit) (Name := ℕ) (U := Pipeline.UD sig nD τ) (Lvl := ℕ) (Val := Elt F) spec2 c : sProp 𝕄)
      = iprop(iprop((∃ d, owns (c : Thread nD τ) scM2 fullShare d)) ∗ Pipeline.scopedRestBut (Ix := Unit) (Name := ℕ) (U := Pipeline.UD sig nD τ) (Lvl := ℕ) (Val := Elt F) spec2 c [cc2_scratch0]) := by
  rw [scopedRest2_split]; simp only [scM2, owns_whole]; rfl

def Phi2 (c : Dev nD) : Nat → sProp 𝕄
  | 0 => iprop(Pipeline.scopedRest (Ix := Unit) (Name := ℕ) (U := Pipeline.UD sig nD τ) (Lvl := ℕ) (Val := Elt F) spec2 c ∗ ∃ r, prngReg c r)
  | n + 1 => iprop(owns (c : Thread nD τ) scM2 fullShare (scAt2 V c (n + 1)) ∗ Pipeline.scopedRestBut (Ix := Unit) (Name := ℕ) (U := Pipeline.UD sig nD τ) (Lvl := ℕ) (Val := Elt F) spec2 c [cc2_scratch0] ∗ ∃ r, prngReg c r)

theorem Phi2_succ (c : Dev nD) (n : ℕ) :
    Phi2 V c (n + 1) = iprop(owns (c : Thread nD τ) scM2 fullShare (scAt2 V c (n + 1)) ∗ Pipeline.scopedRestBut (Ix := Unit) (Name := ℕ) (U := Pipeline.UD sig nD τ) (Lvl := ℕ) (Val := Elt F) spec2 c [cc2_scratch0] ∗ ∃ r, prngReg c r) := rfl

theorem Phi2_pos (c : Dev nD) (n : ℕ) (hn : n ≠ 0) :
    Phi2 V c n = iprop(owns (c : Thread nD τ) scM2 fullShare (scAt2 V c n) ∗ Pipeline.scopedRestBut (Ix := Unit) (Name := ℕ) (U := Pipeline.UD sig nD τ) (Lvl := ℕ) (Val := Elt F) spec2 c [cc2_scratch0] ∗ ∃ r, prngReg c r) := by
  cases n with
  | zero => exact absurd rfl hn
  | succ n => rfl

theorem Phi2_some (c : Dev nD) (n : ℕ) :
    Phi2 V c n ⊢ iprop(iprop((∃ d, owns (c : Thread nD τ) scM2 fullShare d)) ∗ Pipeline.scopedRestBut (Ix := Unit) (Name := ℕ) (U := Pipeline.UD sig nD τ) (Lvl := ℕ) (Val := Elt F) spec2 c [cc2_scratch0] ∗ ∃ r, prngReg c r) := by
  cases n with
  | zero =>
    show iprop(Pipeline.scopedRest (Ix := Unit) (Name := ℕ) (U := Pipeline.UD sig nD τ) (Lvl := ℕ) (Val := Elt F) spec2 c ∗ ∃ r, prngReg c r) ⊢ _
    rw [scopedRest2_eq]
    iintro ⟨⟨HS, HR⟩, Hg⟩
    isplitl [HS]; · iexact HS
    isplitl [HR]; · iexact HR
    iexact Hg
  | succ n =>
    rw [Phi2_succ]
    iintro ⟨HS, HR, Hg⟩
    isplitl [HS]; · iexists _; iexact HS
    isplitl [HR]; · iexact HR
    iexact Hg

theorem scAt2_A (c : Dev nD) (t : Fin cfg2.N) (h : t.val % 2 = 0) :
    scAt2 V c (t.val + 1) = k2_pay2 (k2_pay1 (F := F)) (ablk2 V c t) (hblk2 V c t) := by
  rw [scAt2, dif_pos t.isLt, if_pos h]

theorem scAt2_B (c : Dev nD) (t : Fin cfg2.N) (h : ¬t.val % 2 = 0) :
    scAt2 V c (t.val + 1) = k2_pay2 (scAt2 V c t.val) (ablk2 V c t) (hblk2 V c t) := by
  rw [scAt2, dif_pos t.isLt, if_neg h]

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => scAt2 V c (t.val + 1)
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = scAt2 V c (t.val + 1) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 2000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) from rfl, show (dat2 V c).Φ t.castSucc = Phi2 V c t.val from rfl]
  rw [show (dat2 V c).leavesExact 0 t = owns (c : Thread nD τ) (st2_0 t) fullShare ((dat2 V c).after 0 t) from by
    unfold Dat.leavesExact; rw [show cfg2.idle 0 (cfg2.grid.coords t) = false from rfl], after2_0]
  rw [show (dat2 V c).leavesExact 1 t = owns (c : Thread nD τ) (st2_1 t) fullShare ((dat2 V c).after 1 t) from by
    unfold Dat.leavesExact; rw [show cfg2.idle 1 (cfg2.grid.coords t) = false from rfl], after2_1]
  have hN : t.val < 16 := lt_of_lt_of_eq t.isLt (show cfg2.N = 16 from N_2)
  by_cases h : t.val % 2 = 0
  · have hcA : cond2_0 (grid2.coords t) := (hcond2_0 t).mpr h
    have hcB : ¬cond2_1 (grid2.coords t) := fun h' => by have := (hcond2_1 t).mp h'; omega
    have hnf : (cfg2.win 2).flush t = false := Bool.eq_false_iff.mpr (fun hf => by have := (flush2_2 t).mp hf; omega)
    rw [Dat.leavesExact_idle (dat2 V c) 2 t (idleAt2_2 t h) hnf]
    rw [Phi2_succ, scAt2_A V c t h]
    iintro ⟨HΦ, Ho, ⟨%d0, H0⟩, ⟨%d1, H1⟩, ⟨%d2, H2⟩⟩
    ihave HΦ' := (Phi2_some V c t.val) $$ HΦ
    icases HΦ' with ⟨HS, HR, Hg⟩
    iapply (sound_kernel2_A c Set.univ (grid2.coords t) _ _ _ _ _ _ _ _ hcA hcB (ablk2 V c t) (hblk2 V c t) ((dat2 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hcA : ¬cond2_0 (grid2.coords t) := fun h' => h ((hcond2_0 t).mp h')
    have h1 : t.val % 2 = 1 := by omega
    have hcB : cond2_1 (grid2.coords t) := (hcond2_1 t).mpr h1
    rw [show (dat2 V c).leavesExact 2 t = owns (c : Thread nD τ) (st2_2 t) fullShare ((dat2 V c).after 2 t) from by
      unfold Dat.leavesExact; rw [liveAt2_2 t h1], after2_2]
    rw [Phi2_pos V c t.val (by omega), Phi2_succ, scAt2_B V c t h]
    iintro ⟨⟨HS, HR, Hg⟩, Ho, ⟨%d0, H0⟩, ⟨%d1, H1⟩, ⟨%d2, H2⟩⟩
    iapply (sound_kernel2_B c Set.univ (grid2.coords t) _ _ _ _ _ _ _ _ hcA hcB (ablk2 V c t) (hblk2 V c t) (scAt2 V c t.val) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

theorem body_obligation2 (c : Dev nD) : BodyObligation (dat2 (F := F) V c) (defs₀ (F := F)) Variants.none () Set.univ := fun t => by
  rw [bigSep_W2, bigSep_W2]
  exact sound_body2 V c t

theorem phi_in2 (c : Dev nD) :
    iprop(Pipeline.scopedRest (Ix := Unit) (Name := ℕ) (U := Pipeline.UD sig nD τ) (Lvl := ℕ) (Val := Elt F) spec2 c ∗ ∃ r, prngReg c r)
      ⊢ (dat2 V c).Φ 0 := by
  rw [show (dat2 V c).Φ 0 = Phi2 V c 0 from rfl]
  exact Idealize.SL.BI.Entails.refl _

theorem phi_out2 (c : Dev nD) :
    (dat2 V c).Φ (Fin.last cfg2.N)
      ⊢ iprop(Pipeline.scopedRest (Ix := Unit) (Name := ℕ) (U := Pipeline.UD sig nD τ) (Lvl := ℕ) (Val := Elt F) spec2 c ∗ ∃ r, prngReg c r) := by
  rw [show (dat2 V c).Φ (Fin.last cfg2.N) = Phi2 V c (15 + 1) from rfl, Phi2_succ, scopedRest2_eq]
  iintro ⟨HS, HR, Hg⟩
  isplitl [HS HR]
  · isplitl [HS]; · iexists _; iexact HS
    iexact HR
  iexact Hg

open Idealize.ShloMosaic.ValueIdx

theorem idx_facts2 : ∀ t : Fin cfg2.N,
    win2_0.index t (0 : Fin 2) = t.val / 2 ∧ win2_0.index t (1 : Fin 2) = t.val % 2
    ∧ win2_1.index t (0 : Fin 2) = t.val % 2 ∧ win2_1.index t (1 : Fin 2) = 0
    ∧ win2_2.index t (0 : Fin 2) = t.val / 2 ∧ win2_2.index t (1 : Fin 2) = 0 :=
  (by decide +kernel : ∀ t : Fin grid2.N, _)

def ablkOf2 (adj : FVec F S8192x8192 .bf16) (i : Fin 8) (k : Fin 2) : FVec F S1024x4096 .bf16 := fun x =>
  adj (ix2 ⟨1024 * i.val + (x 0).val, by have := idx2_lt0 x; omega⟩ ⟨4096 * k.val + (x 1).val, by have := idx2_lt1 x; omega⟩)

def hblkOf2 (h : FVec F S8192x256 .bf16) (k : Fin 2) : FVec F S4096x256 .bf16 := fun x =>
  h (ix2 ⟨4096 * k.val + (x 0).val, by have := idx2_lt0 x; omega⟩ (x 1))

def rowblk2 (adj : FVec F S8192x8192 .bf16) (h : FVec F S8192x256 .bf16) (i : Fin 8) : FVec F S1024x256 .f32 :=
  k2_pay2 (k2_pay2 (k2_pay1 (F := F)) (ablkOf2 adj i 0) (hblkOf2 h 0)) (ablkOf2 adj i 1) (hblkOf2 h 1)

def G2_2 (adj : FVec F S8192x8192 .bf16) (h : FVec F S8192x256 .bf16) : FVec F S8192x256 .f32 := fun y =>
  rowblk2 adj h ⟨(y 0).val / 1024, by have := idx2_lt0 y; omega⟩ (ix2 ⟨(y 0).val % 1024, Nat.mod_lt _ (by decide)⟩ (y 1))

theorem G2_2_at (adj : FVec F S8192x8192 .bf16) (h : FVec F S8192x256 .bf16) (i : Fin 8) (x : S1024x256.Idx) (y : S8192x256.Idx)
    (h0 : (y 0).val = 1024 * i.val + (x 0).val) (h1 : (y 1).val = (x 1).val) : G2_2 adj h y = rowblk2 adj h i x := by
  have hx0 := idx2_lt0 x
  have e1 : (⟨(y 0).val / 1024, by have := idx2_lt0 y; omega⟩ : Fin 8) = i := Fin.ext (by show (y 0).val / 1024 = i.val; omega)
  have e2 : (ix2 (⟨(y 0).val % 1024, Nat.mod_lt _ (by decide)⟩ : Fin 1024) (y 1) : S1024x256.Idx) = x := by
    funext a; apply Fin.ext
    match a with
    | ⟨0, _⟩ => show (y 0).val % 1024 = (x 0).val; omega
    | ⟨1, _⟩ => exact h1
  show rowblk2 adj h ⟨(y 0).val / 1024, _⟩ (ix2 ⟨(y 0).val % 1024, _⟩ (y 1)) = _
  rw [e1, e2]

theorem ablk2_eq (c : Dev nD) (t : Fin cfg2.N) (i : Fin 8) (k : Fin 2) (hi : t.val / 2 = i.val) (hk : t.val % 2 = k.val) :
    ablk2 V c t = ablkOf2 (V c main_v15) i k := by
  obtain ⟨e0, e1, -, -, -, -⟩ := idx_facts2 t
  funext x
  show V c main_v15 (((cfg2.win 0).blk t).view.emb x) = V c main_v15 _
  refine congrArg (V c main_v15) ?_
  funext a; apply Fin.ext
  match a with
  | ⟨0, _⟩ => show win2_0.index t (0 : Fin 2) * 1024 + 1 * (x 0).val = 1024 * i.val + (x 0).val; omega
  | ⟨1, _⟩ => show win2_0.index t (1 : Fin 2) * 4096 + 1 * (x 1).val = 4096 * k.val + (x 1).val; omega

theorem hblk2_eq (c : Dev nD) (t : Fin cfg2.N) (k : Fin 2) (hk : t.val % 2 = k.val) :
    hblk2 V c t = hblkOf2 (V c main_v19_1) k := by
  obtain ⟨-, -, e2, e3, -, -⟩ := idx_facts2 t
  funext x
  show V c main_v19_1 (((cfg2.win 1).blk t).view.emb x) = V c main_v19_1 _
  refine congrArg (V c main_v19_1) ?_
  funext a; apply Fin.ext
  match a with
  | ⟨0, _⟩ => show win2_1.index t (0 : Fin 2) * 4096 + 1 * (x 0).val = 4096 * k.val + (x 0).val; omega
  | ⟨1, _⟩ => show win2_1.index t (1 : Fin 2) * 256 + 1 * (x 1).val = (x 1).val; omega

theorem scAt2_flush (c : Dev nD) (t : Fin cfg2.N) (h1 : t.val % 2 = 1) (i : Fin 8) (hi : t.val / 2 = i.val) :
    scAt2 V c (t.val + 1) = rowblk2 (V c main_v15) (V c main_v19_1) i := by
  have hN : t.val < 16 := lt_of_lt_of_eq t.isLt (show cfg2.N = 16 from N_2)
  have hlt : t.val - 1 < cfg2.N := lt_of_le_of_lt (Nat.sub_le _ _) t.isLt
  have e : t.val = (⟨t.val - 1, hlt⟩ : Fin cfg2.N).val + 1 := by show t.val = t.val - 1 + 1; omega
  rw [scAt2_B V c t (by omega), congrArg (scAt2 V c) e, scAt2_A V c ⟨t.val - 1, hlt⟩ (by show (t.val - 1) % 2 = 0; omega)]
  rw [ablk2_eq V c ⟨t.val - 1, hlt⟩ i 0 (by show (t.val - 1) / 2 = i.val; omega) (by show (t.val - 1) % 2 = 0; omega),
    hblk2_eq V c ⟨t.val - 1, hlt⟩ 0 (by show (t.val - 1) % 2 = 0; omega),
    ablk2_eq V c t i 1 hi (by show t.val % 2 = 1; omega), hblk2_eq V c t 1 (by show t.val % 2 = 1; omega)]
  rfl

theorem flushed2_eq (c : Dev nD) (t : Fin cfg2.N) (hf : (cfg2.win 2).flush t = true) :
    (dat2 V c).flushed 2 t = ((cfg2.win 2).blk t).view.read (Elt F) (G2_2 (V c main_v15) (V c main_v19_1)) := by
  have h1 : t.val % 2 = 1 := (flush2_2 t).mp hf
  have hN : t.val < 16 := lt_of_lt_of_eq t.isLt (show cfg2.N = 16 from N_2)
  obtain ⟨-, -, -, -, e4, e5⟩ := idx_facts2 t
  show (cfg2.win 2).cut (grid2.coords t) ((dat2 V c).after 2 t) = _
  rw [after2_2, scAt2_flush V c t h1 ⟨t.val / 2, by omega⟩ rfl]
  funext x
  show rowblk2 _ _ _ x = G2_2 (V c main_v15) (V c main_v19_1) (((cfg2.win 2).blk t).view.emb x)
  refine (G2_2_at _ _ ⟨t.val / 2, by omega⟩ x _ ?_ ?_).symm
  · show win2_2.index t (0 : Fin 2) * 1024 + 1 * (x 0).val = 1024 * (t.val / 2) + (x 0).val; omega
  · show win2_2.index t (1 : Fin 2) * 256 + 1 * (x 1).val = (x 1).val; omega

theorem mem_blk2_2 (t : Fin cfg2.N) (i : S8192x256.Idx) :
    i ∈ ((cfg2.win 2).blk t).view.set ↔ ∀ a : Fin 2, win2_2.index t a * S1024x256.size a ≤ (i a).val ∧ (i a).val < win2_2.index t a * S1024x256.size a + S1024x256.size a := by
  show i ∈ ((View.whole main_v20).slice (win2_2.rect t)).set ↔ _
  rw [View.set_slice_whole, Rect.mem_set_unit]
  exact Iff.rfl

theorem cover2_2 (i : S8192x256.Idx) : ∃ t : Fin cfg2.N, (cfg2.win 2).flush t = true ∧ i ∈ ((cfg2.win 2).blk t).view.set := by
  have hi0 := idx2_lt0 i
  have hi1 := idx2_lt1 i
  have hlt : 2 * ((i 0).val / 1024) + 1 < cfg2.N := by rw [show cfg2.N = 16 from N_2]; omega
  refine ⟨⟨2 * ((i 0).val / 1024) + 1, hlt⟩, (flush2_2 _).mpr (by show (2 * ((i 0).val / 1024) + 1) % 2 = 1; omega), ?_⟩
  obtain ⟨-, -, -, -, e4, e5⟩ := idx_facts2 ⟨2 * ((i 0).val / 1024) + 1, hlt⟩
  have e4' : win2_2.index ⟨2 * ((i 0).val / 1024) + 1, hlt⟩ (0 : Fin 2) = (2 * ((i 0).val / 1024) + 1) / 2 := e4
  rw [mem_blk2_2]
  intro a
  match a with
  | ⟨0, _⟩ => show win2_2.index _ (0 : Fin 2) * 1024 ≤ (i 0).val ∧ (i 0).val < win2_2.index _ (0 : Fin 2) * 1024 + 1024; omega
  | ⟨1, _⟩ => show win2_2.index _ (1 : Fin 2) * 256 ≤ (i 1).val ∧ (i 1).val < win2_2.index _ (1 : Fin 2) * 256 + 256; omega

theorem arrAt2_2 (c : Dev nD) : (dat2 V c).arrAt 2 cfg2.N = G2_2 (V c main_v15) (V c main_v19_1) :=
  (dat2 V c).arrAt_eq_of_cover 2 (G2_2 (V c main_v15) (V c main_v19_1)) (fun t hf => flushed2_eq V c t hf) cover2_2

theorem k2_pay1_apply (x : S1024x256.Idx) : k2_pay1 (F := Ideal) x = 0 := by
  unfold k2_pay1
  rw [shapeCast_self]
  exact Ideal.ofBits_zero_f32

theorem k2_pay2_apply (v3 : FVec Ideal S1024x256 .f32) (v4 : FVec Ideal S1024x4096 .bf16) (v6 : FVec Ideal S4096x256 .bf16)
    (r : Fin 1024) (j : Fin 256) :
    k2_pay2 (F := Ideal) v3 v4 v6 (ix2 r j) = v3 (ix2 r j) + ∑ k : Fin 4096, v4 (ix2 r k) * v6 (ix2 k j) := by
  unfold k2_pay2
  simp only [shapeCast_self]
  refine (addf_apply _ _ _).trans (congrArg (v3 (ix2 r j) + ·) ?_)
  refine (Ideal.matmul_constant_zero_apply dot_S1024x4096_S4096x256_S1024x256_1_0_0_1_n_n none v4 v6 (ix2 r j)).trans ?_
  rw [← Equiv.sum_comp (contrEquiv1 dot_S1024x4096_S4096x256_S1024x256_1_0_0_1_n_n 4096 rfl rfl).symm]
  refine Finset.sum_congr rfl fun k _ => ?_
  have c2 := contrEquiv1_symm_val dot_S1024x4096_S4096x256_S1024x256_1_0_0_1_n_n 4096 rfl rfl k
  have l2 : dot_S1024x4096_S4096x256_S1024x256_1_0_0_1_n_n.lhsIdx (ix2 r j) ((contrEquiv1 _ 4096 rfl rfl).symm k) = ix2 r k := by
    funext ax; apply Fin.ext
    match ax with
    | ⟨0, _⟩ => simp [DotDims.lhsIdx, dot_S1024x4096_S4096x256_S1024x256_1_0_0_1_n_n]; rfl
    | ⟨1, _⟩ => simp [DotDims.lhsIdx, dot_S1024x4096_S4096x256_S1024x256_1_0_0_1_n_n]; exact c2
  have r2 : dot_S1024x4096_S4096x256_S1024x256_1_0_0_1_n_n.rhsIdx (ix2 r j) ((contrEquiv1 _ 4096 rfl rfl).symm k) = ix2 k j := by
    funext ax; apply Fin.ext
    match ax with
    | ⟨0, _⟩ => simp [DotDims.rhsIdx, dot_S1024x4096_S4096x256_S1024x256_1_0_0_1_n_n]; exact c2
    | ⟨1, _⟩ => simp [DotDims.rhsIdx, dot_S1024x4096_S4096x256_S1024x256_1_0_0_1_n_n]; rfl
  rw [l2, r2]

theorem G2_2_apply (adj : FVec Ideal S8192x8192 .bf16) (h : FVec Ideal S8192x256 .bf16) (i : Fin 8192) (j : Fin 256) :
    G2_2 (F := Ideal) adj h (ix2 i j) = ∑ c : Fin 8192, adj (ix2 i c) * h (ix2 c j) := by
  have hi := i.isLt
  have keyA : ∀ (a a' b b' : Fin 8192), a.val = a'.val → b.val = b'.val → adj (ix2 a b) = adj (ix2 a' b') :=
    fun a a' b b' h1 h2 => by rw [Fin.ext h1, Fin.ext h2]
  have keyH : ∀ (a a' : Fin 8192), a.val = a'.val → h (ix2 a j) = h (ix2 a' j) :=
    fun a a' h1 => by rw [Fin.ext h1]
  show rowblk2 adj h ⟨i.val / 1024, _⟩ (ix2 ⟨i.val % 1024, _⟩ j) = _
  unfold rowblk2
  rw [k2_pay2_apply, k2_pay2_apply, k2_pay1_apply, zero_add]
  refine Eq.trans ?_ (Fin.sum_univ_add (a := 4096) (b := 4096) (fun c : Fin 8192 => adj (ix2 i c) * h (ix2 c j))).symm
  refine congrArg₂ (· + ·) (Finset.sum_congr rfl fun k _ => ?_) (Finset.sum_congr rfl fun k _ => ?_)
  · refine congrArg₂ (· * ·) (keyA _ _ _ _ ?_ ?_) (keyH _ _ ?_)
    · show 1024 * (i.val / 1024) + i.val % 1024 = i.val; omega
    · show 4096 * 0 + k.val = (Fin.castAdd 4096 k).val; rw [Fin.coe_castAdd]; omega
    · show 4096 * 0 + k.val = (Fin.castAdd 4096 k).val; rw [Fin.coe_castAdd]; omega
  · refine congrArg₂ (· * ·) (keyA _ _ _ _ ?_ ?_) (keyH _ _ ?_)
    · show 1024 * (i.val / 1024) + i.val % 1024 = i.val; omega
    · show 4096 * 1 + k.val = (Fin.natAdd 4096 k).val; rw [Fin.coe_natAdd]
    · show 4096 * 1 + k.val = (Fin.natAdd 4096 k).val; rw [Fin.coe_natAdd]

end Cert.KernelIdeal.Hand

end
-- ==== Proof.KI.R3.lean ====
import proofs.«405398_j45397804319028_3_alg».proof.Proof.Gen.KernelIdeal.Launch
import proofs.«405398_j45397804319028_3_alg».proof.Proof.Gen.KernelIdeal.Points
import proofs.«405398_j45397804319028_3_alg».proof.Proof.Gen.KernelIdeal.Skeleton
import proofs.«405398_j45397804319028_3_alg».proof.Proof.KI.R0
import Idealize.ShloMosaic.Lib.Pipeline.Frame
import Idealize.ShloMosaic.Lib.Pipeline.FrameBody
import Idealize.ShloMosaic.Lib.Pipeline.Regions
import Idealize.ShloMosaic.Lib.Pipeline.Value
import Idealize.ShloMosaic.Lib.ValueIdx
import Idealize.ShloMosaic.PureOps.Ideal.Laws
import Idealize.ShloMosaic.Lib.ValueLayout
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

local notation "payXn" => k3_pay2
local notation "payXb" => k3_pay3

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => payXn (iblk3 V c 0 t)
    | ⟨2, _⟩ => payXb (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = payXn (iblk3 V c 0 t) := by dsimp only [dat3]
theorem after3_2 (c : Dev nD) (t : Fin cfg3.N) : (dat3 V c).after 2 t = payXb (iblk3 V c 0 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

private theorem hz3 : (![0, 0] : Fin 2 → Nat) = fun _ => 0 := funext fun a => by fin_cases a <;> rfl

set_option maxHeartbeats 1000000 in

theorem sound_kernel3 (c : Dev nD) (E : Set ℕ) (i : grid3.Coords) (arg1 : Memref sig .tc .vmem S2048x256 .f32) (harg1 : arg1.IsWhole)
    (arg2 : Memref sig .tc .vmem S2048x256 .bf16) (harg2 : arg2.IsWhole) (arg3 : Memref sig .tc .vmem S2048x256 .bf16) (harg3 : arg3.IsWhole)
    (x0 : Vec F S2048x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (payXn x0)
            ∗ owns (c : Thread nD τ) arg3 fullShare (payXb x0)) -∗ K ⟨⟩))
      ⊢ wp frame (wpE (defs₀ (F := F)) Variants.none c none) E (cc3__prep_kernel i arg1 harg1 arg2 harg2 arg3 harg3) K := by
  simp only [cc3__prep_kernel_eq_skeleton]; unfold cc3__prep_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.mem_singleton_self _, View.mem_set_unit_zero hz3 inb_S2048x256_S2048x256_0_0 y⟩),
      View.canon_unit_zero hz3, View.readAt_eq_ld, View.ld_unit_zero (S := S2048x256) hz3]
  iexists _; isplitr
  swap; · iexact H2
  ipureintro
  rw [View.read_writes_eq_canon _ _ _ (fun y => ⟨_, List.mem_singleton_self _, View.mem_set_unit_zero hz3 inb_S2048x256_S2048x256_0_0 y⟩),
    View.canon_unit_zero hz3, View.readAt_eq_ld, View.ld_unit_zero (S := S2048x256) hz3]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

def G3_of (pay : Vec F S2048x256 .f32 → FVec F S2048x256 .bf16) (x : FVec F S8192x256 .f32) : FVec F S8192x256 .bf16 := fun i =>
  pay (fun y => x (ValueIdx.ix2 ⟨2048 * ((i 0).val / 2048) + (y 0).val, by
      have h0 : (i 0).val < 8192 := (i 0).isLt
      have h1 : (y 0).val < 2048 := (y 0).isLt
      omega⟩ (y 1)))
    (ValueIdx.ix2 ⟨(i 0).val % 2048, Nat.mod_lt _ (by decide)⟩ (i 1))

def G3_1 (x : FVec F S8192x256 .f32) : FVec F S8192x256 .bf16 := G3_of payXn x

def G3_2 (x : FVec F S8192x256 .f32) : FVec F S8192x256 .bf16 := G3_of payXb x

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

theorem G3_of_block (pay : Vec F S2048x256 .f32 → FVec F S2048x256 .bf16) (x : FVec F S8192x256 .f32) (t : ℕ)
    (blk : Vec F S2048x256 .f32) (hblk : ∀ (y : S2048x256.Idx) (k : S8192x256.Idx), (k 0).val = 2048 * t + (y 0).val → (k 1).val = (y 1).val → blk y = x k)
    (j : S2048x256.Idx) (i : S8192x256.Idx) (h0 : (i 0).val = 2048 * t + (j 0).val) (h1 : (i 1).val = (j 1).val) :
    pay blk j = G3_of pay x i :=
  G0_of_block pay x t blk hblk j i h0 h1

theorem iblk3_apply (c : Dev nD) (t : Fin cfg3.N) (y : S2048x256.Idx) (k : S8192x256.Idx)
    (hk0 : (k 0).val = 2048 * t.val + (y 0).val) (hk1 : (k 1).val = (y 1).val) :
    (iblk3 V c 0 t : Vec F S2048x256 .f32) y = (V c main_v20 : S8192x256.Idx → Elt F .f32) k := by
  obtain ⟨e0, e1, -⟩ := idx_facts3 t
  unfold iblk3
  rw [View.read_apply]
  show V c main_v20 _ = V c main_v20 _
  congr 1
  funext a
  apply Fin.ext
  match a with
  | ⟨0, _⟩ => show win3_0.index t (0 : Fin 2) * 2048 + 1 * (y 0).val = (k 0).val; rw [e0, hk0]; omega
  | ⟨1, _⟩ => show win3_0.index t (1 : Fin 2) * 256 + 1 * (y 1).val = (k 1).val; rw [e1, hk1]; omega

theorem flushed3_1 (c : Dev nD) (t : Fin cfg3.N) :
    (dat3 V c).flushed 1 t = ((cfg3.win 1).blk t).view.read (Elt F) (G3_1 (V c main_v20)) := by
  show (cfg3.win 1).cut (grid3.coords t) ((dat3 V c).after 1 t) = _
  rw [after3_1]
  obtain ⟨-, -, e0, e1, -⟩ := idx_facts3 t
  funext j
  show payXn (iblk3 V c 0 t) j = G3_1 (V c main_v20) (((cfg3.win 1).blk t).view.emb j)
  unfold G3_1
  refine G3_of_block payXn _ t.val _ (iblk3_apply V c t) j _ ?_ ?_
  · show win3_1.index t (0 : Fin 2) * 2048 + 1 * (j 0).val = _; rw [e0]; omega
  · show win3_1.index t (1 : Fin 2) * 256 + 1 * (j 1).val = _; rw [e1]; omega

theorem flushed3_2 (c : Dev nD) (t : Fin cfg3.N) :
    (dat3 V c).flushed 2 t = ((cfg3.win 2).blk t).view.read (Elt F) (G3_2 (V c main_v20)) := by
  show (cfg3.win 2).cut (grid3.coords t) ((dat3 V c).after 2 t) = _
  rw [after3_2]
  obtain ⟨-, -, -, -, e0, e1⟩ := idx_facts3 t
  funext j
  show payXb (iblk3 V c 0 t) j = G3_2 (V c main_v20) (((cfg3.win 2).blk t).view.emb j)
  unfold G3_2
  refine G3_of_block payXb _ t.val _ (iblk3_apply V c t) j _ ?_ ?_
  · show win3_2.index t (0 : Fin 2) * 2048 + 1 * (j 0).val = _; rw [e0]; omega
  · show win3_2.index t (1 : Fin 2) * 256 + 1 * (j 1).val = _; rw [e1]; omega

theorem mem_blk3_1 (t : Fin cfg3.N) (i : S8192x256.Idx) :
    i ∈ ((cfg3.win 1).blk t).view.set ↔ ∀ a : Fin 2, win3_1.index t a * S2048x256.size a ≤ (i a).val ∧ (i a).val < win3_1.index t a * S2048x256.size a + S2048x256.size a := by
  show i ∈ ((View.whole main_v21_0).slice (win3_1.rect t)).set ↔ _
  rw [View.set_slice_whole, Rect.mem_set_unit]
  exact Iff.rfl

theorem mem_blk3_2 (t : Fin cfg3.N) (i : S8192x256.Idx) :
    i ∈ ((cfg3.win 2).blk t).view.set ↔ ∀ a : Fin 2, win3_2.index t a * S2048x256.size a ≤ (i a).val ∧ (i a).val < win3_2.index t a * S2048x256.size a + S2048x256.size a := by
  show i ∈ ((View.whole main_v21_1).slice (win3_2.rect t)).set ↔ _
  rw [View.set_slice_whole, Rect.mem_set_unit]
  exact Iff.rfl

theorem cover3_1 (i : S8192x256.Idx) : ∃ t : Fin cfg3.N, (cfg3.win 1).flush t = true ∧ i ∈ ((cfg3.win 1).blk t).view.set := by
  have hi0 : (i 0).val < 8192 := (i 0).isLt
  have hi1 : (i 1).val < 256 := (i 1).isLt
  have hN : cfg3.N = 4 := N_3
  let t : Fin cfg3.N := ⟨(i 0).val / 2048, by rw [hN]; omega⟩
  have ht : t.val = (i 0).val / 2048 := rfl
  obtain ⟨-, -, e0, e1, -⟩ := idx_facts3 t
  refine ⟨t, flush3_1 t, ?_⟩
  rw [mem_blk3_1]
  intro a
  match a with
  | ⟨0, _⟩ => show win3_1.index t (0 : Fin 2) * 2048 ≤ (i 0).val ∧ (i 0).val < win3_1.index t (0 : Fin 2) * 2048 + 2048; rw [e0, ht]; omega
  | ⟨1, _⟩ => show win3_1.index t (1 : Fin 2) * 256 ≤ (i 1).val ∧ (i 1).val < win3_1.index t (1 : Fin 2) * 256 + 256; rw [e1]; omega

theorem cover3_2 (i : S8192x256.Idx) : ∃ t : Fin cfg3.N, (cfg3.win 2).flush t = true ∧ i ∈ ((cfg3.win 2).blk t).view.set := by
  have hi0 : (i 0).val < 8192 := (i 0).isLt
  have hi1 : (i 1).val < 256 := (i 1).isLt
  have hN : cfg3.N = 4 := N_3
  let t : Fin cfg3.N := ⟨(i 0).val / 2048, by rw [hN]; omega⟩
  have ht : t.val = (i 0).val / 2048 := rfl
  obtain ⟨-, -, -, -, e0, e1⟩ := idx_facts3 t
  refine ⟨t, flush3_2 t, ?_⟩
  rw [mem_blk3_2]
  intro a
  match a with
  | ⟨0, _⟩ => show win3_2.index t (0 : Fin 2) * 2048 ≤ (i 0).val ∧ (i 0).val < win3_2.index t (0 : Fin 2) * 2048 + 2048; rw [e0, ht]; omega
  | ⟨1, _⟩ => show win3_2.index t (1 : Fin 2) * 256 ≤ (i 1).val ∧ (i 1).val < win3_2.index t (1 : Fin 2) * 256 + 256; rw [e1]; omega

theorem arrAt3_1 (c : Dev nD) : (dat3 V c).arrAt 1 cfg3.N = G3_1 (V c main_v20) :=
  (dat3 V c).arrAt_eq_of_cover 1 (G3_1 (V c main_v20)) (fun t _ => flushed3_1 V c t) cover3_1

theorem arrAt3_2 (c : Dev nD) : (dat3 V c).arrAt 2 cfg3.N = G3_2 (V c main_v20) :=
  (dat3 V c).arrAt_eq_of_cover 2 (G3_2 (V c main_v20)) (fun t _ => flushed3_2 V c t) cover3_2

end Region3

section IdealOnly

open Idealize.ShloMosaic.ValueIdx

private theorem k3_pay1_eq (v0 : Vec F S2048x256 .f32) : k3_pay1 v0 = v0 := by
  unfold k3_pay1; exact shapeCast_self _ _

private theorem G3_1_eq : G3_1 (F := F) = G0_1 := by
  funext x
  unfold G3_1 G3_of G0_1 G0_of k3_pay2 k0_pay1
  simp only [k3_pay1_eq]

private theorem G3_2_eq : G3_2 (F := F) = G0_2 := by
  funext x
  unfold G3_2 G3_of G0_2 G0_of k3_pay3 k0_pay2
  simp only [k3_pay1_eq]

theorem G3_1_apply (x : FVec Ideal S8192x256 .f32) (i : Fin 8192) (j : Fin 256) :
    G3_1 (F := Ideal) x (ix2 i j)
      = x (ix2 i j) * Ideal.rsqrt ((∑ j' : Fin 256, x (ix2 i j') * x (ix2 i j')) + Ideal.ofBits .f32 0x2B8CBCCC#32) := by
  rw [G3_1_eq]; exact G0_1_apply x i j

theorem G3_2_apply (x : FVec Ideal S8192x256 .f32) (i : Fin 8192) (j : Fin 256) :
    G3_2 (F := Ideal) x (ix2 i j) = x (ix2 i j) := by
  rw [G3_2_eq]; exact G0_2_apply x i j

end IdealOnly

end Cert.KernelIdeal.Hand

end
-- ==== Proof.KI.R4.lean ====
import proofs.«405398_j45397804319028_3_alg».proof.Proof.Gen.KernelIdeal.Launch
import proofs.«405398_j45397804319028_3_alg».proof.Proof.Gen.KernelIdeal.Skeleton
import proofs.«405398_j45397804319028_3_alg».proof.Proof.Gen.KernelIdeal.Points
import proofs.«405398_j45397804319028_3_alg».proof.Proof.Gen.KernelIdeal.Loops
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def keyTile4 (X : Vec F S8192x256 .bf16) (k : Fin k4_t1_loop.trips) : Vec F S1024x256 .bf16 :=
  View.ld X (Rect.unit (s := S8192x256) (k4_off2 k) S1024x256.size (k4_off2_inb k))

def qTile4 (X : Vec F S8192x256 .bf16) (i : grid4.Coords) : Vec F S512x256 .bf16 :=
  View.ld X (Rect.unit (s := S8192x256) (k4_off1 i) S512x256.size (k4_off1_inb i))

def loopAcc4 (v3 : Vec F S512x256 .bf16) (xn xb : Vec F S8192x256 .bf16) : Nat → FVec F S512x1 .f32 × FVec F S512x256 .f32
  | 0 => (k4_pay3, k4_pay4)
  | k + 1 =>
    if h : k < k4_t1_loop.trips then
      (k4_pay6 v3 (loopAcc4 v3 xn xb k).1 (keyTile4 xn ⟨k, h⟩),
       k4_pay7 v3 (loopAcc4 v3 xn xb k).2 (keyTile4 xn ⟨k, h⟩) (keyTile4 xb ⟨k, h⟩))
    else loopAcc4 v3 xn xb k

theorem loopAcc4_zero (v3 : Vec F S512x256 .bf16) (xn xb : Vec F S8192x256 .bf16) :
    loopAcc4 v3 xn xb 0 = (k4_pay3, k4_pay4) := rfl

theorem loopAcc4_succ (v3 : Vec F S512x256 .bf16) (xn xb : Vec F S8192x256 .bf16) (k : Fin k4_t1_loop.trips) :
    loopAcc4 v3 xn xb (k.val + 1)
      = (k4_pay6 v3 (loopAcc4 v3 xn xb k.val).1 (keyTile4 xn k),
         k4_pay7 v3 (loopAcc4 v3 xn xb k.val).2 (keyTile4 xn k) (keyTile4 xb k)) := by
  rw [loopAcc4.eq_2]; exact dif_pos k.isLt

def res4_5 (i : grid4.Coords) (xn xb : Vec F S8192x256 .bf16) (xq : Vec F S512x256 .f32) (g b : Vec F S1x256 .f32) :
    FVec F S512x256 .f32 :=
  k4_pay1 (k4_pay8 xq (loopAcc4 (qTile4 xn i) xn xb k4_t1_loop.trips).1 (loopAcc4 (qTile4 xn i) xn xb k4_t1_loop.trips).2 g) b

def res4_6 (i : grid4.Coords) (xn xb : Vec F S8192x256 .bf16) (xq : Vec F S512x256 .f32) (g b : Vec F S1x256 .f32) :
    FVec F S512x256 .bf16 :=
  k4_pay2 (k4_pay8 xq (loopAcc4 (qTile4 xn i) xn xb k4_t1_loop.trips).1 (loopAcc4 (qTile4 xn i) xn xb k4_t1_loop.trips).2 g) b

def tile4 (y : S8192x256.Idx) : Fin grid4.N :=
  ⟨(y 0).val / 512, by have hN : grid4.N = 16 := N_4; have := ValueIdx.idx2_lt0 y; omega⟩

def row4 (y : S8192x256.Idx) : S512x256.Idx :=
  ValueIdx.ix2 ⟨(y 0).val % 512, Nat.mod_lt _ (by decide)⟩ (y 1)

def qRows4 (x : Vec F S8192x256 .f32) (t : Fin grid4.N) : Vec F S512x256 .f32 :=
  fun r => x (ValueIdx.ix2 ⟨512 * t.val + (r 0).val, by
    have h : t.val < grid4.N := t.isLt; have hN : grid4.N = 16 := N_4; have := ValueIdx.idx2_lt0 r; omega⟩ (r 1))

def G4_5 (xn xb : FVec F S8192x256 .bf16) (x : FVec F S8192x256 .f32) (g b : FVec F S1x256 .f32) : FVec F S8192x256 .f32 :=
  fun y => res4_5 (grid4.coords (tile4 y)) xn xb (qRows4 x (tile4 y)) g b (row4 y)

def G4_6 (xn xb : FVec F S8192x256 .bf16) (x : FVec F S8192x256 .f32) (g b : FVec F S1x256 .f32) : FVec F S8192x256 .bf16 :=
  fun y => res4_6 (grid4.coords (tile4 y)) xn xb (qRows4 x (tile4 y)) g b (row4 y)

abbrev inv4 (c : Dev nD) (arg1 : Memref sig .tc .vmem S8192x256 .bf16) (harg1 : arg1.IsWhole) (arg2 : Memref sig .tc .vmem S8192x256 .bf16) (harg2 : arg2.IsWhole) (v3 : Vec F S512x256 .bf16)
    (X_arg1 : BufTy.Contents (Elt F) arg1.view.ty) (X_arg2 : BufTy.Contents (Elt F) arg2.view.ty)
    (k : ℕ) (acc : FVec F S512x1 .f32 × FVec F S512x256 .f32) : sProp 𝕄 :=
  iprop((arg1.view.loc (c : Thread nD τ) ↦[arg1.view.set]{fullShare} X_arg1) ∗ (arg2.view.loc (c : Thread nD τ) ↦[arg2.view.set]{fullShare} X_arg2)
    ∗ ⌜acc = loopAcc4 v3 (arg1.view.read (Elt F) X_arg1) (arg2.view.read (Elt F) X_arg2) k⌝)

macro_rules | `(tactic| sl_pure) => `(tactic| with_reducible exact (Cert.KernelIdeal.Hand.loopAcc4_zero ..).symm)

set_option warn.classDefReducibility false in
set_option maxHeartbeats 4000000 in

@[sl_loop] def loopInv4 (𝒱 : Variants) (c : Dev nD) (bd : Option 𝒱.V) (E : Set ℕ) (i : grid4.Coords) (arg1 : Memref sig .tc .vmem S8192x256 .bf16) (harg1 : arg1.IsWhole) (arg2 : Memref sig .tc .vmem S8192x256 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x256 .bf16) (harg7 : arg7.IsWhole) (v3 : Vec F S512x256 .bf16)
    (X_arg1 : BufTy.Contents (Elt F) arg1.view.ty) (X_arg2 : BufTy.Contents (Elt F) arg2.view.ty) (init : FVec F S512x1 .f32 × FVec F S512x256 .f32) :
    LoopInvTy_k4_t1 (F := F) Unit ℕ (Pipeline.UD sig nD τ) ℕ 𝒱 c bd E i arg1 harg1 arg2 harg2 arg3 harg3 arg4 harg4 arg5 harg5 arg6 harg6 arg7 harg7 v3 init where
  inv := inv4 (F := F) c arg1 harg1 arg2 harg2 v3 X_arg1 X_arg2
  step k acc := by
    unfold k4_t1_body
    iintro ⟨HR_arg1, HR_arg2, %h_acc⟩
    subst h_acc
    sl_exec
    sl_step
    isplitl [HR_arg1]; · iexact HR_arg1
    isplitl [HR_arg2]; · iexact HR_arg2
    ipureintro
    rw [loopAcc4_succ]; rfl

theorem hz4 : (![0, 0] : Fin 2 → Nat) = fun _ => 0 := funext fun a => by fin_cases a <;> rfl

set_option maxHeartbeats 4000000 in

theorem sound_kernel4 (c : Dev nD) (E : Set ℕ) (i : grid4.Coords) (arg1 : Memref sig .tc .vmem S8192x256 .bf16) (harg1 : arg1.IsWhole) (arg2 : Memref sig .tc .vmem S8192x256 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x256 .bf16) (harg7 : arg7.IsWhole)
    (x0 x1 : Vec F S8192x256 .bf16) (x2 : Vec F S512x256 .f32) (x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (res4_5 i x0 x1 x2 x3 x4)
            ∗ owns (c : Thread nD τ) arg7 fullShare (res4_6 i x0 x1 x2 x3 x4)) -∗ K ⟨⟩))
      ⊢ wp frame (wpE (defs₀ (F := F)) Variants.none c none) E (cc4__contra_ln_kernel i arg1 harg1 arg2 harg2 arg3 harg3 arg4 harg4 arg5 harg5 arg6 harg6 arg7 harg7) K := by
  simp only [cc4__contra_ln_kernel_eq_skeleton]; unfold cc4__contra_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero hz4 inb_S512x256_S512x256_0_0 y⟩),
      View.canon_unit_zero hz4]
    sl_unfold_words
    unfold res4_5
    simp only [View.readAt_eq_ld, View.ld_unit_zero (S := S512x256) hz4, View.ld_unit_zero (S := S1x256) hz4]
    rfl
  iexists _; isplitr
  swap; · iexact H6
  ipureintro
  rw [View.read_writes_eq_canon _ _ _ (fun y => ⟨_, List.mem_singleton_self _, View.mem_set_unit_zero hz4 inb_S512x256_S512x256_0_0 y⟩),
    View.canon_unit_zero hz4]
  sl_unfold_words
  unfold res4_6
  simp only [View.readAt_eq_ld, View.ld_unit_zero (S := S512x256) hz4, View.ld_unit_zero (S := S1x256) hz4]
  rfl

section Regions

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_5 (c : Dev nD) (t : Fin cfg4.N) : FVec F S512x256 .f32 :=
  res4_5 (grid4.coords t) (iblk4 V c 0 t) (iblk4 V c 1 t) (iblk4 V c 2 t) (iblk4 V c 3 t) (iblk4 V c 4 t)

def out4_6 (c : Dev nD) (t : Fin cfg4.N) : FVec F S512x256 .bf16 :=
  res4_6 (grid4.coords t) (iblk4 V c 0 t) (iblk4 V c 1 t) (iblk4 V c 2 t) (iblk4 V c 3 t) (iblk4 V c 4 t)

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 V c t
    | ⟨6, _⟩ => out4_6 V c t
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 V c t := by dsimp only [dat4]
theorem after4_6 (c : Dev nD) (t : Fin cfg4.N) : (dat4 V c).after 6 t = out4_6 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)

theorem before4_4 (c : Dev nD) (t : Fin cfg4.N) (d) : (dat4 V c).before 4 t d = iblk4 V c 4 t :=
  ((dat4 V c).before_in_eq_fetched 4 rfl (fun _ => rfl) (fun _ _ _ => rfl)
      (fun t => by rw [after4_4]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

theorem idx4 : ∀ t : Fin cfg4.N,
    (win4_0.index t 0 = 0 ∧ win4_0.index t 1 = 0) ∧ (win4_1.index t 0 = 0 ∧ win4_1.index t 1 = 0)
    ∧ (win4_2.index t 0 = t.val ∧ win4_2.index t 1 = 0) ∧ (win4_3.index t 0 = 0 ∧ win4_3.index t 1 = 0)
    ∧ (win4_4.index t 0 = 0 ∧ win4_4.index t 1 = 0) ∧ (win4_5.index t 0 = t.val ∧ win4_5.index t 1 = 0)
    ∧ (win4_6.index t 0 = t.val ∧ win4_6.index t 1 = 0) :=
  (by decide +kernel : ∀ t : Fin grid4.N, _)

theorem iblk4_0_eq (c : Dev nD) (t : Fin cfg4.N) : (iblk4 V c 0 t : Vec F S8192x256 .bf16) = V c main_v21_0 := by
  funext j
  unfold iblk4
  rw [View.read_apply]
  show V c main_v21_0 _ = V c main_v21_0 j
  congr 1
  funext a
  apply Fin.ext
  match a with
  | ⟨0, _⟩ => show win4_0.index t 0 * 8192 + 1 * (j 0).val = (j 0).val; rw [(idx4 t).1.1]; omega
  | ⟨1, _⟩ => show win4_0.index t 1 * 256 + 1 * (j 1).val = (j 1).val; rw [(idx4 t).1.2]; omega

theorem iblk4_1_eq (c : Dev nD) (t : Fin cfg4.N) : (iblk4 V c 1 t : Vec F S8192x256 .bf16) = V c main_v21_1 := by
  funext j
  unfold iblk4
  rw [View.read_apply]
  show V c main_v21_1 _ = V c main_v21_1 j
  congr 1
  funext a
  apply Fin.ext
  match a with
  | ⟨0, _⟩ => show win4_1.index t 0 * 8192 + 1 * (j 0).val = (j 0).val; rw [(idx4 t).2.1.1]; omega
  | ⟨1, _⟩ => show win4_1.index t 1 * 256 + 1 * (j 1).val = (j 1).val; rw [(idx4 t).2.1.2]; omega

theorem iblk4_2_eq (c : Dev nD) (t : Fin cfg4.N) : (iblk4 V c 2 t : Vec F S512x256 .f32) = qRows4 (V c main_v20) t := by
  funext j
  unfold iblk4 qRows4
  rw [View.read_apply]
  show V c main_v20 _ = V c main_v20 _
  congr 1
  funext a
  apply Fin.ext
  match a with
  | ⟨0, _⟩ => show win4_2.index t 0 * 512 + 1 * (j 0).val = 512 * t.val + (j 0).val; rw [(idx4 t).2.2.1.1]; omega
  | ⟨1, _⟩ => show win4_2.index t 1 * 256 + 1 * (j 1).val = (j 1).val; rw [(idx4 t).2.2.1.2]; omega

theorem iblk4_3_eq (c : Dev nD) (t : Fin cfg4.N) : (iblk4 V c 3 t : Vec F S1x256 .f32) = V c main_v22 := by
  funext j
  unfold iblk4
  rw [View.read_apply]
  show V c main_v22 _ = V c main_v22 j
  congr 1
  funext a
  apply Fin.ext
  match a with
  | ⟨0, _⟩ => show win4_3.index t 0 * 1 + 1 * (j 0).val = (j 0).val; rw [(idx4 t).2.2.2.1.1]; omega
  | ⟨1, _⟩ => show win4_3.index t 1 * 256 + 1 * (j 1).val = (j 1).val; rw [(idx4 t).2.2.2.1.2]; omega

theorem iblk4_4_eq (c : Dev nD) (t : Fin cfg4.N) : (iblk4 V c 4 t : Vec F S1x256 .f32) = V c main_v23 := by
  funext j
  unfold iblk4
  rw [View.read_apply]
  show V c main_v23 _ = V c main_v23 j
  congr 1
  funext a
  apply Fin.ext
  match a with
  | ⟨0, _⟩ => show win4_4.index t 0 * 1 + 1 * (j 0).val = (j 0).val; rw [(idx4 t).2.2.2.2.1.1]; omega
  | ⟨1, _⟩ => show win4_4.index t 1 * 256 + 1 * (j 1).val = (j 1).val; rw [(idx4 t).2.2.2.2.1.2]; omega

theorem tile4_of_row (y : S8192x256.Idx) (t : Fin cfg4.N) (j : S512x256.Idx)
    (h0 : (y 0).val = 512 * t.val + (j 0).val) (h1 : (y 1).val = (j 1).val) : tile4 y = t ∧ row4 y = j := by
  have hj := ValueIdx.idx2_lt0 j
  refine ⟨Fin.ext ?_, ?_⟩
  · show (y 0).val / 512 = t.val; omega
  · rw [ValueIdx.eq_ix2 j]; unfold row4
    congr 1
    · apply Fin.ext; show (y 0).val % 512 = (j 0).val; omega
    · apply Fin.ext; exact h1

theorem arrAt4_5 (c : Dev nD) :
    (dat4 V c).arrAt 5 cfg4.N = G4_5 (V c main_v21_0) (V c main_v21_1) (V c main_v20) (V c main_v22) (V c main_v23) := by
  refine (dat4 V c).arrAt_eq_of_cover 5 _ (fun t _ => ?_) (fun i => ?_)
  · show out4_5 V c t = _
    funext j
    rw [View.read_apply]
    show out4_5 V c t j = G4_5 (V c main_v21_0) (V c main_v21_1) (V c main_v20) (V c main_v22) (V c main_v23) (((cfg4.win 5).blk t).view.emb j)
    obtain ⟨ht, hr⟩ := tile4_of_row (((cfg4.win 5).blk t).view.emb j) t j
      (by show win4_5.index t 0 * 512 + 1 * (j 0).val = 512 * t.val + (j 0).val; rw [(idx4 t).2.2.2.2.2.1.1]; omega)
      (by show win4_5.index t 1 * 256 + 1 * (j 1).val = (j 1).val; rw [(idx4 t).2.2.2.2.2.1.2]; omega)
    unfold G4_5 out4_5
    rw [ht, hr, iblk4_0_eq, iblk4_1_eq, iblk4_2_eq, iblk4_3_eq, iblk4_4_eq]
  · refine ⟨tile4 i, flush4_5 _, ?_⟩
    have ht : (tile4 i).val = (i 0).val / 512 := rfl
    have hi1 := ValueIdx.idx2_lt1 i
    show i ∈ ((View.whole main_v24_0).slice (win4_5.rect (tile4 i))).set
    rw [View.set_slice_whole, Rect.mem_set_unit]
    intro a
    match a with
    | ⟨0, _⟩ =>
      show win4_5.index (tile4 i) 0 * 512 ≤ (i 0).val ∧ (i 0).val < win4_5.index (tile4 i) 0 * 512 + 512
      rw [(idx4 (tile4 i)).2.2.2.2.2.1.1, ht]; omega
    | ⟨1, _⟩ =>
      show win4_5.index (tile4 i) 1 * 256 ≤ (i 1).val ∧ (i 1).val < win4_5.index (tile4 i) 1 * 256 + 256
      rw [(idx4 (tile4 i)).2.2.2.2.2.1.2]; omega

theorem arrAt4_6 (c : Dev nD) :
    (dat4 V c).arrAt 6 cfg4.N = G4_6 (V c main_v21_0) (V c main_v21_1) (V c main_v20) (V c main_v22) (V c main_v23) := by
  refine (dat4 V c).arrAt_eq_of_cover 6 _ (fun t _ => ?_) (fun i => ?_)
  · show out4_6 V c t = _
    funext j
    rw [View.read_apply]
    show out4_6 V c t j = G4_6 (V c main_v21_0) (V c main_v21_1) (V c main_v20) (V c main_v22) (V c main_v23) (((cfg4.win 6).blk t).view.emb j)
    obtain ⟨ht, hr⟩ := tile4_of_row (((cfg4.win 6).blk t).view.emb j) t j
      (by show win4_6.index t 0 * 512 + 1 * (j 0).val = 512 * t.val + (j 0).val; rw [(idx4 t).2.2.2.2.2.2.1]; omega)
      (by show win4_6.index t 1 * 256 + 1 * (j 1).val = (j 1).val; rw [(idx4 t).2.2.2.2.2.2.2]; omega)
    unfold G4_6 out4_6
    rw [ht, hr, iblk4_0_eq, iblk4_1_eq, iblk4_2_eq, iblk4_3_eq, iblk4_4_eq]
  · refine ⟨tile4 i, flush4_6 _, ?_⟩
    have ht : (tile4 i).val = (i 0).val / 512 := rfl
    have hi1 := ValueIdx.idx2_lt1 i
    show i ∈ ((View.whole main_v24_1).slice (win4_6.rect (tile4 i))).set
    rw [View.set_slice_whole, Rect.mem_set_unit]
    intro a
    match a with
    | ⟨0, _⟩ =>
      show win4_6.index (tile4 i) 0 * 512 ≤ (i 0).val ∧ (i 0).val < win4_6.index (tile4 i) 0 * 512 + 512
      rw [(idx4 (tile4 i)).2.2.2.2.2.2.1, ht]; omega
    | ⟨1, _⟩ =>
      show win4_6.index (tile4 i) 1 * 256 ≤ (i 1).val ∧ (i 1).val < win4_6.index (tile4 i) 1 * 256 + 256
      rw [(idx4 (tile4 i)).2.2.2.2.2.2.2]; omega

end Regions

end Cert.KernelIdeal.Hand

end
-- ==== Proof.KI.R5.lean ====
import proofs.«405398_j45397804319028_3_alg».proof.Proof.Gen.KernelIdeal.Launch
import proofs.«405398_j45397804319028_3_alg».proof.Proof.Gen.KernelIdeal.Skeleton
import proofs.«405398_j45397804319028_3_alg».proof.Proof.Gen.KernelIdeal.Points
import proofs.«405398_j45397804319028_3_alg».proof.Proof.KI.R2
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev ablk5 (c : Dev nD) (t : Fin cfg5.N) : Vec F S1024x4096 .bf16 := iblk5 V c 0 t

abbrev hblk5 (c : Dev nD) (t : Fin cfg5.N) : Vec F S4096x256 .bf16 := iblk5 V c 1 t

def scAt5 (c : Dev nD) : Nat → Vec F S1024x256 .f32
  | 0 => k5_pay1 (F := F)
  | n + 1 =>
    if h : n < cfg5.N then
      if n % 2 = 0 then k5_pay2 (k5_pay1 (F := F)) (ablk5 V c ⟨n, h⟩) (hblk5 V c ⟨n, h⟩)
      else k5_pay2 (scAt5 c n) (ablk5 V c ⟨n, h⟩) (hblk5 V c ⟨n, h⟩)
    else scAt5 c n

abbrev scM5 : Memref sig .tc .vmem S1024x256 .f32 := Memref.whole cc5_scratch0

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 2 = 0 :=
  (by decide +kernel : ∀ t : Fin grid5.N, cond5_0 (grid5.coords t) ↔ t.val % 2 = 0)

abbrev cond5_1 (i : grid5.Coords) : Prop := k5_cond2 i = 1#1
theorem hcond5_1 : ∀ t : Fin cfg5.N, cond5_1 (grid5.coords t) ↔ t.val % 2 = 1 :=
  (by decide +kernel : ∀ t : Fin grid5.N, cond5_1 (grid5.coords t) ↔ t.val % 2 = 1)

theorem idleAt5_2 : ∀ t : Fin cfg5.N, t.val % 2 = 0 → cfg5.idle 2 (grid5.coords t) = true :=
  (by decide +kernel : ∀ t : Fin grid5.N, t.val % 2 = 0 → idle5 2 (grid5.coords t) = true)
theorem liveAt5_2 : ∀ t : Fin cfg5.N, t.val % 2 = 1 → cfg5.idle 2 (grid5.coords t) = false :=
  (by decide +kernel : ∀ t : Fin grid5.N, t.val % 2 = 1 → idle5 2 (grid5.coords t) = false)

theorem sound_kernel5_A (c : Dev nD) (E : Set ℕ) (i : grid5.Coords)
    (arg2 : Memref sig .tc .vmem S1024x4096 .bf16) (harg2 : arg2.IsWhole) (arg3 : Memref sig .tc .vmem S4096x256 .bf16) (harg3 : arg3.IsWhole)
    (arg4 : Memref sig .tc .vmem S1024x256 .f32) (harg4 : arg4.IsWhole) (arg5 : Memref sig .tc .vmem S1024x256 .f32) (harg5 : arg5.IsWhole)
    (hc0 : cond5_0 i) (hc1 : ¬cond5_1 i)
    (x0 : Vec F S1024x4096 .bf16) (x1 : Vec F S4096x256 .bf16) (xi : Vec F S1024x256 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k5_pay2 (k5_pay1 (F := F)) x0 x1)) -∗ K ⟨⟩))
      ⊢ wp frame (wpE (defs₀ (F := F)) Variants.none c none) E (cc5__spmm_kernel i arg2 harg2 arg3 harg3 arg4 harg4 arg5 harg5) K :=
  sound_kernel2_A c E i arg2 harg2 arg3 harg3 arg4 harg4 arg5 harg5 hc0 hc1 x0 x1 xi K

theorem sound_kernel5_B (c : Dev nD) (E : Set ℕ) (i : grid5.Coords)
    (arg2 : Memref sig .tc .vmem S1024x4096 .bf16) (harg2 : arg2.IsWhole) (arg3 : Memref sig .tc .vmem S4096x256 .bf16) (harg3 : arg3.IsWhole)
    (arg4 : Memref sig .tc .vmem S1024x256 .f32) (harg4 : arg4.IsWhole) (arg5 : Memref sig .tc .vmem S1024x256 .f32) (harg5 : arg5.IsWhole)
    (hc0 : ¬cond5_0 i) (hc1 : cond5_1 i)
    (x0 : Vec F S1024x4096 .bf16) (x1 : Vec F S4096x256 .bf16) (xs : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k5_pay2 xs x0 x1)
            ∗ owns (c : Thread nD τ) arg5 fullShare (k5_pay2 xs x0 x1)) -∗ K ⟨⟩))
      ⊢ wp frame (wpE (defs₀ (F := F)) Variants.none c none) E (cc5__spmm_kernel i arg2 harg2 arg3 harg3 arg4 harg4 arg5 harg5) K :=
  sound_kernel2_B c E i arg2 harg2 arg3 harg3 arg4 harg4 arg5 harg5 hc0 hc1 x0 x1 xs K

theorem scopedRest5_eq (c : Dev nD) :
    (Pipeline.scopedRest (Ix := Unit) (Name := ℕ) (U := Pipeline.UD sig nD τ) (Lvl := ℕ) (Val := Elt F) spec5 c : sProp 𝕄)
      = iprop(iprop((∃ d, owns (c : Thread nD τ) scM5 fullShare d)) ∗ Pipeline.scopedRestBut (Ix := Unit) (Name := ℕ) (U := Pipeline.UD sig nD τ) (Lvl := ℕ) (Val := Elt F) spec5 c [cc5_scratch0]) := by
  rw [scopedRest5_split]; simp only [scM5, owns_whole]; rfl

def Phi5 (c : Dev nD) : Nat → sProp 𝕄
  | 0 => iprop(Pipeline.scopedRest (Ix := Unit) (Name := ℕ) (U := Pipeline.UD sig nD τ) (Lvl := ℕ) (Val := Elt F) spec5 c ∗ ∃ r, prngReg c r)
  | n + 1 => iprop(owns (c : Thread nD τ) scM5 fullShare (scAt5 V c (n + 1)) ∗ Pipeline.scopedRestBut (Ix := Unit) (Name := ℕ) (U := Pipeline.UD sig nD τ) (Lvl := ℕ) (Val := Elt F) spec5 c [cc5_scratch0] ∗ ∃ r, prngReg c r)

theorem Phi5_succ (c : Dev nD) (n : ℕ) :
    Phi5 V c (n + 1) = iprop(owns (c : Thread nD τ) scM5 fullShare (scAt5 V c (n + 1)) ∗ Pipeline.scopedRestBut (Ix := Unit) (Name := ℕ) (U := Pipeline.UD sig nD τ) (Lvl := ℕ) (Val := Elt F) spec5 c [cc5_scratch0] ∗ ∃ r, prngReg c r) := rfl

theorem Phi5_pos (c : Dev nD) (n : ℕ) (hn : n ≠ 0) :
    Phi5 V c n = iprop(owns (c : Thread nD τ) scM5 fullShare (scAt5 V c n) ∗ Pipeline.scopedRestBut (Ix := Unit) (Name := ℕ) (U := Pipeline.UD sig nD τ) (Lvl := ℕ) (Val := Elt F) spec5 c [cc5_scratch0] ∗ ∃ r, prngReg c r) := by
  cases n with
  | zero => exact absurd rfl hn
  | succ n => rfl

theorem Phi5_some (c : Dev nD) (n : ℕ) :
    Phi5 V c n ⊢ iprop(iprop((∃ d, owns (c : Thread nD τ) scM5 fullShare d)) ∗ Pipeline.scopedRestBut (Ix := Unit) (Name := ℕ) (U := Pipeline.UD sig nD τ) (Lvl := ℕ) (Val := Elt F) spec5 c [cc5_scratch0] ∗ ∃ r, prngReg c r) := by
  cases n with
  | zero =>
    show iprop(Pipeline.scopedRest (Ix := Unit) (Name := ℕ) (U := Pipeline.UD sig nD τ) (Lvl := ℕ) (Val := Elt F) spec5 c ∗ ∃ r, prngReg c r) ⊢ _
    rw [scopedRest5_eq]
    iintro ⟨⟨HS, HR⟩, Hg⟩
    isplitl [HS]; · iexact HS
    isplitl [HR]; · iexact HR
    iexact Hg
  | succ n =>
    rw [Phi5_succ]
    iintro ⟨HS, HR, Hg⟩
    isplitl [HS]; · iexists _; iexact HS
    isplitl [HR]; · iexact HR
    iexact Hg

theorem scAt5_A (c : Dev nD) (t : Fin cfg5.N) (h : t.val % 2 = 0) :
    scAt5 V c (t.val + 1) = k5_pay2 (k5_pay1 (F := F)) (ablk5 V c t) (hblk5 V c t) := by
  rw [scAt5, dif_pos t.isLt, if_pos h]

theorem scAt5_B (c : Dev nD) (t : Fin cfg5.N) (h : ¬t.val % 2 = 0) :
    scAt5 V c (t.val + 1) = k5_pay2 (scAt5 V c t.val) (ablk5 V c t) (hblk5 V c t) := by
  rw [scAt5, dif_pos t.isLt, if_neg h]

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => scAt5 V c (t.val + 1)
  Φ t := Phi5 V c t.val
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = scAt5 V c (t.val + 1) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 2000000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = Phi5 V c (t.val + 1) from rfl, show (dat5 V c).Φ t.castSucc = Phi5 V c t.val from rfl]
  rw [show (dat5 V c).leavesExact 0 t = owns (c : Thread nD τ) (st5_0 t) fullShare ((dat5 V c).after 0 t) from by
    unfold Dat.leavesExact; rw [show cfg5.idle 0 (cfg5.grid.coords t) = false from rfl], after5_0]
  rw [show (dat5 V c).leavesExact 1 t = owns (c : Thread nD τ) (st5_1 t) fullShare ((dat5 V c).after 1 t) from by
    unfold Dat.leavesExact; rw [show cfg5.idle 1 (cfg5.grid.coords t) = false from rfl], after5_1]
  have hN : t.val < 16 := lt_of_lt_of_eq t.isLt (show cfg5.N = 16 from N_5)
  by_cases h : t.val % 2 = 0
  · have hcA : cond5_0 (grid5.coords t) := (hcond5_0 t).mpr h
    have hcB : ¬cond5_1 (grid5.coords t) := fun h' => by have := (hcond5_1 t).mp h'; omega
    have hnf : (cfg5.win 2).flush t = false := Bool.eq_false_iff.mpr (fun hf => by have := (flush5_2 t).mp hf; omega)
    rw [Dat.leavesExact_idle (dat5 V c) 2 t (idleAt5_2 t h) hnf]
    rw [Phi5_succ, scAt5_A V c t h]
    iintro ⟨HΦ, Ho, ⟨%d0, H0⟩, ⟨%d1, H1⟩, ⟨%d2, H2⟩⟩
    ihave HΦ' := (Phi5_some V c t.val) $$ HΦ
    icases HΦ' with ⟨HS, HR, Hg⟩
    iapply (sound_kernel5_A c Set.univ (grid5.coords t) _ _ _ _ _ _ _ _ hcA hcB (ablk5 V c t) (hblk5 V c t) ((dat5 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hcA : ¬cond5_0 (grid5.coords t) := fun h' => h ((hcond5_0 t).mp h')
    have h1 : t.val % 2 = 1 := by omega
    have hcB : cond5_1 (grid5.coords t) := (hcond5_1 t).mpr h1
    rw [show (dat5 V c).leavesExact 2 t = owns (c : Thread nD τ) (st5_2 t) fullShare ((dat5 V c).after 2 t) from by
      unfold Dat.leavesExact; rw [liveAt5_2 t h1], after5_2]
    rw [Phi5_pos V c t.val (by omega), Phi5_succ, scAt5_B V c t h]
    iintro ⟨⟨HS, HR, Hg⟩, Ho, ⟨%d0, H0⟩, ⟨%d1, H1⟩, ⟨%d2, H2⟩⟩
    iapply (sound_kernel5_B c Set.univ (grid5.coords t) _ _ _ _ _ _ _ _ hcA hcB (ablk5 V c t) (hblk5 V c t) (scAt5 V c t.val) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

theorem body_obligation5 (c : Dev nD) : BodyObligation (dat5 (F := F) V c) (defs₀ (F := F)) Variants.none () Set.univ := fun t => by
  rw [bigSep_W5, bigSep_W5]
  exact sound_body5 V c t

theorem phi_in5 (c : Dev nD) :
    iprop(Pipeline.scopedRest (Ix := Unit) (Name := ℕ) (U := Pipeline.UD sig nD τ) (Lvl := ℕ) (Val := Elt F) spec5 c ∗ ∃ r, prngReg c r)
      ⊢ (dat5 V c).Φ 0 := by
  rw [show (dat5 V c).Φ 0 = Phi5 V c 0 from rfl]
  exact Idealize.SL.BI.Entails.refl _

theorem phi_out5 (c : Dev nD) :
    (dat5 V c).Φ (Fin.last cfg5.N)
      ⊢ iprop(Pipeline.scopedRest (Ix := Unit) (Name := ℕ) (U := Pipeline.UD sig nD τ) (Lvl := ℕ) (Val := Elt F) spec5 c ∗ ∃ r, prngReg c r) := by
  rw [show (dat5 V c).Φ (Fin.last cfg5.N) = Phi5 V c (15 + 1) from rfl, Phi5_succ, scopedRest5_eq]
  iintro ⟨HS, HR, Hg⟩
  isplitl [HS HR]
  · isplitl [HS]; · iexists _; iexact HS
    iexact HR
  iexact Hg

open Idealize.ShloMosaic.ValueIdx

theorem idx_facts5 : ∀ t : Fin cfg5.N,
    win5_0.index t (0 : Fin 2) = t.val / 2 ∧ win5_0.index t (1 : Fin 2) = t.val % 2
    ∧ win5_1.index t (0 : Fin 2) = t.val % 2 ∧ win5_1.index t (1 : Fin 2) = 0
    ∧ win5_2.index t (0 : Fin 2) = t.val / 2 ∧ win5_2.index t (1 : Fin 2) = 0 :=
  (by decide +kernel : ∀ t : Fin grid5.N, _)

def ablkOf5 (adj : FVec F S8192x8192 .bf16) (i : Fin 8) (k : Fin 2) : FVec F S1024x4096 .bf16 := fun x =>
  adj (ix2 ⟨1024 * i.val + (x 0).val, by have := idx2_lt0 x; omega⟩ ⟨4096 * k.val + (x 1).val, by have := idx2_lt1 x; omega⟩)

def hblkOf5 (h : FVec F S8192x256 .bf16) (k : Fin 2) : FVec F S4096x256 .bf16 := fun x =>
  h (ix2 ⟨4096 * k.val + (x 0).val, by have := idx2_lt0 x; omega⟩ (x 1))

def rowblk5 (adj : FVec F S8192x8192 .bf16) (h : FVec F S8192x256 .bf16) (i : Fin 8) : FVec F S1024x256 .f32 :=
  k5_pay2 (k5_pay2 (k5_pay1 (F := F)) (ablkOf5 adj i 0) (hblkOf5 h 0)) (ablkOf5 adj i 1) (hblkOf5 h 1)

def G5_2 (adj : FVec F S8192x8192 .bf16) (h : FVec F S8192x256 .bf16) : FVec F S8192x256 .f32 := fun y =>
  rowblk5 adj h ⟨(y 0).val / 1024, by have := idx2_lt0 y; omega⟩ (ix2 ⟨(y 0).val % 1024, Nat.mod_lt _ (by decide)⟩ (y 1))

theorem G5_2_at (adj : FVec F S8192x8192 .bf16) (h : FVec F S8192x256 .bf16) (i : Fin 8) (x : S1024x256.Idx) (y : S8192x256.Idx)
    (h0 : (y 0).val = 1024 * i.val + (x 0).val) (h1 : (y 1).val = (x 1).val) : G5_2 adj h y = rowblk5 adj h i x := by
  have hx0 := idx2_lt0 x
  have e1 : (⟨(y 0).val / 1024, by have := idx2_lt0 y; omega⟩ : Fin 8) = i := Fin.ext (by show (y 0).val / 1024 = i.val; omega)
  have e2 : (ix2 (⟨(y 0).val % 1024, Nat.mod_lt _ (by decide)⟩ : Fin 1024) (y 1) : S1024x256.Idx) = x := by
    funext a; apply Fin.ext
    match a with
    | ⟨0, _⟩ => show (y 0).val % 1024 = (x 0).val; omega
    | ⟨1, _⟩ => exact h1
  show rowblk5 adj h ⟨(y 0).val / 1024, _⟩ (ix2 ⟨(y 0).val % 1024, _⟩ (y 1)) = _
  rw [e1, e2]

theorem ablk5_eq (c : Dev nD) (t : Fin cfg5.N) (i : Fin 8) (k : Fin 2) (hi : t.val / 2 = i.val) (hk : t.val % 2 = k.val) :
    ablk5 V c t = ablkOf5 (V c main_v15) i k := by
  obtain ⟨e0, e1, -, -, -, -⟩ := idx_facts5 t
  funext x
  show V c main_v15 (((cfg5.win 0).blk t).view.emb x) = V c main_v15 _
  refine congrArg (V c main_v15) ?_
  funext a; apply Fin.ext
  match a with
  | ⟨0, _⟩ => show win5_0.index t (0 : Fin 2) * 1024 + 1 * (x 0).val = 1024 * i.val + (x 0).val; omega
  | ⟨1, _⟩ => show win5_0.index t (1 : Fin 2) * 4096 + 1 * (x 1).val = 4096 * k.val + (x 1).val; omega

theorem hblk5_eq (c : Dev nD) (t : Fin cfg5.N) (k : Fin 2) (hk : t.val % 2 = k.val) :
    hblk5 V c t = hblkOf5 (V c main_v24_1) k := by
  obtain ⟨-, -, e2, e3, -, -⟩ := idx_facts5 t
  funext x
  show V c main_v24_1 (((cfg5.win 1).blk t).view.emb x) = V c main_v24_1 _
  refine congrArg (V c main_v24_1) ?_
  funext a; apply Fin.ext
  match a with
  | ⟨0, _⟩ => show win5_1.index t (0 : Fin 2) * 4096 + 1 * (x 0).val = 4096 * k.val + (x 0).val; omega
  | ⟨1, _⟩ => show win5_1.index t (1 : Fin 2) * 256 + 1 * (x 1).val = (x 1).val; omega

theorem scAt5_flush (c : Dev nD) (t : Fin cfg5.N) (h1 : t.val % 2 = 1) (i : Fin 8) (hi : t.val / 2 = i.val) :
    scAt5 V c (t.val + 1) = rowblk5 (V c main_v15) (V c main_v24_1) i := by
  have hN : t.val < 16 := lt_of_lt_of_eq t.isLt (show cfg5.N = 16 from N_5)
  have hlt : t.val - 1 < cfg5.N := lt_of_le_of_lt (Nat.sub_le _ _) t.isLt
  have e : t.val = (⟨t.val - 1, hlt⟩ : Fin cfg5.N).val + 1 := by show t.val = t.val - 1 + 1; omega
  rw [scAt5_B V c t (by omega), congrArg (scAt5 V c) e, scAt5_A V c ⟨t.val - 1, hlt⟩ (by show (t.val - 1) % 2 = 0; omega)]
  rw [ablk5_eq V c ⟨t.val - 1, hlt⟩ i 0 (by show (t.val - 1) / 2 = i.val; omega) (by show (t.val - 1) % 2 = 0; omega),
    hblk5_eq V c ⟨t.val - 1, hlt⟩ 0 (by show (t.val - 1) % 2 = 0; omega),
    ablk5_eq V c t i 1 hi (by show t.val % 2 = 1; omega), hblk5_eq V c t 1 (by show t.val % 2 = 1; omega)]
  rfl

theorem flushed5_eq (c : Dev nD) (t : Fin cfg5.N) (hf : (cfg5.win 2).flush t = true) :
    (dat5 V c).flushed 2 t = ((cfg5.win 2).blk t).view.read (Elt F) (G5_2 (V c main_v15) (V c main_v24_1)) := by
  have h1 : t.val % 2 = 1 := (flush5_2 t).mp hf
  have hN : t.val < 16 := lt_of_lt_of_eq t.isLt (show cfg5.N = 16 from N_5)
  obtain ⟨-, -, -, -, e4, e5⟩ := idx_facts5 t
  show (cfg5.win 2).cut (grid5.coords t) ((dat5 V c).after 2 t) = _
  rw [after5_2, scAt5_flush V c t h1 ⟨t.val / 2, by omega⟩ rfl]
  funext x
  show rowblk5 _ _ _ x = G5_2 (V c main_v15) (V c main_v24_1) (((cfg5.win 2).blk t).view.emb x)
  refine (G5_2_at _ _ ⟨t.val / 2, by omega⟩ x _ ?_ ?_).symm
  · show win5_2.index t (0 : Fin 2) * 1024 + 1 * (x 0).val = 1024 * (t.val / 2) + (x 0).val; omega
  · show win5_2.index t (1 : Fin 2) * 256 + 1 * (x 1).val = (x 1).val; omega

theorem mem_blk5_2 (t : Fin cfg5.N) (i : S8192x256.Idx) :
    i ∈ ((cfg5.win 2).blk t).view.set ↔ ∀ a : Fin 2, win5_2.index t a * S1024x256.size a ≤ (i a).val ∧ (i a).val < win5_2.index t a * S1024x256.size a + S1024x256.size a := by
  show i ∈ ((View.whole main_v25).slice (win5_2.rect t)).set ↔ _
  rw [View.set_slice_whole, Rect.mem_set_unit]
  exact Iff.rfl

theorem cover5_2 (i : S8192x256.Idx) : ∃ t : Fin cfg5.N, (cfg5.win 2).flush t = true ∧ i ∈ ((cfg5.win 2).blk t).view.set := by
  have hi0 := idx2_lt0 i
  have hi1 := idx2_lt1 i
  have hlt : 2 * ((i 0).val / 1024) + 1 < cfg5.N := by rw [show cfg5.N = 16 from N_5]; omega
  refine ⟨⟨2 * ((i 0).val / 1024) + 1, hlt⟩, (flush5_2 _).mpr (by show (2 * ((i 0).val / 1024) + 1) % 2 = 1; omega), ?_⟩
  obtain ⟨-, -, -, -, e4, e5⟩ := idx_facts5 ⟨2 * ((i 0).val / 1024) + 1, hlt⟩
  have e4' : win5_2.index ⟨2 * ((i 0).val / 1024) + 1, hlt⟩ (0 : Fin 2) = (2 * ((i 0).val / 1024) + 1) / 2 := e4
  rw [mem_blk5_2]
  intro a
  match a with
  | ⟨0, _⟩ => show win5_2.index _ (0 : Fin 2) * 1024 ≤ (i 0).val ∧ (i 0).val < win5_2.index _ (0 : Fin 2) * 1024 + 1024; omega
  | ⟨1, _⟩ => show win5_2.index _ (1 : Fin 2) * 256 ≤ (i 1).val ∧ (i 1).val < win5_2.index _ (1 : Fin 2) * 256 + 256; omega

theorem arrAt5_2 (c : Dev nD) : (dat5 V c).arrAt 2 cfg5.N = G5_2 (V c main_v15) (V c main_v24_1) :=
  (dat5 V c).arrAt_eq_of_cover 2 (G5_2 (V c main_v15) (V c main_v24_1)) (fun t hf => flushed5_eq V c t hf) cover5_2

theorem k5_pay1_apply (x : S1024x256.Idx) : k5_pay1 (F := Ideal) x = 0 := by
  unfold k5_pay1
  rw [shapeCast_self]
  exact Ideal.ofBits_zero_f32

theorem k5_pay2_apply (v3 : FVec Ideal S1024x256 .f32) (v4 : FVec Ideal S1024x4096 .bf16) (v6 : FVec Ideal S4096x256 .bf16)
    (r : Fin 1024) (j : Fin 256) :
    k5_pay2 (F := Ideal) v3 v4 v6 (ix2 r j) = v3 (ix2 r j) + ∑ k : Fin 4096, v4 (ix2 r k) * v6 (ix2 k j) := by
  unfold k5_pay2
  simp only [shapeCast_self]
  refine (addf_apply _ _ _).trans (congrArg (v3 (ix2 r j) + ·) ?_)
  refine (Ideal.matmul_constant_zero_apply dot_S1024x4096_S4096x256_S1024x256_1_0_0_1_n_n none v4 v6 (ix2 r j)).trans ?_
  rw [← Equiv.sum_comp (contrEquiv1 dot_S1024x4096_S4096x256_S1024x256_1_0_0_1_n_n 4096 rfl rfl).symm]
  refine Finset.sum_congr rfl fun k _ => ?_
  have c2 := contrEquiv1_symm_val dot_S1024x4096_S4096x256_S1024x256_1_0_0_1_n_n 4096 rfl rfl k
  have l2 : dot_S1024x4096_S4096x256_S1024x256_1_0_0_1_n_n.lhsIdx (ix2 r j) ((contrEquiv1 _ 4096 rfl rfl).symm k) = ix2 r k := by
    funext ax; apply Fin.ext
    match ax with
    | ⟨0, _⟩ => simp [DotDims.lhsIdx, dot_S1024x4096_S4096x256_S1024x256_1_0_0_1_n_n]; rfl
    | ⟨1, _⟩ => simp [DotDims.lhsIdx, dot_S1024x4096_S4096x256_S1024x256_1_0_0_1_n_n]; exact c2
  have r2 : dot_S1024x4096_S4096x256_S1024x256_1_0_0_1_n_n.rhsIdx (ix2 r j) ((contrEquiv1 _ 4096 rfl rfl).symm k) = ix2 k j := by
    funext ax; apply Fin.ext
    match ax with
    | ⟨0, _⟩ => simp [DotDims.rhsIdx, dot_S1024x4096_S4096x256_S1024x256_1_0_0_1_n_n]; exact c2
    | ⟨1, _⟩ => simp [DotDims.rhsIdx, dot_S1024x4096_S4096x256_S1024x256_1_0_0_1_n_n]; rfl
  rw [l2, r2]

theorem G5_2_apply (adj : FVec Ideal S8192x8192 .bf16) (h : FVec Ideal S8192x256 .bf16) (i : Fin 8192) (j : Fin 256) :
    G5_2 (F := Ideal) adj h (ix2 i j) = ∑ c : Fin 8192, adj (ix2 i c) * h (ix2 c j) := by
  have hi := i.isLt
  have keyA : ∀ (a a' b b' : Fin 8192), a.val = a'.val → b.val = b'.val → adj (ix2 a b) = adj (ix2 a' b') :=
    fun a a' b b' h1 h2 => by rw [Fin.ext h1, Fin.ext h2]
  have keyH : ∀ (a a' : Fin 8192), a.val = a'.val → h (ix2 a j) = h (ix2 a' j) :=
    fun a a' h1 => by rw [Fin.ext h1]
  show rowblk5 adj h ⟨i.val / 1024, _⟩ (ix2 ⟨i.val % 1024, _⟩ j) = _
  unfold rowblk5
  rw [k5_pay2_apply, k5_pay2_apply, k5_pay1_apply, zero_add]
  refine Eq.trans ?_ (Fin.sum_univ_add (a := 4096) (b := 4096) (fun c : Fin 8192 => adj (ix2 i c) * h (ix2 c j))).symm
  refine congrArg₂ (· + ·) (Finset.sum_congr rfl fun k _ => ?_) (Finset.sum_congr rfl fun k _ => ?_)
  · refine congrArg₂ (· * ·) (keyA _ _ _ _ ?_ ?_) (keyH _ _ ?_)
    · show 1024 * (i.val / 1024) + i.val % 1024 = i.val; omega
    · show 4096 * 0 + k.val = (Fin.castAdd 4096 k).val; rw [Fin.coe_castAdd]; omega
    · show 4096 * 0 + k.val = (Fin.castAdd 4096 k).val; rw [Fin.coe_castAdd]; omega
  · refine congrArg₂ (· * ·) (keyA _ _ _ _ ?_ ?_) (keyH _ _ ?_)
    · show 1024 * (i.val / 1024) + i.val % 1024 = i.val; omega
    · show 4096 * 1 + k.val = (Fin.natAdd 4096 k).val; rw [Fin.coe_natAdd]
    · show 4096 * 1 + k.val = (Fin.natAdd 4096 k).val; rw [Fin.coe_natAdd]

end Cert.KernelIdeal.Hand

end
-- ==== Proof.KI.R6.lean ====
import proofs.«405398_j45397804319028_3_alg».proof.Proof.Gen.KernelIdeal.Launch
import proofs.«405398_j45397804319028_3_alg».proof.Proof.Gen.KernelIdeal.Points
import proofs.«405398_j45397804319028_3_alg».proof.Proof.Gen.KernelIdeal.Skeleton
import proofs.«405398_j45397804319028_3_alg».proof.Proof.KI.R0
import proofs.«405398_j45397804319028_3_alg».proof.Proof.KI.R3
import Idealize.ShloMosaic.Lib.Pipeline.Frame
import Idealize.ShloMosaic.Lib.Pipeline.FrameBody
import Idealize.ShloMosaic.Lib.Pipeline.Regions
import Idealize.ShloMosaic.Lib.Pipeline.Value
import Idealize.ShloMosaic.Lib.ValueIdx
import Idealize.ShloMosaic.PureOps.Ideal.Laws
import Idealize.ShloMosaic.Lib.ValueLayout
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

local notation "payXn" => k6_pay2
local notation "payXb" => k6_pay3

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => payXn (iblk6 V c 0 t)
    | ⟨2, _⟩ => payXb (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = payXn (iblk6 V c 0 t) := by dsimp only [dat6]
theorem after6_2 (c : Dev nD) (t : Fin cfg6.N) : (dat6 V c).after 2 t = payXb (iblk6 V c 0 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)

theorem sound_kernel6 (c : Dev nD) (E : Set ℕ) (i : grid6.Coords) (arg1 : Memref sig .tc .vmem S2048x256 .f32) (harg1 : arg1.IsWhole)
    (arg2 : Memref sig .tc .vmem S2048x256 .bf16) (harg2 : arg2.IsWhole) (arg3 : Memref sig .tc .vmem S2048x256 .bf16) (harg3 : arg3.IsWhole)
    (x0 : Vec F S2048x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (payXn x0)
            ∗ owns (c : Thread nD τ) arg3 fullShare (payXb x0)) -∗ K ⟨⟩))
      ⊢ wp frame (wpE (defs₀ (F := F)) Variants.none c none) E (cc6__prep_kernel i arg1 harg1 arg2 harg2 arg3 harg3) K :=
  sound_kernel3 c E i arg1 harg1 arg2 harg2 arg3 harg3 x0 K

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

def G6_of (pay : Vec F S2048x256 .f32 → FVec F S2048x256 .bf16) (x : FVec F S8192x256 .f32) : FVec F S8192x256 .bf16 := fun i =>
  pay (fun y => x (ValueIdx.ix2 ⟨2048 * ((i 0).val / 2048) + (y 0).val, by
      have h0 : (i 0).val < 8192 := (i 0).isLt
      have h1 : (y 0).val < 2048 := (y 0).isLt
      omega⟩ (y 1)))
    (ValueIdx.ix2 ⟨(i 0).val % 2048, Nat.mod_lt _ (by decide)⟩ (i 1))

def G6_1 (x : FVec F S8192x256 .f32) : FVec F S8192x256 .bf16 := G6_of payXn x

def G6_2 (x : FVec F S8192x256 .f32) : FVec F S8192x256 .bf16 := G6_of payXb x

theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

theorem G6_of_block (pay : Vec F S2048x256 .f32 → FVec F S2048x256 .bf16) (x : FVec F S8192x256 .f32) (t : ℕ)
    (blk : Vec F S2048x256 .f32) (hblk : ∀ (y : S2048x256.Idx) (k : S8192x256.Idx), (k 0).val = 2048 * t + (y 0).val → (k 1).val = (y 1).val → blk y = x k)
    (j : S2048x256.Idx) (i : S8192x256.Idx) (h0 : (i 0).val = 2048 * t + (j 0).val) (h1 : (i 1).val = (j 1).val) :
    pay blk j = G6_of pay x i :=
  G0_of_block pay x t blk hblk j i h0 h1

theorem iblk6_apply (c : Dev nD) (t : Fin cfg6.N) (y : S2048x256.Idx) (k : S8192x256.Idx)
    (hk0 : (k 0).val = 2048 * t.val + (y 0).val) (hk1 : (k 1).val = (y 1).val) :
    (iblk6 V c 0 t : Vec F S2048x256 .f32) y = (V c main_v25 : S8192x256.Idx → Elt F .f32) k := by
  obtain ⟨e0, e1, -⟩ := idx_facts6 t
  unfold iblk6
  rw [View.read_apply]
  show V c main_v25 _ = V c main_v25 _
  congr 1
  funext a
  apply Fin.ext
  match a with
  | ⟨0, _⟩ => show win6_0.index t (0 : Fin 2) * 2048 + 1 * (y 0).val = (k 0).val; rw [e0, hk0]; omega
  | ⟨1, _⟩ => show win6_0.index t (1 : Fin 2) * 256 + 1 * (y 1).val = (k 1).val; rw [e1, hk1]; omega

theorem flushed6_1 (c : Dev nD) (t : Fin cfg6.N) :
    (dat6 V c).flushed 1 t = ((cfg6.win 1).blk t).view.read (Elt F) (G6_1 (V c main_v25)) := by
  show (cfg6.win 1).cut (grid6.coords t) ((dat6 V c).after 1 t) = _
  rw [after6_1]
  obtain ⟨-, -, e0, e1, -⟩ := idx_facts6 t
  funext j
  show payXn (iblk6 V c 0 t) j = G6_1 (V c main_v25) (((cfg6.win 1).blk t).view.emb j)
  unfold G6_1
  refine G6_of_block payXn _ t.val _ (iblk6_apply V c t) j _ ?_ ?_
  · show win6_1.index t (0 : Fin 2) * 2048 + 1 * (j 0).val = _; rw [e0]; omega
  · show win6_1.index t (1 : Fin 2) * 256 + 1 * (j 1).val = _; rw [e1]; omega

theorem flushed6_2 (c : Dev nD) (t : Fin cfg6.N) :
    (dat6 V c).flushed 2 t = ((cfg6.win 2).blk t).view.read (Elt F) (G6_2 (V c main_v25)) := by
  show (cfg6.win 2).cut (grid6.coords t) ((dat6 V c).after 2 t) = _
  rw [after6_2]
  obtain ⟨-, -, -, -, e0, e1⟩ := idx_facts6 t
  funext j
  show payXb (iblk6 V c 0 t) j = G6_2 (V c main_v25) (((cfg6.win 2).blk t).view.emb j)
  unfold G6_2
  refine G6_of_block payXb _ t.val _ (iblk6_apply V c t) j _ ?_ ?_
  · show win6_2.index t (0 : Fin 2) * 2048 + 1 * (j 0).val = _; rw [e0]; omega
  · show win6_2.index t (1 : Fin 2) * 256 + 1 * (j 1).val = _; rw [e1]; omega

theorem mem_blk6_1 (t : Fin cfg6.N) (i : S8192x256.Idx) :
    i ∈ ((cfg6.win 1).blk t).view.set ↔ ∀ a : Fin 2, win6_1.index t a * S2048x256.size a ≤ (i a).val ∧ (i a).val < win6_1.index t a * S2048x256.size a + S2048x256.size a := by
  show i ∈ ((View.whole main_v26_0).slice (win6_1.rect t)).set ↔ _
  rw [View.set_slice_whole, Rect.mem_set_unit]
  exact Iff.rfl

theorem mem_blk6_2 (t : Fin cfg6.N) (i : S8192x256.Idx) :
    i ∈ ((cfg6.win 2).blk t).view.set ↔ ∀ a : Fin 2, win6_2.index t a * S2048x256.size a ≤ (i a).val ∧ (i a).val < win6_2.index t a * S2048x256.size a + S2048x256.size a := by
  show i ∈ ((View.whole main_v26_1).slice (win6_2.rect t)).set ↔ _
  rw [View.set_slice_whole, Rect.mem_set_unit]
  exact Iff.rfl

theorem cover6_1 (i : S8192x256.Idx) : ∃ t : Fin cfg6.N, (cfg6.win 1).flush t = true ∧ i ∈ ((cfg6.win 1).blk t).view.set := by
  have hi0 : (i 0).val < 8192 := (i 0).isLt
  have hi1 : (i 1).val < 256 := (i 1).isLt
  have hN : cfg6.N = 4 := N_6
  let t : Fin cfg6.N := ⟨(i 0).val / 2048, by rw [hN]; omega⟩
  have ht : t.val = (i 0).val / 2048 := rfl
  obtain ⟨-, -, e0, e1, -⟩ := idx_facts6 t
  refine ⟨t, flush6_1 t, ?_⟩
  rw [mem_blk6_1]
  intro a
  match a with
  | ⟨0, _⟩ => show win6_1.index t (0 : Fin 2) * 2048 ≤ (i 0).val ∧ (i 0).val < win6_1.index t (0 : Fin 2) * 2048 + 2048; rw [e0, ht]; omega
  | ⟨1, _⟩ => show win6_1.index t (1 : Fin 2) * 256 ≤ (i 1).val ∧ (i 1).val < win6_1.index t (1 : Fin 2) * 256 + 256; rw [e1]; omega

theorem cover6_2 (i : S8192x256.Idx) : ∃ t : Fin cfg6.N, (cfg6.win 2).flush t = true ∧ i ∈ ((cfg6.win 2).blk t).view.set := by
  have hi0 : (i 0).val < 8192 := (i 0).isLt
  have hi1 : (i 1).val < 256 := (i 1).isLt
  have hN : cfg6.N = 4 := N_6
  let t : Fin cfg6.N := ⟨(i 0).val / 2048, by rw [hN]; omega⟩
  have ht : t.val = (i 0).val / 2048 := rfl
  obtain ⟨-, -, -, -, e0, e1⟩ := idx_facts6 t
  refine ⟨t, flush6_2 t, ?_⟩
  rw [mem_blk6_2]
  intro a
  match a with
  | ⟨0, _⟩ => show win6_2.index t (0 : Fin 2) * 2048 ≤ (i 0).val ∧ (i 0).val < win6_2.index t (0 : Fin 2) * 2048 + 2048; rw [e0, ht]; omega
  | ⟨1, _⟩ => show win6_2.index t (1 : Fin 2) * 256 ≤ (i 1).val ∧ (i 1).val < win6_2.index t (1 : Fin 2) * 256 + 256; rw [e1]; omega

theorem arrAt6_1 (c : Dev nD) : (dat6 V c).arrAt 1 cfg6.N = G6_1 (V c main_v25) :=
  (dat6 V c).arrAt_eq_of_cover 1 (G6_1 (V c main_v25)) (fun t _ => flushed6_1 V c t) cover6_1

theorem arrAt6_2 (c : Dev nD) : (dat6 V c).arrAt 2 cfg6.N = G6_2 (V c main_v25) :=
  (dat6 V c).arrAt_eq_of_cover 2 (G6_2 (V c main_v25)) (fun t _ => flushed6_2 V c t) cover6_2

end Region6

section IdealOnly

open Idealize.ShloMosaic.ValueIdx

private theorem k6_pay1_eq (v0 : Vec F S2048x256 .f32) : k6_pay1 v0 = v0 := by
  unfold k6_pay1; exact shapeCast_self _ _

private theorem G6_1_eq : G6_1 (F := F) = G0_1 := by
  funext x
  unfold G6_1 G6_of G0_1 G0_of k6_pay2 k0_pay1
  simp only [k6_pay1_eq]

private theorem G6_2_eq : G6_2 (F := F) = G0_2 := by
  funext x
  unfold G6_2 G6_of G0_2 G0_of k6_pay3 k0_pay2
  simp only [k6_pay1_eq]

theorem G6_1_apply (x : FVec Ideal S8192x256 .f32) (i : Fin 8192) (j : Fin 256) :
    G6_1 (F := Ideal) x (ix2 i j)
      = x (ix2 i j) * Ideal.rsqrt ((∑ j' : Fin 256, x (ix2 i j') * x (ix2 i j')) + Ideal.ofBits .f32 0x2B8CBCCC#32) := by
  rw [G6_1_eq]; exact G0_1_apply x i j

theorem G6_2_apply (x : FVec Ideal S8192x256 .f32) (i : Fin 8192) (j : Fin 256) :
    G6_2 (F := Ideal) x (ix2 i j) = x (ix2 i j) := by
  rw [G6_2_eq]; exact G0_2_apply x i j

end IdealOnly

end Cert.KernelIdeal.Hand

end
-- ==== Proof.KI.R7.lean ====
import proofs.«405398_j45397804319028_3_alg».proof.Proof.Gen.KernelIdeal.Launch
import proofs.«405398_j45397804319028_3_alg».proof.Proof.Gen.KernelIdeal.Skeleton
import proofs.«405398_j45397804319028_3_alg».proof.Proof.Gen.KernelIdeal.Points
import proofs.«405398_j45397804319028_3_alg».proof.Proof.Gen.KernelIdeal.Loops
import proofs.«405398_j45397804319028_3_alg».proof.Proof.KI.R4
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def keyTile7 (X : Vec F S8192x256 .bf16) (k : Fin k7_t1_loop.trips) : Vec F S1024x256 .bf16 :=
  View.ld X (Rect.unit (s := S8192x256) (k7_off2 k) S1024x256.size (k7_off2_inb k))

def qTile7 (X : Vec F S8192x256 .bf16) (i : grid7.Coords) : Vec F S512x256 .bf16 :=
  View.ld X (Rect.unit (s := S8192x256) (k7_off1 i) S512x256.size (k7_off1_inb i))

def loopAcc7 (v3 : Vec F S512x256 .bf16) (xn xb : Vec F S8192x256 .bf16) : Nat → FVec F S512x1 .f32 × FVec F S512x256 .f32
  | 0 => (k7_pay3, k7_pay4)
  | k + 1 =>
    if h : k < k7_t1_loop.trips then
      (k7_pay6 v3 (loopAcc7 v3 xn xb k).1 (keyTile7 xn ⟨k, h⟩),
       k7_pay7 v3 (loopAcc7 v3 xn xb k).2 (keyTile7 xn ⟨k, h⟩) (keyTile7 xb ⟨k, h⟩))
    else loopAcc7 v3 xn xb k

def res7_5 (i : grid7.Coords) (xn xb : Vec F S8192x256 .bf16) (xq : Vec F S512x256 .f32) (g b : Vec F S1x256 .f32) :
    FVec F S512x256 .f32 :=
  k7_pay1 (k7_pay8 xq (loopAcc7 (qTile7 xn i) xn xb k7_t1_loop.trips).1 (loopAcc7 (qTile7 xn i) xn xb k7_t1_loop.trips).2 g) b

def res7_6 (i : grid7.Coords) (xn xb : Vec F S8192x256 .bf16) (xq : Vec F S512x256 .f32) (g b : Vec F S1x256 .f32) :
    FVec F S512x256 .bf16 :=
  k7_pay2 (k7_pay8 xq (loopAcc7 (qTile7 xn i) xn xb k7_t1_loop.trips).1 (loopAcc7 (qTile7 xn i) xn xb k7_t1_loop.trips).2 g) b

def tile7 (y : S8192x256.Idx) : Fin grid7.N :=
  ⟨(y 0).val / 512, by have hN : grid7.N = 16 := N_7; have := ValueIdx.idx2_lt0 y; omega⟩

def row7 (y : S8192x256.Idx) : S512x256.Idx :=
  ValueIdx.ix2 ⟨(y 0).val % 512, Nat.mod_lt _ (by decide)⟩ (y 1)

def qRows7 (x : Vec F S8192x256 .f32) (t : Fin grid7.N) : Vec F S512x256 .f32 :=
  fun r => x (ValueIdx.ix2 ⟨512 * t.val + (r 0).val, by
    have h : t.val < grid7.N := t.isLt; have hN : grid7.N = 16 := N_7; have := ValueIdx.idx2_lt0 r; omega⟩ (r 1))

def G7_5 (xn xb : FVec F S8192x256 .bf16) (x : FVec F S8192x256 .f32) (g b : FVec F S1x256 .f32) : FVec F S8192x256 .f32 :=
  fun y => res7_5 (grid7.coords (tile7 y)) xn xb (qRows7 x (tile7 y)) g b (row7 y)

theorem sound_kernel7 (c : Dev nD) (E : Set ℕ) (i : grid7.Coords) (arg1 : Memref sig .tc .vmem S8192x256 .bf16) (harg1 : arg1.IsWhole) (arg2 : Memref sig .tc .vmem S8192x256 .bf16) (harg2 : arg2.IsWhole) (arg3 : Memref sig .tc .vmem S512x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S512x256 .f32) (harg6 : arg6.IsWhole) (arg7 : Memref sig .tc .vmem S512x256 .bf16) (harg7 : arg7.IsWhole)
    (x0 x1 : Vec F S8192x256 .bf16) (x2 : Vec F S512x256 .f32) (x3 x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (res7_5 i x0 x1 x2 x3 x4)
            ∗ owns (c : Thread nD τ) arg7 fullShare (res7_6 i x0 x1 x2 x3 x4)) -∗ K ⟨⟩))
      ⊢ wp frame (wpE (defs₀ (F := F)) Variants.none c none) E (cc7__contra_ln_kernel i arg1 harg1 arg2 harg2 arg3 harg3 arg4 harg4 arg5 harg5 arg6 harg6 arg7 harg7) K :=
  sound_kernel4 c E i arg1 harg1 arg2 harg2 arg3 harg3 arg4 harg4 arg5 harg5 arg6 harg6 arg7 harg7 x0 x1 x2 x3 x4 K

section Regions

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_5 (c : Dev nD) (t : Fin cfg7.N) : FVec F S512x256 .f32 :=
  res7_5 (grid7.coords t) (iblk7 V c 0 t) (iblk7 V c 1 t) (iblk7 V c 2 t) (iblk7 V c 3 t) (iblk7 V c 4 t)

def out7_6 (c : Dev nD) (t : Fin cfg7.N) : FVec F S512x256 .bf16 :=
  res7_6 (grid7.coords t) (iblk7 V c 0 t) (iblk7 V c 1 t) (iblk7 V c 2 t) (iblk7 V c 3 t) (iblk7 V c 4 t)

def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 V c t
    | ⟨6, _⟩ => out7_6 V c t
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 V c t := by dsimp only [dat7]
theorem after7_6 (c : Dev nD) (t : Fin cfg7.N) : (dat7 V c).after 6 t = out7_6 V c t := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

theorem before7_1 (c : Dev nD) (t : Fin cfg7.N) (d) : (dat7 V c).before 1 t d = iblk7 V c 1 t :=
  ((dat7 V c).before_in_eq_fetched 1 rfl (fun _ => rfl) (fun _ _ _ => rfl)
      (fun t => by rw [after7_1]; unfold Dat.blockOf iblk7; rw [A_eq7]; try rfl) t d).trans
    (by unfold Dat.fetched Dat.blockOf iblk7; rw [A_eq7]; try rfl)

theorem before7_2 (c : Dev nD) (t : Fin cfg7.N) (d) : (dat7 V c).before 2 t d = iblk7 V c 2 t :=
  ((dat7 V c).before_in_eq_fetched 2 rfl (fun _ => rfl) (fun _ _ _ => rfl)
      (fun t => by rw [after7_2]; unfold Dat.blockOf iblk7; rw [A_eq7]; try rfl) t d).trans
    (by unfold Dat.fetched Dat.blockOf iblk7; rw [A_eq7]; try rfl)

theorem before7_3 (c : Dev nD) (t : Fin cfg7.N) (d) : (dat7 V c).before 3 t d = iblk7 V c 3 t :=
  ((dat7 V c).before_in_eq_fetched 3 rfl (fun _ => rfl) (fun _ _ _ => rfl)
      (fun t => by rw [after7_3]; unfold Dat.blockOf iblk7; rw [A_eq7]; try rfl) t d).trans
    (by unfold Dat.fetched Dat.blockOf iblk7; rw [A_eq7]; try rfl)

theorem before7_4 (c : Dev nD) (t : Fin cfg7.N) (d) : (dat7 V c).before 4 t d = iblk7 V c 4 t :=
  ((dat7 V c).before_in_eq_fetched 4 rfl (fun _ => rfl) (fun _ _ _ => rfl)
      (fun t => by rw [after7_4]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _
    (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation7 (c : Dev nD) : BodyObligation (dat7 (F := F) V c) (defs₀ (F := F)) Variants.none () Set.univ := fun t => by
  rw [bigSep_W7, bigSep_W7]
  exact sound_body7 V c t

theorem idx7 : ∀ t : Fin cfg7.N,
    (win7_0.index t 0 = 0 ∧ win7_0.index t 1 = 0) ∧ (win7_1.index t 0 = 0 ∧ win7_1.index t 1 = 0)
    ∧ (win7_2.index t 0 = t.val ∧ win7_2.index t 1 = 0) ∧ (win7_3.index t 0 = 0 ∧ win7_3.index t 1 = 0)
    ∧ (win7_4.index t 0 = 0 ∧ win7_4.index t 1 = 0) ∧ (win7_5.index t 0 = t.val ∧ win7_5.index t 1 = 0)
    ∧ (win7_6.index t 0 = t.val ∧ win7_6.index t 1 = 0) :=
  (by decide +kernel : ∀ t : Fin grid7.N, _)

theorem iblk7_0_eq (c : Dev nD) (t : Fin cfg7.N) : (iblk7 V c 0 t : Vec F S8192x256 .bf16) = V c main_v26_0 := by
  funext j
  unfold iblk7
  rw [View.read_apply]
  show V c main_v26_0 _ = V c main_v26_0 j
  congr 1
  funext a
  apply Fin.ext
  match a with
  | ⟨0, _⟩ => show win7_0.index t 0 * 8192 + 1 * (j 0).val = (j 0).val; rw [(idx7 t).1.1]; omega
  | ⟨1, _⟩ => show win7_0.index t 1 * 256 + 1 * (j 1).val = (j 1).val; rw [(idx7 t).1.2]; omega

theorem iblk7_1_eq (c : Dev nD) (t : Fin cfg7.N) : (iblk7 V c 1 t : Vec F S8192x256 .bf16) = V c main_v26_1 := by
  funext j
  unfold iblk7
  rw [View.read_apply]
  show V c main_v26_1 _ = V c main_v26_1 j
  congr 1
  funext a
  apply Fin.ext
  match a with
  | ⟨0, _⟩ => show win7_1.index t 0 * 8192 + 1 * (j 0).val = (j 0).val; rw [(idx7 t).2.1.1]; omega
  | ⟨1, _⟩ => show win7_1.index t 1 * 256 + 1 * (j 1).val = (j 1).val; rw [(idx7 t).2.1.2]; omega

theorem iblk7_2_eq (c : Dev nD) (t : Fin cfg7.N) : (iblk7 V c 2 t : Vec F S512x256 .f32) = qRows7 (V c main_v25) t := by
  funext j
  unfold iblk7 qRows7
  rw [View.read_apply]
  show V c main_v25 _ = V c main_v25 _
  congr 1
  funext a
  apply Fin.ext
  match a with
  | ⟨0, _⟩ => show win7_2.index t 0 * 512 + 1 * (j 0).val = 512 * t.val + (j 0).val; rw [(idx7 t).2.2.1.1]; omega
  | ⟨1, _⟩ => show win7_2.index t 1 * 256 + 1 * (j 1).val = (j 1).val; rw [(idx7 t).2.2.1.2]; omega

theorem iblk7_3_eq (c : Dev nD) (t : Fin cfg7.N) : (iblk7 V c 3 t : Vec F S1x256 .f32) = V c main_v27 := by
  funext j
  unfold iblk7
  rw [View.read_apply]
  show V c main_v27 _ = V c main_v27 j
  congr 1
  funext a
  apply Fin.ext
  match a with
  | ⟨0, _⟩ => show win7_3.index t 0 * 1 + 1 * (j 0).val = (j 0).val; rw [(idx7 t).2.2.2.1.1]; omega
  | ⟨1, _⟩ => show win7_3.index t 1 * 256 + 1 * (j 1).val = (j 1).val; rw [(idx7 t).2.2.2.1.2]; omega

theorem iblk7_4_eq (c : Dev nD) (t : Fin cfg7.N) : (iblk7 V c 4 t : Vec F S1x256 .f32) = V c main_v28 := by
  funext j
  unfold iblk7
  rw [View.read_apply]
  show V c main_v28 _ = V c main_v28 j
  congr 1
  funext a
  apply Fin.ext
  match a with
  | ⟨0, _⟩ => show win7_4.index t 0 * 1 + 1 * (j 0).val = (j 0).val; rw [(idx7 t).2.2.2.2.1.1]; omega
  | ⟨1, _⟩ => show win7_4.index t 1 * 256 + 1 * (j 1).val = (j 1).val; rw [(idx7 t).2.2.2.2.1.2]; omega

theorem tile7_of_row (y : S8192x256.Idx) (t : Fin cfg7.N) (j : S512x256.Idx)
    (h0 : (y 0).val = 512 * t.val + (j 0).val) (h1 : (y 1).val = (j 1).val) : tile7 y = t ∧ row7 y = j := by
  have hj := ValueIdx.idx2_lt0 j
  refine ⟨Fin.ext ?_, ?_⟩
  · show (y 0).val / 512 = t.val; omega
  · rw [ValueIdx.eq_ix2 j]; unfold row7
    congr 1
    · apply Fin.ext; show (y 0).val % 512 = (j 0).val; omega
    · apply Fin.ext; exact h1

theorem arrAt7_5 (c : Dev nD) :
    (dat7 V c).arrAt 5 cfg7.N = G7_5 (V c main_v26_0) (V c main_v26_1) (V c main_v25) (V c main_v27) (V c main_v28) := by
  refine (dat7 V c).arrAt_eq_of_cover 5 _ (fun t _ => ?_) (fun i => ?_)
  · show out7_5 V c t = _
    funext j
    rw [View.read_apply]
    show out7_5 V c t j = G7_5 (V c main_v26_0) (V c main_v26_1) (V c main_v25) (V c main_v27) (V c main_v28) (((cfg7.win 5).blk t).view.emb j)
    obtain ⟨ht, hr⟩ := tile7_of_row (((cfg7.win 5).blk t).view.emb j) t j
      (by show win7_5.index t 0 * 512 + 1 * (j 0).val = 512 * t.val + (j 0).val; rw [(idx7 t).2.2.2.2.2.1.1]; omega)
      (by show win7_5.index t 1 * 256 + 1 * (j 1).val = (j 1).val; rw [(idx7 t).2.2.2.2.2.1.2]; omega)
    unfold G7_5 out7_5
    rw [ht, hr, iblk7_0_eq, iblk7_1_eq, iblk7_2_eq, iblk7_3_eq, iblk7_4_eq]
  · refine ⟨tile7 i, flush7_5 _, ?_⟩
    have ht : (tile7 i).val = (i 0).val / 512 := rfl
    have hi1 := ValueIdx.idx2_lt1 i
    show i ∈ ((View.whole main_v29_0).slice (win7_5.rect (tile7 i))).set
    rw [View.set_slice_whole, Rect.mem_set_unit]
    intro a
    match a with
    | ⟨0, _⟩ =>
      show win7_5.index (tile7 i) 0 * 512 ≤ (i 0).val ∧ (i 0).val < win7_5.index (tile7 i) 0 * 512 + 512
      rw [(idx7 (tile7 i)).2.2.2.2.2.1.1, ht]; omega
    | ⟨1, _⟩ =>
      show win7_5.index (tile7 i) 1 * 256 ≤ (i 1).val ∧ (i 1).val < win7_5.index (tile7 i) 1 * 256 + 256
      rw [(idx7 (tile7 i)).2.2.2.2.2.1.2]; omega

end Regions

end Cert.KernelIdeal.Hand

end
-- ==== Proof.KI.Run.lean ====
import proofs.«405398_j45397804319028_3_alg».proof.Proof.Gen.KernelIdeal.Regions
import proofs.«405398_j45397804319028_3_alg».proof.Proof.KI.R0
import proofs.«405398_j45397804319028_3_alg».proof.Proof.KI.R1
import proofs.«405398_j45397804319028_3_alg».proof.Proof.KI.R2
import proofs.«405398_j45397804319028_3_alg».proof.Proof.KI.R3
import proofs.«405398_j45397804319028_3_alg».proof.Proof.KI.R4
import proofs.«405398_j45397804319028_3_alg».proof.Proof.KI.R5
import proofs.«405398_j45397804319028_3_alg».proof.Proof.KI.R6
import proofs.«405398_j45397804319028_3_alg».proof.Proof.KI.R7
import Idealize.ShloMosaic.Lib.Pipeline.Frame
import Idealize.ShloMosaic.Lib.Pipeline.Kit
import Idealize.ShloMosaic.Lib.Pipeline.Regions
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev W0 (c : Dev nD) : Valuation τ sig (Elt F) := fun b => m (c, b)
abbrev V0' : (c : Dev nD) → (b : Ref sig .tc) → Buf (Elt F) ((c : Thread nD τ).loc b) := fun c b => W0 m c b

def W1 (c : Dev nD) : Valuation τ sig (Elt F) := StableHlo.after hostOps0 (W0 m c)
abbrev V1' : (c : Dev nD) → (b : Ref sig .tc) → Buf (Elt F) ((c : Thread nD τ).loc b) := fun c b => W1 m c b

def W2 (c : Dev nD) : Valuation τ sig (Elt F) :=
  Function.update (Function.update (W1 m c) main_v16_0 ((dat0 (V1' m) c).arrAt 1 cfg0.N)) main_v16_1 ((dat0 (V1' m) c).arrAt 2 cfg0.N)
abbrev V2' : (c : Dev nD) → (b : Ref sig .tc) → Buf (Elt F) ((c : Thread nD τ).loc b) := fun c b => W2 m c b

def W3 (c : Dev nD) : Valuation τ sig (Elt F) := StableHlo.after hostOps1 (W2 m c)
abbrev V3' : (c : Dev nD) → (b : Ref sig .tc) → Buf (Elt F) ((c : Thread nD τ).loc b) := fun c b => W3 m c b

def W4 (c : Dev nD) : Valuation τ sig (Elt F) :=
  Function.update (Function.update (W3 m c) main_v19_0 ((dat1 (V3' m) c).arrAt 5 cfg1.N)) main_v19_1 ((dat1 (V3' m) c).arrAt 6 cfg1.N)
abbrev V4' : (c : Dev nD) → (b : Ref sig .tc) → Buf (Elt F) ((c : Thread nD τ).loc b) := fun c b => W4 m c b

def W5 (c : Dev nD) : Valuation τ sig (Elt F) :=
  Function.update (W4 m c) main_v20 ((dat2 (V4' m) c).arrAt 2 cfg2.N)
abbrev V5' : (c : Dev nD) → (b : Ref sig .tc) → Buf (Elt F) ((c : Thread nD τ).loc b) := fun c b => W5 m c b

def W6 (c : Dev nD) : Valuation τ sig (Elt F) :=
  Function.update (Function.update (W5 m c) main_v21_0 ((dat3 (V5' m) c).arrAt 1 cfg3.N)) main_v21_1 ((dat3 (V5' m) c).arrAt 2 cfg3.N)
abbrev V6' : (c : Dev nD) → (b : Ref sig .tc) → Buf (Elt F) ((c : Thread nD τ).loc b) := fun c b => W6 m c b

def W7 (c : Dev nD) : Valuation τ sig (Elt F) := StableHlo.after hostOps4 (W6 m c)
abbrev V7' : (c : Dev nD) → (b : Ref sig .tc) → Buf (Elt F) ((c : Thread nD τ).loc b) := fun c b => W7 m c b

def W8 (c : Dev nD) : Valuation τ sig (Elt F) :=
  Function.update (Function.update (W7 m c) main_v24_0 ((dat4 (V7' m) c).arrAt 5 cfg4.N)) main_v24_1 ((dat4 (V7' m) c).arrAt 6 cfg4.N)
abbrev V8' : (c : Dev nD) → (b : Ref sig .tc) → Buf (Elt F) ((c : Thread nD τ).loc b) := fun c b => W8 m c b

def W9 (c : Dev nD) : Valuation τ sig (Elt F) :=
  Function.update (W8 m c) main_v25 ((dat5 (V8' m) c).arrAt 2 cfg5.N)
abbrev V9' : (c : Dev nD) → (b : Ref sig .tc) → Buf (Elt F) ((c : Thread nD τ).loc b) := fun c b => W9 m c b

def W10 (c : Dev nD) : Valuation τ sig (Elt F) :=
  Function.update (Function.update (W9 m c) main_v26_0 ((dat6 (V9' m) c).arrAt 1 cfg6.N)) main_v26_1 ((dat6 (V9' m) c).arrAt 2 cfg6.N)
abbrev V10' : (c : Dev nD) → (b : Ref sig .tc) → Buf (Elt F) ((c : Thread nD τ).loc b) := fun c b => W10 m c b

def W11 (c : Dev nD) : Valuation τ sig (Elt F) := StableHlo.after hostOps7 (W10 m c)
abbrev V11' : (c : Dev nD) → (b : Ref sig .tc) → Buf (Elt F) ((c : Thread nD τ).loc b) := fun c b => W11 m c b

def W12 (c : Dev nD) : Valuation τ sig (Elt F) :=
  Function.update (Function.update (W11 m c) main_v29_0 ((dat7 (V11' m) c).arrAt 5 cfg7.N)) main_v29_1 ((dat7 (V11' m) c).arrAt 6 cfg7.N)
abbrev V12' : (c : Dev nD) → (b : Ref sig .tc) → Buf (Elt F) ((c : Thread nD τ).loc b) := fun c b => W12 m c b

def W13 (c : Dev nD) : Valuation τ sig (Elt F) := StableHlo.after hostOps8 (W12 m c)
abbrev V13' : (c : Dev nD) → (b : Ref sig .tc) → Buf (Elt F) ((c : Thread nD τ).loc b) := fun c b => W13 m c b

section Upd

variable (W : Valuation τ sig (Elt F)) {r0 r1 : Ref sig .tc}
  (a : (Proc.devRef .tc r0 : DevRef τ sig).ty.Contents (Elt F)) (b : (Proc.devRef .tc r1 : DevRef τ sig).ty.Contents (Elt F))

-- Writing two distinct buffers leaves the first written value in the first, and every other buffer as it was.
theorem upd2_fst (h : r0 ≠ r1) : Function.update (Function.update W r0 a) r1 b r0 = a := by
  rw [Function.update_of_ne (StableHlo.devRef_ne_of_ne h), Function.update_self]

theorem upd2_of (r : Ref sig .tc) (h : r ∉ [r0, r1]) : Function.update (Function.update W r0 a) r1 b r = W r := by
  rw [Function.update_of_ne (StableHlo.devRef_ne_of_ne (List.ne_of_not_mem_cons (List.not_mem_of_not_mem_cons h))),
    Function.update_of_ne (StableHlo.devRef_ne_of_ne (List.ne_of_not_mem_cons h))]

theorem upd1_of (r : Ref sig .tc) (h : r ∉ [r0]) : Function.update W r0 a r = W r :=
  Function.update_of_ne (StableHlo.devRef_ne_of_ne (List.ne_of_not_mem_cons h)) _ _

end Upd

theorem W2_main_v16_0 (c : Dev nD) : W2 m c main_v16_0 = (dat0 (V1' m) c).arrAt 1 cfg0.N := upd2_fst _ _ _ (by decide)
theorem W2_main_v16_1 (c : Dev nD) : W2 m c main_v16_1 = (dat0 (V1' m) c).arrAt 2 cfg0.N := Function.update_self ..
theorem W2_of (c : Dev nD) (r : Ref sig .tc) (h : r ∉ ([main_v16_0, main_v16_1] : List (Ref sig .tc))) : W2 m c r = W1 m c r := upd2_of _ _ _ r h

theorem hF0 (c : Dev nD) : ∀ w : Fin cfg0.W, (dat0 (V1' m) c).arrAt w cfg0.N = V2' m c (Pipeline.arrRef spec0 w) := fun
  | 0 => ((dat0 (V1' m) c).arrAt_in 0 rfl _).trans ((A_eq0 (V1' m) c 0).trans (W2_of m c _ (by decide)).symm)
  | 1 => (W2_main_v16_0 m c).symm
  | 2 => (W2_main_v16_1 m c).symm
  | ⟨_ + 3, h⟩ => absurd h (Nat.not_lt.2 (Nat.le_add_left _ _))

theorem hrest0 (c : Dev nD) : ∀ b, b ∉ Finset.univ.image (Pipeline.arrRef spec0) → V2' m c b = V1' m c b :=
  fun b hb => W2_of m c b fun hmem => by
    rcases List.mem_cons.mp hmem with rfl | hmem
    · exact hb (Finset.mem_image.mpr ⟨1, Finset.mem_univ _, rfl⟩)
    rcases List.mem_cons.mp hmem with rfl | hmem
    · exact hb (Finset.mem_image.mpr ⟨2, Finset.mem_univ _, rfl⟩)
    exact absurd hmem (by simp)

theorem W4_main_v19_0 (c : Dev nD) : W4 m c main_v19_0 = (dat1 (V3' m) c).arrAt 5 cfg1.N := upd2_fst _ _ _ (by decide)
theorem W4_main_v19_1 (c : Dev nD) : W4 m c main_v19_1 = (dat1 (V3' m) c).arrAt 6 cfg1.N := Function.update_self ..
theorem W4_of (c : Dev nD) (r : Ref sig .tc) (h : r ∉ ([main_v19_0, main_v19_1] : List (Ref sig .tc))) : W4 m c r = W3 m c r := upd2_of _ _ _ r h

theorem hF1 (c : Dev nD) : ∀ w : Fin cfg1.W, (dat1 (V3' m) c).arrAt w cfg1.N = V4' m c (Pipeline.arrRef spec1 w) := fun
  | 0 => ((dat1 (V3' m) c).arrAt_in 0 rfl _).trans ((A_eq1 (V3' m) c 0).trans (W4_of m c _ (by decide)).symm)
  | 1 => ((dat1 (V3' m) c).arrAt_in 1 rfl _).trans ((A_eq1 (V3' m) c 1).trans (W4_of m c _ (by decide)).symm)
  | 2 => ((dat1 (V3' m) c).arrAt_in 2 rfl _).trans ((A_eq1 (V3' m) c 2).trans (W4_of m c _ (by decide)).symm)
  | 3 => ((dat1 (V3' m) c).arrAt_in 3 rfl _).trans ((A_eq1 (V3' m) c 3).trans (W4_of m c _ (by decide)).symm)
  | 4 => ((dat1 (V3' m) c).arrAt_in 4 rfl _).trans ((A_eq1 (V3' m) c 4).trans (W4_of m c _ (by decide)).symm)
  | 5 => (W4_main_v19_0 m c).symm
  | 6 => (W4_main_v19_1 m c).symm
  | ⟨_ + 7, h⟩ => absurd h (Nat.not_lt.2 (Nat.le_add_left _ _))

theorem hrest1 (c : Dev nD) : ∀ b, b ∉ Finset.univ.image (Pipeline.arrRef spec1) → V4' m c b = V3' m c b :=
  fun b hb => W4_of m c b fun hmem => by
    rcases List.mem_cons.mp hmem with rfl | hmem
    · exact hb (Finset.mem_image.mpr ⟨5, Finset.mem_univ _, rfl⟩)
    rcases List.mem_cons.mp hmem with rfl | hmem
    · exact hb (Finset.mem_image.mpr ⟨6, Finset.mem_univ _, rfl⟩)
    exact absurd hmem (by simp)

theorem W5_main_v20 (c : Dev nD) : W5 m c main_v20 = (dat2 (V4' m) c).arrAt 2 cfg2.N := Function.update_self ..
theorem W5_of (c : Dev nD) (r : Ref sig .tc) (h : r ∉ ([main_v20] : List (Ref sig .tc))) : W5 m c r = W4 m c r := upd1_of _ _ r h

theorem hF2 (c : Dev nD) : ∀ w : Fin cfg2.W, (dat2 (V4' m) c).arrAt w cfg2.N = V5' m c (Pipeline.arrRef spec2 w) := fun
  | 0 => ((dat2 (V4' m) c).arrAt_in 0 rfl _).trans ((A_eq2 (V4' m) c 0).trans (W5_of m c _ (by decide)).symm)
  | 1 => ((dat2 (V4' m) c).arrAt_in 1 rfl _).trans ((A_eq2 (V4' m) c 1).trans (W5_of m c _ (by decide)).symm)
  | 2 => (W5_main_v20 m c).symm
  | ⟨_ + 3, h⟩ => absurd h (Nat.not_lt.2 (Nat.le_add_left _ _))

theorem hrest2 (c : Dev nD) : ∀ b, b ∉ Finset.univ.image (Pipeline.arrRef spec2) → V5' m c b = V4' m c b :=
  fun b hb => W5_of m c b fun hmem => by
    rcases List.mem_cons.mp hmem with rfl | hmem
    · exact hb (Finset.mem_image.mpr ⟨2, Finset.mem_univ _, rfl⟩)
    exact absurd hmem (by simp)

theorem W6_main_v21_0 (c : Dev nD) : W6 m c main_v21_0 = (dat3 (V5' m) c).arrAt 1 cfg3.N := upd2_fst _ _ _ (by decide)
theorem W6_main_v21_1 (c : Dev nD) : W6 m c main_v21_1 = (dat3 (V5' m) c).arrAt 2 cfg3.N := Function.update_self ..
theorem W6_of (c : Dev nD) (r : Ref sig .tc) (h : r ∉ ([main_v21_0, main_v21_1] : List (Ref sig .tc))) : W6 m c r = W5 m c r := upd2_of _ _ _ r h

theorem hF3 (c : Dev nD) : ∀ w : Fin cfg3.W, (dat3 (V5' m) c).arrAt w cfg3.N = V6' m c (Pipeline.arrRef spec3 w) := fun
  | 0 => ((dat3 (V5' m) c).arrAt_in 0 rfl _).trans ((A_eq3 (V5' m) c 0).trans (W6_of m c _ (by decide)).symm)
  | 1 => (W6_main_v21_0 m c).symm
  | 2 => (W6_main_v21_1 m c).symm
  | ⟨_ + 3, h⟩ => absurd h (Nat.not_lt.2 (Nat.le_add_left _ _))

theorem hrest3 (c : Dev nD) : ∀ b, b ∉ Finset.univ.image (Pipeline.arrRef spec3) → V6' m c b = V5' m c b :=
  fun b hb => W6_of m c b fun hmem => by
    rcases List.mem_cons.mp hmem with rfl | hmem
    · exact hb (Finset.mem_image.mpr ⟨1, Finset.mem_univ _, rfl⟩)
    rcases List.mem_cons.mp hmem with rfl | hmem
    · exact hb (Finset.mem_image.mpr ⟨2, Finset.mem_univ _, rfl⟩)
    exact absurd hmem (by simp)

theorem W8_main_v24_0 (c : Dev nD) : W8 m c main_v24_0 = (dat4 (V7' m) c).arrAt 5 cfg4.N := upd2_fst _ _ _ (by decide)
theorem W8_main_v24_1 (c : Dev nD) : W8 m c main_v24_1 = (dat4 (V7' m) c).arrAt 6 cfg4.N := Function.update_self ..
theorem W8_of (c : Dev nD) (r : Ref sig .tc) (h : r ∉ ([main_v24_0, main_v24_1] : List (Ref sig .tc))) : W8 m c r = W7 m c r := upd2_of _ _ _ r h

theorem hF4 (c : Dev nD) : ∀ w : Fin cfg4.W, (dat4 (V7' m) c).arrAt w cfg4.N = V8' m c (Pipeline.arrRef spec4 w) := fun
  | 0 => ((dat4 (V7' m) c).arrAt_in 0 rfl _).trans ((A_eq4 (V7' m) c 0).trans (W8_of m c _ (by decide)).symm)
  | 1 => ((dat4 (V7' m) c).arrAt_in 1 rfl _).trans ((A_eq4 (V7' m) c 1).trans (W8_of m c _ (by decide)).symm)
  | 2 => ((dat4 (V7' m) c).arrAt_in 2 rfl _).trans ((A_eq4 (V7' m) c 2).trans (W8_of m c _ (by decide)).symm)
  | 3 => ((dat4 (V7' m) c).arrAt_in 3 rfl _).trans ((A_eq4 (V7' m) c 3).trans (W8_of m c _ (by decide)).symm)
  | 4 => ((dat4 (V7' m) c).arrAt_in 4 rfl _).trans ((A_eq4 (V7' m) c 4).trans (W8_of m c _ (by decide)).symm)
  | 5 => (W8_main_v24_0 m c).symm
  | 6 => (W8_main_v24_1 m c).symm
  | ⟨_ + 7, h⟩ => absurd h (Nat.not_lt.2 (Nat.le_add_left _ _))

theorem hrest4 (c : Dev nD) : ∀ b, b ∉ Finset.univ.image (Pipeline.arrRef spec4) → V8' m c b = V7' m c b :=
  fun b hb => W8_of m c b fun hmem => by
    rcases List.mem_cons.mp hmem with rfl | hmem
    · exact hb (Finset.mem_image.mpr ⟨5, Finset.mem_univ _, rfl⟩)
    rcases List.mem_cons.mp hmem with rfl | hmem
    · exact hb (Finset.mem_image.mpr ⟨6, Finset.mem_univ _, rfl⟩)
    exact absurd hmem (by simp)

theorem W9_main_v25 (c : Dev nD) : W9 m c main_v25 = (dat5 (V8' m) c).arrAt 2 cfg5.N := Function.update_self ..
theorem W9_of (c : Dev nD) (r : Ref sig .tc) (h : r ∉ ([main_v25] : List (Ref sig .tc))) : W9 m c r = W8 m c r := upd1_of _ _ r h

theorem hF5 (c : Dev nD) : ∀ w : Fin cfg5.W, (dat5 (V8' m) c).arrAt w cfg5.N = V9' m c (Pipeline.arrRef spec5 w) := fun
  | 0 => ((dat5 (V8' m) c).arrAt_in 0 rfl _).trans ((A_eq5 (V8' m) c 0).trans (W9_of m c _ (by decide)).symm)
  | 1 => ((dat5 (V8' m) c).arrAt_in 1 rfl _).trans ((A_eq5 (V8' m) c 1).trans (W9_of m c _ (by decide)).symm)
  | 2 => (W9_main_v25 m c).symm
  | ⟨_ + 3, h⟩ => absurd h (Nat.not_lt.2 (Nat.le_add_left _ _))

theorem hrest5 (c : Dev nD) : ∀ b, b ∉ Finset.univ.image (Pipeline.arrRef spec5) → V9' m c b = V8' m c b :=
  fun b hb => W9_of m c b fun hmem => by
    rcases List.mem_cons.mp hmem with rfl | hmem
    · exact hb (Finset.mem_image.mpr ⟨2, Finset.mem_univ _, rfl⟩)
    exact absurd hmem (by simp)

theorem W10_main_v26_0 (c : Dev nD) : W10 m c main_v26_0 = (dat6 (V9' m) c).arrAt 1 cfg6.N := upd2_fst _ _ _ (by decide)
theorem W10_main_v26_1 (c : Dev nD) : W10 m c main_v26_1 = (dat6 (V9' m) c).arrAt 2 cfg6.N := Function.update_self ..
theorem W10_of (c : Dev nD) (r : Ref sig .tc) (h : r ∉ ([main_v26_0, main_v26_1] : List (Ref sig .tc))) : W10 m c r = W9 m c r := upd2_of _ _ _ r h

theorem hF6 (c : Dev nD) : ∀ w : Fin cfg6.W, (dat6 (V9' m) c).arrAt w cfg6.N = V10' m c (Pipeline.arrRef spec6 w) := fun
  | 0 => ((dat6 (V9' m) c).arrAt_in 0 rfl _).trans ((A_eq6 (V9' m) c 0).trans (W10_of m c _ (by decide)).symm)
  | 1 => (W10_main_v26_0 m c).symm
  | 2 => (W10_main_v26_1 m c).symm
  | ⟨_ + 3, h⟩ => absurd h (Nat.not_lt.2 (Nat.le_add_left _ _))

theorem hrest6 (c : Dev nD) : ∀ b, b ∉ Finset.univ.image (Pipeline.arrRef spec6) → V10' m c b = V9' m c b :=
  fun b hb => W10_of m c b fun hmem => by
    rcases List.mem_cons.mp hmem with rfl | hmem
    · exact hb (Finset.mem_image.mpr ⟨1, Finset.mem_univ _, rfl⟩)
    rcases List.mem_cons.mp hmem with rfl | hmem
    · exact hb (Finset.mem_image.mpr ⟨2, Finset.mem_univ _, rfl⟩)
    exact absurd hmem (by simp)

theorem W12_main_v29_0 (c : Dev nD) : W12 m c main_v29_0 = (dat7 (V11' m) c).arrAt 5 cfg7.N := upd2_fst _ _ _ (by decide)
theorem W12_main_v29_1 (c : Dev nD) : W12 m c main_v29_1 = (dat7 (V11' m) c).arrAt 6 cfg7.N := Function.update_self ..
theorem W12_of (c : Dev nD) (r : Ref sig .tc) (h : r ∉ ([main_v29_0, main_v29_1] : List (Ref sig .tc))) : W12 m c r = W11 m c r := upd2_of _ _ _ r h

theorem hF7 (c : Dev nD) : ∀ w : Fin cfg7.W, (dat7 (V11' m) c).arrAt w cfg7.N = V12' m c (Pipeline.arrRef spec7 w) := fun
  | 0 => ((dat7 (V11' m) c).arrAt_in 0 rfl _).trans ((A_eq7 (V11' m) c 0).trans (W12_of m c _ (by decide)).symm)
  | 1 => ((dat7 (V11' m) c).arrAt_in 1 rfl _).trans ((A_eq7 (V11' m) c 1).trans (W12_of m c _ (by decide)).symm)
  | 2 => ((dat7 (V11' m) c).arrAt_in 2 rfl _).trans ((A_eq7 (V11' m) c 2).trans (W12_of m c _ (by decide)).symm)
  | 3 => ((dat7 (V11' m) c).arrAt_in 3 rfl _).trans ((A_eq7 (V11' m) c 3).trans (W12_of m c _ (by decide)).symm)
  | 4 => ((dat7 (V11' m) c).arrAt_in 4 rfl _).trans ((A_eq7 (V11' m) c 4).trans (W12_of m c _ (by decide)).symm)
  | 5 => (W12_main_v29_0 m c).symm
  | 6 => (W12_main_v29_1 m c).symm
  | ⟨_ + 7, h⟩ => absurd h (Nat.not_lt.2 (Nat.le_add_left _ _))

theorem hrest7 (c : Dev nD) : ∀ b, b ∉ Finset.univ.image (Pipeline.arrRef spec7) → V12' m c b = V11' m c b :=
  fun b hb => W12_of m c b fun hmem => by
    rcases List.mem_cons.mp hmem with rfl | hmem
    · exact hb (Finset.mem_image.mpr ⟨5, Finset.mem_univ _, rfl⟩)
    rcases List.mem_cons.mp hmem with rfl | hmem
    · exact hb (Finset.mem_image.mpr ⟨6, Finset.mem_univ _, rfl⟩)
    exact absurd hmem (by simp)

def Wn : ℕ → Dev nD → Valuation τ sig (Elt F)
  | 0 => W0 m | 1 => W1 m | 2 => W2 m | 3 => W3 m | 4 => W4 m | 5 => W5 m | 6 => W6 m | 7 => W7 m
  | 8 => W8 m | 9 => W9 m | 10 => W10 m | 11 => W11 m | 12 => W12 m | _ => W13 m

def outs : Gen.Outs (F := F) := fun J r c => Wn m J c (Proc.devRef .tc r)

theorem V_eq_0 (c : Dev nD) : Gen.V0 m c = W0 m c := rfl
theorem V_eq_1 (c : Dev nD) : Gen.V1 m c = W1 m c := by
  show StableHlo.after hostOps0 (Gen.V0 m c) = _
  rw [V_eq_0]; rfl
theorem V_eq_2 (c : Dev nD) : Gen.V2 m (outs m) c = W2 m c := by
  show Function.update (Function.update (Gen.V1 m c) main_v16_0 (W2 m c main_v16_0)) main_v16_1 (W2 m c main_v16_1) = _
  rw [V_eq_1, W2_main_v16_0, W2_main_v16_1]; rfl
theorem V_eq_3 (c : Dev nD) : Gen.V3 m (outs m) c = W3 m c := by
  show StableHlo.after hostOps1 (Gen.V2 m (outs m) c) = _
  rw [V_eq_2]; rfl
theorem V_eq_4 (c : Dev nD) : Gen.V4 m (outs m) c = W4 m c := by
  show Function.update (Function.update (Gen.V3 m (outs m) c) main_v19_0 (W4 m c main_v19_0)) main_v19_1 (W4 m c main_v19_1) = _
  rw [V_eq_3, W4_main_v19_0, W4_main_v19_1]; rfl
theorem V_eq_5 (c : Dev nD) : Gen.V5 m (outs m) c = W5 m c := by
  show Function.update (Gen.V4 m (outs m) c) main_v20 (W5 m c main_v20) = _
  rw [V_eq_4, W5_main_v20]; rfl
theorem V_eq_6 (c : Dev nD) : Gen.V6 m (outs m) c = W6 m c := by
  show Function.update (Function.update (Gen.V5 m (outs m) c) main_v21_0 (W6 m c main_v21_0)) main_v21_1 (W6 m c main_v21_1) = _
  rw [V_eq_5, W6_main_v21_0, W6_main_v21_1]; rfl
theorem V_eq_7 (c : Dev nD) : Gen.V7 m (outs m) c = W7 m c := by
  show StableHlo.after hostOps4 (Gen.V6 m (outs m) c) = _
  rw [V_eq_6]; rfl
theorem V_eq_8 (c : Dev nD) : Gen.V8 m (outs m) c = W8 m c := by
  show Function.update (Function.update (Gen.V7 m (outs m) c) main_v24_0 (W8 m c main_v24_0)) main_v24_1 (W8 m c main_v24_1) = _
  rw [V_eq_7, W8_main_v24_0, W8_main_v24_1]; rfl
theorem V_eq_9 (c : Dev nD) : Gen.V9 m (outs m) c = W9 m c := by
  show Function.update (Gen.V8 m (outs m) c) main_v25 (W9 m c main_v25) = _
  rw [V_eq_8, W9_main_v25]; rfl
theorem V_eq_10 (c : Dev nD) : Gen.V10 m (outs m) c = W10 m c := by
  show Function.update (Function.update (Gen.V9 m (outs m) c) main_v26_0 (W10 m c main_v26_0)) main_v26_1 (W10 m c main_v26_1) = _
  rw [V_eq_9, W10_main_v26_0, W10_main_v26_1]; rfl
theorem V_eq_11 (c : Dev nD) : Gen.V11 m (outs m) c = W11 m c := by
  show StableHlo.after hostOps7 (Gen.V10 m (outs m) c) = _
  rw [V_eq_10]; rfl
theorem V_eq_12 (c : Dev nD) : Gen.V12 m (outs m) c = W12 m c := by
  show Function.update (Function.update (Gen.V11 m (outs m) c) main_v29_0 (W12 m c main_v29_0)) main_v29_1 (W12 m c main_v29_1) = _
  rw [V_eq_11, W12_main_v29_0, W12_main_v29_1]; rfl
theorem V_eq_13 (c : Dev nD) : Gen.V13 m (outs m) c = W13 m c := by
  show StableHlo.after hostOps8 (Gen.V12 m (outs m) c) = _
  rw [V_eq_12]; rfl

def pdats : (p : Fin 8) → (c : Dev nD) → Dat τ (Elt F) Unit ℕ (Pipeline.UD sig nD τ) ℕ (Pipeline.pin (pcfgs (F := F)) adm p) c
  | ⟨0, _⟩ => fun c => dat0 (V1' m) c
  | ⟨1, _⟩ => fun c => dat1 (V3' m) c
  | ⟨2, _⟩ => fun c => dat2 (V4' m) c
  | ⟨3, _⟩ => fun c => dat3 (V5' m) c
  | ⟨4, _⟩ => fun c => dat4 (V7' m) c
  | ⟨5, _⟩ => fun c => dat5 (V8' m) c
  | ⟨6, _⟩ => fun c => dat6 (V9' m) c
  | ⟨7, _⟩ => fun c => dat7 (V11' m) c

abbrev runL : GSem nD τ sig → Finset Unit := fun _ => ∅
abbrev runLv : GSem nD τ sig → Unit → ℕ := fun _ _ => 0

abbrev Rest (c : Dev nD) : sProp 𝕄 := iprop((∃ r, prngReg c r) ∗ ∃ W, owes (c : Thread nD τ) (0 : CellTallies nD τ sig Unit) W)

abbrev St (Wv : Dev nD → Valuation τ sig (Elt F)) (c : Dev nD) : sProp 𝕄 :=
  iprop(StableHlo.held (c : Thread nD τ) (Pipeline.ucRefs τ sig) (Wv c) ∗ Rest c)

abbrev hseg (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := Pipeline.UD sig nD τ) (pcfgs (F := F)) defs₀ Variants.none runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv Rest

section Protocol

variable (pd : (p : Fin 8) → (c : Dev nD) → Dat τ (Elt F) Unit ℕ (Pipeline.UD sig nD τ) ℕ (Pipeline.pin (pcfgs (F := F)) adm p) c)

theorem owes_in {p : Fin 8} {c : Dev nD} (t : Fin ((Pipeline.pin (pcfgs (F := F)) adm p).N + 1))
    (ho : (pd p c).owed t = 0) (hr : (pd p c).recorded t = Set.univ) :
    (iprop(∃ W, owes (c : Thread nD τ) (0 : CellTallies nD τ sig Unit) W) : sProp 𝕄) ⊢ (pd p c).owesAt () t := by
  unfold Pipeline.Dat.owesAt Pipeline.owesWithin Pipeline.Dat.bound
  rw [ho, hr]
  iintro ⟨%W, HO⟩
  iexists W
  isplitr
  · ipureintro; exact fun _ _ => Or.inl trivial
  iexact HO

theorem owes_out {p : Fin 8} {c : Dev nD} (t : Fin ((Pipeline.pin (pcfgs (F := F)) adm p).N + 1))
    (ho : (pd p c).owed t = 0) :
    (pd p c).owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

theorem noTables (p : Fin 8) (c : Dev nD) :
    (BI.emp : sProp 𝕄) ⊢ Pipeline.prefHeld (pcfgs (F := F) p).pre c (fun _ => fullShare) (adm p).1 := by
  unfold Pipeline.prefHeld
  rw [show (Finset.univ : Finset (Fin 0)) = ∅ from rfl, BI.bigSep_empty]

set_option backward.isDefEq.respectTransparency.types false in

theorem enter (p : Fin 8) (hw : Pipeline.WinFacts (Pipeline.pin (pcfgs (F := F)) adm p).spec)
    (harr : ∀ w, ((Pipeline.pin (pcfgs (F := F)) adm p).spec w).arr.IsWhole) (c : Dev nD)
    (Vv : (b : Ref sig .tc) → Buf (Elt F) ((c : Thread nD τ).loc b))
    (hA : ∀ w, (pd p c).A w = Vv (Pipeline.arrRef (Pipeline.pin (pcfgs (F := F)) adm p).spec w))
    (hq : ∀ w, (pd p c).q w = fullShare) (ho : (pd p c).owed 0 = 0) (hr : (pd p c).recorded 0 = Set.univ) :
    (iprop(iprop(unscopedBufs (Ix := Unit) (Name := ℕ) (U := Pipeline.UD sig nD τ) (Lvl := ℕ) c Vv ∗ Rest c)
        ∗ Pipeline.ownSems0 (fun k : PEmpty => k.elim) c ∗ levAts runL runLv) : sProp 𝕄)
      ⊢ |={Set.univ}=> iprop((pd p c).arrays ((pd p c).arrAt · 0) ∗ Pipeline.prefHeld (pcfgs (F := F) p).pre c (fun _ => fullShare) (adm p).1
          ∗ (pd p c).owesAt () 0 ∗ (∃ r, prngReg c r)
          ∗ Pipeline.unscopedRest (Ix := Unit) (Name := ℕ) (U := Pipeline.UD sig nD τ) (Lvl := ℕ) (Pipeline.pin (pcfgs (F := F)) adm p).spec c Vv) := by
  have hsplit := Pipeline.arrays_of_unscopedBufs (p := p) (pcfgs (F := F)) adm pd hw harr c ((pd p c).share_full hq) Vv hA
  iintro ⟨⟨Hub, Hp, HO⟩, -, -⟩
  ihave H := hsplit $$ Hub
  icases H with ⟨Ha, Hrest⟩
  imodintro
  isplitl [Ha]; · iexact Ha
  isplitr
  · iapply (noTables p c); iempintro
  isplitl [HO]
  · iapply (owes_in pd 0 ho hr); iexact HO
  isplitl [Hp]; · iexact Hp
  iexact Hrest

set_option backward.isDefEq.respectTransparency.types false in

theorem leave (p : Fin 8) (hw : Pipeline.WinFacts (Pipeline.pin (pcfgs (F := F)) adm p).spec)
    (harr : ∀ w, ((Pipeline.pin (pcfgs (F := F)) adm p).spec w).arr.IsWhole) (c : Dev nD)
    (Vv Vv' : (b : Ref sig .tc) → Buf (Elt F) ((c : Thread nD τ).loc b))
    (hq : ∀ w, (pd p c).q w = fullShare) (ho : (pd p c).owed (Fin.last _) = 0)
    (hF : ∀ w, (pd p c).arrAt w (Pipeline.pin (pcfgs (F := F)) adm p).N = Vv' (Pipeline.arrRef (Pipeline.pin (pcfgs (F := F)) adm p).spec w))
    (hrest : ∀ b, b ∉ Finset.univ.image (Pipeline.arrRef (Pipeline.pin (pcfgs (F := F)) adm p).spec) → Vv' b = Vv b) :
    (iprop((pd p c).arrays ((pd p c).arrAt · (Pipeline.pin (pcfgs (F := F)) adm p).N) ∗ (pd p c).owesAt () (Fin.last (Pipeline.pin (pcfgs (F := F)) adm p).N)
        ∗ (∃ r, prngReg c r)
        ∗ Pipeline.unscopedRest (Ix := Unit) (Name := ℕ) (U := Pipeline.UD sig nD τ) (Lvl := ℕ) (Pipeline.pin (pcfgs (F := F)) adm p).spec c Vv) : sProp 𝕄)
      ⊢ |={Set.univ}=> iprop(unscopedBufs (Ix := Unit) (Name := ℕ) (U := Pipeline.UD sig nD τ) (Lvl := ℕ) c Vv' ∗ Rest c) := by
  have hjoin := Pipeline.unscopedBufs_of_arrays (p := p) (pcfgs (F := F)) adm (Ix := Unit) (Name := ℕ) (U := Pipeline.UD sig nD τ) (Lvl := ℕ)
    hw harr c pd ((pd p c).share_full hq) Vv Vv' ((pd p c).arrAt · (Pipeline.pin (pcfgs (F := F)) adm p).N) hF hrest
  iintro ⟨Ha, HO, Hp, Hrest⟩
  imodintro
  isplitl [Ha Hrest]
  · iapply hjoin; isplitl [Ha] <;> iassumption
  isplitl [Hp]; · iexact Hp
  iapply (owes_out pd _ ho); iexact HO

end Protocol

section Protocol2

variable (pd : (p : Fin 8) → (c : Dev nD) → Dat τ (Elt F) Unit ℕ (Pipeline.UD sig nD τ) ℕ (Pipeline.pin (pcfgs (F := F)) adm p) c)

theorem inv_in (p : Fin 8) (c : Dev nD)
    (h : (iprop(Pipeline.scopedRest (Ix := Unit) (Name := ℕ) (U := Pipeline.UD sig nD τ) (Lvl := ℕ) (Val := Elt F) (Pipeline.pin (pcfgs (F := F)) adm p).spec c ∗ ∃ r, prngReg c r) : sProp 𝕄)
      ⊢ (pd p c).Φ 0) :
    (iprop((∃ r, prngReg c r) ∗ Pipeline.prefHeld (pcfgs (F := F) p).pre c (fun _ => fullShare) (adm p).1
        ∗ Pipeline.scopedRest (Ix := Unit) (Name := ℕ) (U := Pipeline.UD sig nD τ) (Lvl := ℕ) (Val := Elt F) (Pipeline.pin (pcfgs (F := F)) adm p).spec c) : sProp 𝕄)
      ⊢ (pd p c).Φ 0 := by
  iintro ⟨Hp, -, Hr⟩
  iapply h
  isplitl [Hr]; · iexact Hr
  iexact Hp

theorem inv_out (p : Fin 8) (c : Dev nD)
    (h : (pd p c).Φ (Fin.last (Pipeline.pin (pcfgs (F := F)) adm p).N)
      ⊢ (iprop(Pipeline.scopedRest (Ix := Unit) (Name := ℕ) (U := Pipeline.UD sig nD τ) (Lvl := ℕ) (Val := Elt F) (Pipeline.pin (pcfgs (F := F)) adm p).spec c ∗ ∃ r, prngReg c r) : sProp 𝕄)) :
    (pd p c).Φ (Fin.last (Pipeline.pin (pcfgs (F := F)) adm p).N)
      ⊢ (iprop((∃ r, prngReg c r) ∗ Pipeline.ownSems0 (fun k : PEmpty => k.elim) c
        ∗ Pipeline.scopedRest (Ix := Unit) (Name := ℕ) (U := Pipeline.UD sig nD τ) (Lvl := ℕ) (Val := Elt F) (Pipeline.pin (pcfgs (F := F)) adm p).spec c) : sProp 𝕄) := by
  rw [Pipeline.ownSems0_none]
  iintro H
  ihave H' := h $$ H
  icases H' with ⟨Hr, Hp⟩
  isplitl [Hp]; · iexact Hp
  isplitr; · iempintro
  iexact Hr

end Protocol2

abbrev VofW (Wv : Dev nD → Valuation τ sig (Elt F)) : (c : Dev nD) → (b : Ref sig .tc) → Buf (Elt F) ((c : Thread nD τ).loc b) :=
  fun c b => Wv c b

set_option backward.isDefEq.respectTransparency.types false in
-- A kernel region as a segment of the run: its launch facts, its body's obligation, the buffers' contents before and after it, the invariant at its two ends.
def mkReg (p : Fin 8) (hw : Pipeline.WinFacts (Pipeline.pin (pcfgs (F := F)) adm p).spec)
    (harr : ∀ w, ((Pipeline.pin (pcfgs (F := F)) adm p).spec w).arr.IsWhole)
    (hpos : ∀ w : Fin (pcfgs (F := F) p).W, 0 < ((pcfgs (F := F) p).spec w).block.numel)
    (hst : ∀ (w : Fin (pcfgs (F := F) p).W) (s : Fin ((pcfgs (F := F) p).spec w).nbuf), (((pcfgs (F := F) p).spec w).stage s).IsWhole)
    (Wi Wo : Dev nD → Valuation τ sig (Elt F))
    (hb : ∀ c, BodyObligation (pdats m p c) (defs₀ (F := F)) Variants.none () Set.univ)
    (hA : ∀ c w, (pdats m p c).A w = VofW Wi c (Pipeline.arrRef (Pipeline.pin (pcfgs (F := F)) adm p).spec w))
    (hq : ∀ c w, (pdats m p c).q w = fullShare) (howed : ∀ c t, (pdats m p c).owed t = 0)
    (hrec : ∀ c, (pdats m p c).recorded 0 = Set.univ)
    (hΦi : ∀ c, (iprop(Pipeline.scopedRest (Ix := Unit) (Name := ℕ) (U := Pipeline.UD sig nD τ) (Lvl := ℕ) (Val := Elt F) (Pipeline.pin (pcfgs (F := F)) adm p).spec c ∗ ∃ r, prngReg c r) : sProp 𝕄)
      ⊢ (pdats m p c).Φ 0)
    (hΦo : ∀ c, (pdats m p c).Φ (Fin.last (Pipeline.pin (pcfgs (F := F)) adm p).N)
      ⊢ (iprop(Pipeline.scopedRest (Ix := Unit) (Name := ℕ) (U := Pipeline.UD sig nD τ) (Lvl := ℕ) (Val := Elt F) (Pipeline.pin (pcfgs (F := F)) adm p).spec c ∗ ∃ r, prngReg c r) : sProp 𝕄))
    (hF : ∀ c w, (pdats m p c).arrAt w (Pipeline.pin (pcfgs (F := F)) adm p).N = VofW Wo c (Pipeline.arrRef (Pipeline.pin (pcfgs (F := F)) adm p).spec w))
    (hrest : ∀ c b, b ∉ Finset.univ.image (Pipeline.arrRef (Pipeline.pin (pcfgs (F := F)) adm p).spec) → VofW Wo c b = VofW Wi c b) :
    Pipeline.RegionSeg (pcfgs (F := F)) adm (pdats m) () defs₀ Variants.none runL runLv p where
  win := hw.to₀
  block_pos := hpos
  stage_whole := hst
  K := PEmpty
  osem k := k.elim
  ho := Pipeline.OwnSemFacts.none _
  hbody c := (hb c).loose
  hwaits := Pipeline.hwaits_of_owed_zero _ _ _ _ runL runLv p howed
  pre := St Wi
  post := St Wo
  X c := iprop(∃ r, prngReg c r)
  Y c := iprop(∃ r, prngReg c r)
  Z c := Pipeline.unscopedRest (Ix := Unit) (Name := ℕ) (U := Pipeline.UD sig nD τ) (Lvl := ℕ) (Pipeline.pin (pcfgs (F := F)) adm p).spec c (VofW Wi c)
  hentry c := by
    have h := enter (pdats m) p hw harr c (VofW Wi c) (hA c) (hq c) (howed c 0) (hrec c)
    rw [Pipeline.unscopedBufs_held] at h
    exact h
  hin c := inv_in (pdats m) p c (hΦi c)
  hout c := inv_out (pdats m) p c (hΦo c)
  hexit c := by
    have h := leave (pdats m) p hw harr c (VofW Wi c) (VofW Wo c) (hq c) (howed c _) (hF c) (hrest c)
    rw [Pipeline.unscopedBufs_held] at h
    exact h

set_option backward.isDefEq.respectTransparency.types false in

def reg0 : Pipeline.RegionSeg (pcfgs (F := F)) adm (pdats m) () defs₀ Variants.none runL runLv 0 :=
  mkReg m 0 launch0.win launch0.arr_whole launch0.block_pos launch0.stage_whole (W1 m) (W2 m)
    (body_obligation0 (V1' m)) (A_eq0 (V1' m)) (fun _ _ => rfl) (fun _ _ => rfl) (fun _ => rfl)
    (fun c => by rw [show (pdats m 0 c).Φ 0 = Pipeline.ΦA spec0 c from rfl]; unfold Pipeline.ΦA; exact .rfl)
    (fun c => by rw [show (pdats m 0 c).Φ (Fin.last _) = Pipeline.ΦA spec0 c from rfl]; unfold Pipeline.ΦA; exact .rfl)
    (hF0 m) (hrest0 m)

set_option backward.isDefEq.respectTransparency.types false in

def reg1 : Pipeline.RegionSeg (pcfgs (F := F)) adm (pdats m) () defs₀ Variants.none runL runLv 1 :=
  mkReg m 1 launch1.win launch1.arr_whole launch1.block_pos launch1.stage_whole (W3 m) (W4 m)
    (body_obligation1 (V3' m)) (A_eq1 (V3' m)) (fun _ _ => rfl) (fun _ _ => rfl) (fun _ => rfl)
    (fun c => by rw [show (pdats m 1 c).Φ 0 = Pipeline.ΦA spec1 c from rfl]; unfold Pipeline.ΦA; exact .rfl)
    (fun c => by rw [show (pdats m 1 c).Φ (Fin.last _) = Pipeline.ΦA spec1 c from rfl]; unfold Pipeline.ΦA; exact .rfl)
    (hF1 m) (hrest1 m)

set_option backward.isDefEq.respectTransparency.types false in

def reg2 : Pipeline.RegionSeg (pcfgs (F := F)) adm (pdats m) () defs₀ Variants.none runL runLv 2 :=
  mkReg m 2 launch2.win launch2.arr_whole launch2.block_pos launch2.stage_whole (W4 m) (W5 m)
    (body_obligation2 (V4' m)) (A_eq2 (V4' m)) (fun _ _ => rfl) (fun _ _ => rfl) (fun _ => rfl)
    (fun c => phi_in2 (V4' m) c)
    (fun c => phi_out2 (V4' m) c)
    (hF2 m) (hrest2 m)

set_option backward.isDefEq.respectTransparency.types false in

def reg3 : Pipeline.RegionSeg (pcfgs (F := F)) adm (pdats m) () defs₀ Variants.none runL runLv 3 :=
  mkReg m 3 launch3.win launch3.arr_whole launch3.block_pos launch3.stage_whole (W5 m) (W6 m)
    (body_obligation3 (V5' m)) (A_eq3 (V5' m)) (fun _ _ => rfl) (fun _ _ => rfl) (fun _ => rfl)
    (fun c => by rw [show (pdats m 3 c).Φ 0 = Pipeline.ΦA spec3 c from rfl]; unfold Pipeline.ΦA; exact .rfl)
    (fun c => by rw [show (pdats m 3 c).Φ (Fin.last _) = Pipeline.ΦA spec3 c from rfl]; unfold Pipeline.ΦA; exact .rfl)
    (hF3 m) (hrest3 m)

set_option backward.isDefEq.respectTransparency.types false in

def reg4 : Pipeline.RegionSeg (pcfgs (F := F)) adm (pdats m) () defs₀ Variants.none runL runLv 4 :=
  mkReg m 4 launch4.win launch4.arr_whole launch4.block_pos launch4.stage_whole (W7 m) (W8 m)
    (body_obligation4 (V7' m)) (A_eq4 (V7' m)) (fun _ _ => rfl) (fun _ _ => rfl) (fun _ => rfl)
    (fun c => by rw [show (pdats m 4 c).Φ 0 = Pipeline.ΦA spec4 c from rfl]; unfold Pipeline.ΦA; exact .rfl)
    (fun c => by rw [show (pdats m 4 c).Φ (Fin.last _) = Pipeline.ΦA spec4 c from rfl]; unfold Pipeline.ΦA; exact .rfl)
    (hF4 m) (hrest4 m)

set_option backward.isDefEq.respectTransparency.types false in

def reg5 : Pipeline.RegionSeg (pcfgs (F := F)) adm (pdats m) () defs₀ Variants.none runL runLv 5 :=
  mkReg m 5 launch5.win launch5.arr_whole launch5.block_pos launch5.stage_whole (W8 m) (W9 m)
    (body_obligation5 (V8' m)) (A_eq5 (V8' m)) (fun _ _ => rfl) (fun _ _ => rfl) (fun _ => rfl)
    (fun c => phi_in5 (V8' m) c)
    (fun c => phi_out5 (V8' m) c)
    (hF5 m) (hrest5 m)

set_option backward.isDefEq.respectTransparency.types false in

def reg6 : Pipeline.RegionSeg (pcfgs (F := F)) adm (pdats m) () defs₀ Variants.none runL runLv 6 :=
  mkReg m 6 launch6.win launch6.arr_whole launch6.block_pos launch6.stage_whole (W9 m) (W10 m)
    (body_obligation6 (V9' m)) (A_eq6 (V9' m)) (fun _ _ => rfl) (fun _ _ => rfl) (fun _ => rfl)
    (fun c => by rw [show (pdats m 6 c).Φ 0 = Pipeline.ΦA spec6 c from rfl]; unfold Pipeline.ΦA; exact .rfl)
    (fun c => by rw [show (pdats m 6 c).Φ (Fin.last _) = Pipeline.ΦA spec6 c from rfl]; unfold Pipeline.ΦA; exact .rfl)
    (hF6 m) (hrest6 m)

set_option backward.isDefEq.respectTransparency.types false in

def reg7 : Pipeline.RegionSeg (pcfgs (F := F)) adm (pdats m) () defs₀ Variants.none runL runLv 7 :=
  mkReg m 7 launch7.win launch7.arr_whole launch7.block_pos launch7.stage_whole (W11 m) (W12 m)
    (body_obligation7 (V11' m)) (A_eq7 (V11' m)) (fun _ _ => rfl) (fun _ _ => rfl) (fun _ => rfl)
    (fun c => by rw [show (pdats m 7 c).Φ 0 = Pipeline.ΦA spec7 c from rfl]; unfold Pipeline.ΦA; exact .rfl)
    (fun c => by rw [show (pdats m 7 c).Φ (Fin.last _) = Pipeline.ΦA spec7 c from rfl]; unfold Pipeline.ΦA; exact .rfl)
    (hF7 m) (hrest7 m)

abbrev segs : List (Pipeline.Seg (pcfgs (F := F)) adm (pdats m) () defs₀ Variants.none runL runLv) :=
  [ .host (hseg hostOps0 hostOps0_sub hostOps0_fresh (W0 m)),
    .region (reg0 m),
    .host (hseg hostOps1 hostOps1_sub hostOps1_fresh (W2 m)),
    .region (reg1 m),
    .region (reg2 m),
    .region (reg3 m),
    .host (hseg hostOps4 hostOps4_sub hostOps4_fresh (W6 m)),
    .region (reg4 m),
    .region (reg5 m),
    .region (reg6 m),
    .host (hseg hostOps7 hostOps7_sub hostOps7_fresh (W10 m)),
    .region (reg7 m),
    .host (hseg hostOps8 hostOps8_sub hostOps8_fresh (W12 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W13_arg (c : Dev nD) (r : Ref sig .tc) (h : Gen.V13 m (outs m) c r = m ((c : Thread nD τ).loc r)) :
    W13 m c (Proc.devRef .tc r) = m ((c : Thread nD τ).loc r) :=
  (congrFun (V_eq_13 m c) (Proc.devRef .tc r)).symm.trans h

set_option backward.isDefEq.respectTransparency.types false in

theorem run_main (ρ : Dev nD → PrngReg) : θ_run defs (onTc (τ := τ) (main (F := F))) ⟨m, fun _ => 0, ρ⟩ (fun r => ∀ c : Dev nD,
      r.2.mem ((c.tc : Thread nD τ).loc main_v34) = W13 m c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj embL defs₀ Variants.none runL runLv m ρ main (segs m)
    (fun c Q => by
      rw [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := St (W0 m)) (Tₙ := fun c => StableHlo.held (c : Thread nD τ) (Pipeline.ucRefs τ sig) (W13 m c))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show (iprop(StableHlo.held (c : Thread nD τ) (Pipeline.ucRefs τ sig) (W13 m c) ∗ Rest c) : sProp 𝕄) ⊢ _
        iintro ⟨Hh, -, HO⟩
        isplitl [Hh]; · iexact Hh
        iexact HO⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      unfold StableHlo.held
      iintro ⟨Hh, HSI⟩
      imodintro
      iapply (pointsTo_read_all (Pipeline.ucRefs τ sig) (fun b => (((c : Thread nD τ)).1, b)) (W13 m c) s')
      isplitl [Hh] <;> iassumption)
    (hQ := fun s h c =>
      ⟨h c _ (mem_uc main_v34 (by decide)),
       (h c _ (mem_uc main_arg0 (by decide))).trans (W13_arg m c main_arg0 (Gen.V13_main_arg0 m (outs m) c)),
       (h c _ (mem_uc main_arg1 (by decide))).trans (W13_arg m c main_arg1 (Gen.V13_main_arg1 m (outs m) c)),
       (h c _ (mem_uc main_arg2 (by decide))).trans (W13_arg m c main_arg2 (Gen.V13_main_arg2 m (outs m) c)),
       (h c _ (mem_uc main_arg3 (by decide))).trans (W13_arg m c main_arg3 (Gen.V13_main_arg3 m (outs m) c)),
       (h c _ (mem_uc main_arg4 (by decide))).trans (W13_arg m c main_arg4 (Gen.V13_main_arg4 m (outs m) c)),
       (h c _ (mem_uc main_arg5 (by decide))).trans (W13_arg m c main_arg5 (Gen.V13_main_arg5 m (outs m) c)),
       (h c _ (mem_uc main_arg6 (by decide))).trans (W13_arg m c main_arg6 (Gen.V13_main_arg6 m (outs m) c)),
       (h c _ (mem_uc main_arg7 (by decide))).trans (W13_arg m c main_arg7 (Gen.V13_main_arg7 m (outs m) c)),
       (h c _ (mem_uc main_arg8 (by decide))).trans (W13_arg m c main_arg8 (Gen.V13_main_arg8 m (outs m) c)),
       (h c _ (mem_uc main_arg9 (by decide))).trans (W13_arg m c main_arg9 (Gen.V13_main_arg9 m (outs m) c))⟩)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic

abbrev Mat (n d : Nat) : Type := Fin n → Fin d → EReal

abbrev Vct (n : Nat) : Type := Fin n → EReal

abbrev Idxs : Type := Fin 262144 → BitVec 32

def RealM {n d : Nat} (x : Mat n d) : Prop := ∀ i j, ∃ r : ℝ, x i j = (r : EReal)

def RealV {n : Nat} (x : Vct n) : Prop := ∀ i, ∃ r : ℝ, x i = (r : EReal)

def InRange (w : Idxs) : Prop := ∀ e, 0 ≤ (w e).toInt ∧ (w e).toInt < 8192

def eps12 : EReal := Ideal.ofBits .f32 0x2B8CBCCC#32

def eps5 : EReal := Ideal.ofBits .f32 0x3727C5AC#32
def one : EReal := Ideal.ofBits .f32 0x3F800000#32
def two : EReal := Ideal.ofBits .f32 0x40000000#32
def c256 : EReal := Ideal.ofBits .f32 0x43800000#32
def negInf : EReal := Ideal.ofBits .f32 0xFF800000#32

def unitRows (x : Mat 8192 256) : Mat 8192 256 :=
  fun i j => x i j * Ideal.rsqrt ((∑ j' : Fin 256, x i j' * x i j') + eps12)

def score (x : Mat 8192 256) (i k : Fin 8192) : EReal := ∑ j : Fin 256, unitRows x i j * unitRows x k j

def wK (x : Mat 8192 256) (i k : Fin 8192) : EReal := Ideal.exp (score x i k - one)

def contrastK (x : Mat 8192 256) : Mat 8192 256 :=
  fun i j => two * x i j - one * Ideal.div (∑ k : Fin 8192, wK x i k * x k j) (∑ k : Fin 8192, wK x i k)

def scoreR (x : Mat 8192 256) (i k : Fin 8192) : EReal := Ideal.div (score x i k) one

def rowMax (s : Fin 8192 → EReal) : EReal := max negInf ((Finset.univ : Finset (Fin 8192)).fold max negInf s)

def wR (x : Mat 8192 256) (i k : Fin 8192) : EReal := Ideal.exp (scoreR x i k - rowMax (scoreR x i))

def contrastR (x : Mat 8192 256) : Mat 8192 256 :=
  fun i j => two * x i j - one * ∑ k : Fin 8192, Ideal.div (wR x i k) (∑ k' : Fin 8192, wR x i k') * x k j

def rowMean (h : Mat 8192 256) (i : Fin 8192) : EReal := Ideal.div (∑ j : Fin 256, h i j) c256

def rowVar (h : Mat 8192 256) (i : Fin 8192) : EReal :=
  Ideal.div (∑ j : Fin 256, (h i j - rowMean h i) * (h i j - rowMean h i)) c256

def standardise (h : Mat 8192 256) (g b : Vct 256) : Mat 8192 256 :=
  fun i j => (h i j - rowMean h i) * Ideal.rsqrt (rowVar h i + eps5) * g j + b j

def nodeOf (w : BitVec 32) : Option (Fin 8192) :=
  let v : Int := if w.toInt < 0 then (w + 8192#32).toInt else w.toInt
  if h : 0 ≤ v ∧ v < 8192 then some ⟨v.toNat, by omega⟩ else none

def adjacency (row col : Idxs) (vals : Vct 262144) : Mat 8192 8192 :=
  fun r c => ∑ e ∈ Finset.univ.filter (fun e : Fin 262144 => nodeOf (row e) = some r ∧ nodeOf (col e) = some c), vals e

def propagateK (row col : Idxs) (vals : Vct 262144) (h : Mat 8192 256) : Mat 8192 256 :=
  fun r j => ∑ c : Fin 8192, adjacency row col vals r c * h c j

def propagateR (row col : Idxs) (vals : Vct 262144) (h : Mat 8192 256) : Mat 8192 256 :=
  fun r j => ∑ e ∈ Finset.univ.filter (fun e : Fin 262144 => (row e).toInt = (r.val : Int)),
    vals e * h ⟨(col e).toInt.toNat % 8192, Nat.mod_lt _ (by decide)⟩ j

def readout (h : Mat 8192 256) (W : Mat 40 256) (b : Vct 40) : Mat 8192 40 :=
  fun i o => (∑ j : Fin 256, h i j * W o j) + b o

def forwardK (x : Mat 8192 256) (row col : Idxs) (vals : Vct 262144) (g0 b0 g b : Vct 256) (W : Mat 40 256) (bo : Vct 40) :
    Mat 8192 40 :=
  let h0 := standardise (contrastK x) g0 b0
  let h1 := standardise (contrastK (propagateK row col vals h0)) g b
  let h2 := standardise (contrastK (propagateK row col vals h1)) g b
  readout h2 W bo

def forwardR (x : Mat 8192 256) (row col : Idxs) (vals : Vct 262144) (g0 b0 g b : Vct 256) (W : Mat 40 256) (bo : Vct 40) :
    Mat 8192 40 :=
  let h0 := standardise (contrastR x) g0 b0
  let h1 := standardise (contrastR (propagateR row col vals h0)) g b
  let h2 := standardise (contrastR (propagateR row col vals h1)) g b
  readout h2 W bo

end Cert.Spec

end
-- ==== Proof.Conv.lean ====
import proofs.«405398_j45397804319028_3_alg».proof.Proof.Spec

noncomputable section

namespace Cert.Spec

open Idealize.ShloMosaic Idealize.ShloMosaic.ValueIdx

def matOf {n d : Nat} (v : (⟨2, ![n, d]⟩ : Shape).Idx → Ideal .f32) : Mat n d := fun i j => v (ix2 i j)

def vecOf {n : Nat} (v : (⟨1, ![n]⟩ : Shape).Idx → Ideal .f32) : Vct n := fun i => v (ix1 i)

def wordsOf (v : (⟨1, ![262144]⟩ : Shape).Idx → BitVec 32) : Idxs := fun e => v (ix1 e)

theorem matOf_apply {n d : Nat} (v : (⟨2, ![n, d]⟩ : Shape).Idx → Ideal .f32) (i : Fin n) (j : Fin d) :
    matOf v i j = v (ix2 i j) := rfl
theorem wordsOf_apply (v : (⟨1, ![262144]⟩ : Shape).Idx → BitVec 32) (e : Fin 262144) : wordsOf v e = v (ix1 e) := rfl

end Cert.Spec

end
-- ==== Proof.SpecK.lean ====
import proofs.«405398_j45397804319028_3_alg».proof.Proof.Conv

noncomputable section

open scoped BigOperators

namespace Cert.Spec

open Idealize.ShloMosaic Idealize.ShloMosaic.ValueIdx

def wK' (xn : Mat 8192 256) (i k : Fin 8192) : EReal := Ideal.exp ((∑ j : Fin 256, xn i j * xn k j) - one)

def contrastK' (xn xb x : Mat 8192 256) : Mat 8192 256 :=
  fun i j => two * x i j - one * Ideal.div (∑ k : Fin 8192, wK' xn i k * xb k j) (∑ k : Fin 8192, wK' xn i k)

theorem contrastK'_unitRows (x : Mat 8192 256) : contrastK' (unitRows x) x x = contrastK x := rfl

def rowOf {n : Nat} (v : (⟨2, ![1, n]⟩ : Shape).Idx → Ideal .f32) : Vct n := fun j => v (ix2 (0 : Fin 1) j)

end Cert.Spec

end
-- ==== Proof.KI.V1.lean ====
import proofs.«405398_j45397804319028_3_alg».proof.Proof.Gen.KernelIdeal.Skeleton
import proofs.«405398_j45397804319028_3_alg».proof.Proof.SpecK
import proofs.«405398_j45397804319028_3_alg».proof.Proof.KI.R1
import Idealize.ShloMosaic.PureOps.Ideal.Laws
import Idealize.ShloMosaic.Lib.ValueLayout
import Mathlib.Algebra.BigOperators.Fin

noncomputable section

open scoped BigOperators

namespace Cert.KernelIdeal.Hand.V1

open Idealize.ShloMosaic Idealize.ShloMosaic.ValueIdx Cert.KernelIdeal Cert.KernelIdeal.Gen Cert.Spec

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_qk_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide),
    dif_pos (show (0 : Fin S512x256.rank) ∈ dot_S512x256_S256x1024_S512x1024_1_0_0_1_n_n.lhsNonContracting by decide)]
  rfl
theorem lhs_qk_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem rhs_qk_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
theorem rhs_qk_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide),
    dif_pos (show (1 : Fin S256x1024.rank) ∈ dot_S512x256_S256x1024_S512x1024_1_0_0_1_n_n.rhsNonContracting by decide)]
  rfl

theorem matmul_qk_apply (l : FVec Ideal S512x256 .bf16) (r : FVec Ideal S256x1024 .bf16) (p : Fin 512) (q : Fin 1024) :
    matmul dot_S512x256_S256x1024_S512x1024_1_0_0_1_n_n none l r (constant (F := Ideal) S512x1024 .f32 0x00000000#32) (ix2 p q)
      = ∑ d : Fin 256, l (ix2 p d) * r (ix2 d q) := by
  simp only [matmul]
  rw [Ideal.matmul_constant_zero_apply,
    ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p q)
      ((contrEquiv1 dot_S512x256_S256x1024_S512x1024_1_0_0_1_n_n 256 rfl rfl).symm k) = ix2 p k :=
    funext fun a => Fin.ext (by
      match a with
      | ⟨0, _⟩ => exact lhs_qk_0 _ _
      | ⟨1, _⟩ => exact (lhs_qk_1 _ _).trans hk)
  have er : dot_S512x256_S256x1024_S512x1024_1_0_0_1_n_n.rhsIdx (ix2 p q)
      ((contrEquiv1 dot_S512x256_S256x1024_S512x1024_1_0_0_1_n_n 256 rfl rfl).symm k) = ix2 k q :=
    funext fun a => Fin.ext (by
      match a with
      | ⟨0, _⟩ => exact (rhs_qk_0 _ _).trans hk
      | ⟨1, _⟩ => exact rhs_qk_1 _ _)
  rw [el, er]

theorem lhs_wv_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide),
    dif_pos (show (0 : Fin S512x1024.rank) ∈ dot_S512x1024_S1024x256_S512x256_1_0_0_1_n_n.lhsNonContracting by decide)]
  rfl
theorem lhs_wv_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhs_wv_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhs_wv_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide),
    dif_pos (show (1 : Fin S1024x256.rank) ∈ dot_S512x1024_S1024x256_S512x256_1_0_0_1_n_n.rhsNonContracting by decide)]
  rfl

theorem matmul_wv_apply (l : FVec Ideal S512x1024 .bf16) (r : FVec Ideal S1024x256 .bf16) (p : Fin 512) (d : Fin 256) :
    matmul dot_S512x1024_S1024x256_S512x256_1_0_0_1_n_n none l r (constant (F := Ideal) S512x256 .f32 0x00000000#32) (ix2 p d)
      = ∑ q : Fin 1024, l (ix2 p q) * r (ix2 q d) := by
  simp only [matmul]
  rw [Ideal.matmul_constant_zero_apply,
    ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p d)
      ((contrEquiv1 dot_S512x1024_S1024x256_S512x256_1_0_0_1_n_n 1024 rfl rfl).symm k) = ix2 p k :=
    funext fun a => Fin.ext (by
      match a with
      | ⟨0, _⟩ => exact lhs_wv_0 _ _
      | ⟨1, _⟩ => exact (lhs_wv_1 _ _).trans hk)
  have er : dot_S512x1024_S1024x256_S512x256_1_0_0_1_n_n.rhsIdx (ix2 p d)
      ((contrEquiv1 dot_S512x1024_S1024x256_S512x256_1_0_0_1_n_n 1024 rfl rfl).symm k) = ix2 k d :=
    funext fun a => Fin.ext (by
      match a with
      | ⟨0, _⟩ => exact (rhs_wv_0 _ _).trans hk
      | ⟨1, _⟩ => exact rhs_wv_1 _ _)
  rw [el, er]

theorem rowSum1024_apply (src : FVec Ideal S512x1024 .f32) (hφ : FKind.Formats .f32)
    (hacc : (0x00000000#32 : BitVec 32) = 0x00000000#32) (p : Fin 512) :
    multiReduction (F := Ideal) .add [1] S512 src 0x00000000#32 reduces_S512x1024_S512 hφ hacc (ix1 p)
      = ∑ q : Fin 1024, src (ix2 p q) := by
  refine (Ideal.multiReduction_add_single src 0x00000000#32 reduces_S512x1024_S512 hφ hacc (ix1 p)).trans ?_
  refine Finset.sum_congr rfl fun q _ => congrArg src (funext fun a => ?_)
  match a with
  | ⟨0, _⟩ => rfl
  | ⟨1, _⟩ => rfl

theorem rowSum256_apply (src : FVec Ideal S512x256 .f32) (hφ : FKind.Formats .f32)
    (hacc : (0x00000000#32 : BitVec 32) = 0x00000000#32) (p : Fin 512) :
    multiReduction (F := Ideal) .add [1] S512 src 0x00000000#32 reduces_S512x256_S512 hφ hacc (ix1 p)
      = ∑ j : Fin 256, src (ix2 p j) := by
  refine (Ideal.multiReduction_add_single src 0x00000000#32 reduces_S512x256_S512 hφ hacc (ix1 p)).trans ?_
  refine Finset.sum_congr rfl fun q _ => congrArg src (funext fun a => ?_)
  match a with
  | ⟨0, _⟩ => rfl
  | ⟨1, _⟩ => rfl

theorem pay5_apply (v3 : FVec Ideal S512x256 .bf16) (v49 : FVec Ideal S1024x256 .bf16) (p : Fin 512) (q : Fin 1024) :
    k1_pay5 (F := Ideal) v3 v49 (ix2 p q) = Ideal.exp ((∑ d : Fin 256, v3 (ix2 p d) * v49 (ix2 q d)) - one) := by
  unfold k1_pay5
  show Ideal.exp (matmul dot_S512x256_S256x1024_S512x1024_1_0_0_1_n_n none (shapeCast S512x256 v3 shapeCasts_S512x256_S512x256)
      (transpose S256x1024 [1, 0] (shapeCast S1024x256 v49 shapeCasts_S1024x256_S1024x256) transposes_S1024x256_p1_0_S256x1024)
      (constant (F := Ideal) S512x1024 .f32 0x00000000#32) (ix2 p q) - Ideal.ofBits .f32 0x3F800000#32) = _
  rw [matmul_qk_apply, shapeCast_self, shapeCast_self]
  have ht : ∀ x : Fin 256, transpose S256x1024 [1, 0] v49 transposes_S1024x256_p1_0_S256x1024 (ix2 x q) = v49 (ix2 q x) :=
    fun x => transpose_ix2_apply v49 transposes_S1024x256_p1_0_S256x1024 x q
  simp only [ht]
  rfl

theorem pay6_apply (v3 : FVec Ideal S512x256 .bf16) (arg9 : FVec Ideal S512x1 .f32) (v49 : FVec Ideal S1024x256 .bf16)
    (p : Fin 512) (u : Fin 1) :
    k1_pay6 (F := Ideal) v3 arg9 v49 (ix2 p u)
      = arg9 (ix2 p u) + ∑ q : Fin 1024, k1_pay5 (F := Ideal) v3 v49 (ix2 p q) := by
  unfold k1_pay6
  show arg9 (ix2 p u) + shapeCast S512x1 (multiReduction (F := Ideal) .add [1] S512 (k1_pay5 (F := Ideal) v3 v49) 0x00000000#32
      reduces_S512x1024_S512 (.inl rfl) rfl) shapeCasts_S512_S512x1 (ix2 p u) = _
  rw [shapeCast_a_a1_apply, rowSum1024_apply]

theorem pay7_apply (v3 : FVec Ideal S512x256 .bf16) (arg10 : FVec Ideal S512x256 .f32) (v49 v52 : FVec Ideal S1024x256 .bf16)
    (p : Fin 512) (d : Fin 256) :
    k1_pay7 (F := Ideal) v3 arg10 v49 v52 (ix2 p d)
      = arg10 (ix2 p d) + ∑ q : Fin 1024, k1_pay5 (F := Ideal) v3 v49 (ix2 p q) * v52 (ix2 q d) := by
  unfold k1_pay7
  show arg10 (ix2 p d) + matmul dot_S512x1024_S1024x256_S512x256_1_0_0_1_n_n none
      (truncf .bf16 (k1_pay5 (F := Ideal) v3 v49) bitsLt_bf16_f32) (shapeCast S1024x256 v52 shapeCasts_S1024x256_S1024x256)
      (constant (F := Ideal) S512x256 .f32 0x00000000#32) (ix2 p d) = _
  rw [matmul_wv_apply, shapeCast_self]
  rfl

theorem pay3_apply (i : S512x1.Idx) : k1_pay3 (F := Ideal) i = 0 := by
  unfold k1_pay3
  show Ideal.ofBits .f32 0x00000000#32 = 0
  exact Ideal.ofBits_zero_f32

theorem pay4_apply (i : S512x256.Idx) : k1_pay4 (F := Ideal) i = 0 := by
  unfold k1_pay4
  show Ideal.ofBits .f32 0x00000000#32 = 0
  exact Ideal.ofBits_zero_f32

theorem walk_apply (v3 : FVec Ideal S512x256 .bf16) (K V : ℕ → FVec Ideal S1024x256 .bf16)
    (A : ℕ → FVec Ideal S512x1 .f32 × FVec Ideal S512x256 .f32) (N : ℕ)
    (h0 : A 0 = (k1_pay3 (F := Ideal), k1_pay4 (F := Ideal)))
    (hs : ∀ k, k < N → A (k + 1) = (k1_pay6 (F := Ideal) v3 (A k).1 (K k), k1_pay7 (F := Ideal) v3 (A k).2 (K k) (V k)))
    (p : Fin 512) (n : ℕ) (hn : n ≤ N) :
    (∀ u : Fin 1, (A n).1 (ix2 p u) = ∑ t ∈ Finset.range n, ∑ q : Fin 1024, k1_pay5 (F := Ideal) v3 (K t) (ix2 p q))
    ∧ (∀ d : Fin 256, (A n).2 (ix2 p d)
        = ∑ t ∈ Finset.range n, ∑ q : Fin 1024, k1_pay5 (F := Ideal) v3 (K t) (ix2 p q) * V t (ix2 q d)) := by
  induction n with
  | zero =>
    rw [h0]
    exact ⟨fun u => by rw [Finset.sum_range_zero]; exact pay3_apply (ix2 p u),
      fun d => by rw [Finset.sum_range_zero]; exact pay4_apply (ix2 p d)⟩
  | succ n ih =>
    obtain ⟨ih1, ih2⟩ := ih (Nat.le_of_succ_le hn)
    rw [hs n (Nat.lt_of_succ_le hn)]
    refine ⟨fun u => ?_, fun d => ?_⟩
    · show k1_pay6 (F := Ideal) v3 (A n).1 (K n) (ix2 p u) = _
      rw [pay6_apply, ih1 u, Finset.sum_range_succ]
    · show k1_pay7 (F := Ideal) v3 (A n).2 (K n) (V n) (ix2 p d) = _
      rw [pay7_apply, ih2 d, Finset.sum_range_succ]

theorem sum_range_mul {M : Type*} [AddCommMonoid M] (g : ℕ → M) (m n : ℕ) :
    ∑ k ∈ Finset.range (m * n), g k = ∑ t ∈ Finset.range m, ∑ q ∈ Finset.range n, g (n * t + q) := by
  induction m with
  | zero => simp
  | succ m ih =>
    rw [Nat.succ_mul, Finset.sum_range_add, ih, Finset.sum_range_succ, Nat.mul_comm n m]

theorem sum_keys_eq_tiles {M : Type*} [AddCommMonoid M] (g : ℕ → M) :
    ∑ k : Fin 8192, g k.val = ∑ t ∈ Finset.range 8, ∑ q : Fin 1024, g (1024 * t + q.val) := by
  rw [Fin.sum_univ_eq_sum_range g 8192, show (8192 : ℕ) = 8 * 1024 from rfl, sum_range_mul]
  exact Finset.sum_congr rfl fun t _ => (Fin.sum_univ_eq_sum_range (fun q => g (1024 * t + q)) 1024).symm

theorem sum_tiles_eq_keys {M : Type*} [AddCommMonoid M] (T : ℕ → Fin 1024 → M) (f : Fin 8192 → M) (g : ℕ → M)
    (hT : ∀ t, t < 8 → ∀ q : Fin 1024, T t q = g (1024 * t + q.val)) (hf : ∀ k : Fin 8192, f k = g k.val) :
    ∑ t ∈ Finset.range 8, ∑ q : Fin 1024, T t q = ∑ k : Fin 8192, f k := by
  rw [Finset.sum_congr rfl fun k _ => hf k, sum_keys_eq_tiles g]
  exact Finset.sum_congr rfl fun t ht => Finset.sum_congr rfl fun q _ => hT t (Finset.mem_range.mp ht) q

def meanRow (h : Fin 256 → EReal) : EReal := Ideal.div (∑ j : Fin 256, h j) c256

def varRow (h : Fin 256 → EReal) : EReal := Ideal.div (∑ j : Fin 256, (h j - meanRow h) * (h j - meanRow h)) c256

def scaledRow (h : Fin 256 → EReal) (g : Vct 256) (j : Fin 256) : EReal :=
  (h j - meanRow h) * Ideal.rsqrt (varRow h + eps5) * g j

theorem standardise_eq_scaledRow (H : Mat 8192 256) (g b : Vct 256) (i : Fin 8192) (j : Fin 256) :
    standardise H g b i j = scaledRow (H i) g j + b j := rfl

theorem rsqrt_apply {s : Shape} {φ : FTy} (a : FVec Ideal s φ) (i : s.Idx) : rsqrt a i = Ideal.rsqrt (a i) := rfl

def contrastRow (v5 : FVec Ideal S512x256 .f32) (l : FVec Ideal S512x1 .f32) (acc : FVec Ideal S512x256 .f32) (p : Fin 512) :
    Fin 256 → EReal :=
  fun j => two * v5 (ix2 p j) - one * Ideal.div (acc (ix2 p j)) (l (ix2 p (0 : Fin 1)))

theorem pay8_apply (v5 : FVec Ideal S512x256 .f32) (l : FVec Ideal S512x1 .f32) (acc : FVec Ideal S512x256 .f32)
    (gv : FVec Ideal S1x256 .f32) (p : Fin 512) (j : Fin 256) :
    k1_pay8 (F := Ideal) v5 l acc gv (ix2 p j) = scaledRow (contrastRow v5 l acc p) (rowOf gv) j := by
  unfold k1_pay8
  simp only [mulf_apply, subf_apply, addf_apply, divf_apply, rsqrt_apply, broadcast_apply, broadcastTo_a1_ab_apply,
    broadcastTo_1b_ab_apply, shapeCast_a_a1_apply, shapeCast_self, rowSum256_apply]
  rw [rowSum256_apply]
  simp only [mulf_apply, subf_apply, addf_apply, divf_apply, rsqrt_apply, broadcast_apply, broadcastTo_a1_ab_apply,
    broadcastTo_1b_ab_apply, shapeCast_a_a1_apply, shapeCast_self]
  rw [rowSum256_apply]
  simp only [mulf_apply, subf_apply, addf_apply, divf_apply, rsqrt_apply, broadcast_apply, broadcastTo_a1_ab_apply,
    broadcastTo_1b_ab_apply, shapeCast_a_a1_apply, shapeCast_self]
  rw [rowSum256_apply]
  simp only [mulf_apply, subf_apply, divf_apply, broadcast_apply, broadcastTo_a1_ab_apply]
  rfl

theorem pay1_apply (v38 : FVec Ideal S512x256 .f32) (v39 : FVec Ideal S1x256 .f32) (p : Fin 512) (j : Fin 256) :
    k1_pay1 (F := Ideal) v38 v39 (ix2 p j) = v38 (ix2 p j) + rowOf v39 j := by
  unfold k1_pay1
  simp only [addf_apply, broadcastTo_1b_ab_apply, shapeCast_self]
  rfl

def rowAt (X : S8192x256.Idx → EReal) (n : ℕ) (d : Fin 256) : EReal :=
  if h : n < 8192 then X (ix2 ⟨n, h⟩ d) else 0

theorem rowAt_val (X : S8192x256.Idx → EReal) (k : Fin 8192) (d : Fin 256) : rowAt X k.val d = X (ix2 k d) := by
  unfold rowAt
  rw [dif_pos k.isLt]

theorem trips1 : k1_t1_loop.trips = 8 := by decide

theorem keyTile1_apply (X : FVec Ideal S8192x256 .bf16) (k : Fin k1_t1_loop.trips) (q : Fin 1024) (d : Fin 256) :
    keyTile1 (F := Ideal) X k (ix2 q d) = rowAt X (1024 * k.val + q.val) d := by
  have hk : k.val < 8 := lt_of_lt_of_eq k.isLt trips1
  have hn : 1024 * k.val + q.val < 8192 := by omega
  unfold rowAt
  rw [dif_pos hn]
  unfold keyTile1
  show X ((Rect.unit (s := S8192x256) (k1_off2 k) S1024x256.size (k1_off2_inb k)).emb (ix2 q d)) = _
  refine congrArg X (funext fun a => Fin.ext ?_)
  rw [Rect.emb_apply]
  show k1_off2 k a + 1 * ((ix2 q d : S1024x256.Idx) a).val = _
  rw [k1_off2_eq k]
  match a with
  | ⟨0, _⟩ => show 1024 * k.val + 1 * q.val = 1024 * k.val + q.val; omega
  | ⟨1, _⟩ => show 0 + 1 * d.val = d.val; omega

theorem qTile1_apply (X : FVec Ideal S8192x256 .bf16) (i : grid1.Coords) (p : Fin 512) (d : Fin 256) :
    qTile1 (F := Ideal) X i (ix2 p d) = rowAt X (512 * (i 0).val + p.val) d := by
  have hi : (i 0).val < 16 := (i 0).isLt
  have hn : 512 * (i 0).val + p.val < 8192 := by omega
  unfold rowAt
  rw [dif_pos hn]
  unfold qTile1
  show X ((Rect.unit (s := S8192x256) (k1_off1 i) S512x256.size (k1_off1_inb i)).emb (ix2 p d)) = _
  refine congrArg X (funext fun a => Fin.ext ?_)
  rw [Rect.emb_apply]
  show k1_off1 i a + 1 * ((ix2 p d : S512x256.Idx) a).val = _
  rw [k1_off1_eq i]
  match a with
  | ⟨0, _⟩ => show 512 * (i 0).val + 1 * p.val = 512 * (i 0).val + p.val; omega
  | ⟨1, _⟩ => show 0 + 1 * d.val = d.val; omega

def tileSeq (X : FVec Ideal S8192x256 .bf16) (t : ℕ) : FVec Ideal S1024x256 .bf16 :=
  if h : t < k1_t1_loop.trips then keyTile1 (F := Ideal) X ⟨t, h⟩ else fun _ => 0

theorem tileSeq_apply (X : FVec Ideal S8192x256 .bf16) (t : ℕ) (ht : t < 8) (q : Fin 1024) (d : Fin 256) :
    tileSeq X t (ix2 q d) = rowAt X (1024 * t + q.val) d := by
  unfold tileSeq
  rw [dif_pos (lt_of_lt_of_eq ht trips1.symm)]
  exact keyTile1_apply X _ q d

theorem loopAcc1_step (v3 : FVec Ideal S512x256 .bf16) (xn xb : FVec Ideal S8192x256 .bf16) (k : ℕ)
    (hk : k < k1_t1_loop.trips) :
    loopAcc1 (F := Ideal) v3 xn xb (k + 1)
      = (k1_pay6 (F := Ideal) v3 (loopAcc1 (F := Ideal) v3 xn xb k).1 (tileSeq xn k),
         k1_pay7 (F := Ideal) v3 (loopAcc1 (F := Ideal) v3 xn xb k).2 (tileSeq xn k) (tileSeq xb k)) := by
  unfold tileSeq
  rw [dif_pos hk, dif_pos hk]
  exact loopAcc1_succ (F := Ideal) v3 xn xb ⟨k, hk⟩

theorem pay5_tile (v3 : FVec Ideal S512x256 .bf16) (xn : FVec Ideal S8192x256 .bf16) (t : ℕ) (ht : t < 8) (p : Fin 512)
    (q : Fin 1024) :
    k1_pay5 (F := Ideal) v3 (tileSeq xn t) (ix2 p q)
      = Ideal.exp ((∑ d : Fin 256, v3 (ix2 p d) * rowAt xn (1024 * t + q.val) d) - one) := by
  rw [pay5_apply]
  simp only [tileSeq_apply xn t ht]

def wRow (v : Fin 256 → EReal) (xn : S8192x256.Idx → EReal) (k : Fin 8192) : EReal :=
  Ideal.exp ((∑ d : Fin 256, v d * xn (ix2 k d)) - one)

theorem loopAcc1_apply (v3 : FVec Ideal S512x256 .bf16) (xn xb : FVec Ideal S8192x256 .bf16) (p : Fin 512) :
    (∀ u : Fin 1, (loopAcc1 (F := Ideal) v3 xn xb k1_t1_loop.trips).1 (ix2 p u)
        = ∑ k : Fin 8192, wRow (fun d => v3 (ix2 p d)) xn k)
    ∧ (∀ d : Fin 256, (loopAcc1 (F := Ideal) v3 xn xb k1_t1_loop.trips).2 (ix2 p d)
        = ∑ k : Fin 8192, wRow (fun d' => v3 (ix2 p d')) xn k * xb (ix2 k d)) := by
  obtain ⟨h1, h2⟩ := walk_apply v3 (tileSeq xn) (tileSeq xb) (loopAcc1 (F := Ideal) v3 xn xb) k1_t1_loop.trips
    (loopAcc1_zero (F := Ideal) v3 xn xb) (fun k hk => loopAcc1_step v3 xn xb k hk) p k1_t1_loop.trips le_rfl
  refine ⟨fun u => ?_, fun d => ?_⟩
  · rw [h1 u, trips1]
    exact sum_tiles_eq_keys (fun t q => k1_pay5 (F := Ideal) v3 (tileSeq xn t) (ix2 p q))
      (fun k => wRow (fun d => v3 (ix2 p d)) xn k)
      (fun n => Ideal.exp ((∑ d : Fin 256, v3 (ix2 p d) * rowAt xn n d) - one))
      (fun t ht q => pay5_tile v3 xn t ht p q)
      (fun k => by simp only [rowAt_val]; rfl)
  · rw [h2 d, trips1]
    exact sum_tiles_eq_keys (fun t q => k1_pay5 (F := Ideal) v3 (tileSeq xn t) (ix2 p q) * tileSeq xb t (ix2 q d))
      (fun k => wRow (fun d' => v3 (ix2 p d')) xn k * xb (ix2 k d))
      (fun n => Ideal.exp ((∑ d' : Fin 256, v3 (ix2 p d') * rowAt xn n d') - one) * rowAt xb n d)
      (fun t ht q => by rw [pay5_tile v3 xn t ht p q, tileSeq_apply xb t ht q d])
      (fun k => by simp only [rowAt_val]; rfl)

theorem coords1_val : ∀ t : Fin grid1.N, ((grid1.coords t) 0).val = t.val := by decide

theorem res1_5_apply (c : grid1.Coords) (xn xb : FVec Ideal S8192x256 .bf16) (xq : FVec Ideal S512x256 .f32)
    (g b : FVec Ideal S1x256 .f32) (p : Fin 512) (j : Fin 256) :
    res1_5 (F := Ideal) c xn xb xq g b (ix2 p j)
      = scaledRow (fun j' => two * xq (ix2 p j')
          - one * Ideal.div (∑ k : Fin 8192, wRow (rowAt xn (512 * (c 0).val + p.val)) xn k * xb (ix2 k j'))
              (∑ k : Fin 8192, wRow (rowAt xn (512 * (c 0).val + p.val)) xn k)) (rowOf g) j + rowOf b j := by
  unfold res1_5
  rw [pay1_apply, pay8_apply]
  obtain ⟨h1, h2⟩ := loopAcc1_apply (qTile1 (F := Ideal) xn c) xn xb p
  have hq : (fun d => qTile1 (F := Ideal) xn c (ix2 p d)) = rowAt xn (512 * (c 0).val + p.val) :=
    funext fun d => qTile1_apply xn c p d
  unfold contrastRow
  simp only [h1, h2, hq]

theorem res1_5_row (c : grid1.Coords) (xn xb : FVec Ideal S8192x256 .bf16) (x : FVec Ideal S8192x256 .f32)
    (t : Fin grid1.N) (g b : FVec Ideal S1x256 .f32) (p : Fin 512) (i : Fin 8192) (j : Fin 256)
    (hc : (c 0).val = t.val) (hi : 512 * t.val + p.val = i.val) :
    res1_5 (F := Ideal) c xn xb (qRows1 (F := Ideal) x t) g b (ix2 p j)
      = scaledRow (contrastK' (matOf xn) (matOf xb) (matOf x) i) (rowOf g) j + rowOf b j := by
  rw [res1_5_apply, show 512 * (c 0).val + p.val = i.val from by rw [hc]; exact hi,
    show rowAt xn i.val = (fun d => xn (ix2 i d)) from funext fun d => rowAt_val xn i d]
  refine congrArg (fun h => scaledRow h (rowOf g) j + rowOf b j) (funext fun j' => ?_)
  have hx : qRows1 (F := Ideal) x t (ix2 p j') = x (ix2 i j') :=
    congrArg (fun k : Fin 8192 => x (ix2 k j'))
      (Fin.ext hi : (⟨512 * t.val + p.val, by have := i.isLt; omega⟩ : Fin 8192) = i)
  rw [hx]
  rfl

end Cert.KernelIdeal.Hand.V1

namespace Cert.KernelIdeal.Hand

open Idealize.ShloMosaic Idealize.ShloMosaic.ValueIdx Cert.KernelIdeal Cert.KernelIdeal.Gen Cert.Spec
open Cert.KernelIdeal.Hand.V1

theorem G1_5_apply (xn xb : FVec Ideal S8192x256 .bf16) (x : FVec Ideal S8192x256 .f32) (g b : FVec Ideal S1x256 .f32)
    (i : Fin 8192) (j : Fin 256) :
    G1_5 (F := Ideal) xn xb x g b (ix2 i j)
      = standardise (contrastK' (matOf xn) (matOf xb) (matOf x)) (rowOf g) (rowOf b) i j := by
  rw [standardise_eq_scaledRow]
  exact res1_5_row (grid1.coords (tile1 (ix2 i j))) xn xb x (tile1 (ix2 i j)) g b
    ⟨i.val % 512, Nat.mod_lt _ (by decide)⟩ i j (coords1_val _)
    (by show 512 * (i.val / 512) + i.val % 512 = i.val; omega)

theorem G1_6_apply (xn xb : FVec Ideal S8192x256 .bf16) (x : FVec Ideal S8192x256 .f32) (g b : FVec Ideal S1x256 .f32)
    (i : Fin 8192) (j : Fin 256) :
    G1_6 (F := Ideal) xn xb x g b (ix2 i j) = G1_5 (F := Ideal) xn xb x g b (ix2 i j) := rfl

end Cert.KernelIdeal.Hand

end
-- ==== Proof.KI.V4.lean ====
import proofs.«405398_j45397804319028_3_alg».proof.Proof.KI.V1
import proofs.«405398_j45397804319028_3_alg».proof.Proof.KI.R4

noncomputable section

namespace Cert.KernelIdeal.Hand

open Idealize.ShloMosaic Idealize.ShloMosaic.ValueIdx Cert.KernelIdeal Cert.KernelIdeal.Gen Cert.Spec

variable {F : FTy → Type} [FloatOps F]

-- Region 4 is region 1 with the query tile cast between equal shapes, and such a cast is the identity.
theorem k4_pay8_eq (v5 : Vec F S512x256 .f32) (l : FVec F S512x1 .f32) (acc : FVec F S512x256 .f32)
    (g : Vec F S1x256 .f32) : k4_pay8 v5 l acc g = k1_pay8 v5 l acc g := by
  show k1_pay8 (shapeCast S512x256 v5 shapeCasts_S512x256_S512x256) l acc g = _
  rw [shapeCast_self]

theorem loopAcc4_eq (v3 : Vec F S512x256 .bf16) (xn xb : Vec F S8192x256 .bf16) :
    ∀ n, loopAcc4 v3 xn xb n = loopAcc1 v3 xn xb n
  | 0 => rfl
  | n + 1 => by rw [loopAcc4.eq_2, loopAcc1.eq_2, loopAcc4_eq v3 xn xb n]; rfl

theorem G4_5_eq (xn xb : FVec F S8192x256 .bf16) (x : FVec F S8192x256 .f32) (g b : FVec F S1x256 .f32) :
    G4_5 xn xb x g b = G1_5 xn xb x g b := by
  funext y
  show k4_pay1 (k4_pay8 _ (loopAcc4 _ xn xb _).1 (loopAcc4 _ xn xb _).2 g) b (row4 y) = G1_5 xn xb x g b y
  rw [loopAcc4_eq, k4_pay8_eq]
  rfl

theorem G4_5_apply (xn xb : FVec Ideal S8192x256 .bf16) (x : FVec Ideal S8192x256 .f32) (g b : FVec Ideal S1x256 .f32)
    (i : Fin 8192) (j : Fin 256) :
    G4_5 (F := Ideal) xn xb x g b (ix2 i j)
      = standardise (contrastK' (matOf xn) (matOf xb) (matOf x)) (rowOf g) (rowOf b) i j := by
  rw [G4_5_eq]
  exact G1_5_apply xn xb x g b i j

theorem G4_6_apply (xn xb : FVec Ideal S8192x256 .bf16) (x : FVec Ideal S8192x256 .f32) (g b : FVec Ideal S1x256 .f32)
    (i : Fin 8192) (j : Fin 256) :
    G4_6 (F := Ideal) xn xb x g b (ix2 i j) = G4_5 (F := Ideal) xn xb x g b (ix2 i j) := rfl

end Cert.KernelIdeal.Hand

end
-- ==== Proof.KI.V7.lean ====
import proofs.«405398_j45397804319028_3_alg».proof.Proof.KI.V1
import proofs.«405398_j45397804319028_3_alg».proof.Proof.KI.R7

noncomputable section

namespace Cert.KernelIdeal.Hand

open Idealize.ShloMosaic Idealize.ShloMosaic.ValueIdx Cert.KernelIdeal Cert.KernelIdeal.Gen Cert.Spec

variable {F : FTy → Type} [FloatOps F]

-- Region 7 is region 1 with the query tile cast between equal shapes, and such a cast is the identity.
theorem k7_pay8_eq (v5 : Vec F S512x256 .f32) (l : FVec F S512x1 .f32) (acc : FVec F S512x256 .f32)
    (g : Vec F S1x256 .f32) : k7_pay8 v5 l acc g = k1_pay8 v5 l acc g := by
  show k1_pay8 (shapeCast S512x256 v5 shapeCasts_S512x256_S512x256) l acc g = _
  rw [shapeCast_self]

theorem loopAcc7_eq (v3 : Vec F S512x256 .bf16) (xn xb : Vec F S8192x256 .bf16) :
    ∀ n, loopAcc7 v3 xn xb n = loopAcc1 v3 xn xb n
  | 0 => rfl
  | n + 1 => by rw [loopAcc7.eq_2, loopAcc1.eq_2, loopAcc7_eq v3 xn xb n]; rfl

theorem G7_5_eq (xn xb : FVec F S8192x256 .bf16) (x : FVec F S8192x256 .f32) (g b : FVec F S1x256 .f32) :
    G7_5 xn xb x g b = G1_5 xn xb x g b := by
  funext y
  show k7_pay1 (k7_pay8 _ (loopAcc7 _ xn xb _).1 (loopAcc7 _ xn xb _).2 g) b (row7 y) = G1_5 xn xb x g b y
  rw [loopAcc7_eq, k7_pay8_eq]
  rfl

theorem G7_5_apply (xn xb : FVec Ideal S8192x256 .bf16) (x : FVec Ideal S8192x256 .f32) (g b : FVec Ideal S1x256 .f32)
    (i : Fin 8192) (j : Fin 256) :
    G7_5 (F := Ideal) xn xb x g b (ix2 i j)
      = standardise (contrastK' (matOf xn) (matOf xb) (matOf x)) (rowOf g) (rowOf b) i j := by
  rw [G7_5_eq]
  exact G1_5_apply xn xb x g b i j

end Cert.KernelIdeal.Hand

end
-- ==== Proof.KI.Value.lean ====
import proofs.«405398_j45397804319028_3_alg».proof.Proof.Gen.KernelIdeal.Launch
import proofs.«405398_j45397804319028_3_alg».proof.Proof.Gen.KernelIdeal.Regions
import proofs.«405398_j45397804319028_3_alg».proof.Proof.SpecK
import proofs.«405398_j45397804319028_3_alg».proof.Proof.KI.Run
import proofs.«405398_j45397804319028_3_alg».proof.Proof.KI.R0
import proofs.«405398_j45397804319028_3_alg».proof.Proof.KI.R1
import proofs.«405398_j45397804319028_3_alg».proof.Proof.KI.R2
import proofs.«405398_j45397804319028_3_alg».proof.Proof.KI.R3
import proofs.«405398_j45397804319028_3_alg».proof.Proof.KI.R4
import proofs.«405398_j45397804319028_3_alg».proof.Proof.KI.R5
import proofs.«405398_j45397804319028_3_alg».proof.Proof.KI.R6
import proofs.«405398_j45397804319028_3_alg».proof.Proof.KI.R7
import proofs.«405398_j45397804319028_3_alg».proof.Proof.KI.V1
import proofs.«405398_j45397804319028_3_alg».proof.Proof.KI.V4
import proofs.«405398_j45397804319028_3_alg».proof.Proof.KI.V7
import Idealize.ShloMosaic.Lib.Pipeline.Value
import Idealize.ShloMosaic.Lib.ValueIdx
import Idealize.ShloMosaic.Lib.StackMember
import Idealize.ShloMosaic.Lib.StableHlo.Run
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open scoped BigOperators

abbrev scD : ScatterDims S8192x8192 S262144x2 S262144 := scatter_S8192x8192_S262144x2_S262144_n_01_01_1

theorem scStart0 (idx : IVec S262144x2 32) (e : Fin 262144) :
    scD.start (ix1 e) idx (0 : Fin 2) = (idx (ix2 e (0 : Fin 2))).toInt := by
  unfold ScatterDims.start
  rw [dif_pos (show (0 : Fin 2) ∈ scD.scatterDimsToOperandDims from List.mem_cons_self ..)]
  have hsi : scD.siIdx (ix1 e) ⟨List.idxOf (0 : Fin 2) scD.scatterDimsToOperandDims,
      List.idxOf_lt_length_iff.2 (List.mem_cons_self ..)⟩ = ix2 e (0 : Fin 2) := by
    funext b; refine Fin.ext ?_
    match b with
    | ⟨0, _⟩ => rfl
    | ⟨1, _⟩ => rfl
  rw [hsi]

theorem scStart1 (idx : IVec S262144x2 32) (e : Fin 262144) :
    scD.start (ix1 e) idx (1 : Fin 2) = (idx (ix2 e (1 : Fin 2))).toInt := by
  unfold ScatterDims.start
  have hm : (1 : Fin 2) ∈ scD.scatterDimsToOperandDims := List.mem_cons_of_mem _ (List.mem_cons_self ..)
  rw [dif_pos hm]
  have hsi : scD.siIdx (ix1 e) ⟨List.idxOf (1 : Fin 2) scD.scatterDimsToOperandDims,
      List.idxOf_lt_length_iff.2 hm⟩ = ix2 e (1 : Fin 2) := by
    funext b; refine Fin.ext ?_
    match b with
    | ⟨0, _⟩ => rfl
    | ⟨1, _⟩ => rfl
  rw [hsi]

theorem scWindow_zero (j : S262144.Idx) (a : Fin 2) : scD.window j a = 0 := by
  unfold ScatterDims.window
  rw [dif_neg]
  intro h
  have : scD.sKept = [] := by decide
  rw [this] at h
  exact absurd h (List.not_mem_nil)

theorem size_adjacency (a : Fin 2) : S8192x8192.size a = 8192 := by
  match a with
  | ⟨0, _⟩ => rfl
  | ⟨1, _⟩ => rfl

theorem resultIdx_iff (idx : IVec S262144x2 32) (e : Fin 262144) (r c : Fin 8192) :
    scD.resultIdx? (ix1 e) idx = some (ix2 r c)
      ↔ (idx (ix2 e (0 : Fin 2))).toInt = (r.val : ℤ) ∧ (idx (ix2 e (1 : Fin 2))).toInt = (c.val : ℤ) := by
  have hs0 : scD.start (ix1 e) idx (0 : Fin 2) + (scD.window (ix1 e) (0 : Fin 2) : ℤ) = (idx (ix2 e (0 : Fin 2))).toInt := by
    rw [scWindow_zero, scStart0]; simp
  have hs1 : scD.start (ix1 e) idx (1 : Fin 2) + (scD.window (ix1 e) (1 : Fin 2) : ℤ) = (idx (ix2 e (1 : Fin 2))).toInt := by
    rw [scWindow_zero, scStart1]; simp
  unfold ScatterDims.resultIdx?
  by_cases h : ∀ a, 0 ≤ scD.start (ix1 e) idx a + (scD.window (ix1 e) a : ℤ)
      ∧ scD.start (ix1 e) idx a + (scD.window (ix1 e) a : ℤ) < S8192x8192.size a
  · rw [dif_pos h]
    have b0 := h (0 : Fin 2)
    have b1 := h (1 : Fin 2)
    rw [hs0, size_adjacency] at b0
    rw [hs1, size_adjacency] at b1
    constructor
    · intro heq
      have heq := Option.some.inj heq
      have h0 := congrArg Fin.val (congrFun heq (0 : Fin 2))
      have h1 := congrArg Fin.val (congrFun heq (1 : Fin 2))
      simp only [hs0] at h0
      simp only [hs1] at h1
      have e0 : (ix2 r c (0 : Fin 2)).val = r.val := rfl
      have e1 : (ix2 r c (1 : Fin 2)).val = c.val := rfl
      rw [e0] at h0
      rw [e1] at h1
      omega
    · intro ⟨h0, h1⟩
      refine congrArg some (funext fun a => Fin.ext ?_)
      match a with
      | ⟨0, _⟩ =>
        show (scD.start (ix1 e) idx (0 : Fin 2) + (scD.window (ix1 e) (0 : Fin 2) : ℤ)).toNat = r.val
        rw [hs0]; omega
      | ⟨1, _⟩ =>
        show (scD.start (ix1 e) idx (1 : Fin 2) + (scD.window (ix1 e) (1 : Fin 2) : ℤ)).toNat = c.val
        rw [hs1]; omega
  · rw [dif_neg h]
    constructor
    · intro h'; cases h'
    · intro ⟨h0, h1⟩
      exfalso
      apply h
      intro a
      match a with
      | ⟨0, _⟩ =>
        show 0 ≤ scD.start (ix1 e) idx (0 : Fin 2) + (scD.window (ix1 e) (0 : Fin 2) : ℤ)
          ∧ scD.start (ix1 e) idx (0 : Fin 2) + (scD.window (ix1 e) (0 : Fin 2) : ℤ) < S8192x8192.size (0 : Fin 2)
        rw [hs0, size_adjacency]; have := r.isLt; omega
      | ⟨1, _⟩ =>
        show 0 ≤ scD.start (ix1 e) idx (1 : Fin 2) + (scD.window (ix1 e) (1 : Fin 2) : ℤ)
          ∧ scD.start (ix1 e) idx (1 : Fin 2) + (scD.window (ix1 e) (1 : Fin 2) : ℤ) < S8192x8192.size (1 : Fin 2)
        rw [hs1, size_adjacency]; have := c.isLt; omega

def wrapW (w : BitVec 32) : BitVec 32 := Scalar.select (IntOp.cmpi .slt w 0#32) (IntOp.addi w 8192#32) w

theorem wrapW_toInt (w : BitVec 32) : (wrapW w).toInt = if w.toInt < 0 then (w + 8192#32).toInt else w.toInt := by
  unfold wrapW Scalar.select IntOp.cmpi IntOp.addi
  by_cases h : w.toInt < 0
  · have hs : w.slt 0#32 = true := by simp [BitVec.slt, h]
    simp [hs, h]
  · have hs : w.slt 0#32 = false := by simp [BitVec.slt, h]
    simp [hs, h]

theorem node_aux (v : ℤ) (r : Fin 8192) :
    (if h : 0 ≤ v ∧ v < 8192 then some (⟨v.toNat, by omega⟩ : Fin 8192) else none) = some r ↔ v = (r.val : ℤ) := by
  constructor
  · intro h
    split at h
    · have h2 := congrArg Fin.val (Option.some.inj h)
      simp only at h2
      omega
    · cases h
  · intro h
    have hr := r.isLt
    rw [dif_pos ⟨by omega, by omega⟩]
    refine congrArg some (Fin.ext ?_)
    simp only
    omega

theorem nodeOf_eq_some_iff_wrap (w : BitVec 32) (r : Fin 8192) : nodeOf w = some r ↔ (wrapW w).toInt = (r.val : ℤ) := by
  rw [wrapW_toInt]
  exact node_aux _ r

def wrapCol (w : IVec S262144 32) : IVec S262144x1 32 :=
  broadcastInDim S262144x1 ![0] bcast_S262144_S262144x1_0
    (select (cmpi .slt w (broadcastInDim S262144 ![] bcast_S_S262144 (constantI S_ 32 0#32)))
      (addi w (broadcastInDim S262144 ![] bcast_S_S262144 (constantI S_ 32 8192#32))) w)

def idxPairs (row col : IVec S262144 32) : IVec S262144x2 32 :=
  concatenate S262144x2 1 [⟨S262144x1, wrapCol row⟩, ⟨S262144x1, wrapCol col⟩] concatenates_S262144x1_S262144x1_S262144x2_d1

def adjOf (row col : IVec S262144 32) (vals : FVec Ideal S262144 .f32) : FVec Ideal S8192x8192 .bf16 :=
  truncf .bf16 (Host.scatterAdd scatter_S8192x8192_S262144x2_S262144_n_01_01_1
    (broadcastInDim S8192x8192 ![] bcast_S_S8192x8192 (constant S_ .f32 0#32)) (idxPairs row col) vals) bitsLt_bf16_f32

theorem wrapCol_apply (w : IVec S262144 32) (e : Fin 262144) : wrapCol w (ix2 e (0 : Fin 1)) = wrapW (w (ix1 e)) := by
  unfold wrapCol
  refine (broadcastInDim_apply _ _ _ (ix2 e (0 : Fin 1)) (ix1 e) ?_).trans rfl
  intro a
  match a with
  | ⟨0, _⟩ =>
    show e.val = if (262144 : ℕ) = 1 then 0 else e.val
    rw [if_neg (by decide)]

theorem idxPairs_0 (row col : IVec S262144 32) (e : Fin 262144) :
    idxPairs row col (ix2 e (0 : Fin 2)) = wrapW (row (ix1 e)) := by
  unfold idxPairs
  have hc : Shape.Concatenates (([⟨S262144x1, wrapCol row⟩, ⟨S262144x1, wrapCol col⟩] : List ((s : Shape) × (s.Idx → BitVec 32))).map (·.1))
      S262144x2 (1 : Fin 2) := concatenates_S262144x1_S262144x1_S262144x2_d1
  refine (concatenate_apply_piece (1 : Fin 2) [⟨S262144x1, wrapCol row⟩, ⟨S262144x1, wrapCol col⟩] hc (ix2 e (0 : Fin 2)) 0 (by simp)
    S262144x1 (wrapCol row) rfl rfl 0 rfl (ix2 e (0 : Fin 1)) ?_ ?_).trans (wrapCol_apply row e)
  · intro b hb
    match b with
    | ⟨0, _⟩ => rfl
    | ⟨1, _⟩ => exact absurd rfl hb
  · rfl

theorem idxPairs_1 (row col : IVec S262144 32) (e : Fin 262144) :
    idxPairs row col (ix2 e (1 : Fin 2)) = wrapW (col (ix1 e)) := by
  unfold idxPairs
  have hc : Shape.Concatenates (([⟨S262144x1, wrapCol row⟩, ⟨S262144x1, wrapCol col⟩] : List ((s : Shape) × (s.Idx → BitVec 32))).map (·.1))
      S262144x2 (1 : Fin 2) := concatenates_S262144x1_S262144x1_S262144x2_d1
  refine (concatenate_apply_piece (1 : Fin 2) [⟨S262144x1, wrapCol row⟩, ⟨S262144x1, wrapCol col⟩] hc (ix2 e (1 : Fin 2)) 1 (by simp)
    S262144x1 (wrapCol col) rfl rfl 1 rfl (ix2 e (0 : Fin 1)) ?_ ?_).trans (wrapCol_apply col e)
  · intro b hb
    match b with
    | ⟨0, _⟩ => rfl
    | ⟨1, _⟩ => exact absurd rfl hb
  · rfl

def edgeEquiv : S262144.Idx ≃ Fin 262144 where
  toFun i := i 0
  invFun e := ix1 e
  left_inv i := (eq_ix1 i).symm
  right_inv _ := rfl

theorem adjOf_apply (row col : IVec S262144 32) (vals : FVec Ideal S262144 .f32) (r c : Fin 8192) :
    adjOf row col vals (ix2 r c) = adjacency (wordsOf row) (wordsOf col) (vecOf vals) r c := by
  unfold adjOf adjacency Host.scatterAdd
  rw [truncf_apply, Ideal.hostScatterAdd_def]
  unfold Ideal.hostScatterAdd
  have hz : broadcastInDim S8192x8192 ![] bcast_S_S8192x8192 (constant (F := Ideal) S_ .f32 0#32) (ix2 r c) = 0 :=
    Ideal.ofBits_zero_f32
  rw [hz, zero_add]
  refine Finset.sum_equiv edgeEquiv ?_ ?_
  · intro i
    obtain ⟨e, rfl⟩ : ∃ e : Fin 262144, i = ix1 e := ⟨i 0, eq_ix1 i⟩
    simp only [Finset.mem_filter, Finset.mem_univ, true_and]
    rw [nodeOf_eq_some_iff_wrap, nodeOf_eq_some_iff_wrap]
    show scD.resultIdx? (ix1 e) (idxPairs row col) = some (ix2 r c)
      ↔ (wrapW (row (ix1 e))).toInt = (r.val : ℤ) ∧ (wrapW (col (ix1 e))).toInt = (c.val : ℤ)
    rw [← idxPairs_0 row col e, ← idxPairs_1 row col e]
    exact resultIdx_iff (idxPairs row col) e r c
  · intro i _
    obtain ⟨e, rfl⟩ : ∃ e : Fin 262144, i = ix1 e := ⟨i 0, eq_ix1 i⟩
    rfl

def readOf (h : FVec Ideal S8192x256 .f32) (W : FVec Ideal S40x256 .f32) (b : FVec Ideal S40 .f32) : FVec Ideal S8192x40 .f32 :=
  addf (Host.dotGeneral dot_S8192x256_S256x40_S8192x40_1_0_0_1_n_n none h (transpose S256x40 [1, 0] W transposes_S40x256_S256x40_1_0))
    (broadcastInDim S8192x40 ![0, 1] bcast_S1x40_S8192x40_0_1 (broadcastInDim S1x40 ![1] bcast_S40_S1x40_1 b))

theorem transposeW_apply (W : FVec Ideal S40x256 .f32) (k : Fin 256) (o : Fin 40) :
    transpose S256x40 [1, 0] W transposes_S40x256_S256x40_1_0 (ix2 k o) = W (ix2 o k) := by
  refine transpose_apply _ W _ (ix2 k o) (ix2 o k) ?_
  intro b
  match b with
  | ⟨0, _⟩ => rfl
  | ⟨1, _⟩ => rfl

theorem biasRows_apply (b : FVec Ideal S40 .f32) (i : Fin 8192) (o : Fin 40) :
    broadcastInDim S8192x40 ![0, 1] bcast_S1x40_S8192x40_0_1 (broadcastInDim S1x40 ![1] bcast_S40_S1x40_1 b) (ix2 i o) = b (ix1 o) := by
  refine (broadcastInDim_apply _ _ _ (ix2 i o) (ix2 (0 : Fin 1) o) ?_).trans ?_
  · intro a
    match a with
    | ⟨0, _⟩ => rfl
    | ⟨1, _⟩ =>
      show o.val = if (40 : ℕ) = 1 then 0 else o.val
      rw [if_neg (by decide)]
  · refine broadcastInDim_apply _ _ _ (ix2 (0 : Fin 1) o) (ix1 o) ?_
    intro a
    match a with
    | ⟨0, _⟩ =>
      show o.val = if (40 : ℕ) = 1 then 0 else o.val
      rw [if_neg (by decide)]

theorem readOf_apply (h : FVec Ideal S8192x256 .f32) (W : FVec Ideal S40x256 .f32) (b : FVec Ideal S40 .f32) (i : Fin 8192) (o : Fin 40) :
    readOf h W b (ix2 i o) = readout (matOf h) (matOf W) (vecOf b) i o := by
  unfold readOf readout
  rw [addf_apply, biasRows_apply]
  have hd : Host.dotGeneral dot_S8192x256_S256x40_S8192x40_1_0_0_1_n_n none h (transpose S256x40 [1, 0] W transposes_S40x256_S256x40_1_0) (ix2 i o)
      = ∑ k : Fin 256, h (ix2 i k) * transpose S256x40 [1, 0] W transposes_S40x256_S256x40_1_0 (ix2 k o) :=
    StackMember.dotGeneral_plain_apply (m := 8192) (n := 40) (k := 256) none h _ i o
  rw [hd]
  refine congrArg (· + _) (Finset.sum_congr rfl fun k _ => ?_)
  rw [transposeW_apply]
  rfl

theorem rowOf_shapeCast (x : FVec Ideal S256 .f32) : rowOf (shapeCast S1x256 x shapeCasts_S256_S1x256) = vecOf x := by
  funext j
  unfold rowOf vecOf
  refine shapeCast_apply x _ (ix2 (0 : Fin 1) j) (ix1 j) ?_
  rw [Shape.rowMajor_val_one, Shape.rowMajor_val_two]
  show j.val = 0 * 256 + j.val
  omega

section Host

variable (W : Valuation τ sig (Elt Ideal))

set_option maxHeartbeats 4000000 in

theorem after0_v15 : (StableHlo.after hostOps0 W (Proc.devRef .tc main_v15) : FVec Ideal S8192x8192 .bf16)
    = adjOf (W (Proc.devRef .tc main_arg1)) (W (Proc.devRef .tc main_arg2)) (W (Proc.devRef .tc main_arg3)) := by
  after_results
  rfl

theorem after1_v17 : (StableHlo.after hostOps1 W (Proc.devRef .tc main_v17) : FVec Ideal S1x256 .f32)
    = shapeCast S1x256 (W (Proc.devRef .tc main_arg4) : FVec Ideal S256 .f32) shapeCasts_S256_S1x256 := by
  after_results
  rfl
theorem after1_v18 : (StableHlo.after hostOps1 W (Proc.devRef .tc main_v18) : FVec Ideal S1x256 .f32)
    = shapeCast S1x256 (W (Proc.devRef .tc main_arg5) : FVec Ideal S256 .f32) shapeCasts_S256_S1x256 := by
  after_results
  rfl
theorem after4_v22 : (StableHlo.after hostOps4 W (Proc.devRef .tc main_v22) : FVec Ideal S1x256 .f32)
    = shapeCast S1x256 (W (Proc.devRef .tc main_arg6) : FVec Ideal S256 .f32) shapeCasts_S256_S1x256 := by
  after_results
  rfl
theorem after4_v23 : (StableHlo.after hostOps4 W (Proc.devRef .tc main_v23) : FVec Ideal S1x256 .f32)
    = shapeCast S1x256 (W (Proc.devRef .tc main_arg7) : FVec Ideal S256 .f32) shapeCasts_S256_S1x256 := by
  after_results
  rfl
theorem after7_v27 : (StableHlo.after hostOps7 W (Proc.devRef .tc main_v27) : FVec Ideal S1x256 .f32)
    = shapeCast S1x256 (W (Proc.devRef .tc main_arg6) : FVec Ideal S256 .f32) shapeCasts_S256_S1x256 := by
  after_results
  rfl
theorem after7_v28 : (StableHlo.after hostOps7 W (Proc.devRef .tc main_v28) : FVec Ideal S1x256 .f32)
    = shapeCast S1x256 (W (Proc.devRef .tc main_arg7) : FVec Ideal S256 .f32) shapeCasts_S256_S1x256 := by
  after_results
  rfl

theorem after8_v34 : (StableHlo.after hostOps8 W (Proc.devRef .tc main_v34) : FVec Ideal S8192x40 .f32)
    = readOf (W (Proc.devRef .tc main_v29_0)) (W (Proc.devRef .tc main_arg8)) (W (Proc.devRef .tc main_arg9)) := by
  after_results
  rfl

end Host

theorem contrast_stage (xn xb : FVec Ideal S8192x256 .bf16) (x out : FVec Ideal S8192x256 .f32) (g b : FVec Ideal S1x256 .f32)
    (hxn : ∀ (i : Fin 8192) (j : Fin 256), xn (ix2 i j)
      = x (ix2 i j) * Ideal.rsqrt ((∑ j' : Fin 256, x (ix2 i j') * x (ix2 i j')) + Ideal.ofBits .f32 0x2B8CBCCC#32))
    (hxb : ∀ (i : Fin 8192) (j : Fin 256), xb (ix2 i j) = x (ix2 i j))
    (hout : ∀ (i : Fin 8192) (j : Fin 256), out (ix2 i j)
      = standardise (contrastK' (matOf xn) (matOf xb) (matOf x)) (rowOf g) (rowOf b) i j) :
    matOf out = standardise (contrastK (matOf x)) (rowOf g) (rowOf b) := by
  have e1 : (matOf xn : Mat 8192 256) = unitRows (matOf x) := by
    funext i j
    exact hxn i j
  have e2 : (matOf xb : Mat 8192 256) = matOf x := by
    funext i j
    exact hxb i j
  funext i j
  rw [matOf_apply, hout, e1, e2, contrastK'_unitRows]

theorem propagate_stage (adj : FVec Ideal S8192x8192 .bf16) (h : FVec Ideal S8192x256 .bf16) (out : FVec Ideal S8192x256 .f32)
    (row col : Idxs) (vals : Vct 262144)
    (hadj : ∀ r c : Fin 8192, adj (ix2 r c) = adjacency row col vals r c)
    (hout : ∀ (i : Fin 8192) (j : Fin 256), out (ix2 i j) = ∑ c : Fin 8192, adj (ix2 i c) * h (ix2 c j)) :
    matOf out = propagateK row col vals (matOf h) := by
  funext i j
  rw [matOf_apply, hout]
  unfold propagateK
  refine Finset.sum_congr rfl fun c _ => ?_
  rw [hadj]
  rfl

section Chain

variable (m : (ℓ : Loc nD τ sig) → Buf (Elt Ideal) ℓ) (c : Dev nD)

theorem W1_keep (r : Ref sig .tc) (h : r ∉ hostOps0_W) : W1 m c r = W0 m c r := by
  unfold W1
  exact StableHlo.after_of_writes_sub hostOps0 _ hostOps0_writes h
theorem W3_keep (r : Ref sig .tc) (h : r ∉ hostOps1_W) : W3 m c r = W2 m c r := by
  unfold W3
  exact StableHlo.after_of_writes_sub hostOps1 _ hostOps1_writes h
theorem W7_keep (r : Ref sig .tc) (h : r ∉ hostOps4_W) : W7 m c r = W6 m c r := by
  unfold W7
  exact StableHlo.after_of_writes_sub hostOps4 _ hostOps4_writes h
theorem W11_keep (r : Ref sig .tc) (h : r ∉ hostOps7_W) : W11 m c r = W10 m c r := by
  unfold W11
  exact StableHlo.after_of_writes_sub hostOps7 _ hostOps7_writes h

theorem W2_arg (r : Ref sig .tc) (h0 : r ∉ hostOps0_W) (h1 : r ∉ ([main_v16_0, main_v16_1] : List (Ref sig .tc))) :
    W2 m c r = W0 m c r := (W2_of m c r h1).trans (W1_keep m c r h0)
theorem W3_arg (r : Ref sig .tc) (h0 : r ∉ hostOps0_W) (h1 : r ∉ ([main_v16_0, main_v16_1] : List (Ref sig .tc)))
    (h2 : r ∉ hostOps1_W) : W3 m c r = W0 m c r := (W3_keep m c r h2).trans (W2_arg m c r h0 h1)
theorem W6_arg (r : Ref sig .tc) (h0 : r ∉ hostOps0_W) (h1 : r ∉ ([main_v16_0, main_v16_1] : List (Ref sig .tc)))
    (h2 : r ∉ hostOps1_W) (h3 : r ∉ ([main_v19_0, main_v19_1] : List (Ref sig .tc))) (h4 : r ∉ ([main_v20] : List (Ref sig .tc)))
    (h5 : r ∉ ([main_v21_0, main_v21_1] : List (Ref sig .tc))) : W6 m c r = W0 m c r :=
  (W6_of m c r h5).trans ((W5_of m c r h4).trans ((W4_of m c r h3).trans (W3_arg m c r h0 h1 h2)))
theorem W10_arg (r : Ref sig .tc) (h0 : r ∉ hostOps0_W) (h1 : r ∉ ([main_v16_0, main_v16_1] : List (Ref sig .tc)))
    (h2 : r ∉ hostOps1_W) (h3 : r ∉ ([main_v19_0, main_v19_1] : List (Ref sig .tc))) (h4 : r ∉ ([main_v20] : List (Ref sig .tc)))
    (h5 : r ∉ ([main_v21_0, main_v21_1] : List (Ref sig .tc))) (h6 : r ∉ hostOps4_W)
    (h7 : r ∉ ([main_v24_0, main_v24_1] : List (Ref sig .tc))) (h8 : r ∉ ([main_v25] : List (Ref sig .tc)))
    (h9 : r ∉ ([main_v26_0, main_v26_1] : List (Ref sig .tc))) : W10 m c r = W0 m c r :=
  (W10_of m c r h9).trans ((W9_of m c r h8).trans ((W8_of m c r h7).trans ((W7_keep m c r h6).trans (W6_arg m c r h0 h1 h2 h3 h4 h5))))
theorem W12_arg (r : Ref sig .tc) (h0 : r ∉ hostOps0_W) (h1 : r ∉ ([main_v16_0, main_v16_1] : List (Ref sig .tc)))
    (h2 : r ∉ hostOps1_W) (h3 : r ∉ ([main_v19_0, main_v19_1] : List (Ref sig .tc))) (h4 : r ∉ ([main_v20] : List (Ref sig .tc)))
    (h5 : r ∉ ([main_v21_0, main_v21_1] : List (Ref sig .tc))) (h6 : r ∉ hostOps4_W)
    (h7 : r ∉ ([main_v24_0, main_v24_1] : List (Ref sig .tc))) (h8 : r ∉ ([main_v25] : List (Ref sig .tc)))
    (h9 : r ∉ ([main_v26_0, main_v26_1] : List (Ref sig .tc))) (h10 : r ∉ hostOps7_W)
    (h11 : r ∉ ([main_v29_0, main_v29_1] : List (Ref sig .tc))) : W12 m c r = W0 m c r :=
  (W12_of m c r h11).trans ((W11_keep m c r h10).trans (W10_arg m c r h0 h1 h2 h3 h4 h5 h6 h7 h8 h9))

abbrev argA0 : FVec Ideal S8192x256 .f32 := m ((c.tc : Thread nD τ).loc main_arg0)

abbrev argA1 : IVec S262144 32 := m ((c.tc : Thread nD τ).loc main_arg1)
abbrev argA2 : IVec S262144 32 := m ((c.tc : Thread nD τ).loc main_arg2)
abbrev argA3 : FVec Ideal S262144 .f32 := m ((c.tc : Thread nD τ).loc main_arg3)

abbrev argA4 : FVec Ideal S256 .f32 := m ((c.tc : Thread nD τ).loc main_arg4)
abbrev argA5 : FVec Ideal S256 .f32 := m ((c.tc : Thread nD τ).loc main_arg5)
abbrev argA6 : FVec Ideal S256 .f32 := m ((c.tc : Thread nD τ).loc main_arg6)
abbrev argA7 : FVec Ideal S256 .f32 := m ((c.tc : Thread nD τ).loc main_arg7)

abbrev argA8 : FVec Ideal S40x256 .f32 := m ((c.tc : Thread nD τ).loc main_arg8)
abbrev argA9 : FVec Ideal S40 .f32 := m ((c.tc : Thread nD τ).loc main_arg9)

def adjA : FVec Ideal S8192x8192 .bf16 := adjOf (argA1 m c) (argA2 m c) (argA3 m c)

def gainRow0 : FVec Ideal S1x256 .f32 := shapeCast S1x256 (argA4 m c) shapeCasts_S256_S1x256
def biasRow0 : FVec Ideal S1x256 .f32 := shapeCast S1x256 (argA5 m c) shapeCasts_S256_S1x256
def gainRow : FVec Ideal S1x256 .f32 := shapeCast S1x256 (argA6 m c) shapeCasts_S256_S1x256
def biasRow : FVec Ideal S1x256 .f32 := shapeCast S1x256 (argA7 m c) shapeCasts_S256_S1x256

def h0F : FVec Ideal S8192x256 .f32 := G1_5 (G0_1 (argA0 m c)) (G0_2 (argA0 m c)) (argA0 m c) (gainRow0 m c) (biasRow0 m c)
def h0B : FVec Ideal S8192x256 .bf16 := G1_6 (G0_1 (argA0 m c)) (G0_2 (argA0 m c)) (argA0 m c) (gainRow0 m c) (biasRow0 m c)

def prop1 : FVec Ideal S8192x256 .f32 := G2_2 (adjA m c) (h0B m c)

def h1F : FVec Ideal S8192x256 .f32 := G4_5 (G3_1 (prop1 m c)) (G3_2 (prop1 m c)) (prop1 m c) (gainRow m c) (biasRow m c)
def h1B : FVec Ideal S8192x256 .bf16 := G4_6 (G3_1 (prop1 m c)) (G3_2 (prop1 m c)) (prop1 m c) (gainRow m c) (biasRow m c)

def prop2 : FVec Ideal S8192x256 .f32 := G5_2 (adjA m c) (h1B m c)

def h2F : FVec Ideal S8192x256 .f32 := G7_5 (G6_1 (prop2 m c)) (G6_2 (prop2 m c)) (prop2 m c) (gainRow m c) (biasRow m c)

theorem W1_v15 : (W1 m c main_v15 : FVec Ideal S8192x8192 .bf16) = adjA m c := by
  unfold W1
  exact after0_v15 (W0 m c)
theorem W1_arg0 : (W1 m c main_arg0 : FVec Ideal S8192x256 .f32) = argA0 m c := W1_keep m c main_arg0 (by decide)

theorem W2_v16_0 : (W2 m c main_v16_0 : FVec Ideal S8192x256 .bf16) = G0_1 (argA0 m c) :=
  (W2_main_v16_0 m c).trans ((arrAt0_1 (V1' m) c).trans (congrArg G0_1 (W1_arg0 m c)))
theorem W2_v16_1 : (W2 m c main_v16_1 : FVec Ideal S8192x256 .bf16) = G0_2 (argA0 m c) :=
  (W2_main_v16_1 m c).trans ((arrAt0_2 (V1' m) c).trans (congrArg G0_2 (W1_arg0 m c)))

theorem W3_v16_0 : (W3 m c main_v16_0 : FVec Ideal S8192x256 .bf16) = G0_1 (argA0 m c) :=
  (W3_keep m c main_v16_0 (by decide)).trans (W2_v16_0 m c)
theorem W3_v16_1 : (W3 m c main_v16_1 : FVec Ideal S8192x256 .bf16) = G0_2 (argA0 m c) :=
  (W3_keep m c main_v16_1 (by decide)).trans (W2_v16_1 m c)
theorem W3_arg0 : (W3 m c main_arg0 : FVec Ideal S8192x256 .f32) = argA0 m c :=
  W3_arg m c main_arg0 (by decide) (by decide) (by decide)
theorem W3_v17 : (W3 m c main_v17 : FVec Ideal S1x256 .f32) = gainRow0 m c := by
  unfold W3
  exact (after1_v17 (W2 m c)).trans
    (congrArg (fun x : FVec Ideal S256 .f32 => shapeCast S1x256 x shapeCasts_S256_S1x256) (W2_arg m c main_arg4 (by decide) (by decide)))
theorem W3_v18 : (W3 m c main_v18 : FVec Ideal S1x256 .f32) = biasRow0 m c := by
  unfold W3
  exact (after1_v18 (W2 m c)).trans
    (congrArg (fun x : FVec Ideal S256 .f32 => shapeCast S1x256 x shapeCasts_S256_S1x256) (W2_arg m c main_arg5 (by decide) (by decide)))
theorem W3_v15 : (W3 m c main_v15 : FVec Ideal S8192x8192 .bf16) = adjA m c :=
  (W3_keep m c main_v15 (by decide)).trans ((W2_of m c main_v15 (by decide)).trans (W1_v15 m c))

theorem W4_v19_0 : (W4 m c main_v19_0 : FVec Ideal S8192x256 .f32) = h0F m c := by
  refine (W4_main_v19_0 m c).trans ((arrAt1_5 (V3' m) c).trans ?_)
  dsimp only [V3']
  rw [W3_v16_0 m c, W3_v16_1 m c, W3_arg0 m c, W3_v17 m c, W3_v18 m c]
  rfl
theorem W4_v19_1 : (W4 m c main_v19_1 : FVec Ideal S8192x256 .bf16) = h0B m c := by
  refine (W4_main_v19_1 m c).trans ((arrAt1_6 (V3' m) c).trans ?_)
  dsimp only [V3']
  rw [W3_v16_0 m c, W3_v16_1 m c, W3_arg0 m c, W3_v17 m c, W3_v18 m c]
  rfl
theorem W4_v15 : (W4 m c main_v15 : FVec Ideal S8192x8192 .bf16) = adjA m c :=
  (W4_of m c main_v15 (by decide)).trans (W3_v15 m c)

theorem W5_v20 : (W5 m c main_v20 : FVec Ideal S8192x256 .f32) = prop1 m c := by
  refine (W5_main_v20 m c).trans ((arrAt2_2 (V4' m) c).trans ?_)
  dsimp only [V4']
  rw [W4_v15 m c, W4_v19_1 m c]
  rfl
theorem W5_v15 : (W5 m c main_v15 : FVec Ideal S8192x8192 .bf16) = adjA m c :=
  (W5_of m c main_v15 (by decide)).trans (W4_v15 m c)

theorem W6_v21_0 : (W6 m c main_v21_0 : FVec Ideal S8192x256 .bf16) = G3_1 (prop1 m c) :=
  (W6_main_v21_0 m c).trans ((arrAt3_1 (V5' m) c).trans (congrArg G3_1 (W5_v20 m c)))
theorem W6_v21_1 : (W6 m c main_v21_1 : FVec Ideal S8192x256 .bf16) = G3_2 (prop1 m c) :=
  (W6_main_v21_1 m c).trans ((arrAt3_2 (V5' m) c).trans (congrArg G3_2 (W5_v20 m c)))
theorem W6_v20 : (W6 m c main_v20 : FVec Ideal S8192x256 .f32) = prop1 m c :=
  (W6_of m c main_v20 (by decide)).trans (W5_v20 m c)
theorem W6_v15 : (W6 m c main_v15 : FVec Ideal S8192x8192 .bf16) = adjA m c :=
  (W6_of m c main_v15 (by decide)).trans (W5_v15 m c)

theorem W7_v21_0 : (W7 m c main_v21_0 : FVec Ideal S8192x256 .bf16) = G3_1 (prop1 m c) :=
  (W7_keep m c main_v21_0 (by decide)).trans (W6_v21_0 m c)
theorem W7_v21_1 : (W7 m c main_v21_1 : FVec Ideal S8192x256 .bf16) = G3_2 (prop1 m c) :=
  (W7_keep m c main_v21_1 (by decide)).trans (W6_v21_1 m c)
theorem W7_v20 : (W7 m c main_v20 : FVec Ideal S8192x256 .f32) = prop1 m c :=
  (W7_keep m c main_v20 (by decide)).trans (W6_v20 m c)
theorem W7_v15 : (W7 m c main_v15 : FVec Ideal S8192x8192 .bf16) = adjA m c :=
  (W7_keep m c main_v15 (by decide)).trans (W6_v15 m c)
theorem W7_v22 : (W7 m c main_v22 : FVec Ideal S1x256 .f32) = gainRow m c := by
  unfold W7
  exact (after4_v22 (W6 m c)).trans
    (congrArg (fun x : FVec Ideal S256 .f32 => shapeCast S1x256 x shapeCasts_S256_S1x256)
      (W6_arg m c main_arg6 (by decide) (by decide) (by decide) (by decide) (by decide) (by decide)))
theorem W7_v23 : (W7 m c main_v23 : FVec Ideal S1x256 .f32) = biasRow m c := by
  unfold W7
  exact (after4_v23 (W6 m c)).trans
    (congrArg (fun x : FVec Ideal S256 .f32 => shapeCast S1x256 x shapeCasts_S256_S1x256)
      (W6_arg m c main_arg7 (by decide) (by decide) (by decide) (by decide) (by decide) (by decide)))

theorem W8_v24_0 : (W8 m c main_v24_0 : FVec Ideal S8192x256 .f32) = h1F m c := by
  refine (W8_main_v24_0 m c).trans ((arrAt4_5 (V7' m) c).trans ?_)
  dsimp only [V7']
  rw [W7_v21_0 m c, W7_v21_1 m c, W7_v20 m c, W7_v22 m c, W7_v23 m c]
  rfl
theorem W8_v24_1 : (W8 m c main_v24_1 : FVec Ideal S8192x256 .bf16) = h1B m c := by
  refine (W8_main_v24_1 m c).trans ((arrAt4_6 (V7' m) c).trans ?_)
  dsimp only [V7']
  rw [W7_v21_0 m c, W7_v21_1 m c, W7_v20 m c, W7_v22 m c, W7_v23 m c]
  rfl
theorem W8_v15 : (W8 m c main_v15 : FVec Ideal S8192x8192 .bf16) = adjA m c :=
  (W8_of m c main_v15 (by decide)).trans (W7_v15 m c)

theorem W9_v25 : (W9 m c main_v25 : FVec Ideal S8192x256 .f32) = prop2 m c := by
  refine (W9_main_v25 m c).trans ((arrAt5_2 (V8' m) c).trans ?_)
  dsimp only [V8']
  rw [W8_v15 m c, W8_v24_1 m c]
  rfl

theorem W10_v26_0 : (W10 m c main_v26_0 : FVec Ideal S8192x256 .bf16) = G6_1 (prop2 m c) :=
  (W10_main_v26_0 m c).trans ((arrAt6_1 (V9' m) c).trans (congrArg G6_1 (W9_v25 m c)))
theorem W10_v26_1 : (W10 m c main_v26_1 : FVec Ideal S8192x256 .bf16) = G6_2 (prop2 m c) :=
  (W10_main_v26_1 m c).trans ((arrAt6_2 (V9' m) c).trans (congrArg G6_2 (W9_v25 m c)))
theorem W10_v25 : (W10 m c main_v25 : FVec Ideal S8192x256 .f32) = prop2 m c :=
  (W10_of m c main_v25 (by decide)).trans (W9_v25 m c)

theorem W11_v26_0 : (W11 m c main_v26_0 : FVec Ideal S8192x256 .bf16) = G6_1 (prop2 m c) :=
  (W11_keep m c main_v26_0 (by decide)).trans (W10_v26_0 m c)
theorem W11_v26_1 : (W11 m c main_v26_1 : FVec Ideal S8192x256 .bf16) = G6_2 (prop2 m c) :=
  (W11_keep m c main_v26_1 (by decide)).trans (W10_v26_1 m c)
theorem W11_v25 : (W11 m c main_v25 : FVec Ideal S8192x256 .f32) = prop2 m c :=
  (W11_keep m c main_v25 (by decide)).trans (W10_v25 m c)
theorem W11_v27 : (W11 m c main_v27 : FVec Ideal S1x256 .f32) = gainRow m c := by
  unfold W11
  exact (after7_v27 (W10 m c)).trans
    (congrArg (fun x : FVec Ideal S256 .f32 => shapeCast S1x256 x shapeCasts_S256_S1x256)
      (W10_arg m c main_arg6 (by decide) (by decide) (by decide) (by decide) (by decide) (by decide) (by decide) (by decide) (by decide) (by decide)))
theorem W11_v28 : (W11 m c main_v28 : FVec Ideal S1x256 .f32) = biasRow m c := by
  unfold W11
  exact (after7_v28 (W10 m c)).trans
    (congrArg (fun x : FVec Ideal S256 .f32 => shapeCast S1x256 x shapeCasts_S256_S1x256)
      (W10_arg m c main_arg7 (by decide) (by decide) (by decide) (by decide) (by decide) (by decide) (by decide) (by decide) (by decide) (by decide)))

theorem W12_v29_0 : (W12 m c main_v29_0 : FVec Ideal S8192x256 .f32) = h2F m c := by
  refine (W12_main_v29_0 m c).trans ((arrAt7_5 (V11' m) c).trans ?_)
  dsimp only [V11']
  rw [W11_v26_0 m c, W11_v26_1 m c, W11_v25 m c, W11_v27 m c, W11_v28 m c]
  rfl
theorem W12_arg8 : (W12 m c main_arg8 : FVec Ideal S40x256 .f32) = argA8 m c :=
  W12_arg m c main_arg8 (by decide) (by decide) (by decide) (by decide) (by decide) (by decide) (by decide) (by decide) (by decide) (by decide) (by decide) (by decide)
theorem W12_arg9 : (W12 m c main_arg9 : FVec Ideal S40 .f32) = argA9 m c :=
  W12_arg m c main_arg9 (by decide) (by decide) (by decide) (by decide) (by decide) (by decide) (by decide) (by decide) (by decide) (by decide) (by decide) (by decide)

theorem W13_v34 : (W13 m c main_v34 : FVec Ideal S8192x40 .f32) = readOf (h2F m c) (argA8 m c) (argA9 m c) := by
  unfold W13
  refine (after8_v34 (W12 m c)).trans ?_
  show readOf (W12 m c main_v29_0) (W12 m c main_arg8) (W12 m c main_arg9) = _
  rw [W12_v29_0 m c, W12_arg8 m c, W12_arg9 m c]

theorem h0F_mat : matOf (h0F m c) = standardise (contrastK (matOf (argA0 m c))) (vecOf (argA4 m c)) (vecOf (argA5 m c)) := by
  unfold h0F
  refine (contrast_stage _ _ (argA0 m c) _ (gainRow0 m c) (biasRow0 m c) (G0_1_apply _) (G0_2_apply _) (G1_5_apply _ _ _ _ _)).trans ?_
  unfold gainRow0 biasRow0
  rw [rowOf_shapeCast, rowOf_shapeCast]
theorem h0B_mat : (matOf (h0B m c) : Mat 8192 256) = matOf (h0F m c) := by
  unfold h0B h0F
  funext i j
  exact G1_6_apply _ _ _ _ _ i j
theorem prop1_mat : matOf (prop1 m c)
    = propagateK (wordsOf (argA1 m c)) (wordsOf (argA2 m c)) (vecOf (argA3 m c)) (matOf (h0F m c)) := by
  unfold prop1
  refine (propagate_stage (adjA m c) (h0B m c) _ _ _ _ (adjOf_apply _ _ _) (G2_2_apply _ _)).trans ?_
  rw [h0B_mat]
theorem h1F_mat : matOf (h1F m c) = standardise (contrastK (matOf (prop1 m c))) (vecOf (argA6 m c)) (vecOf (argA7 m c)) := by
  unfold h1F
  refine (contrast_stage _ _ (prop1 m c) _ (gainRow m c) (biasRow m c) (G3_1_apply _) (G3_2_apply _) (G4_5_apply _ _ _ _ _)).trans ?_
  unfold gainRow biasRow
  rw [rowOf_shapeCast, rowOf_shapeCast]
theorem h1B_mat : (matOf (h1B m c) : Mat 8192 256) = matOf (h1F m c) := by
  unfold h1B h1F
  funext i j
  exact G4_6_apply _ _ _ _ _ i j
theorem prop2_mat : matOf (prop2 m c)
    = propagateK (wordsOf (argA1 m c)) (wordsOf (argA2 m c)) (vecOf (argA3 m c)) (matOf (h1F m c)) := by
  unfold prop2
  refine (propagate_stage (adjA m c) (h1B m c) _ _ _ _ (adjOf_apply _ _ _) (G5_2_apply _ _)).trans ?_
  rw [h1B_mat]
theorem h2F_mat : matOf (h2F m c) = standardise (contrastK (matOf (prop2 m c))) (vecOf (argA6 m c)) (vecOf (argA7 m c)) := by
  unfold h2F
  refine (contrast_stage _ _ (prop2 m c) _ (gainRow m c) (biasRow m c) (G6_1_apply _) (G6_2_apply _) (G7_5_apply _ _ _ _ _)).trans ?_
  unfold gainRow biasRow
  rw [rowOf_shapeCast, rowOf_shapeCast]

theorem value_eq
    (hr : InRange (wordsOf (m ((c.tc : Thread nD τ).loc main_arg1))))
    (hc : InRange (wordsOf (m ((c.tc : Thread nD τ).loc main_arg2)))) :
    (W13 m c (Proc.devRef .tc main_v34) : FVec Ideal S8192x40 .f32) = fun idx =>
      forwardK (matOf (m ((c.tc : Thread nD τ).loc main_arg0))) (wordsOf (m ((c.tc : Thread nD τ).loc main_arg1)))
        (wordsOf (m ((c.tc : Thread nD τ).loc main_arg2))) (vecOf (m ((c.tc : Thread nD τ).loc main_arg3)))
        (vecOf (m ((c.tc : Thread nD τ).loc main_arg4))) (vecOf (m ((c.tc : Thread nD τ).loc main_arg5)))
        (vecOf (m ((c.tc : Thread nD τ).loc main_arg6))) (vecOf (m ((c.tc : Thread nD τ).loc main_arg7)))
        (matOf (m ((c.tc : Thread nD τ).loc main_arg8))) (vecOf (m ((c.tc : Thread nD τ).loc main_arg9))) (idx 0) (idx 1) := by
  refine (W13_v34 m c).trans ?_
  funext idx
  obtain ⟨i, o, rfl⟩ : ∃ (i : Fin 8192) (o : Fin 40), idx = ix2 i o := ⟨idx 0, idx 1, eq_ix2 idx⟩
  rw [readOf_apply, h2F_mat, prop2_mat, h1F_mat, prop1_mat, h0F_mat]
  rfl

end Chain

end Cert.KernelIdeal.Hand

end
-- ==== Proof.RefA.lean ====
import proofs.«405398_j45397804319028_3_alg».proof.Proof.Gen.ReferenceIdeal.Run
import proofs.«405398_j45397804319028_3_alg».proof.Proof.Conv
import Idealize.ShloMosaic.Lib.IdealHost
import Idealize.ShloMosaic.Lib.StackMember
import Idealize.ShloMosaic.Lib.Pipeline.Value

noncomputable section

open scoped BigOperators

namespace Cert.ReferenceIdeal.RefValue

open Cert.ReferenceIdeal Cert.ReferenceIdeal.Gen Cert.ReferenceIdeal.Value Idealize.ShloMosaic Idealize.ShloMosaic.ValueIdx Cert.Spec

def cnV7 (X : FVec Ideal S8192x256 .f32) : FVec Ideal S8192x256 .f32 :=
  mulf X (broadcastInDim S8192x256 ![0, 1] bcast_S8192x1_S8192x256_0_1 (Host.rsqrt (addf (broadcastInDim S8192x1 ![0] bcast_S8192_S8192x1_0 (Host.reduceAdd (mulf X X) (constant (F := Ideal) S_ .f32 0x00000000#32) reducesTo_S8192x256_S8192_d1 h_S_)) (broadcastInDim S8192x1 ![] bcast_S_S8192x1 (constant (F := Ideal) S_ .f32 0x2B8CBCCC#32)))))

def cnV11 (X : FVec Ideal S8192x256 .f32) : FVec Ideal S8192x8192 .f32 :=
  Host.divf (Host.dotGeneral dot_S8192x256_S256x8192_S8192x8192_1_0_0_1_n_n none (cnV7 X) (transpose S256x8192 [1, 0] (cnV7 X) transposes_S8192x256_S256x8192_1_0)) (broadcastInDim S8192x8192 ![] bcast_S_S8192x8192 (constant (F := Ideal) S_ .f32 0x3F800000#32))

def cnV18 (X : FVec Ideal S8192x256 .f32) : FVec Ideal S8192x8192 .f32 :=
  Host.exp (subf (cnV11 X) (broadcastInDim S8192x8192 ![0, 1] bcast_S8192x1_S8192x8192_0_1 (broadcastInDim S8192x1 ![0] bcast_S8192_S8192x1_0 (maximumf (broadcastInDim S8192 ![] bcast_S_S8192 (constant (F := Ideal) S_ .f32 0xFF800000#32)) (Host.reduce FloatOps.maximumf (cnV11 X) (constant (F := Ideal) S_ .f32 0xFF800000#32) reducesTo_S8192x8192_S8192_d1 h_S_)))))

def cnTerm (X : FVec Ideal S8192x256 .f32) : FVec Ideal S8192x256 .f32 :=
  subf (mulf (broadcastInDim S8192x256 ![] bcast_S_S8192x256 (constant (F := Ideal) S_ .f32 0x40000000#32)) X) (mulf (broadcastInDim S8192x256 ![] bcast_S_S8192x256 (constant (F := Ideal) S_ .f32 0x3F800000#32)) (Host.dotGeneral dot_S8192x8192_S8192x256_S8192x256_1_0_0_1_n_n none (Host.divf (cnV18 X) (broadcastInDim S8192x8192 ![0, 1] bcast_S8192x1_S8192x8192_0_1 (broadcastInDim S8192x1 ![0] bcast_S8192_S8192x1_0 (Host.reduceAdd (cnV18 X) (constant (F := Ideal) S_ .f32 0x00000000#32) reducesTo_S8192x8192_S8192_d1 h_S_)))) X))

def lnV32 (H : FVec Ideal S8192x256 .f32) : FVec Ideal S8192x1 .f32 :=
  Host.divf (broadcastInDim S8192x1 ![0] bcast_S8192_S8192x1_0 (Host.reduceAdd H (constant (F := Ideal) S_ .f32 0x00000000#32) reducesTo_S8192x256_S8192_d1 h_S_)) (broadcastInDim S8192x1 ![] bcast_S_S8192x1 (constant (F := Ideal) S_ .f32 0x43800000#32))

def lnV34 (H : FVec Ideal S8192x256 .f32) : FVec Ideal S8192x256 .f32 :=
  subf H (broadcastInDim S8192x256 ![0, 1] bcast_S8192x1_S8192x256_0_1 (lnV32 H))

def lnTerm (H : FVec Ideal S8192x256 .f32) (g b : FVec Ideal S256 .f32) : FVec Ideal S8192x256 .f32 :=
  addf (mulf (mulf (subf H (broadcastInDim S8192x256 ![0, 1] bcast_S8192x1_S8192x256_0_1 (lnV32 H))) (broadcastInDim S8192x256 ![0, 1] bcast_S8192x1_S8192x256_0_1 (Host.rsqrt (addf (Host.divf (broadcastInDim S8192x1 ![0] bcast_S8192_S8192x1_0 (Host.reduceAdd (mulf (lnV34 H) (lnV34 H)) (constant (F := Ideal) S_ .f32 0x00000000#32) reducesTo_S8192x256_S8192_d1 h_S_)) (broadcastInDim S8192x1 ![] bcast_S_S8192x1 (constant (F := Ideal) S_ .f32 0x43800000#32))) (broadcastInDim S8192x1 ![] bcast_S_S8192x1 (constant (F := Ideal) S_ .f32 0x3727C5AC#32)))))) (broadcastInDim S8192x256 ![0, 1] bcast_S1x256_S8192x256_0_1 (broadcastInDim S1x256 ![1] bcast_S256_S1x256_1 g))) (broadcastInDim S8192x256 ![0, 1] bcast_S1x256_S8192x256_0_1 (broadcastInDim S1x256 ![1] bcast_S256_S1x256_1 b))

section Layout

theorem bc_col (v : FVec Ideal S8192 .f32) (i : Fin 8192) (z : Fin 1) :
    broadcastInDim S8192x1 ![0] bcast_S8192_S8192x1_0 v (ix2 i z) = v (ix1 i) :=
  broadcastInDim_apply _ _ v (ix2 i z) (ix1 i) (fun a => match a with | ⟨0, _⟩ => rfl)

theorem bc_row256 (v : FVec Ideal S8192x1 .f32) (i : Fin 8192) (j : Fin 256) :
    broadcastInDim S8192x256 ![0, 1] bcast_S8192x1_S8192x256_0_1 v (ix2 i j) = v (ix2 i 0) :=
  broadcastInDim_apply _ _ v (ix2 i j) (ix2 i 0) (fun a => match a with | ⟨0, _⟩ => rfl | ⟨1, _⟩ => rfl)

theorem bc_row8192 (v : FVec Ideal S8192x1 .f32) (i k : Fin 8192) :
    broadcastInDim S8192x8192 ![0, 1] bcast_S8192x1_S8192x8192_0_1 v (ix2 i k) = v (ix2 i 0) :=
  broadcastInDim_apply _ _ v (ix2 i k) (ix2 i 0) (fun a => match a with | ⟨0, _⟩ => rfl | ⟨1, _⟩ => rfl)

theorem bc_feat (v : FVec Ideal S256 .f32) (i : Fin 8192) (j : Fin 256) :
    broadcastInDim S8192x256 ![0, 1] bcast_S1x256_S8192x256_0_1 (broadcastInDim S1x256 ![1] bcast_S256_S1x256_1 v) (ix2 i j) = v (ix1 j) := by
  refine (broadcastInDim_apply _ _ _ (ix2 i j) (ix2 0 j) (fun a => match a with | ⟨0, _⟩ => rfl | ⟨1, _⟩ => rfl)).trans ?_
  exact broadcastInDim_apply _ _ v (ix2 0 j) (ix1 j) (fun a => match a with | ⟨0, _⟩ => rfl)

theorem tr_apply (x : FVec Ideal S8192x256 .f32) (c : Fin 256) (k : Fin 8192) :
    transpose S256x8192 [1, 0] x transposes_S8192x256_S256x8192_1_0 (ix2 c k) = x (ix2 k c) :=
  transpose_apply _ x _ (ix2 c k) (ix2 k c) (fun b => match b with | ⟨0, _⟩ => rfl | ⟨1, _⟩ => rfl)

end Layout

theorem bc_const {T : Shape} (h : S_.BroadcastsInDim T ![]) (w : BitVec 32) (j : T.Idx) :
    broadcastInDim T ![] h (constant (F := Ideal) S_ .f32 w) j = Ideal.ofBits .f32 w :=
  broadcastInDim_scalar_apply h _ j

theorem hostRsqrt_apply {s : Shape} (x : FVec Ideal s .f32) (i : s.Idx) : Host.rsqrt x i = Ideal.rsqrt (x i) := rfl
theorem hostExp_apply {s : Shape} (x : FVec Ideal s .f32) (i : s.Idx) : Host.exp x i = Ideal.exp (x i) := rfl

theorem lift256 (h : S8192x256.Reduces [1] S8192) (i : Fin 8192) (k : Fin 256) : h.lift (ix1 i) k = ix2 i k := by
  funext a; apply Fin.ext
  match a with
  | ⟨0, _⟩ => rfl
  | ⟨1, _⟩ => rfl

theorem lift8192 (h : S8192x8192.Reduces [1] S8192) (i : Fin 8192) (k : Fin 8192) : h.lift (ix1 i) k = ix2 i k := by
  funext a; apply Fin.ext
  match a with
  | ⟨0, _⟩ => rfl
  | ⟨1, _⟩ => rfl

theorem rsum256 (x : FVec Ideal S8192x256 .f32) (i : Fin 8192) :
    Host.reduceAdd x (constant (F := Ideal) S_ .f32 0x00000000#32) reducesTo_S8192x256_S8192_d1 h_S_ (ix1 i)
      = ∑ j : Fin 256, x (ix2 i j) := by
  have h : S8192x256.Reduces [1] S8192 := by decide
  rw [hostReduceAdd_apply]
  refine (Ideal.hostReduceAdd_single reducesTo_S8192x256_S8192_d1 h x _ (ix1 i)).trans ?_
  show Ideal.ofBits .f32 0x00000000#32 + ∑ k : Fin 256, x (h.lift (ix1 i) k) = _
  rw [Ideal.ofBits_zero_f32, zero_add]
  exact Finset.sum_congr rfl fun k _ => by rw [lift256]

theorem rsum8192 (x : FVec Ideal S8192x8192 .f32) (i : Fin 8192) :
    Host.reduceAdd x (constant (F := Ideal) S_ .f32 0x00000000#32) reducesTo_S8192x8192_S8192_d1 h_S_ (ix1 i)
      = ∑ k : Fin 8192, x (ix2 i k) := by
  have h : S8192x8192.Reduces [1] S8192 := by decide
  rw [hostReduceAdd_apply]
  refine (Ideal.hostReduceAdd_single reducesTo_S8192x8192_S8192_d1 h x _ (ix1 i)).trans ?_
  show Ideal.ofBits .f32 0x00000000#32 + ∑ k : Fin 8192, x (h.lift (ix1 i) k) = _
  rw [Ideal.ofBits_zero_f32, zero_add]
  exact Finset.sum_congr rfl fun k _ => by rw [lift8192]

theorem rmax8192 (x : FVec Ideal S8192x8192 .f32) (i : Fin 8192) :
    Host.reduce FloatOps.maximumf x (constant (F := Ideal) S_ .f32 0xFF800000#32) reducesTo_S8192x8192_S8192_d1 h_S_ (ix1 i)
      = (Finset.univ : Finset (Fin 8192)).fold max negInf (fun k => x (ix2 i k)) := by
  have h : S8192x8192.Reduces [1] S8192 := by decide
  refine (Host.reduce_eq_fold_single FloatOps.maximumf x _ reducesTo_S8192x8192_S8192_d1 h h_S_ (ix1 i)).trans ?_
  have e : (x ∘ h.lift (ix1 i)) = fun k : Fin 8192 => x (ix2 i k) :=
    funext fun k : Fin 8192 => congrArg x (lift8192 h i k)
  rw [e]
  rfl

theorem dotA_eq : dot_S8192x256_S256x8192_S8192x8192_1_0_0_1_n_n = DotDims.plain 8192 256 8192 := rfl
theorem dotB_eq : dot_S8192x8192_S8192x256_S8192x256_1_0_0_1_n_n = DotDims.plain 8192 8192 256 := rfl

theorem dotA_apply (A : FVec Ideal S8192x256 .f32) (B : FVec Ideal S256x8192 .f32) (i k : Fin 8192) :
    Host.dotGeneral dot_S8192x256_S256x8192_S8192x8192_1_0_0_1_n_n none A B (ix2 i k) = ∑ c : Fin 256, A (ix2 i c) * B (ix2 c k) := by
  rw [dotA_eq]
  exact StackMember.dotGeneral_plain_apply none A B i k

theorem dotB_apply (A : FVec Ideal S8192x8192 .f32) (B : FVec Ideal S8192x256 .f32) (i : Fin 8192) (j : Fin 256) :
    Host.dotGeneral dot_S8192x8192_S8192x256_S8192x256_1_0_0_1_n_n none A B (ix2 i j) = ∑ k : Fin 8192, A (ix2 i k) * B (ix2 k j) := by
  rw [dotB_eq]
  exact StackMember.dotGeneral_plain_apply none A B i j

theorem cnV7_apply (X : FVec Ideal S8192x256 .f32) (i : Fin 8192) (j : Fin 256) :
    cnV7 X (ix2 i j) = unitRows (matOf X) i j := by
  unfold cnV7
  rw [mulf_apply, bc_row256, hostRsqrt_apply, addf_apply, bc_col, rsum256, bc_const]
  rfl

theorem cnV11_apply (X : FVec Ideal S8192x256 .f32) (i k : Fin 8192) :
    cnV11 X (ix2 i k) = scoreR (matOf X) i k := by
  unfold cnV11
  rw [hostDivf_apply, bc_const, dotA_apply]
  have e : ∀ c : Fin 256, cnV7 X (ix2 i c) * transpose S256x8192 [1, 0] (cnV7 X) transposes_S8192x256_S256x8192_1_0 (ix2 c k)
      = unitRows (matOf X) i c * unitRows (matOf X) k c := fun c => by
    rw [tr_apply, cnV7_apply, cnV7_apply]
  rw [Finset.sum_congr rfl fun c _ => e c]
  rfl

theorem cnV18_apply (X : FVec Ideal S8192x256 .f32) (i k : Fin 8192) :
    cnV18 X (ix2 i k) = wR (matOf X) i k := by
  unfold cnV18
  rw [hostExp_apply, subf_apply, bc_row8192, bc_col, maximumf_apply, bc_const, rmax8192]
  simp only [cnV11_apply]
  rfl

theorem cnTerm_apply (X : FVec Ideal S8192x256 .f32) (i : Fin 8192) (j : Fin 256) :
    cnTerm X (ix2 i j) = contrastR (matOf X) i j := by
  unfold cnTerm
  rw [subf_apply, mulf_apply, mulf_apply, bc_const, bc_const, dotB_apply]
  have e : ∀ k : Fin 8192,
      Host.divf (cnV18 X) (broadcastInDim S8192x8192 ![0, 1] bcast_S8192x1_S8192x8192_0_1 (broadcastInDim S8192x1 ![0] bcast_S8192_S8192x1_0 (Host.reduceAdd (cnV18 X) (constant (F := Ideal) S_ .f32 0x00000000#32) reducesTo_S8192x8192_S8192_d1 h_S_))) (ix2 i k) * X (ix2 k j)
        = Ideal.div (wR (matOf X) i k) (∑ k' : Fin 8192, wR (matOf X) i k') * matOf X k j := fun k => by
    rw [hostDivf_apply, bc_row8192, bc_col, rsum8192, cnV18_apply]
    simp only [cnV18_apply]
    rfl
  rw [Finset.sum_congr rfl fun k _ => e k]
  rfl

theorem lnV32_apply (H : FVec Ideal S8192x256 .f32) (i : Fin 8192) (z : Fin 1) :
    lnV32 H (ix2 i z) = rowMean (matOf H) i := by
  unfold lnV32
  rw [hostDivf_apply, bc_col, rsum256, bc_const]
  rfl

theorem lnV34_apply (H : FVec Ideal S8192x256 .f32) (i : Fin 8192) (j : Fin 256) :
    lnV34 H (ix2 i j) = matOf H i j - rowMean (matOf H) i := by
  unfold lnV34
  rw [subf_apply, bc_row256, lnV32_apply]
  rfl

theorem lnTerm_apply (H : FVec Ideal S8192x256 .f32) (g b : FVec Ideal S256 .f32) (i : Fin 8192) (j : Fin 256) :
    lnTerm H g b (ix2 i j) = standardise (matOf H) (vecOf g) (vecOf b) i j := by
  unfold lnTerm
  rw [addf_apply, mulf_apply, mulf_apply, subf_apply, bc_row256, lnV32_apply, bc_row256, hostRsqrt_apply, addf_apply,
    hostDivf_apply, bc_col, rsum256, bc_const, bc_const, bc_feat, bc_feat]
  simp only [mulf_apply, lnV34_apply]
  rfl

theorem res7_eq (V0 : Valuation τ sig (Elt Ideal)) : res_main_v7 V0 = cnV7 (V0 (Proc.devRef .tc main_arg0)) := rfl

theorem res11_eq (V0 : Valuation τ sig (Elt Ideal)) : res_main_v11 V0 = cnV11 (V0 (Proc.devRef .tc main_arg0)) := by
  unfold res_main_v11 cnV11
  rw [res7_eq]

theorem res18_eq (V0 : Valuation τ sig (Elt Ideal)) : res_main_v18 V0 = cnV18 (V0 (Proc.devRef .tc main_arg0)) := by
  unfold res_main_v18 cnV18
  rw [res11_eq]

theorem res28_eq (V0 : Valuation τ sig (Elt Ideal)) : res_main_v28 V0 = cnTerm (V0 (Proc.devRef .tc main_arg0)) := by
  unfold res_main_v28 cnTerm
  rw [res18_eq]

theorem res73_eq (V0 : Valuation τ sig (Elt Ideal)) : res_main_v73 V0 = cnV7 (res_main_v65 V0) := rfl

theorem res77_eq (V0 : Valuation τ sig (Elt Ideal)) : res_main_v77 V0 = cnV11 (res_main_v65 V0) := by
  unfold res_main_v77 cnV11
  rw [res73_eq]

theorem res84_eq (V0 : Valuation τ sig (Elt Ideal)) : res_main_v84 V0 = cnV18 (res_main_v65 V0) := by
  unfold res_main_v84 cnV18
  rw [res77_eq]

theorem res94_eq (V0 : Valuation τ sig (Elt Ideal)) : res_main_v94 V0 = cnTerm (res_main_v65 V0) := by
  unfold res_main_v94 cnTerm
  rw [res84_eq]

theorem res139_eq (V0 : Valuation τ sig (Elt Ideal)) : res_main_v139 V0 = cnV7 (res_main_v131 V0) := rfl

theorem res143_eq (V0 : Valuation τ sig (Elt Ideal)) : res_main_v143 V0 = cnV11 (res_main_v131 V0) := by
  unfold res_main_v143 cnV11
  rw [res139_eq]

theorem res150_eq (V0 : Valuation τ sig (Elt Ideal)) : res_main_v150 V0 = cnV18 (res_main_v131 V0) := by
  unfold res_main_v150 cnV18
  rw [res143_eq]

theorem res160_eq (V0 : Valuation τ sig (Elt Ideal)) : res_main_v160 V0 = cnTerm (res_main_v131 V0) := by
  unfold res_main_v160 cnTerm
  rw [res150_eq]

theorem res32_eq (V0 : Valuation τ sig (Elt Ideal)) : res_main_v32 V0 = lnV32 (res_main_v28 V0) := rfl

theorem res34_eq (V0 : Valuation τ sig (Elt Ideal)) : res_main_v34 V0 = lnV34 (res_main_v28 V0) := by
  unfold res_main_v34 lnV34
  rw [res32_eq]

theorem ln52_eq (V0 : Valuation τ sig (Elt Ideal)) :
    addf (mulf (mulf (subf (res_main_v28 V0) (broadcastInDim S8192x256 ![0, 1] bcast_S8192x1_S8192x256_0_1 (res_main_v32 V0))) (broadcastInDim S8192x256 ![0, 1] bcast_S8192x1_S8192x256_0_1 (Host.rsqrt (addf (Host.divf (broadcastInDim S8192x1 ![0] bcast_S8192_S8192x1_0 (Host.reduceAdd (mulf (res_main_v34 V0) (res_main_v34 V0)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x3727C5AC#32)))))) (broadcastInDim S8192x256 ![0, 1] bcast_S1x256_S8192x256_0_1 (broadcastInDim S1x256 ![1] bcast_S256_S1x256_1 (V0 (Proc.devRef .tc main_arg4))))) (broadcastInDim S8192x256 ![0, 1] bcast_S1x256_S8192x256_0_1 (broadcastInDim S1x256 ![1] bcast_S256_S1x256_1 (V0 (Proc.devRef .tc main_arg5))))
      = lnTerm (res_main_v28 V0) (V0 (Proc.devRef .tc main_arg4)) (V0 (Proc.devRef .tc main_arg5)) := by
  unfold lnTerm
  rw [res32_eq, res34_eq]

theorem res98_eq (V0 : Valuation τ sig (Elt Ideal)) : res_main_v98 V0 = lnV32 (res_main_v94 V0) := rfl

theorem res100_eq (V0 : Valuation τ sig (Elt Ideal)) : res_main_v100 V0 = lnV34 (res_main_v94 V0) := by
  unfold res_main_v100 lnV34
  rw [res98_eq]

theorem ln118_eq (V0 : Valuation τ sig (Elt Ideal)) :
    addf (mulf (mulf (subf (res_main_v94 V0) (broadcastInDim S8192x256 ![0, 1] bcast_S8192x1_S8192x256_0_1 (res_main_v98 V0))) (broadcastInDim S8192x256 ![0, 1] bcast_S8192x1_S8192x256_0_1 (Host.rsqrt (addf (Host.divf (broadcastInDim S8192x1 ![0] bcast_S8192_S8192x1_0 (Host.reduceAdd (mulf (res_main_v100 V0) (res_main_v100 V0)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x3727C5AC#32)))))) (broadcastInDim S8192x256 ![0, 1] bcast_S1x256_S8192x256_0_1 (broadcastInDim S1x256 ![1] bcast_S256_S1x256_1 (V0 (Proc.devRef .tc main_arg6))))) (broadcastInDim S8192x256 ![0, 1] bcast_S1x256_S8192x256_0_1 (broadcastInDim S1x256 ![1] bcast_S256_S1x256_1 (V0 (Proc.devRef .tc main_arg7))))
      = lnTerm (res_main_v94 V0) (V0 (Proc.devRef .tc main_arg6)) (V0 (Proc.devRef .tc main_arg7)) := by
  unfold lnTerm
  rw [res98_eq, res100_eq]

theorem res164_eq (V0 : Valuation τ sig (Elt Ideal)) : res_main_v164 V0 = lnV32 (res_main_v160 V0) := rfl

theorem res166_eq (V0 : Valuation τ sig (Elt Ideal)) : res_main_v166 V0 = lnV34 (res_main_v160 V0) := by
  unfold res_main_v166 lnV34
  rw [res164_eq]

theorem ln184_eq (V0 : Valuation τ sig (Elt Ideal)) :
    addf (mulf (mulf (subf (res_main_v160 V0) (broadcastInDim S8192x256 ![0, 1] bcast_S8192x1_S8192x256_0_1 (res_main_v164 V0))) (broadcastInDim S8192x256 ![0, 1] bcast_S8192x1_S8192x256_0_1 (Host.rsqrt (addf (Host.divf (broadcastInDim S8192x1 ![0] bcast_S8192_S8192x1_0 (Host.reduceAdd (mulf (res_main_v166 V0) (res_main_v166 V0)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x3727C5AC#32)))))) (broadcastInDim S8192x256 ![0, 1] bcast_S1x256_S8192x256_0_1 (broadcastInDim S1x256 ![1] bcast_S256_S1x256_1 (V0 (Proc.devRef .tc main_arg6))))) (broadcastInDim S8192x256 ![0, 1] bcast_S1x256_S8192x256_0_1 (broadcastInDim S1x256 ![1] bcast_S256_S1x256_1 (V0 (Proc.devRef .tc main_arg7))))
      = lnTerm (res_main_v160 V0) (V0 (Proc.devRef .tc main_arg6)) (V0 (Proc.devRef .tc main_arg7)) := by
  unfold lnTerm
  rw [res164_eq, res166_eq]

end Cert.ReferenceIdeal.RefValue

end
-- ==== Proof.LibGatherRows.lean ====
import Idealize.ShloMosaic.PureOps
import Idealize.ShloMosaic.Lib.ValueIdx

noncomputable section

namespace Cert.LibGatherRows

open Idealize.ShloMosaic Idealize.ShloMosaic.ValueIdx

variable {α : Type}

private theorem one_notMem_zero : (1 : Fin 2) ∉ ([0] : List (Fin 2)) := by decide

abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by

  unfold Host.gather
  congr 1
  funext a
  refine Fin.ext ?_
  match a with
  | ⟨0, _⟩ =>

    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]

    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>

    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by

  unfold Host.gather
  congr 1
  funext a
  refine Fin.ext ?_
  match a with
  | ⟨0, _⟩ =>

    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>

    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]

    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.RefB.lean ====
import proofs.«405398_j45397804319028_3_alg».proof.Proof.RefA
import proofs.«405398_j45397804319028_3_alg».proof.Proof.LibGatherRows
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

open scoped BigOperators

namespace Cert.ReferenceIdeal.RefValue

open Cert.ReferenceIdeal Cert.ReferenceIdeal.Gen Cert.ReferenceIdeal.Value Idealize.ShloMosaic Idealize.ShloMosaic.ValueIdx Cert.Spec

abbrev rowAddDims (N D R : Nat)
    (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

section RowAdd
variable {N D R w : Nat} (wf : ScatterDims.WF ⟨2, ![N, D]⟩ ⟨2, ![R, 1]⟩ ⟨2, ![R, D]⟩ [1] [0] [0] 1)
  (idx : IVec ⟨2, ![R, 1]⟩ w) (e : Fin R) (j' : Fin D)

private theorem one_notMem_zero : (1 : Fin 2) ∉ ([0] : List (Fin 2)) := by decide

private theorem rowAdd_mem_sKept (a : Fin 2) : a ∈ (rowAddDims N D R wf).sKept ↔ a ∉ ([0] : List (Fin 2)) := by
  simp [ScatterDims.sKept, Shape.kept, List.mem_filter, List.mem_finRange]

theorem rowAdd_start0 : (rowAddDims N D R wf).start (ix2 e j') idx 0 = (idx (ix2 e (0 : Fin 1))).toInt := by
  unfold ScatterDims.start
  rw [dif_pos (show (0 : Fin 2) ∈ (rowAddDims N D R wf).scatterDimsToOperandDims from List.mem_singleton.mpr rfl)]

  have hsi : (rowAddDims N D R wf).siIdx (ix2 e j') ⟨List.idxOf (0 : Fin 2) (rowAddDims N D R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowAdd_start1 : (rowAddDims N D R wf).start (ix2 e j') idx 1 = 0 := by
  unfold ScatterDims.start
  rw [dif_neg (show (1 : Fin 2) ∉ (rowAddDims N D R wf).scatterDimsToOperandDims from one_notMem_zero)]

theorem rowAdd_window0 : (rowAddDims N D R wf).window (ix2 e j') 0 = 0 := by
  unfold ScatterDims.window
  rw [dif_neg (show (0 : Fin 2) ∉ (rowAddDims N D R wf).sKept from
    fun h => (rowAdd_mem_sKept wf 0).1 h (List.mem_singleton.mpr rfl))]

theorem rowAdd_window1 : (rowAddDims N D R wf).window (ix2 e j') 1 = j'.val := by
  unfold ScatterDims.window
  rw [dif_pos (show (1 : Fin 2) ∈ (rowAddDims N D R wf).sKept from (rowAdd_mem_sKept wf 1).2 one_notMem_zero)]
  rfl

theorem rowAdd_resultIdx_iff (r : Fin N) (j : Fin D) :
    (rowAddDims N D R wf).resultIdx? (ix2 e j') idx = some (ix2 r j)
      ↔ (idx (ix2 e (0 : Fin 1))).toInt = (r.val : Int) ∧ j' = j := by
  unfold ScatterDims.resultIdx?
  constructor
  · intro h
    split at h
    · rename_i hall
      have hf := Option.some.inj h
      have h0 : ((rowAddDims N D R wf).start (ix2 e j') idx 0 + ((rowAddDims N D R wf).window (ix2 e j') 0 : Nat)).toNat
          = r.val := congrArg (fun f => (f 0).val) hf
      have h1 : ((rowAddDims N D R wf).start (ix2 e j') idx 1 + ((rowAddDims N D R wf).window (ix2 e j') 1 : Nat)).toNat
          = j.val := congrArg (fun f => (f 1).val) hf
      have ha0 : 0 ≤ (rowAddDims N D R wf).start (ix2 e j') idx 0 + ((rowAddDims N D R wf).window (ix2 e j') 0 : Nat) :=
        (hall 0).1
      rw [rowAdd_start0, rowAdd_window0] at h0 ha0
      rw [rowAdd_start1, rowAdd_window1] at h1
      exact ⟨by omega, Fin.ext (by omega)⟩
    · exact absurd h (by simp)
  · rintro ⟨h0, rfl⟩
    have hall : ∀ a, 0 ≤ (rowAddDims N D R wf).start (ix2 e j') idx a + ((rowAddDims N D R wf).window (ix2 e j') a : Nat)
        ∧ (rowAddDims N D R wf).start (ix2 e j') idx a + ((rowAddDims N D R wf).window (ix2 e j') a : Nat)
          < ((⟨2, ![N, D]⟩ : Shape).size a : Nat) := by
      intro a
      match a with
      | ⟨0, _⟩ =>
        show 0 ≤ (rowAddDims N D R wf).start (ix2 e j') idx 0 + ((rowAddDims N D R wf).window (ix2 e j') 0 : Nat)
          ∧ (rowAddDims N D R wf).start (ix2 e j') idx 0 + ((rowAddDims N D R wf).window (ix2 e j') 0 : Nat) < (N : Int)
        rw [rowAdd_start0, rowAdd_window0, h0]
        have := r.isLt
        omega
      | ⟨1, _⟩ =>
        show 0 ≤ (rowAddDims N D R wf).start (ix2 e j') idx 1 + ((rowAddDims N D R wf).window (ix2 e j') 1 : Nat)
          ∧ (rowAddDims N D R wf).start (ix2 e j') idx 1 + ((rowAddDims N D R wf).window (ix2 e j') 1 : Nat) < (D : Int)
        rw [rowAdd_start1, rowAdd_window1]
        have := j'.isLt
        omega
    rw [dif_pos hall]
    congr 1
    funext a
    refine Fin.ext ?_
    match a with
    | ⟨0, _⟩ =>
      show ((rowAddDims N D R wf).start (ix2 e j') idx 0 + ((rowAddDims N D R wf).window (ix2 e j') 0 : Nat)).toNat = r.val
      rw [rowAdd_start0, rowAdd_window0, h0]
      omega
    | ⟨1, _⟩ =>
      show ((rowAddDims N D R wf).start (ix2 e j') idx 1 + ((rowAddDims N D R wf).window (ix2 e j') 1 : Nat)).toNat = j'.val
      rw [rowAdd_start1, rowAdd_window1]
      omega

end RowAdd

theorem hostScatterAdd_rows_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w) (upd : (⟨2, ![R, D]⟩ : Shape).Idx → EReal)
    (r : Fin N) (j : Fin D) :
    Ideal.hostScatterAdd (rowAddDims N D R wf) x idx upd (ix2 r j)
      = x (ix2 r j) + ∑ e ∈ Finset.univ.filter (fun e : Fin R => (idx (ix2 e (0 : Fin 1))).toInt = (r.val : Int)),
          upd (ix2 e j) := by
  unfold Ideal.hostScatterAdd
  congr 1

  rw [Finset.sum_filter, sum_idx2, Finset.sum_filter]
  refine Finset.sum_congr rfl fun e _ => ?_
  simp only [rowAdd_resultIdx_iff]
  by_cases he : (idx (ix2 e (0 : Fin 1))).toInt = (r.val : Int)
  · simp only [he, true_and, Finset.sum_ite_eq', Finset.mem_univ, if_true]
  · simp only [he, false_and, if_false, Finset.sum_const_zero]

def spTerm (row col : IVec S262144 32) (vals : FVec Ideal S262144 .f32) (H : FVec Ideal S8192x256 .f32) :
    FVec Ideal S8192x256 .f32 :=
  Host.scatterAdd scatter_S8192x256_S262144x1_S262144x256_1_0_0_1 (broadcastInDim S8192x256 ![] bcast_S_S8192x256 (constant S_ .f32 0x00000000#32)) (broadcastInDim S262144x1 ![0] bcast_S262144_S262144x1_0 row) (mulf (broadcastInDim S262144x256 ![0, 1] bcast_S262144x1_S262144x256_0_1 (broadcastInDim S262144x1 ![0] bcast_S262144_S262144x1_0 vals)) (Host.gather gather_S8192x256_S262144x1_S262144x256_1_0_n_n_0_1_1256 H (broadcastInDim S262144x1 ![0] bcast_S262144_S262144x1_0 (select (cmpi .slt col (broadcastInDim S262144 ![] bcast_S_S262144 (constantI S_ 32 0#32))) (addi col (broadcastInDim S262144 ![] bcast_S_S262144 (constantI S_ 32 8192#32))) col))))

def roTerm (H : FVec Ideal S8192x256 .f32) (W : FVec Ideal S40x256 .f32) (b : FVec Ideal S40 .f32) :
    FVec Ideal S8192x40 .f32 :=
  addf (Host.dotGeneral dot_S8192x256_S256x40_S8192x40_1_0_0_1_n_n none H (transpose S256x40 [1, 0] W transposes_S40x256_S256x40_1_0)) (broadcastInDim S8192x40 ![0, 1] bcast_S1x40_S8192x40_0_1 (broadcastInDim S1x40 ![1] bcast_S40_S1x40_1 b))

theorem select_wrap_of_nonneg (w : BitVec 32) (h : 0 ≤ w.toInt) (a : BitVec 32) :
    Scalar.select (IntOp.cmpi .slt w 0#32) a w = w := by
  have hs : IntOp.cmpi .slt w 0#32 = 0#1 := by
    unfold IntOp.cmpi
    have : w.slt 0#32 = false := by
      rw [BitVec.slt, decide_eq_false_iff_not]
      simp only [BitVec.toInt_zero]
      omega
    simp only [this]
    rfl
  rw [hs]
  exact select_zero _ _

theorem wrapSel_apply (col : IVec S262144 32) (e : Fin 262144) (h : 0 ≤ (col (ix1 e)).toInt) :
    select (cmpi .slt col (broadcastInDim S262144 ![] bcast_S_S262144 (constantI S_ 32 0#32)))
      (addi col (broadcastInDim S262144 ![] bcast_S_S262144 (constantI S_ 32 8192#32))) col (ix1 e) = col (ix1 e) := by
  rw [select_apply]
  have hz : broadcastInDim S262144 ![] bcast_S_S262144 (constantI S_ 32 0#32) (ix1 e) = 0#32 := by
    rw [broadcastInDim_apply _ _ _ (ix1 e) ix0 (fun a => a.elim0), constantI_apply]
  show Scalar.select (IntOp.cmpi .slt (col (ix1 e))
    (broadcastInDim S262144 ![] bcast_S_S262144 (constantI S_ 32 0#32) (ix1 e))) _ (col (ix1 e)) = _
  rw [hz]
  exact select_wrap_of_nonneg _ h _

theorem spTerm_apply (row col : IVec S262144 32) (vals : FVec Ideal S262144 .f32) (H : FVec Ideal S8192x256 .f32)
    (hr : InRange (wordsOf row)) (hc : InRange (wordsOf col)) (r : Fin 8192) (j : Fin 256) :
    spTerm row col vals H (ix2 r j) = propagateR (wordsOf row) (wordsOf col) (vecOf vals) (matOf H) r j := by
  unfold spTerm propagateR

  refine (hostScatterAdd_rows_apply scatter_S8192x256_S262144x1_S262144x256_1_0_0_1_wf _ _ _ r j).trans ?_

  have hZ : broadcastInDim S8192x256 ![] bcast_S_S8192x256 (constant (F := Ideal) S_ .f32 0x00000000#32) (ix2 r j) = 0 := by
    rw [broadcastInDim_apply _ _ _ (ix2 r j) ix0 (fun a => a.elim0), constant_apply]
    exact Ideal.ofBits_zero_f32

  have hI : ∀ e : Fin 262144,
      broadcastInDim S262144x1 ![0] bcast_S262144_S262144x1_0 row (ix2 e (0 : Fin 1)) = row (ix1 e) := fun e =>
    broadcastInDim_apply _ _ _ (ix2 e (0 : Fin 1)) (ix1 e) (fun a => match a with | ⟨0, _⟩ => rfl)

  have hU : ∀ e : Fin 262144,
      mulf (broadcastInDim S262144x256 ![0, 1] bcast_S262144x1_S262144x256_0_1
          (broadcastInDim S262144x1 ![0] bcast_S262144_S262144x1_0 vals))
        (Host.gather gather_S8192x256_S262144x1_S262144x256_1_0_n_n_0_1_1256 H
          (broadcastInDim S262144x1 ![0] bcast_S262144_S262144x1_0
            (select (cmpi .slt col (broadcastInDim S262144 ![] bcast_S_S262144 (constantI S_ 32 0#32)))
              (addi col (broadcastInDim S262144 ![] bcast_S_S262144 (constantI S_ 32 8192#32))) col))) (ix2 e j)
        = vecOf vals e * matOf H ⟨(wordsOf col e).toInt.toNat % 8192, Nat.mod_lt _ (by decide)⟩ j := by
    intro e
    rw [mulf_apply]
    congr 1
    ·
      rw [broadcastInDim_apply _ _ _ (ix2 e j) (ix2 e (0 : Fin 1))
        (fun a => match a with | ⟨0, _⟩ => rfl | ⟨1, _⟩ => rfl)]
      exact broadcastInDim_apply _ _ _ (ix2 e (0 : Fin 1)) (ix1 e) (fun a => match a with | ⟨0, _⟩ => rfl)
    ·
      have hce := hc e
      rw [wordsOf_apply] at hce
      have hw : broadcastInDim S262144x1 ![0] bcast_S262144_S262144x1_0
          (select (cmpi .slt col (broadcastInDim S262144 ![] bcast_S_S262144 (constantI S_ 32 0#32)))
            (addi col (broadcastInDim S262144 ![] bcast_S_S262144 (constantI S_ 32 8192#32))) col) (ix2 e (0 : Fin 1))
          = col (ix1 e) :=
        (broadcastInDim_apply _ _ _ (ix2 e (0 : Fin 1)) (ix1 e) (fun a => match a with | ⟨0, _⟩ => rfl)).trans
          (wrapSel_apply col e hce.1)
      refine (Cert.LibGatherRows.gather_rows_apply (by decide) gather_S8192x256_S262144x1_S262144x256_1_0_n_n_0_1_1256_wf
        H _ e j).trans ?_
      show H _ = H _
      congr 1
      funext a
      refine Fin.ext ?_
      match a with
      | ⟨0, _⟩ =>
        show min (_ : BitVec 32).toInt.toNat (8192 - 1) = (wordsOf col e).toInt.toNat % 8192
        rw [hw, wordsOf_apply]
        omega
      | ⟨1, _⟩ => rfl
  rw [hZ, zero_add]
  simp only [hI]
  exact Finset.sum_congr rfl fun e _ => hU e

theorem roTerm_apply (H : FVec Ideal S8192x256 .f32) (W : FVec Ideal S40x256 .f32) (b : FVec Ideal S40 .f32)
    (i : Fin 8192) (o : Fin 40) :
    roTerm H W b (ix2 i o) = readout (matOf H) (matOf W) (vecOf b) i o := by
  unfold roTerm readout
  rw [addf_apply]
  congr 1
  ·
    refine (Ideal.dotGeneral_apply dot_S8192x256_S256x40_S8192x40_1_0_0_1_n_n none .single H _ (ix2 i o)).trans ?_
    have hr : dot_S8192x256_S256x40_S8192x40_1_0_0_1_n_n.contr.rank = 1 := rfl
    have hs : dot_S8192x256_S256x40_S8192x40_1_0_0_1_n_n.contr.size ⟨0, by omega⟩ = 256 := rfl
    have hl : ∀ q : Fin 256, dot_S8192x256_S256x40_S8192x40_1_0_0_1_n_n.lhsIdx (ix2 i o)
        ((contrEquiv1 dot_S8192x256_S256x40_S8192x40_1_0_0_1_n_n 256 hr hs).symm q) = ix2 i q := by
      intro q; funext a; refine Fin.ext ?_
      match a with
      | ⟨0, _⟩ => rfl
      | ⟨1, _⟩ =>
        exact (DotDims.lhsIdx_val_of_single _ rfl _ _).trans
          (contrEquiv1_symm_val dot_S8192x256_S256x40_S8192x40_1_0_0_1_n_n 256 hr hs q)
    have hrr : ∀ q : Fin 256, dot_S8192x256_S256x40_S8192x40_1_0_0_1_n_n.rhsIdx (ix2 i o)
        ((contrEquiv1 dot_S8192x256_S256x40_S8192x40_1_0_0_1_n_n 256 hr hs).symm q) = ix2 q o := by
      intro q; funext a; refine Fin.ext ?_
      match a with
      | ⟨0, _⟩ =>
        exact (DotDims.rhsIdx_val_of_single _ rfl _ _).trans
          (contrEquiv1_symm_val dot_S8192x256_S256x40_S8192x40_1_0_0_1_n_n 256 hr hs q)
      | ⟨1, _⟩ => rfl
    have ht : ∀ q : Fin 256, transpose S256x40 [1, 0] W transposes_S40x256_S256x40_1_0 (ix2 q o) = W (ix2 o q) := fun q =>
      transpose_apply _ _ _ (ix2 q o) (ix2 o q) (fun c => match c with | ⟨0, _⟩ => rfl | ⟨1, _⟩ => rfl)
    rw [← Equiv.sum_comp (contrEquiv1 dot_S8192x256_S256x40_S8192x40_1_0_0_1_n_n 256 hr hs).symm]
    refine Finset.sum_congr rfl fun q _ => ?_
    rw [hl, hrr, ht]
    rfl
  ·
    rw [broadcastInDim_apply _ _ _ (ix2 i o) (ix2 (0 : Fin 1) o) (fun a => match a with | ⟨0, _⟩ => rfl | ⟨1, _⟩ => rfl)]
    exact broadcastInDim_apply _ _ _ (ix2 (0 : Fin 1) o) (ix1 o) (fun a => match a with | ⟨0, _⟩ => rfl)

theorem res65_eq (V0 : Valuation τ sig (Elt Ideal)) :
    res_main_v65 V0 = spTerm (V0 (Proc.devRef .tc main_arg1)) (V0 (Proc.devRef .tc main_arg2)) (V0 (Proc.devRef .tc main_arg3))
      (lnTerm (res_main_v28 V0) (V0 (Proc.devRef .tc main_arg4)) (V0 (Proc.devRef .tc main_arg5))) := by
  rw [← ln52_eq V0]
  rfl

theorem res131_eq (V0 : Valuation τ sig (Elt Ideal)) :
    res_main_v131 V0 = spTerm (V0 (Proc.devRef .tc main_arg1)) (V0 (Proc.devRef .tc main_arg2)) (V0 (Proc.devRef .tc main_arg3))
      (lnTerm (res_main_v94 V0) (V0 (Proc.devRef .tc main_arg6)) (V0 (Proc.devRef .tc main_arg7))) := by
  rw [← ln118_eq V0]
  rfl

theorem matOf_cnTerm (X : FVec Ideal S8192x256 .f32) : matOf (cnTerm X) = contrastR (matOf X) :=
  funext fun i => funext fun j => cnTerm_apply X i j

theorem matOf_lnTerm (H : FVec Ideal S8192x256 .f32) (g b : FVec Ideal S256 .f32) :
    matOf (lnTerm H g b) = standardise (matOf H) (vecOf g) (vecOf b) :=
  funext fun i => funext fun j => lnTerm_apply H g b i j

theorem matOf_spTerm (row col : IVec S262144 32) (vals : FVec Ideal S262144 .f32) (H : FVec Ideal S8192x256 .f32)
    (hr : InRange (wordsOf row)) (hc : InRange (wordsOf col)) :
    matOf (spTerm row col vals H) = propagateR (wordsOf row) (wordsOf col) (vecOf vals) (matOf H) :=
  funext fun r => funext fun j => spTerm_apply row col vals H hr hc r j

theorem ref_value (V0 : Valuation τ sig (Elt Ideal))
    (hr : InRange (wordsOf (V0 (Proc.devRef .tc main_arg1)))) (hc : InRange (wordsOf (V0 (Proc.devRef .tc main_arg2)))) :
    Cert.ReferenceIdeal.Value.val4 V0 (Proc.devRef .tc main_v189)
      = fun idx => forwardR (matOf (V0 (Proc.devRef .tc main_arg0))) (wordsOf (V0 (Proc.devRef .tc main_arg1))) (wordsOf (V0 (Proc.devRef .tc main_arg2))) (vecOf (V0 (Proc.devRef .tc main_arg3))) (vecOf (V0 (Proc.devRef .tc main_arg4))) (vecOf (V0 (Proc.devRef .tc main_arg5))) (vecOf (V0 (Proc.devRef .tc main_arg6))) (vecOf (V0 (Proc.devRef .tc main_arg7))) (matOf (V0 (Proc.devRef .tc main_arg8))) (vecOf (V0 (Proc.devRef .tc main_arg9))) (idx 0) (idx 1) := by
  refine (val4_main_v189 V0).trans ?_
  rw [ln184_eq V0]
  show roTerm (lnTerm (res_main_v160 V0) (V0 (Proc.devRef .tc main_arg6)) (V0 (Proc.devRef .tc main_arg7))) (V0 (Proc.devRef .tc main_arg8)) (V0 (Proc.devRef .tc main_arg9)) = _
  funext idx
  refine (congrArg (roTerm _ _ _) (eq_ix2 (n0 := 8192) (n1 := 40) idx)).trans ?_
  refine (roTerm_apply _ _ _ (idx 0) (idx 1)).trans ?_

  rw [matOf_lnTerm, res160_eq, matOf_cnTerm, res131_eq, matOf_spTerm _ _ _ _ hr hc, matOf_lnTerm, res94_eq, matOf_cnTerm,
    res65_eq, matOf_spTerm _ _ _ _ hr hc, matOf_lnTerm, res28_eq, matOf_cnTerm]
  rfl

end Cert.ReferenceIdeal.RefValue

end
-- ==== Proof.AlgContrast.lean ====
import proofs.«405398_j45397804319028_3_alg».proof.Proof.Spec

noncomputable section

open scoped BigOperators

namespace Cert.Spec

open Idealize.ShloMosaic

namespace Contrast

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

theorem c256_eq : c256 = ((256 : ℝ) : EReal) := by
  simp [c256, Ideal.ofBits, Ideal.ieee, -EReal.coe_mul]; norm_num

theorem negInf_eq : negInf = ⊥ := by
  simp [negInf, Ideal.ofBits, Ideal.ieee]

theorem eps12_pos : ∃ r : ℝ, 0 < r ∧ eps12 = (r : EReal) := by
  simp [eps12, Ideal.ofBits, Ideal.ieee, -EReal.coe_mul]

theorem eps5_pos : ∃ r : ℝ, 0 < r ∧ eps5 = (r : EReal) := by
  simp [eps5, Ideal.ofBits, Ideal.ieee, -EReal.coe_mul]

theorem coe_sum {κ : Type*} (t : Finset κ) (f : κ → ℝ) :
    (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

theorem exp_sub_coe (a b : ℝ) : Ideal.exp ((a : EReal) - (b : EReal)) = ((Real.exp (a - b) : ℝ) : EReal) := by
  rw [← EReal.coe_sub, Ideal.exp_coe]

theorem div_one_eq (a : EReal) : Ideal.div a one = a := by
  rw [one_eq, Ideal.div_coe one_ne_zero, one_div_one, EReal.coe_one, mul_one]

theorem fold_max_real {κ : Type*} [DecidableEq κ] (f : κ → EReal) (hf : ∀ k, ∃ r : ℝ, f k = (r : EReal))
    (t : Finset κ) : t.fold max ⊥ f = ⊥ ∨ ∃ r : ℝ, t.fold max ⊥ f = (r : EReal) := by
  induction t using Finset.induction_on with
  | empty => left; simp
  | insert a t ha ih =>
    right
    rw [Finset.fold_insert ha]
    obtain ⟨r, hr⟩ := hf a
    rcases ih with h | ⟨q, hq⟩
    · exact ⟨r, by rw [h, hr, max_bot_right]⟩
    · exact ⟨max r q, by rw [hq, hr]; exact (EReal.coe_strictMono.monotone.map_max).symm⟩

theorem fold_max_real_of_nonempty {κ : Type*} [DecidableEq κ] (f : κ → EReal)
    (hf : ∀ k, ∃ r : ℝ, f k = (r : EReal)) (t : Finset κ) (ht : t.Nonempty) :
    ∃ r : ℝ, t.fold max ⊥ f = (r : EReal) := by
  obtain ⟨a, ha⟩ := ht
  rw [← Finset.insert_erase ha, Finset.fold_insert (Finset.notMem_erase a t)]
  obtain ⟨r, hr⟩ := hf a
  rcases fold_max_real f hf (t.erase a) with h | ⟨q, hq⟩
  · exact ⟨r, by rw [h, hr, max_bot_right]⟩
  · exact ⟨max r q, by rw [hq, hr]; exact (EReal.coe_strictMono.monotone.map_max).symm⟩

theorem rowMax_real (s : Fin 8192 → EReal) (hs : ∀ k, ∃ r : ℝ, s k = (r : EReal)) :
    ∃ r : ℝ, rowMax s = (r : EReal) := by
  obtain ⟨r, hr⟩ := fold_max_real_of_nonempty s hs Finset.univ ⟨⟨0, by norm_num⟩, Finset.mem_univ _⟩
  exact ⟨r, by rw [rowMax, negInf_eq, hr, max_bot_left]⟩

section Shift
variable {κ : Type*} [Fintype κ] [Nonempty κ]

theorem sum_exp_pos (s : κ → ℝ) (M : ℝ) : 0 < ∑ k, Real.exp (s k - M) :=
  Finset.sum_pos (fun k _ => Real.exp_pos _) Finset.univ_nonempty

theorem shift_real (s v : κ → ℝ) (M : ℝ) :
    (∑ k, Real.exp (s k - 1) * v k) * (1 / ∑ k, Real.exp (s k - 1))
      = ∑ k, Real.exp (s k - M) * (1 / ∑ k', Real.exp (s k' - M)) * v k := by
  have hB : (∑ k, Real.exp (s k - M)) ≠ 0 := (sum_exp_pos s M).ne'
  have hc : Real.exp (M - 1) ≠ 0 := (Real.exp_pos _).ne'
  have he : ∀ k, Real.exp (s k - 1) = Real.exp (M - 1) * Real.exp (s k - M) := fun k => by
    rw [← Real.exp_add]; congr 1; ring
  have h1 : (∑ k, Real.exp (s k - 1) * v k) = Real.exp (M - 1) * ∑ k, Real.exp (s k - M) * v k := by
    rw [Finset.mul_sum]; exact Finset.sum_congr rfl (fun k _ => by rw [he k]; ring)
  have h2 : (∑ k, Real.exp (s k - 1)) = Real.exp (M - 1) * ∑ k, Real.exp (s k - M) := by
    rw [Finset.mul_sum]; exact Finset.sum_congr rfl (fun k _ => he k)
  have h3 : (∑ k, Real.exp (s k - M) * (1 / ∑ k', Real.exp (s k' - M)) * v k)
      = (∑ k, Real.exp (s k - M) * v k) * (1 / ∑ k', Real.exp (s k' - M)) := by
    rw [Finset.sum_mul]; exact Finset.sum_congr rfl (fun k _ => by ring)
  rw [h1, h2, h3]
  field_simp

theorem divK_coe (s v : κ → ℝ) :
    Ideal.div (∑ k, Ideal.exp ((s k : EReal) - ((1 : ℝ) : EReal)) * (v k : EReal))
        (∑ k, Ideal.exp ((s k : EReal) - ((1 : ℝ) : EReal)))
      = (((∑ k, Real.exp (s k - 1) * v k) * (1 / ∑ k, Real.exp (s k - 1)) : ℝ) : EReal) := by
  simp only [exp_sub_coe, ← EReal.coe_mul, coe_sum]
  rw [Ideal.div_coe (sum_exp_pos s 1).ne', ← EReal.coe_mul]

theorem sumR_coe (s v : κ → ℝ) (M : ℝ) :
    (∑ k, Ideal.div (Ideal.exp ((s k : EReal) - (M : EReal))) (∑ k', Ideal.exp ((s k' : EReal) - (M : EReal)))
        * (v k : EReal))
      = ((∑ k, Real.exp (s k - M) * (1 / ∑ k', Real.exp (s k' - M)) * v k : ℝ) : EReal) := by
  have key : ∀ k, Ideal.div (Ideal.exp ((s k : EReal) - (M : EReal))) (∑ k', Ideal.exp ((s k' : EReal) - (M : EReal)))
        * (v k : EReal)
      = ((Real.exp (s k - M) * (1 / ∑ k', Real.exp (s k' - M)) * v k : ℝ) : EReal) := fun k => by
    simp only [exp_sub_coe, coe_sum]
    rw [Ideal.div_coe (sum_exp_pos s M).ne', ← EReal.coe_mul, ← EReal.coe_mul]
  simp only [key, coe_sum]

end Shift

theorem unitRows_real (x : Mat 8192 256) (hx : RealM x) : RealM (unitRows x) := by
  choose X hX using hx
  obtain ⟨e, he0, he⟩ := eps12_pos
  intro i j
  have hpos : 0 < (∑ j' : Fin 256, X i j' * X i j') + e :=
    add_pos_of_nonneg_of_pos (Finset.sum_nonneg (fun j' _ => mul_self_nonneg _)) he0
  refine ⟨X i j * (Real.sqrt ((∑ j' : Fin 256, X i j' * X i j') + e))⁻¹, ?_⟩
  simp only [unitRows, hX, he, ← EReal.coe_mul, coe_sum, ← EReal.coe_add]
  rw [rsqrt_pos hpos, ← EReal.coe_mul]

theorem score_real (x : Mat 8192 256) (hx : RealM x) (i k : Fin 8192) : ∃ r : ℝ, score x i k = (r : EReal) := by
  choose U hU using unitRows_real x hx
  exact ⟨∑ j : Fin 256, U i j * U k j, by simp only [score, hU, ← EReal.coe_mul, coe_sum]⟩

end Contrast

open Contrast

theorem contrastK_eq_contrastR (x : Mat 8192 256) (hx : RealM x) : contrastK x = contrastR x := by
  choose S hS using score_real x hx
  have hsR : ∀ i k, scoreR x i k = (S i k : EReal) := fun i k => by rw [scoreR, div_one_eq, hS]
  choose M hM using fun i => rowMax_real (scoreR x i) (fun k => ⟨S i k, hsR i k⟩)
  choose X hX using hx
  funext i j
  have hK : ∀ k, wK x i k = Ideal.exp ((S i k : EReal) - ((1 : ℝ) : EReal)) := fun k => by
    rw [wK, hS, one_eq]
  have hR : ∀ k, wR x i k = Ideal.exp ((S i k : EReal) - (M i : EReal)) := fun k => by
    rw [wR, hM, hsR]
  simp only [contrastK, contrastR, hK, hR, hX]
  rw [divK_coe, sumR_coe, shift_real (fun k => S i k) (fun k => X k j) (M i)]

theorem contrastR_real (x : Mat 8192 256) (hx : RealM x) : RealM (contrastR x) := by
  choose S hS using score_real x hx
  have hsR : ∀ i k, scoreR x i k = (S i k : EReal) := fun i k => by rw [scoreR, div_one_eq, hS]
  choose M hM using fun i => rowMax_real (scoreR x i) (fun k => ⟨S i k, hsR i k⟩)
  choose X hX using hx
  intro i j
  have hR : ∀ k, wR x i k = Ideal.exp ((S i k : EReal) - (M i : EReal)) := fun k => by
    rw [wR, hM, hsR]
  refine ⟨2 * X i j - 1 * ∑ k, Real.exp (S i k - M i) * (1 / ∑ k', Real.exp (S i k' - M i)) * X k j, ?_⟩
  simp only [contrastR, hR, hX]
  rw [sumR_coe, one_eq, two_eq, ← EReal.coe_mul, ← EReal.coe_mul, ← EReal.coe_sub]

theorem standardise_real (h : Mat 8192 256) (g b : Vct 256) (hh : RealM h) (hg : RealV g) (hb : RealV b) :
    RealM (standardise h g b) := by
  choose H hH using hh
  choose G hG using hg
  choose B hB using hb
  obtain ⟨e, he0, he⟩ := eps5_pos
  intro i j
  have h256 : (256 : ℝ) ≠ 0 := by norm_num
  have hm : rowMean h i = (((∑ j' : Fin 256, H i j') * (1 / 256) : ℝ) : EReal) := by
    simp only [rowMean, hH, coe_sum, c256_eq]
    rw [Ideal.div_coe h256, ← EReal.coe_mul]
  have hv : rowVar h i = (((∑ j' : Fin 256, (H i j' - (∑ j'' : Fin 256, H i j'') * (1 / 256))
      * (H i j' - (∑ j'' : Fin 256, H i j'') * (1 / 256))) * (1 / 256) : ℝ) : EReal) := by
    simp only [rowVar, hm, hH, ← EReal.coe_sub, ← EReal.coe_mul, coe_sum, c256_eq]
    rw [Ideal.div_coe h256, ← EReal.coe_mul]
  have hpos : 0 < (∑ j' : Fin 256, (H i j' - (∑ j'' : Fin 256, H i j'') * (1 / 256))
      * (H i j' - (∑ j'' : Fin 256, H i j'') * (1 / 256))) * (1 / 256) + e :=
    add_pos_of_nonneg_of_pos
      (mul_nonneg (Finset.sum_nonneg (fun j' _ => mul_self_nonneg _)) (by norm_num)) he0
  refine ⟨(H i j - (∑ j' : Fin 256, H i j') * (1 / 256))
    * (Real.sqrt ((∑ j' : Fin 256, (H i j' - (∑ j'' : Fin 256, H i j'') * (1 / 256))
      * (H i j' - (∑ j'' : Fin 256, H i j'') * (1 / 256))) * (1 / 256) + e))⁻¹ * G j + B j, ?_⟩
  simp only [standardise, hm, hv, hH, hG, hB, he, ← EReal.coe_add]
  rw [rsqrt_pos hpos, ← EReal.coe_sub, ← EReal.coe_mul, ← EReal.coe_mul, ← EReal.coe_add]

end Cert.Spec

end
-- ==== Proof.AlgPropagate.lean ====
import proofs.«405398_j45397804319028_3_alg».proof.Proof.Spec

noncomputable section

open scoped BigOperators

namespace Cert.Spec

open Idealize.ShloMosaic

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Abstract

variable {ε ν : Type*} [Fintype ε] [Fintype ν] [DecidableEq ν]

theorem sum_fibre_mul (ρ κ : ε → ν) (v : ε → ℝ) (H : ν → ℝ) (r : ν) :
    ∑ c, (∑ e ∈ Finset.univ.filter (fun e => ρ e = r ∧ κ e = c), v e) * H c
      = ∑ e ∈ Finset.univ.filter (fun e => ρ e = r), v e * H (κ e) := by
  simp only [Finset.sum_mul, Finset.sum_filter, ite_mul, zero_mul]
  rw [Finset.sum_comm]
  refine Finset.sum_congr rfl fun e _ => ?_
  by_cases h : ρ e = r
  · simp only [h, true_and, if_true]
    rw [Finset.sum_ite_eq]
    simp only [Finset.mem_univ, if_true]
  · simp only [h, false_and, if_false, Finset.sum_const_zero]

theorem sum_fibre_mul_coe (ρ κ : ε → ν) (v : ε → ℝ) (H : ν → ℝ) (r : ν) :
    ∑ c, (∑ e ∈ Finset.univ.filter (fun e => ρ e = r ∧ κ e = c), (v e : EReal)) * (H c : EReal)
      = ∑ e ∈ Finset.univ.filter (fun e => ρ e = r), (v e : EReal) * (H (κ e) : EReal) := by
  have hL : ∀ c, (∑ e ∈ Finset.univ.filter (fun e => ρ e = r ∧ κ e = c), (v e : EReal)) * (H c : EReal)
      = (((∑ e ∈ Finset.univ.filter (fun e => ρ e = r ∧ κ e = c), v e) * H c : ℝ) : EReal) := fun c => by
    rw [EReal.coe_mul, coe_sum]
  have hR : ∀ e, (v e : EReal) * (H (κ e) : EReal) = ((v e * H (κ e) : ℝ) : EReal) := fun e => by
    rw [EReal.coe_mul]
  simp only [hL, hR]
  rw [← coe_sum, ← coe_sum, sum_fibre_mul]

end Abstract

def nodeIx (w : BitVec 32) : Fin 8192 := ⟨w.toInt.toNat % 8192, Nat.mod_lt _ (by decide)⟩

theorem nodeOf_eq_some_iff (w : BitVec 32) (h0 : 0 ≤ w.toInt) (h1 : w.toInt < 8192) (r : Fin 8192) :
    nodeOf w = some r ↔ nodeIx w = r := by
  have hn : ¬ w.toInt < 0 := not_lt.mpr h0
  have hlt : w.toInt.toNat < 8192 := by omega
  unfold nodeOf nodeIx
  simp only [hn, if_false]
  rw [dif_pos ⟨h0, h1⟩, Option.some.injEq, Fin.ext_iff, Fin.ext_iff]
  simp only [Nat.mod_eq_of_lt hlt]

theorem toInt_eq_iff (w : BitVec 32) (h0 : 0 ≤ w.toInt) (h1 : w.toInt < 8192) (r : Fin 8192) :
    w.toInt = (r.val : Int) ↔ nodeIx w = r := by
  have hlt : w.toInt.toNat < 8192 := by omega
  unfold nodeIx
  rw [Fin.ext_iff]
  simp only [Nat.mod_eq_of_lt hlt]
  omega

theorem propagateK_eq_propagateR (row col : Idxs) (vals : Vct 262144) (h : Mat 8192 256)
    (hr : InRange row) (hc : InRange col) (hv : RealV vals) (hh : RealM h) :
    propagateK row col vals h = propagateR row col vals h := by
  choose v hv using hv
  choose H hH using hh
  funext r j
  have hrow : ∀ (e : Fin 262144) (r : Fin 8192), nodeOf (row e) = some r ↔ nodeIx (row e) = r :=
    fun e r => nodeOf_eq_some_iff _ (hr e).1 (hr e).2 r
  have hcol : ∀ (e : Fin 262144) (c : Fin 8192), nodeOf (col e) = some c ↔ nodeIx (col e) = c :=
    fun e c => nodeOf_eq_some_iff _ (hc e).1 (hc e).2 c
  have hrow' : ∀ e : Fin 262144, (row e).toInt = (r.val : Int) ↔ nodeIx (row e) = r :=
    fun e => toInt_eq_iff _ (hr e).1 (hr e).2 r
  have key := sum_fibre_mul_coe (fun e => nodeIx (row e)) (fun e => nodeIx (col e)) v (fun c => H c j) r
  unfold propagateK propagateR adjacency
  simp only [hv, hH]
  calc ∑ c : Fin 8192, (∑ e ∈ Finset.univ.filter
            (fun e : Fin 262144 => nodeOf (row e) = some r ∧ nodeOf (col e) = some c), (v e : EReal)) * (H c j : EReal)
      = ∑ c : Fin 8192, (∑ e ∈ Finset.univ.filter
            (fun e : Fin 262144 => nodeIx (row e) = r ∧ nodeIx (col e) = c), (v e : EReal)) * (H c j : EReal) := by
        refine Finset.sum_congr rfl fun c _ => ?_
        rw [Finset.filter_congr (fun e _ => and_congr (hrow e r) (hcol e c))]
    _ = ∑ e ∈ Finset.univ.filter (fun e : Fin 262144 => nodeIx (row e) = r),
          (v e : EReal) * (H (nodeIx (col e)) j : EReal) := key
    _ = _ := by
        rw [Finset.filter_congr (fun e _ => hrow' e)]
        exact Finset.sum_congr rfl fun e _ => rfl

theorem propagateR_real (row col : Idxs) (vals : Vct 262144) (h : Mat 8192 256)
    (hv : RealV vals) (hh : RealM h) : RealM (propagateR row col vals h) := by
  choose v hv using hv
  choose H hH using hh
  intro r j
  refine ⟨∑ e ∈ Finset.univ.filter (fun e : Fin 262144 => (row e).toInt = (r.val : Int)),
    v e * H (nodeIx (col e)) j, ?_⟩
  unfold propagateR
  rw [coe_sum]
  refine Finset.sum_congr rfl fun e _ => ?_
  rw [EReal.coe_mul, hv e, ← hH]
  rfl

end Cert.Spec

end
-- ==== Proof.Alg.lean ====
import proofs.«405398_j45397804319028_3_alg».proof.Proof.AlgContrast
import proofs.«405398_j45397804319028_3_alg».proof.Proof.AlgPropagate

noncomputable section

namespace Cert.Spec

theorem layer_eq (h : Mat 8192 256) (g b : Vct 256) (hh : RealM h) :
    standardise (contrastK h) g b = standardise (contrastR h) g b := by
  rw [contrastK_eq_contrastR h hh]

theorem layer_real (h : Mat 8192 256) (g b : Vct 256) (hh : RealM h) (hg : RealV g) (hb : RealV b) :
    RealM (standardise (contrastR h) g b) :=
  standardise_real _ g b (contrastR_real h hh) hg hb

theorem forwardK_eq_forwardR (x : Mat 8192 256) (row col : Idxs) (vals : Vct 262144) (g0 b0 g b : Vct 256)
    (W : Mat 40 256) (bo : Vct 40) (hx : RealM x) (hr : InRange row) (hc : InRange col) (hv : RealV vals)
    (hg0 : RealV g0) (hb0 : RealV b0) (hg : RealV g) (hb : RealV b) :
    forwardK x row col vals g0 b0 g b W bo = forwardR x row col vals g0 b0 g b W bo := by
  unfold forwardK forwardR
  have e0 := layer_eq x g0 b0 hx
  have r0 := layer_real x g0 b0 hx hg0 hb0
  have p1 := propagateK_eq_propagateR row col vals _ hr hc hv r0
  have q1 := propagateR_real row col vals _ hv r0
  have e1 := layer_eq _ g b q1
  have r1 := layer_real _ g b q1 hg hb
  have p2 := propagateK_eq_propagateR row col vals _ hr hc hv r1
  have q2 := propagateR_real row col vals _ hv r1
  have e2 := layer_eq _ g b q2
  simp only [e0, p1, e1, p2, e2]

end Cert.Spec

end
-- ==== Proof.PreFacts.lean ====
import proofs.«405398_j45397804319028_3_alg».proof.Defs
import proofs.«405398_j45397804319028_3_alg».proof.Proof.Conv
import Idealize.ShloMosaic.Lib.ReduceAll
import Idealize.ShloMosaic.Lib.StableHlo.Predicate

noncomputable section

namespace Cert.Proof.PreFacts

open Idealize.ShloMosaic Idealize.ShloMosaic.ValueIdx Cert.Spec

instance : Subsingleton Cert.Pre_finite_inputs.S_.Idx := ⟨fun a b => funext fun d => d.elim0⟩

theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  rw [StableHlo.Predicate.ofBool_eq_one_iff] at h
  simp only [decide_eq_true_eq] at h

  induction x using EReal.rec with
  | bot => simp at h
  | coe r => exact ⟨r, rfl⟩
  | top => simp at h

theorem inRange_of_cmpi (w : BitVec 32) (hge : IntOp.cmpi .sge w 0#32 = 1#1) (hlt : IntOp.cmpi .slt w 8192#32 = 1#1) :
    0 ≤ w.toInt ∧ w.toInt < 8192 := by
  unfold IntOp.cmpi at hge hlt
  rw [StableHlo.Predicate.ofBool_eq_one_iff] at hge hlt
  simp only [BitVec.slt, BitVec.sle, decide_eq_true_eq] at hge hlt

  have e0 : (0#32 : BitVec 32).toInt = 0 := by decide
  have e1 : (8192#32 : BitVec 32).toInt = 8192 := by decide
  rw [e0] at hge
  rw [e1] at hlt
  exact ⟨hge, hlt⟩

section Conjunct

open Cert.Pre_finite_inputs (S_)

variable {s : Shape} {axes : List (Fin s.rank)}

theorem all_real (hb : S_.BroadcastsInDim s (![] : Fin 0 → Fin s.rank)) (hr : s.ReducesTo axes S_) (h0 : 0 < S_.numel)
    (x : FVec Ideal s .f32) (j : S_.Idx)
    (e : Host.reduce IntOp.andi (cmpf .olt (Host.absf x) (broadcastInDim s ![] hb (constant (F := Ideal) S_ .f32 0x7F800000#32)))
          (constantI S_ 1 1#1) hr h0 j = 1#1) (i : s.Idx) :
    ∃ r : ℝ, x i = (r : EReal) :=

  real_of_abs_lt_inf (x i) (Host.reduce_andi_all _ _ hr h0 j e i)

theorem all_inRange (hb : S_.BroadcastsInDim s (![] : Fin 0 → Fin s.rank)) (hr : s.ReducesTo axes S_) (h0 : 0 < S_.numel)
    (w : IVec s 32) (j : S_.Idx)
    (e : Host.reduce IntOp.andi
          (andi (cmpi .sge w (broadcastInDim s ![] hb (constantI S_ 32 0#32)))
                (cmpi .slt w (broadcastInDim s ![] hb (constantI S_ 32 8192#32))))
          (constantI S_ 1 1#1) hr h0 j = 1#1) (i : s.Idx) :
    0 ≤ (w i).toInt ∧ (w i).toInt < 8192 := by
  have hi : IntOp.andi (IntOp.cmpi .sge (w i) 0#32) (IntOp.cmpi .slt (w i) 8192#32) = 1#1 :=
    Host.reduce_andi_all _ _ hr h0 j e i
  obtain ⟨hge, hlt⟩ := IntOp.andi_eq_one.1 hi
  exact inRange_of_cmpi (w i) hge hlt

end Conjunct

section Fn

variable [Cert.Pre_finite_inputs.Facts]

theorem facts_of_fn (a0 : FVec Ideal Cert.Pre_finite_inputs.S8192x256 .f32) (a1 a2 : IVec Cert.Pre_finite_inputs.S262144 32)
    (a3 : FVec Ideal Cert.Pre_finite_inputs.S262144 .f32) (a4 a5 a6 a7 : FVec Ideal Cert.Pre_finite_inputs.S256 .f32)
    (a8 : FVec Ideal Cert.Pre_finite_inputs.S40x256 .f32) (a9 : FVec Ideal Cert.Pre_finite_inputs.S40 .f32)
    (h : Cert.Pre_finite_inputs.fn (F := Ideal) a0 a1 a2 a3 a4 a5 a6 a7 a8 a9 = fun _ => 1#1) :
    RealM (matOf a0) ∧ InRange (wordsOf a1) ∧ InRange (wordsOf a2) ∧ RealV (vecOf a3) ∧ RealV (vecOf a4) ∧ RealV (vecOf a5)
      ∧ RealV (vecOf a6) ∧ RealV (vecOf a7) ∧ RealM (matOf a8) ∧ RealV (vecOf a9) := by

  have e := congrFun h ix0
  dsimp only [Cert.Pre_finite_inputs.fn, Cert.Pre_finite_inputs.fn_part1, Cert.Pre_finite_inputs.fn_part2,
    Cert.Pre_finite_inputs.fn_part3] at e

  obtain ⟨e, hcol⟩ := IntOp.andi_eq_one.1 e
  obtain ⟨e, hrow⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h3⟩ := IntOp.andi_eq_one.1 e
  exact ⟨fun i j => all_real _ _ _ a0 ix0 h0 (ix2 i j),
    fun k => all_inRange _ _ _ a1 ix0 hrow (ix1 k),
    fun k => all_inRange _ _ _ a2 ix0 hcol (ix1 k),
    fun i => all_real _ _ _ a3 ix0 h3 (ix1 i),
    fun i => all_real _ _ _ a4 ix0 h4 (ix1 i),
    fun i => all_real _ _ _ a5 ix0 h5 (ix1 i),
    fun i => all_real _ _ _ a6 ix0 h6 (ix1 i),
    fun i => all_real _ _ _ a7 ix0 h7 (ix1 i),
    fun i j => all_real _ _ _ a8 ix0 h8 (ix2 i j),
    fun i => all_real _ _ _ a9 ix0 h9 (ix1 i)⟩

open Cert.KernelIdeal in

theorem facts_of_pre (m : (ℓ : Loc nD τ sig) → Buf (Elt Ideal) ℓ) (hpre : Cert.Pre_KernelIdeal m) (c : Dev nD) :
    RealM (matOf (m ((c.tc : Thread nD τ).loc main_arg0))) ∧ InRange (wordsOf (m ((c.tc : Thread nD τ).loc main_arg1)))
      ∧ InRange (wordsOf (m ((c.tc : Thread nD τ).loc main_arg2))) ∧ RealV (vecOf (m ((c.tc : Thread nD τ).loc main_arg3)))
      ∧ RealV (vecOf (m ((c.tc : Thread nD τ).loc main_arg4))) ∧ RealV (vecOf (m ((c.tc : Thread nD τ).loc main_arg5)))
      ∧ RealV (vecOf (m ((c.tc : Thread nD τ).loc main_arg6))) ∧ RealV (vecOf (m ((c.tc : Thread nD τ).loc main_arg7)))
      ∧ RealM (matOf (m ((c.tc : Thread nD τ).loc main_arg8))) ∧ RealV (vecOf (m ((c.tc : Thread nD τ).loc main_arg9))) :=
  facts_of_fn _ _ _ _ _ _ _ _ _ _ (hpre c)

end Fn

end Cert.Proof.PreFacts

end
-- ==== Proof.lean ====
import proofs.«405398_j45397804319028_3_alg».proof.Defs
import proofs.«405398_j45397804319028_3_alg».proof.Proof.Gen.Kernel
import proofs.«405398_j45397804319028_3_alg».proof.Proof.Gen.KernelIdeal
import proofs.«405398_j45397804319028_3_alg».proof.Proof.Gen.ReferenceIdeal
import proofs.«405398_j45397804319028_3_alg».proof.Proof.Gen.ReferenceIdeal.Run
import proofs.«405398_j45397804319028_3_alg».proof.Proof.Gen.Pre_finite_inputs
import proofs.«405398_j45397804319028_3_alg».proof.Proof.KB.Run
import proofs.«405398_j45397804319028_3_alg».proof.Proof.KI.Run
import proofs.«405398_j45397804319028_3_alg».proof.Proof.KI.Value
import proofs.«405398_j45397804319028_3_alg».proof.Proof.RefB
import proofs.«405398_j45397804319028_3_alg».proof.Proof.Alg
import proofs.«405398_j45397804319028_3_alg».proof.Proof.PreFacts

noncomputable section

namespace Cert.Proof.RefSide

open Cert.ReferenceIdeal Cert.ReferenceIdeal.Gen Cert.ReferenceIdeal.Value Cert.ReferenceIdeal.RefValue
open Idealize.ShloMosaic Idealize.ShloMosaic.TcCoe Idealize.SL.Sem Idealize.ShloMosaic.StableHlo Cert.Spec

-- The plain program ends with forwardR of its arguments in its result and every argument as launched.
theorem run_value (m : (ℓ : Loc nD τ sig) → Buf (Elt Ideal) ℓ) (ρ : Dev nD → PrngReg)
    (hr : ∀ c : Dev nD, InRange (wordsOf (m ((c.tc : Thread nD τ).loc main_arg1))))
    (hc : ∀ c : Dev nD, InRange (wordsOf (m ((c.tc : Thread nD τ).loc main_arg2)))) :
    θ_run (defs (F := Ideal)) (onTc (τ := τ) (main (F := Ideal))) ⟨m, fun _ => 0, ρ⟩ fun r => ∀ c : Dev nD,
      r.2.mem ((c.tc : Thread nD τ).loc main_v189)
        = (fun idx => forwardR (matOf (m ((c.tc : Thread nD τ).loc main_arg0))) (wordsOf (m ((c.tc : Thread nD τ).loc main_arg1)))
            (wordsOf (m ((c.tc : Thread nD τ).loc main_arg2))) (vecOf (m ((c.tc : Thread nD τ).loc main_arg3)))
            (vecOf (m ((c.tc : Thread nD τ).loc main_arg4))) (vecOf (m ((c.tc : Thread nD τ).loc main_arg5)))
            (vecOf (m ((c.tc : Thread nD τ).loc main_arg6))) (vecOf (m ((c.tc : Thread nD τ).loc main_arg7)))
            (matOf (m ((c.tc : Thread nD τ).loc main_arg8))) (vecOf (m ((c.tc : Thread nD τ).loc main_arg9))) (idx 0) (idx 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v189).trans (by rw [after_ops]; exact ref_value (launchContents m c) (hr c) (hc c)),
       (h c main_arg0).trans (by rw [after_ops]; exact val4_main_arg0 (launchContents m c)),
       (h c main_arg1).trans (by rw [after_ops]; exact val4_main_arg1 (launchContents m c)),
       (h c main_arg2).trans (by rw [after_ops]; exact val4_main_arg2 (launchContents m c)),
       (h c main_arg3).trans (by rw [after_ops]; exact val4_main_arg3 (launchContents m c)),
       (h c main_arg4).trans (by rw [after_ops]; exact val4_main_arg4 (launchContents m c)),
       (h c main_arg5).trans (by rw [after_ops]; exact val4_main_arg5 (launchContents m c)),
       (h c main_arg6).trans (by rw [after_ops]; exact val4_main_arg6 (launchContents m c)),
       (h c main_arg7).trans (by rw [after_ops]; exact val4_main_arg7 (launchContents m c)),
       (h c main_arg8).trans (by rw [after_ops]; exact val4_main_arg8 (launchContents m c)),
       (h c main_arg9).trans (by rw [after_ops]; exact val4_main_arg9 (launchContents m c))⟩)
    (run_seq scopedRefs_eq scopedSems_eq defs main (fun _ => ops) main_eq (fun _ => ops_sub) m ρ)

end Cert.Proof.RefSide

namespace Cert.Proof

open Idealize.ShloMosaic Idealize.ShloMosaic.TcCoe Idealize.SL.Sem Cert.Spec

-- Region after region the tiled program runs to its return and leaves every argument as launched: one argument, read as printed
theorem frame_k : Cert.frame_Kernel := fun m ρ _ => Cert.Kernel.Hand.frame (F := Bits) m ρ

-- and read at the extended reals.
theorem frame_ki : Cert.frame_KernelIdeal := fun m ρ _ => Cert.KernelIdeal.Hand.frame (F := Ideal) m ρ

-- The plain program's frame is its run with the result dropped.
theorem frame_ri : Cert.frame_ReferenceIdeal := fun m ρ _ =>
  (θ_run Cert.ReferenceIdeal.defs _ _).mono (fun _ h c => (h c).2) (Cert.ReferenceIdeal.Value.run (F := Ideal) m ρ)

-- Both runs end at one function of the arguments: forwardK = forwardR for real entries and edge words that name nodes.
theorem algebraic : Cert.algebraic_KernelIdeal_ReferenceIdeal := by
  intro m ρ m' ρ' hpre hagree
  have hf := fun c => Cert.Proof.PreFacts.facts_of_pre m hpre c
  refine ⟨fun c => (fun idx => forwardK (matOf (m ((c.tc : Thread Cert.KernelIdeal.nD Cert.KernelIdeal.τ).loc Cert.KernelIdeal.main_arg0))) (wordsOf (m ((c.tc : Thread Cert.KernelIdeal.nD Cert.KernelIdeal.τ).loc Cert.KernelIdeal.main_arg1))) (wordsOf (m ((c.tc : Thread Cert.KernelIdeal.nD Cert.KernelIdeal.τ).loc Cert.KernelIdeal.main_arg2))) (vecOf (m ((c.tc : Thread Cert.KernelIdeal.nD Cert.KernelIdeal.τ).loc Cert.KernelIdeal.main_arg3))) (vecOf (m ((c.tc : Thread Cert.KernelIdeal.nD Cert.KernelIdeal.τ).loc Cert.KernelIdeal.main_arg4))) (vecOf (m ((c.tc : Thread Cert.KernelIdeal.nD Cert.KernelIdeal.τ).loc Cert.KernelIdeal.main_arg5))) (vecOf (m ((c.tc : Thread Cert.KernelIdeal.nD Cert.KernelIdeal.τ).loc Cert.KernelIdeal.main_arg6))) (vecOf (m ((c.tc : Thread Cert.KernelIdeal.nD Cert.KernelIdeal.τ).loc Cert.KernelIdeal.main_arg7))) (matOf (m ((c.tc : Thread Cert.KernelIdeal.nD Cert.KernelIdeal.τ).loc Cert.KernelIdeal.main_arg8))) (vecOf (m ((c.tc : Thread Cert.KernelIdeal.nD Cert.KernelIdeal.τ).loc Cert.KernelIdeal.main_arg9))) (idx 0) (idx 1)), ?_, ?_⟩
  · exact (θ_run Cert.KernelIdeal.defs _ _).mono
      (fun r h c => ⟨(h c).1.trans (Cert.KernelIdeal.Hand.value_eq m c (hf c).2.1 (hf c).2.2.1), (h c).2⟩)
      (Cert.KernelIdeal.Hand.run_main (F := Ideal) m ρ)
  · have hr' : ∀ c : Dev Cert.ReferenceIdeal.nD, InRange (wordsOf (m' ((c.tc : Thread Cert.ReferenceIdeal.nD Cert.ReferenceIdeal.τ).loc Cert.ReferenceIdeal.main_arg1))) :=
      fun c => by rw [(hagree c).2.1]; exact (hf c).2.1
    have hc' : ∀ c : Dev Cert.ReferenceIdeal.nD, InRange (wordsOf (m' ((c.tc : Thread Cert.ReferenceIdeal.nD Cert.ReferenceIdeal.τ).loc Cert.ReferenceIdeal.main_arg2))) :=
      fun c => by rw [(hagree c).2.2.1]; exact (hf c).2.2.1
    refine (θ_run Cert.ReferenceIdeal.defs _ _).mono (fun r h c => ⟨(h c).1.trans ?_, (h c).2⟩)
      (Cert.Proof.RefSide.run_value m' ρ' hr' hc')
    obtain ⟨a0, a1, a2, a3, a4, a5, a6, a7, a8, a9⟩ := hagree c
    obtain ⟨f0, f1, f2, f3, f4, f5, f6, f7, f8, f9⟩ := hf c
    rw [a0, a1, a2, a3, a4, a5, a6, a7, a8, a9]
    funext idx
    exact (congrFun (congrFun (forwardK_eq_forwardR _ _ _ _ _ _ _ _ _ _ f0 f1 f2 f3 f4 f5 f6 f7) (idx 0)) (idx 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
